-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v284)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v284) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v393) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S6x128x128 : Shape := ⟨3, ![6, 128, 128]⟩
abbrev S6x128 : Shape := ⟨2, ![6, 128]⟩
abbrev S128x32 : Shape := ⟨2, ![128, 32]⟩
abbrev S32 : Shape := ⟨1, ![32]⟩
abbrev S32x3 : Shape := ⟨2, ![32, 3]⟩
abbrev S3 : Shape := ⟨1, ![3]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S6x128x128 : S_.BroadcastsInDim S6x128x128 (![] : Fin 0 → Fin S6x128x128.rank)
  reducesTo_S6x128x128_S_d0_1_2 : S6x128x128.ReducesTo [0, 1, 2] S_
  bcast_S_S6x128 : S_.BroadcastsInDim S6x128 (![] : Fin 0 → Fin S6x128.rank)
  reducesTo_S6x128_S_d0_1 : S6x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_arg15 : FVec F S32 .f32) (main_arg16 : FVec F S32x3 .f32) (main_arg17 : FVec F S3 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x3 .f32 := Host.absf main_arg16
  let main_cst_28 : FVec F S_ .f32 := constant S_ .f32 0x7F800000#32
  let main_v75 : FVec F S32x3 .f32 := broadcastInDim S32x3 ![] bcast_S_S32x3 main_cst_28
  let main_v76 : IVec S32x3 1 := cmpf .olt main_v74 main_v75
  let main_c_29 : IVec S_ 1 := constantI S_ 1 1#1
  let main_v77 : IVec S_ 1 := (fun x v => Host.reduce IntOp.andi x v reducesTo_S32x3_S_d0_1 h_S_) main_v76 main_c_29
  let main_v78 : IVec S_ 1 := andi main_v73 main_v77
  let main_v79 : FVec F S3 .f32 := Host.absf main_arg17
  let main_cst_30 : FVec F S_ .f32 := constant S_ .f32 0x7F800000#32
  let main_v80 : FVec F S3 .f32 := broadcastInDim S3 ![] bcast_S_S3 main_cst_30
  let main_v81 : IVec S3 1 := cmpf .olt main_v79 main_v80
  let main_c_31 : IVec S_ 1 := constantI S_ 1 1#1
  let main_v82 : IVec S_ 1 := (fun x v => Host.reduce IntOp.andi x v reducesTo_S3_S_d0 h_S_) main_v81 main_c_31
  let main_v83 : IVec S_ 1 := andi main_v78 main_v82
  main_v83

def fn_part3 {F : FTy → Type} [FloatOps F] (main_arg12 : FVec F S6x128 .f32) (main_arg13 : FVec F S6x128 .f32) (main_arg14 : FVec F S128x32 .f32) (main_arg15 : FVec F S32 .f32) (main_arg16 : FVec F S32x3 .f32) (main_arg17 : FVec F S3 .f32) (main_v48 : IVec S_ 1) (main_v49 : FVec F S6x128 .f32) (main_v50 : FVec F S6x128 .f32) : IVec S_ 1 :=
  let main_v51 : IVec S6x128 1 := cmpf .olt main_v49 main_v50
  let main_c_19 : IVec S_ 1 := constantI S_ 1 1#1
  let main_v52 : IVec S_ 1 := (fun x v => Host.reduce IntOp.andi x v reducesTo_S6x128_S_d0_1 h_S_) main_v51 main_c_19
  let main_v53 : IVec S_ 1 := andi main_v48 main_v52
  let main_v54 : FVec F S6x128 .f32 := Host.absf main_arg12
  let main_cst_20 : FVec F S_ .f32 := constant S_ .f32 0x7F800000#32
  let main_v55 : FVec F S6x128 .f32 := broadcastInDim S6x128 ![] bcast_S_S6x128 main_cst_20
  let main_v56 : IVec S6x128 1 := cmpf .olt main_v54 main_v55
  let main_c_21 : IVec S_ 1 := constantI S_ 1 1#1
  let main_v57 : IVec S_ 1 := (fun x v => Host.reduce IntOp.andi x v reducesTo_S6x128_S_d0_1 h_S_) main_v56 main_c_21
  let main_v58 : IVec S_ 1 := andi main_v53 main_v57
  let main_v59 : FVec F S6x128 .f32 := Host.absf main_arg13
  let main_cst_22 : FVec F S_ .f32 := constant S_ .f32 0x7F800000#32
  let main_v60 : FVec F S6x128 .f32 := broadcastInDim S6x128 ![] bcast_S_S6x128 main_cst_22
  let main_v61 : IVec S6x128 1 := cmpf .olt main_v59 main_v60
  let main_c_23 : IVec S_ 1 := constantI S_ 1 1#1
  let main_v62 : IVec S_ 1 := (fun x v => Host.reduce IntOp.andi x v reducesTo_S6x128_S_d0_1 h_S_) main_v61 main_c_23
  let main_v63 : IVec S_ 1 := andi main_v58 main_v62
  let main_v64 : FVec F S128x32 .f32 := Host.absf main_arg14
  let main_cst_24 : FVec F S_ .f32 := constant S_ .f32 0x7F800000#32
  let main_v65 : FVec F S128x32 .f32 := broadcastInDim S128x32 ![] bcast_S_S128x32 main_cst_24
  let main_v66 : IVec S128x32 1 := cmpf .olt main_v64 main_v65
  let main_c_25 : IVec S_ 1 := constantI S_ 1 1#1
  let main_v67 : IVec S_ 1 := (fun x v => Host.reduce IntOp.andi x v reducesTo_S128x32_S_d0_1 h_S_) main_v66 main_c_25
  fn_part4 (F := F) main_arg15 main_arg16 main_arg17 main_v63 main_v67

def fn_part2 {F : FTy → Type} [FloatOps F] (main_arg8 : FVec F S6x128x128 .f32) (main_arg9 : FVec F S6x128 .f32) (main_arg10 : FVec F S6x128x128 .f32) (main_arg11 : FVec F S6x128 .f32) (main_arg12 : FVec F S6x128 .f32) (main_arg13 : FVec F S6x128 .f32) (main_arg14 : FVec F S128x32 .f32) (main_arg15 : FVec F S32 .f32) (main_arg16 : FVec F S32x3 .f32) (main_arg17 : FVec F S3 .f32) (main_v33 : IVec S_ 1) : IVec S_ 1 :=
  let main_v34 : FVec F S6x128x128 .f32 := Host.absf main_arg8
  let main_cst_12 : FVec F S_ .f32 := constant S_ .f32 0x7F800000#32
  let main_v35 : FVec F S6x128x128 .f32 := broadcastInDim S6x128x128 ![] bcast_S_S6x128x128 main_cst_12
  let main_v36 : IVec S6x128x128 1 := cmpf .olt main_v34 main_v35
  let main_c_13 : IVec S_ 1 := constantI S_ 1 1#1
  let main_v37 : IVec S_ 1 := (fun x v => Host.reduce IntOp.andi x v reducesTo_S6x128x128_S_d0_1_2 h_S_) main_v36 main_c_13
  let main_v38 : IVec S_ 1 := andi main_v33 main_v37
  let main_v39 : FVec F S6x128 .f32 := Host.absf main_arg9
  let main_cst_14 : FVec F S_ .f32 := constant S_ .f32 0x7F800000#32
  let main_v40 : FVec F S6x128 .f32 := broadcastInDim S6x128 ![] bcast_S_S6x128 main_cst_14
  let main_v41 : IVec S6x128 1 := cmpf .olt main_v39 main_v40
  let main_c_15 : IVec S_ 1 := constantI S_ 1 1#1
  let main_v42 : IVec S_ 1 := (fun x v => Host.reduce IntOp.andi x v reducesTo_S6x128_S_d0_1 h_S_) main_v41 main_c_15
  let main_v43 : IVec S_ 1 := andi main_v38 main_v42
  let main_v44 : FVec F S6x128x128 .f32 := Host.absf main_arg10
  let main_cst_16 : FVec F S_ .f32 := constant S_ .f32 0x7F800000#32
  let main_v45 : FVec F S6x128x128 .f32 := broadcastInDim S6x128x128 ![] bcast_S_S6x128x128 main_cst_16
  let main_v46 : IVec S6x128x128 1 := cmpf .olt main_v44 main_v45
  let main_c_17 : IVec S_ 1 := constantI S_ 1 1#1
  let main_v47 : IVec S_ 1 := (fun x v => Host.reduce IntOp.andi x v reducesTo_S6x128x128_S_d0_1_2 h_S_) main_v46 main_c_17
  let main_v48 : IVec S_ 1 := andi main_v43 main_v47
  let main_v49 : FVec F S6x128 .f32 := Host.absf main_arg11
  let main_cst_18 : FVec F S_ .f32 := constant S_ .f32 0x7F800000#32
  let main_v50 : FVec F S6x128 .f32 := broadcastInDim S6x128 ![] bcast_S_S6x128 main_cst_18
  fn_part3 (F := F) main_arg12 main_arg13 main_arg14 main_arg15 main_arg16 main_arg17 main_v48 main_v49 main_v50

def fn_part1 {F : FTy → Type} [FloatOps F] (main_arg5 : FVec F S128 .f32) (main_arg6 : FVec F S128 .f32) (main_arg7 : FVec F S128 .f32) (main_arg8 : FVec F S6x128x128 .f32) (main_arg9 : FVec F S6x128 .f32) (main_arg10 : FVec F S6x128x128 .f32) (main_arg11 : FVec F S6x128 .f32) (main_arg12 : FVec F S6x128 .f32) (main_arg13 : FVec F S6x128 .f32) (main_arg14 : FVec F S128x32 .f32) (main_arg15 : FVec F S32 .f32) (main_arg16 : FVec F S32x3 .f32) (main_arg17 : FVec F S3 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S100000x128 .f32) (main_arg1 : IVec S2x1600000 32) (main_arg2 : FVec F S128x256 .f32) (main_arg3 : FVec F S256 .f32) (main_arg4 : FVec F S256x128 .f32) (main_arg5 : FVec F S128 .f32) (main_arg6 : FVec F S128 .f32) (main_arg7 : FVec F S128 .f32) (main_arg8 : FVec F S6x128x128 .f32) (main_arg9 : FVec F S6x128 .f32) (main_arg10 : FVec F S6x128x128 .f32) (main_arg11 : FVec F S6x128 .f32) (main_arg12 : FVec F S6x128 .f32) (main_arg13 : FVec F S6x128 .f32) (main_arg14 : FVec F S128x32 .f32) (main_arg15 : FVec F S32 .f32) (main_arg16 : FVec F S32x3 .f32) (main_arg17 : FVec F S3 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S2x1600000 : Shape := ⟨2, ![2, 1600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S6x128x128 : Shape := ⟨3, ![6, 128, 128]⟩
abbrev S6x128 : Shape := ⟨2, ![6, 128]⟩
abbrev S128x32 : Shape := ⟨2, ![128, 32]⟩
abbrev S32 : Shape := ⟨1, ![32]⟩
abbrev S32x3 : Shape := ⟨2, ![32, 3]⟩
abbrev S3 : Shape := ⟨1, ![3]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x256 : Shape := ⟨2, ![1, 256]⟩
abbrev S1x128 : Shape := ⟨2, ![1, 128]⟩
abbrev S160x128 : Shape := ⟨2, ![160, 128]⟩
abbrev S5000x128 : Shape := ⟨2, ![5000, 128]⟩
abbrev S8x128 : Shape := ⟨2, ![8, 128]⟩
abbrev S5000x256 : Shape := ⟨2, ![5000, 256]⟩
abbrev S7x128 : Shape := ⟨2, ![7, 128]⟩
abbrev S1x128x128 : Shape := ⟨3, ![1, 128, 128]⟩
abbrev S128x128 : Shape := ⟨2, ![128, 128]⟩
abbrev S1x32 : Shape := ⟨2, ![1, 32]⟩
abbrev S1x3 : Shape := ⟨2, ![1, 3]⟩
abbrev S100000x3 : Shape := ⟨2, ![100000, 3]⟩
abbrev S5000x3 : Shape := ⟨2, ![5000, 3]⟩
abbrev S5000x32 : Shape := ⟨2, ![5000, 32]⟩

abbrev nBuf : Space → Nat
  | .hbm => 376
  | .vmem => 170
  | .smem => 0
  | _ => 0

abbrev hbmTy0_0 (i : Nat) : BufTy := match i % 128 with
  | 0 => ⟨S100000x128, .f32⟩
  | 1 => ⟨S2x1600000, .i32⟩
  | 2 => ⟨S128x256, .f32⟩
  | 3 => ⟨S256, .f32⟩
  | 4 => ⟨S256x128, .f32⟩
  | 5 => ⟨S128, .f32⟩
  | 6 => ⟨S128, .f32⟩
  | 7 => ⟨S128, .f32⟩
  | 8 => ⟨S6x128x128, .f32⟩
  | 9 => ⟨S6x128, .f32⟩
  | 10 => ⟨S6x128x128, .f32⟩
  | 11 => ⟨S6x128, .f32⟩
  | 12 => ⟨S6x128, .f32⟩
  | 13 => ⟨S6x128, .f32⟩
  | 14 => ⟨S128x32, .f32⟩
  | 15 => ⟨S32, .f32⟩
  | 16 => ⟨S32x3, .f32⟩
  | 17 => ⟨S3, .f32⟩
  | 18 => ⟨S1x1600000, .i32⟩
  | 19 => ⟨S1600000, .i32⟩
  | 20 => ⟨S1x1600000, .i32⟩
  | 21 => ⟨S1600000, .i32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S1x256, .f32⟩
  | 36 => ⟨S1x128, .f32⟩
  | 37 => ⟨S100000x128, .f32⟩
  | 38 => ⟨S160x128, .f32⟩
  | 39 => ⟨S160x128, .f32⟩
  | 40 => ⟨S_, .f32⟩
  | 41 => ⟨S128, .f32⟩
  | 42 => ⟨S_, .f32⟩
  | 43 => ⟨S128, .f32⟩
  | 44 => ⟨S_, .f32⟩
  | 45 => ⟨S128, .f32⟩
  | 46 => ⟨S128, .f32⟩
  | 47 => ⟨S_, .f32⟩
  | 48 => ⟨S128, .f32⟩
  | 49 => ⟨S128, .f32⟩
  | 50 => ⟨S128, .f32⟩
  | 51 => ⟨S128, .f32⟩
  | 52 => ⟨S_, .f32⟩
  | 53 => ⟨S128, .f32⟩
  | 54 => ⟨S128, .f32⟩
  | 55 => ⟨S1x128, .f32⟩
  | 56 => ⟨S1x128, .f32⟩
  | 57 => ⟨S1x128, .f32⟩
  | 58 => ⟨S1x128, .f32⟩
  | 59 => ⟨S100000x128, .f32⟩
  | 60 => ⟨S1x128x128, .f32⟩
  | 61 => ⟨S128x128, .f32⟩
  | 62 => ⟨S1x128, .f32⟩
  | 63 => ⟨S128, .f32⟩
  | 64 => ⟨S1x128x128, .f32⟩
  | 65 => ⟨S128x128, .f32⟩
  | 66 => ⟨S1x128, .f32⟩
  | 67 => ⟨S128, .f32⟩
  | 68 => ⟨S1x128, .f32⟩
  | 69 => ⟨S128, .f32⟩
  | 70 => ⟨S1x128, .f32⟩
  | 71 => ⟨S128, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x128, .f32⟩
  | 81 => ⟨S_, .f32⟩
  | 82 => ⟨S100000x128, .f32⟩
  | 83 => ⟨S1600000x1, .i32⟩
  | 84 => ⟨S100000x128, .f32⟩
  | 85 => ⟨S1x128, .f32⟩
  | 86 => ⟨S1x128, .f32⟩
  | 87 => ⟨S100000x128, .f32⟩
  | 88 => ⟨S160x128, .f32⟩
  | 89 => ⟨S160x128, .f32⟩
  | 90 => ⟨S_, .f32⟩
  | 91 => ⟨S128, .f32⟩
  | 92 => ⟨S_, .f32⟩
  | 93 => ⟨S128, .f32⟩
  | 94 => ⟨S_, .f32⟩
  | 95 => ⟨S128, .f32⟩
  | 96 => ⟨S128, .f32⟩
  | 97 => ⟨S_, .f32⟩
  | 98 => ⟨S128, .f32⟩
  | 99 => ⟨S128, .f32⟩
  | 100 => ⟨S128, .f32⟩
  | 101 => ⟨S128, .f32⟩
  | 102 => ⟨S_, .f32⟩
  | 103 => ⟨S128, .f32⟩
  | 104 => ⟨S128, .f32⟩
  | 105 => ⟨S1x128, .f32⟩
  | 106 => ⟨S1x128, .f32⟩
  | 107 => ⟨S1x128, .f32⟩
  | 108 => ⟨S1x128, .f32⟩
  | 109 => ⟨S100000x128, .f32⟩
  | 110 => ⟨S1x128x128, .f32⟩
  | 111 => ⟨S128x128, .f32⟩
  | 112 => ⟨S1x128, .f32⟩
  | 113 => ⟨S128, .f32⟩
  | 114 => ⟨S1x128x128, .f32⟩
  | 115 => ⟨S128x128, .f32⟩
  | 116 => ⟨S1x128, .f32⟩
  | 117 => ⟨S128, .f32⟩
  | 118 => ⟨S1x128, .f32⟩
  | 119 => ⟨S128, .f32⟩
  | 120 => ⟨S1x128, .f32⟩
  | 121 => ⟨S128, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x128, .f32⟩

abbrev hbmTy0_1 (i : Nat) : BufTy := match i % 128 with
  | 0 => ⟨S1600000, .i32⟩
  | 1 => ⟨S1600000x1, .i32⟩
  | 2 => ⟨S1600000x128, .f32⟩
  | 3 => ⟨S_, .f32⟩
  | 4 => ⟨S100000x128, .f32⟩
  | 5 => ⟨S1600000x1, .i32⟩
  | 6 => ⟨S100000x128, .f32⟩
  | 7 => ⟨S1x128, .f32⟩
  | 8 => ⟨S1x128, .f32⟩
  | 9 => ⟨S100000x128, .f32⟩
  | 10 => ⟨S160x128, .f32⟩
  | 11 => ⟨S160x128, .f32⟩
  | 12 => ⟨S_, .f32⟩
  | 13 => ⟨S128, .f32⟩
  | 14 => ⟨S_, .f32⟩
  | 15 => ⟨S128, .f32⟩
  | 16 => ⟨S_, .f32⟩
  | 17 => ⟨S128, .f32⟩
  | 18 => ⟨S128, .f32⟩
  | 19 => ⟨S_, .f32⟩
  | 20 => ⟨S128, .f32⟩
  | 21 => ⟨S128, .f32⟩
  | 22 => ⟨S128, .f32⟩
  | 23 => ⟨S128, .f32⟩
  | 24 => ⟨S_, .f32⟩
  | 25 => ⟨S128, .f32⟩
  | 26 => ⟨S128, .f32⟩
  | 27 => ⟨S1x128, .f32⟩
  | 28 => ⟨S1x128, .f32⟩
  | 29 => ⟨S1x128, .f32⟩
  | 30 => ⟨S1x128, .f32⟩
  | 31 => ⟨S100000x128, .f32⟩
  | 32 => ⟨S1x128x128, .f32⟩
  | 33 => ⟨S128x128, .f32⟩
  | 34 => ⟨S1x128, .f32⟩
  | 35 => ⟨S128, .f32⟩
  | 36 => ⟨S1x128x128, .f32⟩
  | 37 => ⟨S128x128, .f32⟩
  | 38 => ⟨S1x128, .f32⟩
  | 39 => ⟨S128, .f32⟩
  | 40 => ⟨S1x128, .f32⟩
  | 41 => ⟨S128, .f32⟩
  | 42 => ⟨S1x128, .f32⟩
  | 43 => ⟨S128, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x128, .f32⟩
  | 53 => ⟨S_, .f32⟩
  | 54 => ⟨S100000x128, .f32⟩
  | 55 => ⟨S1600000x1, .i32⟩
  | 56 => ⟨S100000x128, .f32⟩
  | 57 => ⟨S1x128, .f32⟩
  | 58 => ⟨S1x128, .f32⟩
  | 59 => ⟨S100000x128, .f32⟩
  | 60 => ⟨S160x128, .f32⟩
  | 61 => ⟨S160x128, .f32⟩
  | 62 => ⟨S_, .f32⟩
  | 63 => ⟨S128, .f32⟩
  | 64 => ⟨S_, .f32⟩
  | 65 => ⟨S128, .f32⟩
  | 66 => ⟨S_, .f32⟩
  | 67 => ⟨S128, .f32⟩
  | 68 => ⟨S128, .f32⟩
  | 69 => ⟨S_, .f32⟩
  | 70 => ⟨S128, .f32⟩
  | 71 => ⟨S128, .f32⟩
  | 72 => ⟨S128, .f32⟩
  | 73 => ⟨S128, .f32⟩
  | 74 => ⟨S_, .f32⟩
  | 75 => ⟨S128, .f32⟩
  | 76 => ⟨S128, .f32⟩
  | 77 => ⟨S1x128, .f32⟩
  | 78 => ⟨S1x128, .f32⟩
  | 79 => ⟨S1x128, .f32⟩
  | 80 => ⟨S1x128, .f32⟩
  | 81 => ⟨S100000x128, .f32⟩
  | 82 => ⟨S1x128x128, .f32⟩
  | 83 => ⟨S128x128, .f32⟩
  | 84 => ⟨S1x128, .f32⟩
  | 85 => ⟨S128, .f32⟩
  | 86 => ⟨S1x128x128, .f32⟩
  | 87 => ⟨S128x128, .f32⟩
  | 88 => ⟨S1x128, .f32⟩
  | 89 => ⟨S128, .f32⟩
  | 90 => ⟨S1x128, .f32⟩
  | 91 => ⟨S128, .f32⟩
  | 92 => ⟨S1x128, .f32⟩
  | 93 => ⟨S128, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x128, .f32⟩
  | 103 => ⟨S_, .f32⟩
  | 104 => ⟨S100000x128, .f32⟩
  | 105 => ⟨S1600000x1, .i32⟩
  | 106 => ⟨S100000x128, .f32⟩
  | 107 => ⟨S1x128, .f32⟩
  | 108 => ⟨S1x128, .f32⟩
  | 109 => ⟨S100000x128, .f32⟩
  | 110 => ⟨S160x128, .f32⟩
  | 111 => ⟨S160x128, .f32⟩
  | 112 => ⟨S_, .f32⟩
  | 113 => ⟨S128, .f32⟩
  | 114 => ⟨S_, .f32⟩
  | 115 => ⟨S128, .f32⟩
  | 116 => ⟨S_, .f32⟩
  | 117 => ⟨S128, .f32⟩
  | 118 => ⟨S128, .f32⟩
  | 119 => ⟨S_, .f32⟩
  | 120 => ⟨S128, .f32⟩
  | 121 => ⟨S128, .f32⟩
  | 122 => ⟨S128, .f32⟩
  | 123 => ⟨S128, .f32⟩
  | 124 => ⟨S_, .f32⟩
  | 125 => ⟨S128, .f32⟩
  | 126 => ⟨S128, .f32⟩
  | 127 => ⟨S1x128, .f32⟩
  | _ => ⟨S100000x128, .f32⟩

abbrev hbmTy0_2 (i : Nat) : BufTy := match i % 128 with
  | 0 => ⟨S1x128, .f32⟩
  | 1 => ⟨S1x128, .f32⟩
  | 2 => ⟨S1x128, .f32⟩
  | 3 => ⟨S100000x128, .f32⟩
  | 4 => ⟨S1x128x128, .f32⟩
  | 5 => ⟨S128x128, .f32⟩
  | 6 => ⟨S1x128, .f32⟩
  | 7 => ⟨S128, .f32⟩
  | 8 => ⟨S1x128x128, .f32⟩
  | 9 => ⟨S128x128, .f32⟩
  | 10 => ⟨S1x128, .f32⟩
  | 11 => ⟨S128, .f32⟩
  | 12 => ⟨S1x128, .f32⟩
  | 13 => ⟨S128, .f32⟩
  | 14 => ⟨S1x128, .f32⟩
  | 15 => ⟨S128, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x128, .f32⟩
  | 25 => ⟨S_, .f32⟩
  | 26 => ⟨S100000x128, .f32⟩
  | 27 => ⟨S1600000x1, .i32⟩
  | 28 => ⟨S100000x128, .f32⟩
  | 29 => ⟨S1x128, .f32⟩
  | 30 => ⟨S1x128, .f32⟩
  | 31 => ⟨S100000x128, .f32⟩
  | 32 => ⟨S160x128, .f32⟩
  | 33 => ⟨S160x128, .f32⟩
  | 34 => ⟨S_, .f32⟩
  | 35 => ⟨S128, .f32⟩
  | 36 => ⟨S_, .f32⟩
  | 37 => ⟨S128, .f32⟩
  | 38 => ⟨S_, .f32⟩
  | 39 => ⟨S128, .f32⟩
  | 40 => ⟨S128, .f32⟩
  | 41 => ⟨S_, .f32⟩
  | 42 => ⟨S128, .f32⟩
  | 43 => ⟨S128, .f32⟩
  | 44 => ⟨S128, .f32⟩
  | 45 => ⟨S128, .f32⟩
  | 46 => ⟨S_, .f32⟩
  | 47 => ⟨S128, .f32⟩
  | 48 => ⟨S128, .f32⟩
  | 49 => ⟨S1x128, .f32⟩
  | 50 => ⟨S1x128, .f32⟩
  | 51 => ⟨S1x128, .f32⟩
  | 52 => ⟨S1x128, .f32⟩
  | 53 => ⟨S100000x128, .f32⟩
  | 54 => ⟨S1x128x128, .f32⟩
  | 55 => ⟨S128x128, .f32⟩
  | 56 => ⟨S1x128, .f32⟩
  | 57 => ⟨S128, .f32⟩
  | 58 => ⟨S1x128x128, .f32⟩
  | 59 => ⟨S128x128, .f32⟩
  | 60 => ⟨S1x128, .f32⟩
  | 61 => ⟨S128, .f32⟩
  | 62 => ⟨S1x128, .f32⟩
  | 63 => ⟨S128, .f32⟩
  | 64 => ⟨S1x128, .f32⟩
  | 65 => ⟨S128, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x128, .f32⟩
  | 75 => ⟨S_, .f32⟩
  | 76 => ⟨S100000x128, .f32⟩
  | 77 => ⟨S1600000x1, .i32⟩
  | 78 => ⟨S100000x128, .f32⟩
  | 79 => ⟨S1x128, .f32⟩
  | 80 => ⟨S1x128, .f32⟩
  | 81 => ⟨S100000x128, .f32⟩
  | 82 => ⟨S160x128, .f32⟩
  | 83 => ⟨S160x128, .f32⟩
  | 84 => ⟨S_, .f32⟩
  | 85 => ⟨S128, .f32⟩
  | 86 => ⟨S_, .f32⟩
  | 87 => ⟨S128, .f32⟩
  | 88 => ⟨S_, .f32⟩
  | 89 => ⟨S128, .f32⟩
  | 90 => ⟨S128, .f32⟩
  | 91 => ⟨S_, .f32⟩
  | 92 => ⟨S128, .f32⟩
  | 93 => ⟨S128, .f32⟩
  | 94 => ⟨S128, .f32⟩
  | 95 => ⟨S128, .f32⟩
  | 96 => ⟨S_, .f32⟩
  | 97 => ⟨S128, .f32⟩
  | 98 => ⟨S128, .f32⟩
  | 99 => ⟨S1x128, .f32⟩
  | 100 => ⟨S1x128, .f32⟩
  | 101 => ⟨S1x128, .f32⟩
  | 102 => ⟨S1x128, .f32⟩
  | 103 => ⟨S100000x128, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x128, .f32⟩
  | 113 => ⟨S_, .f32⟩
  | 114 => ⟨S100000x128, .f32⟩
  | 115 => ⟨S1600000x1, .i32⟩
  | 116 => ⟨S100000x128, .f32⟩
  | 117 => ⟨S1x32, .f32⟩
  | 118 => ⟨S1x3, .f32⟩
  | 119 => ⟨S100000x3, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev vmemTy0_0 (i : Nat) : BufTy := match i % 128 with
  | 0 => ⟨S5000x128, .f32⟩
  | 1 => ⟨S5000x128, .f32⟩
  | 2 => ⟨S5000x128, .f32⟩
  | 3 => ⟨S5000x128, .f32⟩
  | 4 => ⟨S128x256, .f32⟩
  | 5 => ⟨S1x256, .f32⟩
  | 6 => ⟨S256x128, .f32⟩
  | 7 => ⟨S1x128, .f32⟩
  | 8 => ⟨S5000x128, .f32⟩
  | 9 => ⟨S5000x128, .f32⟩
  | 10 => ⟨S8x128, .f32⟩
  | 11 => ⟨S8x128, .f32⟩
  | 12 => ⟨S8x128, .f32⟩
  | 13 => ⟨S8x128, .f32⟩
  | 14 => ⟨S5000x128, .f32⟩
  | 15 => ⟨S5000x128, .f32⟩
  | 16 => ⟨S1x128, .f32⟩
  | 17 => ⟨S1x128, .f32⟩
  | 18 => ⟨S1x128, .f32⟩
  | 19 => ⟨S1x128, .f32⟩
  | 20 => ⟨S5000x128, .f32⟩
  | 21 => ⟨S5000x128, .f32⟩
  | 22 => ⟨S5000x128, .f32⟩
  | 23 => ⟨S5000x128, .f32⟩
  | 24 => ⟨S5000x128, .f32⟩
  | 25 => ⟨S5000x128, .f32⟩
  | 26 => ⟨S128x128, .f32⟩
  | 27 => ⟨S1x128, .f32⟩
  | 28 => ⟨S128x128, .f32⟩
  | 29 => ⟨S1x128, .f32⟩
  | 30 => ⟨S5000x128, .f32⟩
  | 31 => ⟨S5000x128, .f32⟩
  | 32 => ⟨S8x128, .f32⟩
  | 33 => ⟨S8x128, .f32⟩
  | 34 => ⟨S8x128, .f32⟩
  | 35 => ⟨S8x128, .f32⟩
  | 36 => ⟨S5000x128, .f32⟩
  | 37 => ⟨S5000x128, .f32⟩
  | 38 => ⟨S1x128, .f32⟩
  | 39 => ⟨S1x128, .f32⟩
  | 40 => ⟨S1x128, .f32⟩
  | 41 => ⟨S1x128, .f32⟩
  | 42 => ⟨S5000x128, .f32⟩
  | 43 => ⟨S5000x128, .f32⟩
  | 44 => ⟨S5000x128, .f32⟩
  | 45 => ⟨S5000x128, .f32⟩
  | 46 => ⟨S5000x128, .f32⟩
  | 47 => ⟨S5000x128, .f32⟩
  | 48 => ⟨S128x128, .f32⟩
  | 49 => ⟨S1x128, .f32⟩
  | 50 => ⟨S128x128, .f32⟩
  | 51 => ⟨S1x128, .f32⟩
  | 52 => ⟨S5000x128, .f32⟩
  | 53 => ⟨S5000x128, .f32⟩
  | 54 => ⟨S8x128, .f32⟩
  | 55 => ⟨S8x128, .f32⟩
  | 56 => ⟨S8x128, .f32⟩
  | 57 => ⟨S8x128, .f32⟩
  | 58 => ⟨S5000x128, .f32⟩
  | 59 => ⟨S5000x128, .f32⟩
  | 60 => ⟨S1x128, .f32⟩
  | 61 => ⟨S1x128, .f32⟩
  | 62 => ⟨S1x128, .f32⟩
  | 63 => ⟨S1x128, .f32⟩
  | 64 => ⟨S5000x128, .f32⟩
  | 65 => ⟨S5000x128, .f32⟩
  | 66 => ⟨S5000x128, .f32⟩
  | 67 => ⟨S5000x128, .f32⟩
  | 68 => ⟨S5000x128, .f32⟩
  | 69 => ⟨S5000x128, .f32⟩
  | 70 => ⟨S5000x128, .f32⟩
  | 71 => ⟨S5000x128, .f32⟩
  | 72 => ⟨S128x128, .f32⟩
  | 73 => ⟨S1x128, .f32⟩
  | 74 => ⟨S128x128, .f32⟩
  | 75 => ⟨S1x128, .f32⟩
  | 76 => ⟨S5000x128, .f32⟩
  | 77 => ⟨S5000x128, .f32⟩
  | 78 => ⟨S8x128, .f32⟩
  | 79 => ⟨S8x128, .f32⟩
  | 80 => ⟨S8x128, .f32⟩
  | 81 => ⟨S8x128, .f32⟩
  | 82 => ⟨S5000x128, .f32⟩
  | 83 => ⟨S5000x128, .f32⟩
  | 84 => ⟨S1x128, .f32⟩
  | 85 => ⟨S1x128, .f32⟩
  | 86 => ⟨S1x128, .f32⟩
  | 87 => ⟨S1x128, .f32⟩
  | 88 => ⟨S5000x128, .f32⟩
  | 89 => ⟨S5000x128, .f32⟩
  | 90 => ⟨S5000x128, .f32⟩
  | 91 => ⟨S5000x128, .f32⟩
  | 92 => ⟨S5000x128, .f32⟩
  | 93 => ⟨S5000x128, .f32⟩
  | 94 => ⟨S128x128, .f32⟩
  | 95 => ⟨S1x128, .f32⟩
  | 96 => ⟨S128x128, .f32⟩
  | 97 => ⟨S1x128, .f32⟩
  | 98 => ⟨S5000x128, .f32⟩
  | 99 => ⟨S5000x128, .f32⟩
  | 100 => ⟨S8x128, .f32⟩
  | 101 => ⟨S8x128, .f32⟩
  | 102 => ⟨S8x128, .f32⟩
  | 103 => ⟨S8x128, .f32⟩
  | 104 => ⟨S5000x128, .f32⟩
  | 105 => ⟨S5000x128, .f32⟩
  | 106 => ⟨S1x128, .f32⟩
  | 107 => ⟨S1x128, .f32⟩
  | 108 => ⟨S1x128, .f32⟩
  | 109 => ⟨S1x128, .f32⟩
  | 110 => ⟨S5000x128, .f32⟩
  | 111 => ⟨S5000x128, .f32⟩
  | 112 => ⟨S5000x128, .f32⟩
  | 113 => ⟨S5000x128, .f32⟩
  | 114 => ⟨S5000x128, .f32⟩
  | 115 => ⟨S5000x128, .f32⟩
  | 116 => ⟨S5000x128, .f32⟩
  | 117 => ⟨S5000x128, .f32⟩
  | 118 => ⟨S128x128, .f32⟩
  | 119 => ⟨S1x128, .f32⟩
  | 120 => ⟨S128x128, .f32⟩
  | 121 => ⟨S1x128, .f32⟩
  | 122 => ⟨S5000x128, .f32⟩
  | 123 => ⟨S5000x128, .f32⟩
  | 124 => ⟨S8x128, .f32⟩
  | 125 => ⟨S8x128, .f32⟩
  | 126 => ⟨S8x128, .f32⟩
  | 127 => ⟨S8x128, .f32⟩
  | _ => ⟨S100000x128, .f32⟩

abbrev vmemTy0_1 (i : Nat) : BufTy := match i % 128 with
  | 0 => ⟨S5000x128, .f32⟩
  | 1 => ⟨S5000x128, .f32⟩
  | 2 => ⟨S1x128, .f32⟩
  | 3 => ⟨S1x128, .f32⟩
  | 4 => ⟨S1x128, .f32⟩
  | 5 => ⟨S1x128, .f32⟩
  | 6 => ⟨S5000x128, .f32⟩
  | 7 => ⟨S5000x128, .f32⟩
  | 8 => ⟨S5000x128, .f32⟩
  | 9 => ⟨S5000x128, .f32⟩
  | 10 => ⟨S5000x128, .f32⟩
  | 11 => ⟨S5000x128, .f32⟩
  | 12 => ⟨S128x128, .f32⟩
  | 13 => ⟨S1x128, .f32⟩
  | 14 => ⟨S128x128, .f32⟩
  | 15 => ⟨S1x128, .f32⟩
  | 16 => ⟨S5000x128, .f32⟩
  | 17 => ⟨S5000x128, .f32⟩
  | 18 => ⟨S8x128, .f32⟩
  | 19 => ⟨S8x128, .f32⟩
  | 20 => ⟨S8x128, .f32⟩
  | 21 => ⟨S8x128, .f32⟩
  | 22 => ⟨S5000x128, .f32⟩
  | 23 => ⟨S5000x128, .f32⟩
  | 24 => ⟨S1x128, .f32⟩
  | 25 => ⟨S1x128, .f32⟩
  | 26 => ⟨S1x128, .f32⟩
  | 27 => ⟨S1x128, .f32⟩
  | 28 => ⟨S5000x128, .f32⟩
  | 29 => ⟨S5000x128, .f32⟩
  | 30 => ⟨S5000x128, .f32⟩
  | 31 => ⟨S5000x128, .f32⟩
  | 32 => ⟨S5000x128, .f32⟩
  | 33 => ⟨S5000x128, .f32⟩
  | 34 => ⟨S5000x128, .f32⟩
  | 35 => ⟨S5000x128, .f32⟩
  | 36 => ⟨S128x32, .f32⟩
  | 37 => ⟨S1x32, .f32⟩
  | 38 => ⟨S32x3, .f32⟩
  | 39 => ⟨S1x3, .f32⟩
  | 40 => ⟨S5000x3, .f32⟩
  | 41 => ⟨S5000x3, .f32⟩
  | _ => ⟨S100000x128, .f32⟩

abbrev vmemTy (i : Nat) : BufTy := match i / 128 with
  | 0 => vmemTy0_0 i
  | 1 => vmemTy0_1 i
  | _ => ⟨S100000x128, .f32⟩

abbrev bufTy : (tb : Table) → Fin (tcTables nBuf tb) → BufTy
  | .hbm, ⟨i, _⟩ => hbmTy i
  | .local _ .vmem, ⟨i, _⟩ => vmemTy i
  | _, _ => ⟨S100000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 170 → Bool
  | ⟨i, _⟩ => dmaSemScopedAt i

abbrev sig : RefSig :=
  ofTc nBuf bufTy 0 170 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16_0 : Ref sig .tc := ⟨.hbm, 37, rfl⟩
abbrev main_v16_1 : Ref sig .tc := ⟨.hbm, 38, rfl⟩
abbrev main_v16_2 : Ref sig .tc := ⟨.hbm, 39, rfl⟩
abbrev main_cst_1 : Ref sig .tc := ⟨.hbm, 40, rfl⟩
abbrev main_v17 : Ref sig .tc := ⟨.hbm, 41, rfl⟩
abbrev main_cst_2 : Ref sig .tc := ⟨.hbm, 42, rfl⟩
abbrev main_v18 : Ref sig .tc := ⟨.hbm, 43, rfl⟩
abbrev main_cst_3 : Ref sig .tc := ⟨.hbm, 44, rfl⟩
abbrev main_v19 : Ref sig .tc := ⟨.hbm, 45, rfl⟩
abbrev main_v20 : Ref sig .tc := ⟨.hbm, 46, rfl⟩
abbrev main_cst_4 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_5 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_6 : Ref sig .tc := ⟨.hbm, 72, rfl⟩
abbrev main_v44 : Ref sig .tc := ⟨.hbm, 73, rfl⟩
abbrev main_v45 : Ref sig .tc := ⟨.hbm, 74, rfl⟩
abbrev main_c_7 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_8 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56_0 : Ref sig .tc := ⟨.hbm, 87, rfl⟩
abbrev main_v56_1 : Ref sig .tc := ⟨.hbm, 88, rfl⟩
abbrev main_v56_2 : Ref sig .tc := ⟨.hbm, 89, rfl⟩
abbrev main_cst_9 : Ref sig .tc := ⟨.hbm, 90, rfl⟩
abbrev main_v57 : Ref sig .tc := ⟨.hbm, 91, rfl⟩
abbrev main_cst_10 : Ref sig .tc := ⟨.hbm, 92, rfl⟩
abbrev main_v58 : Ref sig .tc := ⟨.hbm, 93, rfl⟩
abbrev main_cst_11 : Ref sig .tc := ⟨.hbm, 94, rfl⟩
abbrev main_v59 : Ref sig .tc := ⟨.hbm, 95, rfl⟩
abbrev main_v60 : Ref sig .tc := ⟨.hbm, 96, rfl⟩
abbrev main_cst_12 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_13 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_c_14 : Ref sig .tc := ⟨.hbm, 122, rfl⟩
abbrev main_v84 : Ref sig .tc := ⟨.hbm, 123, rfl⟩
abbrev main_v85 : Ref sig .tc := ⟨.hbm, 124, rfl⟩
abbrev main_c_15 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_16 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96_0 : Ref sig .tc := ⟨.hbm, 137, rfl⟩
abbrev main_v96_1 : Ref sig .tc := ⟨.hbm, 138, rfl⟩
abbrev main_v96_2 : Ref sig .tc := ⟨.hbm, 139, rfl⟩
abbrev main_cst_17 : Ref sig .tc := ⟨.hbm, 140, rfl⟩
abbrev main_v97 : Ref sig .tc := ⟨.hbm, 141, rfl⟩
abbrev main_cst_18 : Ref sig .tc := ⟨.hbm, 142, rfl⟩
abbrev main_v98 : Ref sig .tc := ⟨.hbm, 143, rfl⟩
abbrev main_cst_19 : Ref sig .tc := ⟨.hbm, 144, rfl⟩
abbrev main_v99 : Ref sig .tc := ⟨.hbm, 145, rfl⟩
abbrev main_v100 : Ref sig .tc := ⟨.hbm, 146, rfl⟩
abbrev main_cst_20 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_cst_21 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_c_22 : Ref sig .tc := ⟨.hbm, 172, rfl⟩
abbrev main_v124 : Ref sig .tc := ⟨.hbm, 173, rfl⟩
abbrev main_v125 : Ref sig .tc := ⟨.hbm, 174, rfl⟩
abbrev main_c_23 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_cst_24 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136_0 : Ref sig .tc := ⟨.hbm, 187, rfl⟩
abbrev main_v136_1 : Ref sig .tc := ⟨.hbm, 188, rfl⟩
abbrev main_v136_2 : Ref sig .tc := ⟨.hbm, 189, rfl⟩
abbrev main_cst_25 : Ref sig .tc := ⟨.hbm, 190, rfl⟩
abbrev main_v137 : Ref sig .tc := ⟨.hbm, 191, rfl⟩
abbrev main_cst_26 : Ref sig .tc := ⟨.hbm, 192, rfl⟩
abbrev main_v138 : Ref sig .tc := ⟨.hbm, 193, rfl⟩
abbrev main_cst_27 : Ref sig .tc := ⟨.hbm, 194, rfl⟩
abbrev main_v139 : Ref sig .tc := ⟨.hbm, 195, rfl⟩
abbrev main_v140 : Ref sig .tc := ⟨.hbm, 196, rfl⟩
abbrev main_cst_28 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_cst_29 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_c_30 : Ref sig .tc := ⟨.hbm, 222, rfl⟩
abbrev main_v164 : Ref sig .tc := ⟨.hbm, 223, rfl⟩
abbrev main_v165 : Ref sig .tc := ⟨.hbm, 224, rfl⟩
abbrev main_c_31 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_cst_32 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176_0 : Ref sig .tc := ⟨.hbm, 237, rfl⟩
abbrev main_v176_1 : Ref sig .tc := ⟨.hbm, 238, rfl⟩
abbrev main_v176_2 : Ref sig .tc := ⟨.hbm, 239, rfl⟩
abbrev main_cst_33 : Ref sig .tc := ⟨.hbm, 240, rfl⟩
abbrev main_v177 : Ref sig .tc := ⟨.hbm, 241, rfl⟩
abbrev main_cst_34 : Ref sig .tc := ⟨.hbm, 242, rfl⟩
abbrev main_v178 : Ref sig .tc := ⟨.hbm, 243, rfl⟩
abbrev main_cst_35 : Ref sig .tc := ⟨.hbm, 244, rfl⟩
abbrev main_v179 : Ref sig .tc := ⟨.hbm, 245, rfl⟩
abbrev main_v180 : Ref sig .tc := ⟨.hbm, 246, rfl⟩
abbrev main_cst_36 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_cst_37 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_c_38 : Ref sig .tc := ⟨.hbm, 272, rfl⟩
abbrev main_v204 : Ref sig .tc := ⟨.hbm, 273, rfl⟩
abbrev main_v205 : Ref sig .tc := ⟨.hbm, 274, rfl⟩
abbrev main_c_39 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_cst_40 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_v216_0 : Ref sig .tc := ⟨.hbm, 287, rfl⟩
abbrev main_v216_1 : Ref sig .tc := ⟨.hbm, 288, rfl⟩
abbrev main_v216_2 : Ref sig .tc := ⟨.hbm, 289, rfl⟩
abbrev main_cst_41 : Ref sig .tc := ⟨.hbm, 290, rfl⟩
abbrev main_v217 : Ref sig .tc := ⟨.hbm, 291, rfl⟩
abbrev main_cst_42 : Ref sig .tc := ⟨.hbm, 292, rfl⟩
abbrev main_v218 : Ref sig .tc := ⟨.hbm, 293, rfl⟩
abbrev main_cst_43 : Ref sig .tc := ⟨.hbm, 294, rfl⟩
abbrev main_v219 : Ref sig .tc := ⟨.hbm, 295, rfl⟩
abbrev main_v220 : Ref sig .tc := ⟨.hbm, 296, rfl⟩
abbrev main_cst_44 : Ref sig .tc := ⟨.hbm, 297, rfl⟩
abbrev main_v221 : Ref sig .tc := ⟨.hbm, 298, rfl⟩
abbrev main_v222 : Ref sig .tc := ⟨.hbm, 299, rfl⟩
abbrev main_v223 : Ref sig .tc := ⟨.hbm, 300, rfl⟩
abbrev main_v224 : Ref sig .tc := ⟨.hbm, 301, rfl⟩
abbrev main_cst_45 : Ref sig .tc := ⟨.hbm, 302, rfl⟩
abbrev main_v225 : Ref sig .tc := ⟨.hbm, 303, rfl⟩
abbrev main_v226 : Ref sig .tc := ⟨.hbm, 304, rfl⟩
abbrev main_v227 : Ref sig .tc := ⟨.hbm, 305, rfl⟩
abbrev main_v228 : Ref sig .tc := ⟨.hbm, 306, rfl⟩
abbrev main_v229 : Ref sig .tc := ⟨.hbm, 307, rfl⟩
abbrev main_v230 : Ref sig .tc := ⟨.hbm, 308, rfl⟩
abbrev main_v231 : Ref sig .tc := ⟨.hbm, 309, rfl⟩
abbrev main_v232 : Ref sig .tc := ⟨.hbm, 310, rfl⟩
abbrev main_v233 : Ref sig .tc := ⟨.hbm, 311, rfl⟩
abbrev main_v234 : Ref sig .tc := ⟨.hbm, 312, rfl⟩
abbrev main_v235 : Ref sig .tc := ⟨.hbm, 313, rfl⟩
abbrev main_v236 : Ref sig .tc := ⟨.hbm, 314, rfl⟩
abbrev main_v237 : Ref sig .tc := ⟨.hbm, 315, rfl⟩
abbrev main_v238 : Ref sig .tc := ⟨.hbm, 316, rfl⟩
abbrev main_v239 : Ref sig .tc := ⟨.hbm, 317, rfl⟩
abbrev main_v240 : Ref sig .tc := ⟨.hbm, 318, rfl⟩
abbrev main_v241 : Ref sig .tc := ⟨.hbm, 319, rfl⟩
abbrev main_v242 : Ref sig .tc := ⟨.hbm, 320, rfl⟩
abbrev main_v243 : Ref sig .tc := ⟨.hbm, 321, rfl⟩
abbrev main_c_46 : Ref sig .tc := ⟨.hbm, 322, rfl⟩
abbrev main_v244 : Ref sig .tc := ⟨.hbm, 323, rfl⟩
abbrev main_v245 : Ref sig .tc := ⟨.hbm, 324, rfl⟩
abbrev main_c_47 : Ref sig .tc := ⟨.hbm, 325, rfl⟩
abbrev main_v246 : Ref sig .tc := ⟨.hbm, 326, rfl⟩
abbrev main_v247 : Ref sig .tc := ⟨.hbm, 327, rfl⟩
abbrev main_v248 : Ref sig .tc := ⟨.hbm, 328, rfl⟩
abbrev main_v249 : Ref sig .tc := ⟨.hbm, 329, rfl⟩
abbrev main_v250 : Ref sig .tc := ⟨.hbm, 330, rfl⟩
abbrev main_cst_48 : Ref sig .tc := ⟨.hbm, 331, rfl⟩
abbrev main_v251 : Ref sig .tc := ⟨.hbm, 332, rfl⟩
abbrev main_v252 : Ref sig .tc := ⟨.hbm, 333, rfl⟩
abbrev main_v253 : Ref sig .tc := ⟨.hbm, 334, rfl⟩
abbrev main_v254 : Ref sig .tc := ⟨.hbm, 335, rfl⟩
abbrev main_v255 : Ref sig .tc := ⟨.hbm, 336, rfl⟩
abbrev main_v256_0 : Ref sig .tc := ⟨.hbm, 337, rfl⟩
abbrev main_v256_1 : Ref sig .tc := ⟨.hbm, 338, rfl⟩
abbrev main_v256_2 : Ref sig .tc := ⟨.hbm, 339, rfl⟩
abbrev main_cst_49 : Ref sig .tc := ⟨.hbm, 340, rfl⟩
abbrev main_v257 : Ref sig .tc := ⟨.hbm, 341, rfl⟩
abbrev main_cst_50 : Ref sig .tc := ⟨.hbm, 342, rfl⟩
abbrev main_v258 : Ref sig .tc := ⟨.hbm, 343, rfl⟩
abbrev main_cst_51 : Ref sig .tc := ⟨.hbm, 344, rfl⟩
abbrev main_v259 : Ref sig .tc := ⟨.hbm, 345, rfl⟩
abbrev main_v260 : Ref sig .tc := ⟨.hbm, 346, rfl⟩
abbrev main_cst_52 : Ref sig .tc := ⟨.hbm, 347, rfl⟩
abbrev main_v261 : Ref sig .tc := ⟨.hbm, 348, rfl⟩
abbrev main_v262 : Ref sig .tc := ⟨.hbm, 349, rfl⟩
abbrev main_v263 : Ref sig .tc := ⟨.hbm, 350, rfl⟩
abbrev main_v264 : Ref sig .tc := ⟨.hbm, 351, rfl⟩
abbrev main_cst_53 : Ref sig .tc := ⟨.hbm, 352, rfl⟩
abbrev main_v265 : Ref sig .tc := ⟨.hbm, 353, rfl⟩
abbrev main_v266 : Ref sig .tc := ⟨.hbm, 354, rfl⟩
abbrev main_v267 : Ref sig .tc := ⟨.hbm, 355, rfl⟩
abbrev main_v268 : Ref sig .tc := ⟨.hbm, 356, rfl⟩
abbrev main_v269 : Ref sig .tc := ⟨.hbm, 357, rfl⟩
abbrev main_v270 : Ref sig .tc := ⟨.hbm, 358, rfl⟩
abbrev main_v271 : Ref sig .tc := ⟨.hbm, 359, rfl⟩
abbrev main_c_54 : Ref sig .tc := ⟨.hbm, 360, rfl⟩
abbrev main_v272 : Ref sig .tc := ⟨.hbm, 361, rfl⟩
abbrev main_v273 : Ref sig .tc := ⟨.hbm, 362, rfl⟩
abbrev main_c_55 : Ref sig .tc := ⟨.hbm, 363, rfl⟩
abbrev main_v274 : Ref sig .tc := ⟨.hbm, 364, rfl⟩
abbrev main_v275 : Ref sig .tc := ⟨.hbm, 365, rfl⟩
abbrev main_v276 : Ref sig .tc := ⟨.hbm, 366, rfl⟩
abbrev main_v277 : Ref sig .tc := ⟨.hbm, 367, rfl⟩
abbrev main_v278 : Ref sig .tc := ⟨.hbm, 368, rfl⟩
abbrev main_cst_56 : Ref sig .tc := ⟨.hbm, 369, rfl⟩
abbrev main_v279 : Ref sig .tc := ⟨.hbm, 370, rfl⟩
abbrev main_v280 : Ref sig .tc := ⟨.hbm, 371, rfl⟩
abbrev main_v281 : Ref sig .tc := ⟨.hbm, 372, rfl⟩
abbrev main_v282 : Ref sig .tc := ⟨.hbm, 373, rfl⟩
abbrev main_v283 : Ref sig .tc := ⟨.hbm, 374, rfl⟩
abbrev main_v284 : Ref sig .tc := ⟨.hbm, 375, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc2_stg8_0 : Ref sig .tc := ⟨.vmem, 34, rfl⟩
abbrev cc2_stg8_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg6_0 : Ref sig .tc := ⟨.vmem, 52, rfl⟩
abbrev cc4_stg6_1 : Ref sig .tc := ⟨.vmem, 53, rfl⟩
abbrev cc4_stg7_0 : Ref sig .tc := ⟨.vmem, 54, rfl⟩
abbrev cc4_stg7_1 : Ref sig .tc := ⟨.vmem, 55, rfl⟩
abbrev cc4_stg8_0 : Ref sig .tc := ⟨.vmem, 56, rfl⟩
abbrev cc4_stg8_1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg2_0 : Ref sig .tc := ⟨.vmem, 61, rfl⟩
abbrev cc5_stg3_0 : Ref sig .tc := ⟨.vmem, 62, rfl⟩
abbrev cc5_stg4_0 : Ref sig .tc := ⟨.vmem, 63, rfl⟩
abbrev cc5_stg5_0 : Ref sig .tc := ⟨.vmem, 64, rfl⟩
abbrev cc5_stg5_1 : Ref sig .tc := ⟨.vmem, 65, rfl⟩
abbrev cc5_stg6_0 : Ref sig .tc := ⟨.vmem, 66, rfl⟩
abbrev cc5_stg6_1 : Ref sig .tc := ⟨.vmem, 67, rfl⟩
abbrev cc6_stg0_0 : Ref sig .tc := ⟨.vmem, 68, rfl⟩
abbrev cc6_stg0_1 : Ref sig .tc := ⟨.vmem, 69, rfl⟩
abbrev cc6_stg1_0 : Ref sig .tc := ⟨.vmem, 70, rfl⟩
abbrev cc6_stg1_1 : Ref sig .tc := ⟨.vmem, 71, rfl⟩
abbrev cc6_stg2_0 : Ref sig .tc := ⟨.vmem, 72, rfl⟩
abbrev cc6_stg3_0 : Ref sig .tc := ⟨.vmem, 73, rfl⟩
abbrev cc6_stg4_0 : Ref sig .tc := ⟨.vmem, 74, rfl⟩
abbrev cc6_stg5_0 : Ref sig .tc := ⟨.vmem, 75, rfl⟩
abbrev cc6_stg6_0 : Ref sig .tc := ⟨.vmem, 76, rfl⟩
abbrev cc6_stg6_1 : Ref sig .tc := ⟨.vmem, 77, rfl⟩
abbrev cc6_stg7_0 : Ref sig .tc := ⟨.vmem, 78, rfl⟩
abbrev cc6_stg7_1 : Ref sig .tc := ⟨.vmem, 79, rfl⟩
abbrev cc6_stg8_0 : Ref sig .tc := ⟨.vmem, 80, rfl⟩
abbrev cc6_stg8_1 : Ref sig .tc := ⟨.vmem, 81, rfl⟩
abbrev cc7_stg0_0 : Ref sig .tc := ⟨.vmem, 82, rfl⟩
abbrev cc7_stg0_1 : Ref sig .tc := ⟨.vmem, 83, rfl⟩
abbrev cc7_stg1_0 : Ref sig .tc := ⟨.vmem, 84, rfl⟩
abbrev cc7_stg2_0 : Ref sig .tc := ⟨.vmem, 85, rfl⟩
abbrev cc7_stg3_0 : Ref sig .tc := ⟨.vmem, 86, rfl⟩
abbrev cc7_stg4_0 : Ref sig .tc := ⟨.vmem, 87, rfl⟩
abbrev cc7_stg5_0 : Ref sig .tc := ⟨.vmem, 88, rfl⟩
abbrev cc7_stg5_1 : Ref sig .tc := ⟨.vmem, 89, rfl⟩
abbrev cc8_stg0_0 : Ref sig .tc := ⟨.vmem, 90, rfl⟩
abbrev cc8_stg0_1 : Ref sig .tc := ⟨.vmem, 91, rfl⟩
abbrev cc8_stg1_0 : Ref sig .tc := ⟨.vmem, 92, rfl⟩
abbrev cc8_stg1_1 : Ref sig .tc := ⟨.vmem, 93, rfl⟩
abbrev cc8_stg2_0 : Ref sig .tc := ⟨.vmem, 94, rfl⟩
abbrev cc8_stg3_0 : Ref sig .tc := ⟨.vmem, 95, rfl⟩
abbrev cc8_stg4_0 : Ref sig .tc := ⟨.vmem, 96, rfl⟩
abbrev cc8_stg5_0 : Ref sig .tc := ⟨.vmem, 97, rfl⟩
abbrev cc8_stg6_0 : Ref sig .tc := ⟨.vmem, 98, rfl⟩
abbrev cc8_stg6_1 : Ref sig .tc := ⟨.vmem, 99, rfl⟩
abbrev cc8_stg7_0 : Ref sig .tc := ⟨.vmem, 100, rfl⟩
abbrev cc8_stg7_1 : Ref sig .tc := ⟨.vmem, 101, rfl⟩
abbrev cc8_stg8_0 : Ref sig .tc := ⟨.vmem, 102, rfl⟩
abbrev cc8_stg8_1 : Ref sig .tc := ⟨.vmem, 103, rfl⟩
abbrev cc9_stg0_0 : Ref sig .tc := ⟨.vmem, 104, rfl⟩
abbrev cc9_stg0_1 : Ref sig .tc := ⟨.vmem, 105, rfl⟩
abbrev cc9_stg1_0 : Ref sig .tc := ⟨.vmem, 106, rfl⟩
abbrev cc9_stg2_0 : Ref sig .tc := ⟨.vmem, 107, rfl⟩
abbrev cc9_stg3_0 : Ref sig .tc := ⟨.vmem, 108, rfl⟩
abbrev cc9_stg4_0 : Ref sig .tc := ⟨.vmem, 109, rfl⟩
abbrev cc9_stg5_0 : Ref sig .tc := ⟨.vmem, 110, rfl⟩
abbrev cc9_stg5_1 : Ref sig .tc := ⟨.vmem, 111, rfl⟩
abbrev cc9_stg6_0 : Ref sig .tc := ⟨.vmem, 112, rfl⟩
abbrev cc9_stg6_1 : Ref sig .tc := ⟨.vmem, 113, rfl⟩
abbrev cc10_stg0_0 : Ref sig .tc := ⟨.vmem, 114, rfl⟩
abbrev cc10_stg0_1 : Ref sig .tc := ⟨.vmem, 115, rfl⟩
abbrev cc10_stg1_0 : Ref sig .tc := ⟨.vmem, 116, rfl⟩
abbrev cc10_stg1_1 : Ref sig .tc := ⟨.vmem, 117, rfl⟩
abbrev cc10_stg2_0 : Ref sig .tc := ⟨.vmem, 118, rfl⟩
abbrev cc10_stg3_0 : Ref sig .tc := ⟨.vmem, 119, rfl⟩
abbrev cc10_stg4_0 : Ref sig .tc := ⟨.vmem, 120, rfl⟩
abbrev cc10_stg5_0 : Ref sig .tc := ⟨.vmem, 121, rfl⟩
abbrev cc10_stg6_0 : Ref sig .tc := ⟨.vmem, 122, rfl⟩
abbrev cc10_stg6_1 : Ref sig .tc := ⟨.vmem, 123, rfl⟩
abbrev cc10_stg7_0 : Ref sig .tc := ⟨.vmem, 124, rfl⟩
abbrev cc10_stg7_1 : Ref sig .tc := ⟨.vmem, 125, rfl⟩
abbrev cc10_stg8_0 : Ref sig .tc := ⟨.vmem, 126, rfl⟩
abbrev cc10_stg8_1 : Ref sig .tc := ⟨.vmem, 127, rfl⟩
abbrev cc11_stg0_0 : Ref sig .tc := ⟨.vmem, 128, rfl⟩
abbrev cc11_stg0_1 : Ref sig .tc := ⟨.vmem, 129, rfl⟩
abbrev cc11_stg1_0 : Ref sig .tc := ⟨.vmem, 130, rfl⟩
abbrev cc11_stg2_0 : Ref sig .tc := ⟨.vmem, 131, rfl⟩
abbrev cc11_stg3_0 : Ref sig .tc := ⟨.vmem, 132, rfl⟩
abbrev cc11_stg4_0 : Ref sig .tc := ⟨.vmem, 133, rfl⟩
abbrev cc11_stg5_0 : Ref sig .tc := ⟨.vmem, 134, rfl⟩
abbrev cc11_stg5_1 : Ref sig .tc := ⟨.vmem, 135, rfl⟩
abbrev cc12_stg0_0 : Ref sig .tc := ⟨.vmem, 136, rfl⟩
abbrev cc12_stg0_1 : Ref sig .tc := ⟨.vmem, 137, rfl⟩
abbrev cc12_stg1_0 : Ref sig .tc := ⟨.vmem, 138, rfl⟩
abbrev cc12_stg1_1 : Ref sig .tc := ⟨.vmem, 139, rfl⟩
abbrev cc12_stg2_0 : Ref sig .tc := ⟨.vmem, 140, rfl⟩
abbrev cc12_stg3_0 : Ref sig .tc := ⟨.vmem, 141, rfl⟩
abbrev cc12_stg4_0 : Ref sig .tc := ⟨.vmem, 142, rfl⟩
abbrev cc12_stg5_0 : Ref sig .tc := ⟨.vmem, 143, rfl⟩
abbrev cc12_stg6_0 : Ref sig .tc := ⟨.vmem, 144, rfl⟩
abbrev cc12_stg6_1 : Ref sig .tc := ⟨.vmem, 145, rfl⟩
abbrev cc12_stg7_0 : Ref sig .tc := ⟨.vmem, 146, rfl⟩
abbrev cc12_stg7_1 : Ref sig .tc := ⟨.vmem, 147, rfl⟩
abbrev cc12_stg8_0 : Ref sig .tc := ⟨.vmem, 148, rfl⟩
abbrev cc12_stg8_1 : Ref sig .tc := ⟨.vmem, 149, rfl⟩
abbrev cc13_stg0_0 : Ref sig .tc := ⟨.vmem, 150, rfl⟩
abbrev cc13_stg0_1 : Ref sig .tc := ⟨.vmem, 151, rfl⟩
abbrev cc13_stg1_0 : Ref sig .tc := ⟨.vmem, 152, rfl⟩
abbrev cc13_stg2_0 : Ref sig .tc := ⟨.vmem, 153, rfl⟩
abbrev cc13_stg3_0 : Ref sig .tc := ⟨.vmem, 154, rfl⟩
abbrev cc13_stg4_0 : Ref sig .tc := ⟨.vmem, 155, rfl⟩
abbrev cc13_stg5_0 : Ref sig .tc := ⟨.vmem, 156, rfl⟩
abbrev cc13_stg5_1 : Ref sig .tc := ⟨.vmem, 157, rfl⟩
abbrev cc13_stg6_0 : Ref sig .tc := ⟨.vmem, 158, rfl⟩
abbrev cc13_stg6_1 : Ref sig .tc := ⟨.vmem, 159, rfl⟩
abbrev cc14_stg0_0 : Ref sig .tc := ⟨.vmem, 160, rfl⟩
abbrev cc14_stg0_1 : Ref sig .tc := ⟨.vmem, 161, rfl⟩
abbrev cc14_stg1_0 : Ref sig .tc := ⟨.vmem, 162, rfl⟩
abbrev cc14_stg1_1 : Ref sig .tc := ⟨.vmem, 163, rfl⟩
abbrev cc14_stg2_0 : Ref sig .tc := ⟨.vmem, 164, rfl⟩
abbrev cc14_stg3_0 : Ref sig .tc := ⟨.vmem, 165, rfl⟩
abbrev cc14_stg4_0 : Ref sig .tc := ⟨.vmem, 166, rfl⟩
abbrev cc14_stg5_0 : Ref sig .tc := ⟨.vmem, 167, rfl⟩
abbrev cc14_stg6_0 : Ref sig .tc := ⟨.vmem, 168, rfl⟩
abbrev cc14_stg6_1 : Ref sig .tc := ⟨.vmem, 169, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31
abbrev cc2_sem7_0 : DmaSem sig := 32
abbrev cc2_sem7_1 : DmaSem sig := 33
abbrev cc2_sem8_0 : DmaSem sig := 34
abbrev cc2_sem8_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem5_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem3_0 : DmaSem sig := 49
abbrev cc4_sem4_0 : DmaSem sig := 50
abbrev cc4_sem5_0 : DmaSem sig := 51
abbrev cc4_sem6_0 : DmaSem sig := 52
abbrev cc4_sem6_1 : DmaSem sig := 53
abbrev cc4_sem7_0 : DmaSem sig := 54
abbrev cc4_sem7_1 : DmaSem sig := 55
abbrev cc4_sem8_0 : DmaSem sig := 56
abbrev cc4_sem8_1 : DmaSem sig := 57
abbrev cc5_sem0_0 : DmaSem sig := 58
abbrev cc5_sem0_1 : DmaSem sig := 59
abbrev cc5_sem1_0 : DmaSem sig := 60
abbrev cc5_sem2_0 : DmaSem sig := 61
abbrev cc5_sem3_0 : DmaSem sig := 62
abbrev cc5_sem4_0 : DmaSem sig := 63
abbrev cc5_sem5_0 : DmaSem sig := 64
abbrev cc5_sem5_1 : DmaSem sig := 65
abbrev cc5_sem6_0 : DmaSem sig := 66
abbrev cc5_sem6_1 : DmaSem sig := 67
abbrev cc6_sem0_0 : DmaSem sig := 68
abbrev cc6_sem0_1 : DmaSem sig := 69
abbrev cc6_sem1_0 : DmaSem sig := 70
abbrev cc6_sem1_1 : DmaSem sig := 71
abbrev cc6_sem2_0 : DmaSem sig := 72
abbrev cc6_sem3_0 : DmaSem sig := 73
abbrev cc6_sem4_0 : DmaSem sig := 74
abbrev cc6_sem5_0 : DmaSem sig := 75
abbrev cc6_sem6_0 : DmaSem sig := 76
abbrev cc6_sem6_1 : DmaSem sig := 77
abbrev cc6_sem7_0 : DmaSem sig := 78
abbrev cc6_sem7_1 : DmaSem sig := 79
abbrev cc6_sem8_0 : DmaSem sig := 80
abbrev cc6_sem8_1 : DmaSem sig := 81
abbrev cc7_sem0_0 : DmaSem sig := 82
abbrev cc7_sem0_1 : DmaSem sig := 83
abbrev cc7_sem1_0 : DmaSem sig := 84
abbrev cc7_sem2_0 : DmaSem sig := 85
abbrev cc7_sem3_0 : DmaSem sig := 86
abbrev cc7_sem4_0 : DmaSem sig := 87
abbrev cc7_sem5_0 : DmaSem sig := 88
abbrev cc7_sem5_1 : DmaSem sig := 89
abbrev cc8_sem0_0 : DmaSem sig := 90
abbrev cc8_sem0_1 : DmaSem sig := 91
abbrev cc8_sem1_0 : DmaSem sig := 92
abbrev cc8_sem1_1 : DmaSem sig := 93
abbrev cc8_sem2_0 : DmaSem sig := 94
abbrev cc8_sem3_0 : DmaSem sig := 95
abbrev cc8_sem4_0 : DmaSem sig := 96
abbrev cc8_sem5_0 : DmaSem sig := 97
abbrev cc8_sem6_0 : DmaSem sig := 98
abbrev cc8_sem6_1 : DmaSem sig := 99
abbrev cc8_sem7_0 : DmaSem sig := 100
abbrev cc8_sem7_1 : DmaSem sig := 101
abbrev cc8_sem8_0 : DmaSem sig := 102
abbrev cc8_sem8_1 : DmaSem sig := 103
abbrev cc9_sem0_0 : DmaSem sig := 104
abbrev cc9_sem0_1 : DmaSem sig := 105
abbrev cc9_sem1_0 : DmaSem sig := 106
abbrev cc9_sem2_0 : DmaSem sig := 107
abbrev cc9_sem3_0 : DmaSem sig := 108
abbrev cc9_sem4_0 : DmaSem sig := 109
abbrev cc9_sem5_0 : DmaSem sig := 110
abbrev cc9_sem5_1 : DmaSem sig := 111
abbrev cc9_sem6_0 : DmaSem sig := 112
abbrev cc9_sem6_1 : DmaSem sig := 113
abbrev cc10_sem0_0 : DmaSem sig := 114
abbrev cc10_sem0_1 : DmaSem sig := 115
abbrev cc10_sem1_0 : DmaSem sig := 116
abbrev cc10_sem1_1 : DmaSem sig := 117
abbrev cc10_sem2_0 : DmaSem sig := 118
abbrev cc10_sem3_0 : DmaSem sig := 119
abbrev cc10_sem4_0 : DmaSem sig := 120
abbrev cc10_sem5_0 : DmaSem sig := 121
abbrev cc10_sem6_0 : DmaSem sig := 122
abbrev cc10_sem6_1 : DmaSem sig := 123
abbrev cc10_sem7_0 : DmaSem sig := 124
abbrev cc10_sem7_1 : DmaSem sig := 125
abbrev cc10_sem8_0 : DmaSem sig := 126
abbrev cc10_sem8_1 : DmaSem sig := 127
abbrev cc11_sem0_0 : DmaSem sig := 128
abbrev cc11_sem0_1 : DmaSem sig := 129
abbrev cc11_sem1_0 : DmaSem sig := 130
abbrev cc11_sem2_0 : DmaSem sig := 131
abbrev cc11_sem3_0 : DmaSem sig := 132
abbrev cc11_sem4_0 : DmaSem sig := 133
abbrev cc11_sem5_0 : DmaSem sig := 134
abbrev cc11_sem5_1 : DmaSem sig := 135
abbrev cc12_sem0_0 : DmaSem sig := 136
abbrev cc12_sem0_1 : DmaSem sig := 137
abbrev cc12_sem1_0 : DmaSem sig := 138
abbrev cc12_sem1_1 : DmaSem sig := 139
abbrev cc12_sem2_0 : DmaSem sig := 140
abbrev cc12_sem3_0 : DmaSem sig := 141
abbrev cc12_sem4_0 : DmaSem sig := 142
abbrev cc12_sem5_0 : DmaSem sig := 143
abbrev cc12_sem6_0 : DmaSem sig := 144
abbrev cc12_sem6_1 : DmaSem sig := 145
abbrev cc12_sem7_0 : DmaSem sig := 146
abbrev cc12_sem7_1 : DmaSem sig := 147
abbrev cc12_sem8_0 : DmaSem sig := 148
abbrev cc12_sem8_1 : DmaSem sig := 149
abbrev cc13_sem0_0 : DmaSem sig := 150
abbrev cc13_sem0_1 : DmaSem sig := 151
abbrev cc13_sem1_0 : DmaSem sig := 152
abbrev cc13_sem2_0 : DmaSem sig := 153
abbrev cc13_sem3_0 : DmaSem sig := 154
abbrev cc13_sem4_0 : DmaSem sig := 155
abbrev cc13_sem5_0 : DmaSem sig := 156
abbrev cc13_sem5_1 : DmaSem sig := 157
abbrev cc13_sem6_0 : DmaSem sig := 158
abbrev cc13_sem6_1 : DmaSem sig := 159
abbrev cc14_sem0_0 : DmaSem sig := 160
abbrev cc14_sem0_1 : DmaSem sig := 161
abbrev cc14_sem1_0 : DmaSem sig := 162
abbrev cc14_sem1_1 : DmaSem sig := 163
abbrev cc14_sem2_0 : DmaSem sig := 164
abbrev cc14_sem3_0 : DmaSem sig := 165
abbrev cc14_sem4_0 : DmaSem sig := 166
abbrev cc14_sem5_0 : DmaSem sig := 167
abbrev cc14_sem6_0 : DmaSem sig := 168
abbrev cc14_sem6_1 : DmaSem sig := 169

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S8x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S8x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S8x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S8x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S8x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S8x128 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_8 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S5000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 2 → Memref sig .tc .vmem S8x128 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev stage8_8 : Fin 2 → Memref sig .tc .vmem S8x128 .f32 := fun | 0 => Memref.whole cc8_stg8_0 | 1 => Memref.whole cc8_stg8_1 | ⟨_ + 2, h⟩ => absurd h (Nat.not_lt.2 (Nat.le_add_left _ _))
abbrev sem8_8 : Fin 2 → DmaSem sig := fun | 0 => cc8_sem8_0 | 1 => cc8_sem8_1 | ⟨_ + 2, h⟩ => absurd h (Nat.not_lt.2 (Nat.le_add_left _ _))
abbrev reads8_8 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S5000x128 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_8 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S128x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S128x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 2 → Memref sig .tc .vmem S5000x128 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev stage10_7 : Fin 2 → Memref sig .tc .vmem S8x128 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev stage10_8 : Fin 2 → Memref sig .tc .vmem S8x128 .f32 := fun | 0 => Memref.whole cc10_stg8_0 | 1 => Memref.whole cc10_stg8_1 | ⟨_ + 2, h⟩ => absurd h (Nat.not_lt.2 (Nat.le_add_left _ _))
abbrev sem10_8 : Fin 2 → DmaSem sig := fun | 0 => cc10_sem8_0 | 1 => cc10_sem8_1 | ⟨_ + 2, h⟩ => absurd h (Nat.not_lt.2 (Nat.le_add_left _ _))
abbrev reads10_8 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_7 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_8 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S5000x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S128x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S128x128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S1x128 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 2 → Memref sig .tc .vmem S5000x128 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev stage12_7 : Fin 2 → Memref sig .tc .vmem S8x128 .f32 := fun | 0 => Memref.whole cc12_stg7_0 | 1 => Memref.whole cc12_stg7_1 | ⟨_ + 2, h⟩ => absurd h (Nat.not_lt.2 (Nat.le_add_left _ _))
abbrev sem12_7 : Fin 2 → DmaSem sig := fun | 0 => cc12_sem7_0 | 1 => cc12_sem7_1 | ⟨_ + 2, h⟩ => absurd h (Nat.not_lt.2 (Nat.le_add_left _ _))
abbrev reads12_7 : Fin grid12.rank → Bool := ![true]

abbrev stage12_8 : Fin 2 → Memref sig .tc .vmem S8x128 .f32 := fun | 0 => Memref.whole cc12_stg8_0 | 1 => Memref.whole cc12_stg8_1 | ⟨_ + 2, h⟩ => absurd h (Nat.not_lt.2 (Nat.le_add_left _ _))
abbrev sem12_8 : Fin 2 → DmaSem sig := fun | 0 => cc12_sem8_0 | 1 => cc12_sem8_1 | ⟨_ + 2, h⟩ => absurd h (Nat.not_lt.2 (Nat.le_add_left _ _))
abbrev reads12_8 : Fin grid12.rank → Bool := ![true]

abbrev grid13 : Pipeline.Grid := ⟨1, ![20], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_6 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 2 → Memref sig .tc .vmem S5000x128 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev stage13_6 : Fin 2 → Memref sig .tc .vmem S5000x128 .f32 := fun | 0 => Memref.whole cc13_stg6_0 | 1 => Memref.whole cc13_stg6_1 | ⟨_ + 2, h⟩ => absurd h (Nat.not_lt.2 (Nat.le_add_left _ _))
abbrev sem13_6 : Fin 2 → DmaSem sig := fun | 0 => cc13_sem6_0 | 1 => cc13_sem6_1 | ⟨_ + 2, h⟩ => absurd h (Nat.not_lt.2 (Nat.le_add_left _ _))
abbrev reads13_6 : Fin grid13.rank → Bool := ![true]

abbrev grid14 : Pipeline.Grid := ⟨1, ![20], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S5000x128 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S128x32 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x32 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S32x3 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 1 → Memref sig .tc .vmem S1x3 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 2 → Memref sig .tc .vmem S5000x3 .f32 := fun | 0 => Memref.whole cc14_stg6_0 | 1 => Memref.whole cc14_stg6_1 | ⟨_ + 2, h⟩ => absurd h (Nat.not_lt.2 (Nat.le_add_left _ _))
abbrev sem14_6 : Fin 2 → DmaSem sig := fun | 0 => cc14_sem6_0 | 1 => cc14_sem6_1 | ⟨_ + 2, h⟩ => absurd h (Nat.not_lt.2 (Nat.le_add_left _ _))
abbrev reads14_6 : Fin grid14.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S256_S1x256 : S256.ShapeCasts S1x256
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  concatenates_S1x128_S7x128_S8x128_d0 : Shape.Concatenates [S1x128, S7x128] S8x128 0
  inb_S8x128_S8x128_0_0 : ∀ a, (![0, 0] : Fin 2 → Nat) a + S8x128.size a ≤ S8x128.size a
  h_S8x128 : 0 < S8x128.numel
  reducesTo_S160x128_S128_d0 : S160x128.ReducesTo [0] S128
  h_S_ : 0 < S_.numel
  bcast_S_S128 : S_.BroadcastsInDim S128 (![] : Fin 0 → Fin S128.rank)
  slices_S6x128x128_S1x128x128_0_0_0 : S6x128x128.Slices ![0, 0, 0] S1x128x128
  shapeCasts_S1x128x128_S128x128 : S1x128x128.ShapeCasts S128x128
  slices_S6x128_S1x128_0_0 : S6x128.Slices ![0, 0] S1x128
  shapeCasts_S1x128_S128 : S1x128.ShapeCasts S128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S6x128x128_S1x128x128_1_0_0 : S6x128x128.Slices ![1, 0, 0] S1x128x128
  slices_S6x128_S1x128_1_0 : S6x128.Slices ![1, 0] S1x128
  slices_S6x128x128_S1x128x128_2_0_0 : S6x128x128.Slices ![2, 0, 0] S1x128x128
  slices_S6x128_S1x128_2_0 : S6x128.Slices ![2, 0] S1x128
  slices_S6x128x128_S1x128x128_3_0_0 : S6x128x128.Slices ![3, 0, 0] S1x128x128
  slices_S6x128_S1x128_3_0 : S6x128.Slices ![3, 0] S1x128
  slices_S6x128x128_S1x128x128_4_0_0 : S6x128x128.Slices ![4, 0, 0] S1x128x128
  slices_S6x128_S1x128_4_0 : S6x128.Slices ![4, 0] S1x128
  slices_S6x128x128_S1x128x128_5_0_0 : S6x128x128.Slices ![5, 0, 0] S1x128x128
  slices_S6x128_S1x128_5_0 : S6x128.Slices ![5, 0] S1x128
  shapeCasts_S32_S1x32 : S32.ShapeCasts S1x32
  shapeCasts_S3_S1x3 : S3.ShapeCasts S1x3
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x3_S32x3_0_0 : ∀ a, (![0, 0] : Fin 2 → Nat) a + S32x3.size a ≤ S32x3.size a
  h_S32x3 : 0 < S32x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  inb_S5000x3_S5000x3_0_0 : ∀ a, (![0, 0] : Fin 2 → Nat) a + S5000x3.size a ≤ S5000x3.size a
  h_S5000x3 : 0 < S5000x3.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  dot_S5000x128_S128x32_S5000x32_1_0_0_1_n_n_wf : DotDims.WF S5000x128 S128x32 S5000x32 [1] [0] [0] [1] [] []
  dot_S5000x32_S32x3_S5000x3_1_0_0_1_n_n_wf : DotDims.WF S5000x32 S32x3 S5000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S160x128.size a
  hwx0_7 : ∀ i : grid0.Coords, EltTy.bits .f32 = 32 ∨ (Rect.block (s := S160x128) S8x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x128.size a ≤ S160x128.size a
  hwx0_8 : ∀ i : grid0.Coords, EltTy.bits .f32 = 32 ∨ (Rect.block (s := S160x128) S8x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8x128.size a ≤ S160x128.size a
  hwx2_7 : ∀ i : grid2.Coords, EltTy.bits .f32 = 32 ∨ (Rect.block (s := S160x128) S8x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S8x128.size a ≤ S160x128.size a
  hwx2_8 : ∀ i : grid2.Coords, EltTy.bits .f32 = 32 ∨ (Rect.block (s := S160x128) S8x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S100000x128.size a
  hwx4_6 : ∀ i : grid4.Coords, EltTy.bits .f32 = 32 ∨ (Rect.block (s := S100000x128) S5000x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S8x128.size a ≤ S160x128.size a
  hwx4_7 : ∀ i : grid4.Coords, EltTy.bits .f32 = 32 ∨ (Rect.block (s := S160x128) S8x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S8x128.size a ≤ S160x128.size a
  hwx4_8 : ∀ i : grid4.Coords, EltTy.bits .f32 = 32 ∨ (Rect.block (s := S160x128) S8x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S100000x128.size a
  hwx5_6 : ∀ i : grid5.Coords, EltTy.bits .f32 = 32 ∨ (Rect.block (s := S100000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S100000x128.size a
  hwx6_6 : ∀ i : grid6.Coords, EltTy.bits .f32 = 32 ∨ (Rect.block (s := S100000x128) S5000x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S8x128.size a ≤ S160x128.size a
  hwx6_7 : ∀ i : grid6.Coords, EltTy.bits .f32 = 32 ∨ (Rect.block (s := S160x128) S8x128.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S8x128.size a ≤ S160x128.size a
  hwx6_8 : ∀ i : grid6.Coords, EltTy.bits .f32 = 32 ∨ (Rect.block (s := S160x128) S8x128.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S100000x128.size a
  hwx7_5 : ∀ i : grid7.Coords, EltTy.bits .f32 = 32 ∨ (Rect.block (s := S100000x128) S5000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S100000x128.size a
  hwx8_1 : ∀ i : grid8.Coords, EltTy.bits .f32 = 32 ∨ (Rect.block (s := S100000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128x128.size a ≤ S128x128.size a
  hwx8_4 : ∀ i : grid8.Coords, EltTy.bits .f32 = 32 ∨ (Rect.block (s := S128x128) S128x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x128.size a ≤ S100000x128.size a
  hwx8_6 : ∀ i : grid8.Coords, EltTy.bits .f32 = 32 ∨ (Rect.block (s := S100000x128) S5000x128.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S8x128.size a ≤ S160x128.size a
  hwx8_7 : ∀ i : grid8.Coords, EltTy.bits .f32 = 32 ∨ (Rect.block (s := S160x128) S8x128.size (cc8_transform_7 i) (hinb8_7 i)).WholeWords (EltTy.packing .f32)
  hstage8_8 : ∀ j, (stage8_8 j).IsWhole
  nbuf8_8 : grid8.bufCount reads8_8 false = 2
  hreads8_8 : ∀ i i' : grid8.Coords, (∀ a, reads8_8 a = true → i a = i' a) → cc8_transform_8 i = cc8_transform_8 i'
  hinb8_8 : ∀ (i : grid8.Coords) a, (cc8_transform_8 i a + 1) * S8x128.size a ≤ S160x128.size a
  hwx8_8 : ∀ i : grid8.Coords, EltTy.bits .f32 = 32 ∨ (Rect.block (s := S160x128) S8x128.size (cc8_transform_8 i) (hinb8_8 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x128.size a ≤ S100000x128.size a
  hwx9_5 : ∀ i : grid9.Coords, EltTy.bits .f32 = 32 ∨ (Rect.block (s := S100000x128) S5000x128.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S5000x128.size a ≤ S100000x128.size a
  hwx9_6 : ∀ i : grid9.Coords, EltTy.bits .f32 = 32 ∨ (Rect.block (s := S100000x128) S5000x128.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S100000x128.size a
  hwx10_0 : ∀ i : grid10.Coords, EltTy.bits .f32 = 32 ∨ (Rect.block (s := S100000x128) S5000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x128.size a ≤ S100000x128.size a
  hwx10_1 : ∀ i : grid10.Coords, EltTy.bits .f32 = 32 ∨ (Rect.block (s := S100000x128) S5000x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x128.size a ≤ S128x128.size a
  hwx10_2 : ∀ i : grid10.Coords, EltTy.bits .f32 = 32 ∨ (Rect.block (s := S128x128) S128x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S128x128.size a ≤ S128x128.size a
  hwx10_4 : ∀ i : grid10.Coords, EltTy.bits .f32 = 32 ∨ (Rect.block (s := S128x128) S128x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x128.size a ≤ S1x128.size a
  hwx10_5 : ∀ i : grid10.Coords, EltTy.bits .f32 = 32 ∨ (Rect.block (s := S1x128) S1x128.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S5000x128.size a ≤ S100000x128.size a
  hwx10_6 : ∀ i : grid10.Coords, EltTy.bits .f32 = 32 ∨ (Rect.block (s := S100000x128) S5000x128.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S8x128.size a ≤ S160x128.size a
  hwx10_7 : ∀ i : grid10.Coords, EltTy.bits .f32 = 32 ∨ (Rect.block (s := S160x128) S8x128.size (cc10_transform_7 i) (hinb10_7 i)).WholeWords (EltTy.packing .f32)
  hstage10_8 : ∀ j, (stage10_8 j).IsWhole
  nbuf10_8 : grid10.bufCount reads10_8 false = 2
  hreads10_8 : ∀ i i' : grid10.Coords, (∀ a, reads10_8 a = true → i a = i' a) → cc10_transform_8 i = cc10_transform_8 i'
  hinb10_8 : ∀ (i : grid10.Coords) a, (cc10_transform_8 i a + 1) * S8x128.size a ≤ S160x128.size a
  hwx10_8 : ∀ i : grid10.Coords, EltTy.bits .f32 = 32 ∨ (Rect.block (s := S160x128) S8x128.size (cc10_transform_8 i) (hinb10_8 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S100000x128.size a
  hwx11_0 : ∀ i : grid11.Coords, EltTy.bits .f32 = 32 ∨ (Rect.block (s := S100000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x128.size a ≤ S100000x128.size a
  hwx11_5 : ∀ i : grid11.Coords, EltTy.bits .f32 = 32 ∨ (Rect.block (s := S100000x128) S5000x128.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S100000x128.size a
  hwx12_0 : ∀ i : grid12.Coords, EltTy.bits .f32 = 32 ∨ (Rect.block (s := S100000x128) S5000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x128.size a ≤ S100000x128.size a
  hwx12_1 : ∀ i : grid12.Coords, EltTy.bits .f32 = 32 ∨ (Rect.block (s := S100000x128) S5000x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S128x128.size a ≤ S128x128.size a
  hwx12_2 : ∀ i : grid12.Coords, EltTy.bits .f32 = 32 ∨ (Rect.block (s := S128x128) S128x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x128.size a ≤ S1x128.size a
  hwx12_3 : ∀ i : grid12.Coords, EltTy.bits .f32 = 32 ∨ (Rect.block (s := S1x128) S1x128.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S128x128.size a ≤ S128x128.size a
  hwx12_4 : ∀ i : grid12.Coords, EltTy.bits .f32 = 32 ∨ (Rect.block (s := S128x128) S128x128.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S1x128.size a ≤ S1x128.size a
  hwx12_5 : ∀ i : grid12.Coords, EltTy.bits .f32 = 32 ∨ (Rect.block (s := S1x128) S1x128.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S5000x128.size a ≤ S100000x128.size a
  hwx12_6 : ∀ i : grid12.Coords, EltTy.bits .f32 = 32 ∨ (Rect.block (s := S100000x128) S5000x128.size (cc12_transform_6 i) (hinb12_6 i)).WholeWords (EltTy.packing .f32)
  hstage12_7 : ∀ j, (stage12_7 j).IsWhole
  nbuf12_7 : grid12.bufCount reads12_7 false = 2
  hreads12_7 : ∀ i i' : grid12.Coords, (∀ a, reads12_7 a = true → i a = i' a) → cc12_transform_7 i = cc12_transform_7 i'
  hinb12_7 : ∀ (i : grid12.Coords) a, (cc12_transform_7 i a + 1) * S8x128.size a ≤ S160x128.size a
  hwx12_7 : ∀ i : grid12.Coords, EltTy.bits .f32 = 32 ∨ (Rect.block (s := S160x128) S8x128.size (cc12_transform_7 i) (hinb12_7 i)).WholeWords (EltTy.packing .f32)
  hstage12_8 : ∀ j, (stage12_8 j).IsWhole
  nbuf12_8 : grid12.bufCount reads12_8 false = 2
  hreads12_8 : ∀ i i' : grid12.Coords, (∀ a, reads12_8 a = true → i a = i' a) → cc12_transform_8 i = cc12_transform_8 i'
  hinb12_8 : ∀ (i : grid12.Coords) a, (cc12_transform_8 i a + 1) * S8x128.size a ≤ S160x128.size a
  hwx12_8 : ∀ i : grid12.Coords, EltTy.bits .f32 = 32 ∨ (Rect.block (s := S160x128) S8x128.size (cc12_transform_8 i) (hinb12_8 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S100000x128.size a
  hwx13_0 : ∀ i : grid13.Coords, EltTy.bits .f32 = 32 ∨ (Rect.block (s := S100000x128) S5000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x128.size a ≤ S1x128.size a
  hwx13_1 : ∀ i : grid13.Coords, EltTy.bits .f32 = 32 ∨ (Rect.block (s := S1x128) S1x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x128.size a ≤ S1x128.size a
  hwx13_3 : ∀ i : grid13.Coords, EltTy.bits .f32 = 32 ∨ (Rect.block (s := S1x128) S1x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x128.size a ≤ S1x128.size a
  hwx13_4 : ∀ i : grid13.Coords, EltTy.bits .f32 = 32 ∨ (Rect.block (s := S1x128) S1x128.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S5000x128.size a ≤ S100000x128.size a
  hwx13_5 : ∀ i : grid13.Coords, EltTy.bits .f32 = 32 ∨ (Rect.block (s := S100000x128) S5000x128.size (cc13_transform_5 i) (hinb13_5 i)).WholeWords (EltTy.packing .f32)
  hstage13_6 : ∀ j, (stage13_6 j).IsWhole
  nbuf13_6 : grid13.bufCount reads13_6 false = 2
  hreads13_6 : ∀ i i' : grid13.Coords, (∀ a, reads13_6 a = true → i a = i' a) → cc13_transform_6 i = cc13_transform_6 i'
  hinb13_6 : ∀ (i : grid13.Coords) a, (cc13_transform_6 i a + 1) * S5000x128.size a ≤ S100000x128.size a
  hwx13_6 : ∀ i : grid13.Coords, EltTy.bits .f32 = 32 ∨ (Rect.block (s := S100000x128) S5000x128.size (cc13_transform_6 i) (hinb13_6 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x128.size a ≤ S100000x128.size a
  hwx14_0 : ∀ i : grid14.Coords, EltTy.bits .f32 = 32 ∨ (Rect.block (s := S100000x128) S5000x128.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S5000x128.size a ≤ S100000x128.size a
  hwx14_1 : ∀ i : grid14.Coords, EltTy.bits .f32 = 32 ∨ (Rect.block (s := S100000x128) S5000x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S128x32.size a ≤ S128x32.size a
  hwx14_2 : ∀ i : grid14.Coords, EltTy.bits .f32 = 32 ∨ (Rect.block (s := S128x32) S128x32.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x32.size a ≤ S1x32.size a
  hwx14_3 : ∀ i : grid14.Coords, EltTy.bits .f32 = 32 ∨ (Rect.block (s := S1x32) S1x32.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S32x3.size a ≤ S32x3.size a
  hwx14_4 : ∀ i : grid14.Coords, EltTy.bits .f32 = 32 ∨ (Rect.block (s := S32x3) S32x3.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S1x3.size a ≤ S1x3.size a
  hwx14_5 : ∀ i : grid14.Coords, EltTy.bits .f32 = 32 ∨ (Rect.block (s := S1x3) S1x3.size (cc14_transform_5 i) (hinb14_5 i)).WholeWords (EltTy.packing .f32)
  hstage14_6 : ∀ j, (stage14_6 j).IsWhole
  nbuf14_6 : grid14.bufCount reads14_6 false = 2
  hreads14_6 : ∀ i i' : grid14.Coords, (∀ a, reads14_6 a = true → i a = i' a) → cc14_transform_6 i = cc14_transform_6 i'
  hinb14_6 : ∀ (i : grid14.Coords) a, (cc14_transform_6 i a + 1) * S5000x3.size a ≤ S100000x3.size a
  hwx14_6 : ∀ i : grid14.Coords, EltTy.bits .f32 = 32 ∨ (Rect.block (s := S100000x3) S5000x3.size (cc14_transform_6 i) (hinb14_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def dot_S5000x32_S32x3_S5000x3_1_0_0_1_n_n : DotDims S5000x32 S32x3 S5000x3 where
  lhsContracting := [1]
  rhsContracting := [0]
  lhsNonContracting := [0]
  rhsNonContracting := [1]
  lhsBatch := []
  rhsBatch := []
  wf := dot_S5000x32_S32x3_S5000x3_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S8x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v16_2) S8x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v16_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v31) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v56_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v56_1) S8x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v56_2) S8x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v56_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v71) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v71) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v93) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v73) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v94) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v77) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v95) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v96_0) S5000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v96_1) S8x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v96_2) S8x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v96_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v107) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v108) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v109) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v110) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v31) S5000x128.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v111) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v111) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v133) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v113) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v134) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v117) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v135) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v136_0) S5000x128.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v136_1) S8x128.size cc6_transform_7 reads6_7 true false 2 stage6_7 sem6_7
    hrank6 hreads6_7 hinb6_7 nbuf6_7 (Memref.isWhole_whole _) hwx6_7 hstage6_7

abbrev win6_8 : Pipeline.Window sig grid6 :=
  Pipeline.Window.ofSpec (Memref.whole main_v136_2) S8x128.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v136_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v147) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v148) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v149) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v150) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v151) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v151) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v173) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v153) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v174) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v157) S128x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v175) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v176_0) S5000x128.size cc8_transform_6 reads8_6 true false 2 stage8_6 sem8_6
    hrank8 hreads8_6 hinb8_6 nbuf8_6 (Memref.isWhole_whole _) hwx8_6 hstage8_6

abbrev win8_7 : Pipeline.Window sig grid8 :=
  Pipeline.Window.ofSpec (Memref.whole main_v176_1) S8x128.size cc8_transform_7 reads8_7 true false 2 stage8_7 sem8_7
    hrank8 hreads8_7 hinb8_7 nbuf8_7 (Memref.isWhole_whole _) hwx8_7 hstage8_7

abbrev win8_8 : Pipeline.Window sig grid8 :=
  Pipeline.Window.ofSpec (Memref.whole main_v176_2) S8x128.size cc8_transform_8 reads8_8 true false 2 stage8_8 sem8_8
    hrank8 hreads8_8 hinb8_8 nbuf8_8 (Memref.isWhole_whole _) hwx8_8 hstage8_8

abbrev win8 : Fin 9 → Pipeline.Window sig grid8 := fun | 0 => win8_0 | 1 => win8_1 | 2 => win8_2 | 3 => win8_3 | 4 => win8_4 | 5 => win8_5 | 6 => win8_6 | 7 => win8_7 | 8 => win8_8 | ⟨_ + 9, h⟩ => absurd h (Nat.not_lt.2 (Nat.le_add_left _ _))
abbrev spec8 : Fin 9 → Pipeline.WinSpec sig grid8.rank := fun w => (win8 w).toWinSpec

abbrev win9_0 : Pipeline.Window sig grid9 :=
  Pipeline.Window.ofSpec (Memref.whole main_v176_0) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v187) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v188) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v189) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v190) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v111) S5000x128.size cc9_transform_5 reads9_5 false false 2 stage9_5 sem9_5
    hrank9 hreads9_5 hinb9_5 nbuf9_5 (Memref.isWhole_whole _) hwx9_5 hstage9_5

abbrev win9_6 : Pipeline.Window sig grid9 :=
  Pipeline.Window.ofSpec (Memref.whole main_v191) S5000x128.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v191) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v213) S5000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v193) S128x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v214) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v197) S128x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v215) S1x128.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v216_0) S5000x128.size cc10_transform_6 reads10_6 true false 2 stage10_6 sem10_6
    hrank10 hreads10_6 hinb10_6 nbuf10_6 (Memref.isWhole_whole _) hwx10_6 hstage10_6

abbrev win10_7 : Pipeline.Window sig grid10 :=
  Pipeline.Window.ofSpec (Memref.whole main_v216_1) S8x128.size cc10_transform_7 reads10_7 true false 2 stage10_7 sem10_7
    hrank10 hreads10_7 hinb10_7 nbuf10_7 (Memref.isWhole_whole _) hwx10_7 hstage10_7

abbrev win10_8 : Pipeline.Window sig grid10 :=
  Pipeline.Window.ofSpec (Memref.whole main_v216_2) S8x128.size cc10_transform_8 reads10_8 true false 2 stage10_8 sem10_8
    hrank10 hreads10_8 hinb10_8 nbuf10_8 (Memref.isWhole_whole _) hwx10_8 hstage10_8

abbrev win10 : Fin 9 → Pipeline.Window sig grid10 := fun | 0 => win10_0 | 1 => win10_1 | 2 => win10_2 | 3 => win10_3 | 4 => win10_4 | 5 => win10_5 | 6 => win10_6 | 7 => win10_7 | 8 => win10_8 | ⟨_ + 9, h⟩ => absurd h (Nat.not_lt.2 (Nat.le_add_left _ _))
abbrev spec10 : Fin 9 → Pipeline.WinSpec sig grid10.rank := fun w => (win10 w).toWinSpec

abbrev win11_0 : Pipeline.Window sig grid11 :=
  Pipeline.Window.ofSpec (Memref.whole main_v216_0) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v227) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v228) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v229) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v230) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v231) S5000x128.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v231) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v253) S5000x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v233) S128x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v254) S1x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v237) S128x128.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v255) S1x128.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v256_0) S5000x128.size cc12_transform_6 reads12_6 true false 2 stage12_6 sem12_6
    hrank12 hreads12_6 hinb12_6 nbuf12_6 (Memref.isWhole_whole _) hwx12_6 hstage12_6

abbrev win12_7 : Pipeline.Window sig grid12 :=
  Pipeline.Window.ofSpec (Memref.whole main_v256_1) S8x128.size cc12_transform_7 reads12_7 true false 2 stage12_7 sem12_7
    hrank12 hreads12_7 hinb12_7 nbuf12_7 (Memref.isWhole_whole _) hwx12_7 hstage12_7

abbrev win12_8 : Pipeline.Window sig grid12 :=
  Pipeline.Window.ofSpec (Memref.whole main_v256_2) S8x128.size cc12_transform_8 reads12_8 true false 2 stage12_8 sem12_8
    hrank12 hreads12_8 hinb12_8 nbuf12_8 (Memref.isWhole_whole _) hwx12_8 hstage12_8

abbrev win12 : Fin 9 → Pipeline.Window sig grid12 := fun | 0 => win12_0 | 1 => win12_1 | 2 => win12_2 | 3 => win12_3 | 4 => win12_4 | 5 => win12_5 | 6 => win12_6 | 7 => win12_7 | 8 => win12_8 | ⟨_ + 9, h⟩ => absurd h (Nat.not_lt.2 (Nat.le_add_left _ _))
abbrev spec12 : Fin 9 → Pipeline.WinSpec sig grid12.rank := fun w => (win12 w).toWinSpec

abbrev win13_0 : Pipeline.Window sig grid13 :=
  Pipeline.Window.ofSpec (Memref.whole main_v256_0) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v267) S1x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v268) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v269) S1x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v270) S1x128.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v191) S5000x128.size cc13_transform_5 reads13_5 false false 2 stage13_5 sem13_5
    hrank13 hreads13_5 hinb13_5 nbuf13_5 (Memref.isWhole_whole _) hwx13_5 hstage13_5

abbrev win13_6 : Pipeline.Window sig grid13 :=
  Pipeline.Window.ofSpec (Memref.whole main_v271) S5000x128.size cc13_transform_6 reads13_6 true false 2 stage13_6 sem13_6
    hrank13 hreads13_6 hinb13_6 nbuf13_6 (Memref.isWhole_whole _) hwx13_6 hstage13_6

abbrev win13 : Fin 7 → Pipeline.Window sig grid13 := fun | 0 => win13_0 | 1 => win13_1 | 2 => win13_2 | 3 => win13_3 | 4 => win13_4 | 5 => win13_5 | 6 => win13_6 | ⟨_ + 7, h⟩ => absurd h (Nat.not_lt.2 (Nat.le_add_left _ _))
abbrev spec13 : Fin 7 → Pipeline.WinSpec sig grid13.rank := fun w => (win13 w).toWinSpec

abbrev win14_0 : Pipeline.Window sig grid14 :=
  Pipeline.Window.ofSpec (Memref.whole main_v271) S5000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v281) S5000x128.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_arg14) S128x32.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v282) S1x32.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_arg16) S32x3.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v283) S1x3.size cc14_transform_5 reads14_5 false true 1 stage14_5 sem14_5
    hrank14 hreads14_5 hinb14_5 nbuf14_5 (Memref.isWhole_whole _) hwx14_5 hstage14_5

abbrev win14_6 : Pipeline.Window sig grid14 :=
  Pipeline.Window.ofSpec (Memref.whole main_v284) S5000x3.size cc14_transform_6 reads14_6 true false 2 stage14_6 sem14_6
    hrank14 hreads14_6 hinb14_6 nbuf14_6 (Memref.isWhole_whole _) hwx14_6 hstage14_6

abbrev win14 : Fin 7 → Pipeline.Window sig grid14 := fun | 0 => win14_0 | 1 => win14_1 | 2 => win14_2 | 3 => win14_3 | 4 => win14_4 | 5 => win14_5 | 6 => win14_6 | ⟨_ + 7, h⟩ => absurd h (Nat.not_lt.2 (Nat.le_add_left _ _))
abbrev spec14 : Fin 7 → Pipeline.WinSpec sig grid14.rank := fun w => (win14 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S6x128x128 : Shape := ⟨3, ![6, 128, 128]⟩
abbrev S6x128 : Shape := ⟨2, ![6, 128]⟩
abbrev S128x32 : Shape := ⟨2, ![128, 32]⟩
abbrev S32 : Shape := ⟨1, ![32]⟩
abbrev S32x3 : Shape := ⟨2, ![32, 3]⟩
abbrev S3 : Shape := ⟨1, ![3]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x256 : Shape := ⟨2, ![100000, 256]⟩
abbrev S1x256 : Shape := ⟨2, ![1, 256]⟩
abbrev S1x128 : Shape := ⟨2, ![1, 128]⟩
abbrev S1x128x128 : Shape := ⟨3, ![1, 128, 128]⟩
abbrev S128x128 : Shape := ⟨2, ![128, 128]⟩
abbrev S100000x32 : Shape := ⟨2, ![100000, 32]⟩
abbrev S1x32 : Shape := ⟨2, ![1, 32]⟩
abbrev S100000x3 : Shape := ⟨2, ![100000, 3]⟩
abbrev S1x3 : Shape := ⟨2, ![1, 3]⟩

abbrev nBuf : Space → Nat
  | .hbm => 626
  | .vmem => 0
  | .smem => 0
  | _ => 0

abbrev hbmTy0_0 (i : Nat) : BufTy := match i % 128 with
  | 0 => ⟨S100000x128, .f32⟩
  | 1 => ⟨S2x1600000, .i32⟩
  | 2 => ⟨S128x256, .f32⟩
  | 3 => ⟨S256, .f32⟩
  | 4 => ⟨S256x128, .f32⟩
  | 5 => ⟨S128, .f32⟩
  | 6 => ⟨S128, .f32⟩
  | 7 => ⟨S128, .f32⟩
  | 8 => ⟨S6x128x128, .f32⟩
  | 9 => ⟨S6x128, .f32⟩
  | 10 => ⟨S6x128x128, .f32⟩
  | 11 => ⟨S6x128, .f32⟩
  | 12 => ⟨S6x128, .f32⟩
  | 13 => ⟨S6x128, .f32⟩
  | 14 => ⟨S128x32, .f32⟩
  | 15 => ⟨S32, .f32⟩
  | 16 => ⟨S32x3, .f32⟩
  | 17 => ⟨S3, .f32⟩
  | 18 => ⟨S1x1600000, .i32⟩
  | 19 => ⟨S1600000, .i32⟩
  | 20 => ⟨S1x1600000, .i32⟩
  | 21 => ⟨S1600000, .i32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S100000x128, .f32⟩
  | 36 => ⟨S100000x256, .f32⟩
  | 37 => ⟨S1x256, .f32⟩
  | 38 => ⟨S100000x256, .f32⟩
  | 39 => ⟨S100000x256, .f32⟩
  | 40 => ⟨S_, .f32⟩
  | 41 => ⟨S100000x256, .f32⟩
  | 42 => ⟨S100000x256, .f32⟩
  | 43 => ⟨S100000x128, .f32⟩
  | 44 => ⟨S1x128, .f32⟩
  | 45 => ⟨S100000x128, .f32⟩
  | 46 => ⟨S100000x128, .f32⟩
  | 47 => ⟨S_, .f32⟩
  | 48 => ⟨S128, .f32⟩
  | 49 => ⟨S_, .f32⟩
  | 50 => ⟨S128, .f32⟩
  | 51 => ⟨S128, .f32⟩
  | 52 => ⟨S_, .i32⟩
  | 53 => ⟨S_, .f32⟩
  | 54 => ⟨S128, .f32⟩
  | 55 => ⟨S1x128, .f32⟩
  | 56 => ⟨S_, .f32⟩
  | 57 => ⟨S1x128, .f32⟩
  | 58 => ⟨S1x128, .f32⟩
  | 59 => ⟨S100000x128, .f32⟩
  | 60 => ⟨S100000x128, .f32⟩
  | 61 => ⟨S100000x128, .f32⟩
  | 62 => ⟨S_, .f32⟩
  | 63 => ⟨S_, .f32⟩
  | 64 => ⟨S_, .f32⟩
  | 65 => ⟨S_, .f32⟩
  | 66 => ⟨S128, .f32⟩
  | 67 => ⟨S128, .f32⟩
  | 68 => ⟨S128, .f32⟩
  | 69 => ⟨S_, .f32⟩
  | 70 => ⟨S_, .i1⟩
  | 71 => ⟨S_, .f32⟩
  | 72 => ⟨S_, .f32⟩
  | 73 => ⟨S128, .f32⟩
  | 74 => ⟨S128, .f32⟩
  | 75 => ⟨S1x128, .f32⟩
  | 76 => ⟨S100000x128, .f32⟩
  | 77 => ⟨S100000x128, .f32⟩
  | 78 => ⟨S_, .f32⟩
  | 79 => ⟨S128, .f32⟩
  | 80 => ⟨S128, .f32⟩
  | 81 => ⟨S128, .f32⟩
  | 82 => ⟨S1x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S1x128x128, .f32⟩
  | 95 => ⟨S128x128, .f32⟩
  | 96 => ⟨S1x128, .f32⟩
  | 97 => ⟨S128, .f32⟩
  | 98 => ⟨S1x128x128, .f32⟩
  | 99 => ⟨S128x128, .f32⟩
  | 100 => ⟨S1x128, .f32⟩
  | 101 => ⟨S128, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x128, .f32⟩
  | 111 => ⟨S_, .f32⟩
  | 112 => ⟨S100000x128, .f32⟩
  | 113 => ⟨S1600000x1, .i32⟩
  | 114 => ⟨S100000x128, .f32⟩
  | 115 => ⟨S100000x128, .f32⟩
  | 116 => ⟨S100000x128, .f32⟩
  | 117 => ⟨S1x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S100000x128, .f32⟩
  | 124 => ⟨S1x128, .f32⟩
  | 125 => ⟨S100000x128, .f32⟩
  | 126 => ⟨S100000x128, .f32⟩
  | 127 => ⟨S1x128, .f32⟩
  | _ => ⟨S100000x128, .f32⟩

abbrev hbmTy0_1 (i : Nat) : BufTy := match i % 128 with
  | 0 => ⟨S128, .f32⟩
  | 1 => ⟨S1x128, .f32⟩
  | 2 => ⟨S128, .f32⟩
  | 3 => ⟨S_, .f32⟩
  | 4 => ⟨S128, .f32⟩
  | 5 => ⟨S_, .f32⟩
  | 6 => ⟨S128, .f32⟩
  | 7 => ⟨S128, .f32⟩
  | 8 => ⟨S_, .i32⟩
  | 9 => ⟨S_, .f32⟩
  | 10 => ⟨S128, .f32⟩
  | 11 => ⟨S1x128, .f32⟩
  | 12 => ⟨S_, .f32⟩
  | 13 => ⟨S1x128, .f32⟩
  | 14 => ⟨S1x128, .f32⟩
  | 15 => ⟨S100000x128, .f32⟩
  | 16 => ⟨S100000x128, .f32⟩
  | 17 => ⟨S100000x128, .f32⟩
  | 18 => ⟨S_, .f32⟩
  | 19 => ⟨S_, .f32⟩
  | 20 => ⟨S_, .f32⟩
  | 21 => ⟨S_, .f32⟩
  | 22 => ⟨S128, .f32⟩
  | 23 => ⟨S128, .f32⟩
  | 24 => ⟨S128, .f32⟩
  | 25 => ⟨S_, .f32⟩
  | 26 => ⟨S_, .i1⟩
  | 27 => ⟨S_, .f32⟩
  | 28 => ⟨S_, .f32⟩
  | 29 => ⟨S128, .f32⟩
  | 30 => ⟨S128, .f32⟩
  | 31 => ⟨S1x128, .f32⟩
  | 32 => ⟨S100000x128, .f32⟩
  | 33 => ⟨S100000x128, .f32⟩
  | 34 => ⟨S_, .f32⟩
  | 35 => ⟨S128, .f32⟩
  | 36 => ⟨S128, .f32⟩
  | 37 => ⟨S128, .f32⟩
  | 38 => ⟨S1x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S1x128, .f32⟩
  | 45 => ⟨S100000x128, .f32⟩
  | 46 => ⟨S100000x128, .f32⟩
  | 47 => ⟨S_, .f32⟩
  | 48 => ⟨S100000x128, .f32⟩
  | 49 => ⟨S100000x128, .f32⟩
  | 50 => ⟨S1x128x128, .f32⟩
  | 51 => ⟨S128x128, .f32⟩
  | 52 => ⟨S1x128, .f32⟩
  | 53 => ⟨S128, .f32⟩
  | 54 => ⟨S1x128x128, .f32⟩
  | 55 => ⟨S128x128, .f32⟩
  | 56 => ⟨S1x128, .f32⟩
  | 57 => ⟨S128, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S1x128, .f32⟩
  | 84 => ⟨S128, .f32⟩
  | 85 => ⟨S1x128, .f32⟩
  | 86 => ⟨S128, .f32⟩
  | 87 => ⟨S_, .f32⟩
  | 88 => ⟨S128, .f32⟩
  | 89 => ⟨S_, .f32⟩
  | 90 => ⟨S128, .f32⟩
  | 91 => ⟨S128, .f32⟩
  | 92 => ⟨S_, .i32⟩
  | 93 => ⟨S_, .f32⟩
  | 94 => ⟨S128, .f32⟩
  | 95 => ⟨S1x128, .f32⟩
  | 96 => ⟨S_, .f32⟩
  | 97 => ⟨S1x128, .f32⟩
  | 98 => ⟨S1x128, .f32⟩
  | 99 => ⟨S100000x128, .f32⟩
  | 100 => ⟨S100000x128, .f32⟩
  | 101 => ⟨S100000x128, .f32⟩
  | 102 => ⟨S_, .f32⟩
  | 103 => ⟨S_, .f32⟩
  | 104 => ⟨S_, .f32⟩
  | 105 => ⟨S_, .f32⟩
  | 106 => ⟨S128, .f32⟩
  | 107 => ⟨S128, .f32⟩
  | 108 => ⟨S128, .f32⟩
  | 109 => ⟨S_, .f32⟩
  | 110 => ⟨S_, .i1⟩
  | 111 => ⟨S_, .f32⟩
  | 112 => ⟨S_, .f32⟩
  | 113 => ⟨S128, .f32⟩
  | 114 => ⟨S128, .f32⟩
  | 115 => ⟨S1x128, .f32⟩
  | 116 => ⟨S100000x128, .f32⟩
  | 117 => ⟨S100000x128, .f32⟩
  | 118 => ⟨S_, .f32⟩
  | 119 => ⟨S128, .f32⟩
  | 120 => ⟨S128, .f32⟩
  | 121 => ⟨S128, .f32⟩
  | 122 => ⟨S1x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_2 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S100000x128, .f32⟩
  | 7 => ⟨S1x128x128, .f32⟩
  | 8 => ⟨S128x128, .f32⟩
  | 9 => ⟨S1x128, .f32⟩
  | 10 => ⟨S128, .f32⟩
  | 11 => ⟨S1x128x128, .f32⟩
  | 12 => ⟨S128x128, .f32⟩
  | 13 => ⟨S1x128, .f32⟩
  | 14 => ⟨S128, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x128, .f32⟩
  | 24 => ⟨S_, .f32⟩
  | 25 => ⟨S100000x128, .f32⟩
  | 26 => ⟨S1600000x1, .i32⟩
  | 27 => ⟨S100000x128, .f32⟩
  | 28 => ⟨S100000x128, .f32⟩
  | 29 => ⟨S100000x128, .f32⟩
  | 30 => ⟨S1x128, .f32⟩
  | 31 => ⟨S100000x128, .f32⟩
  | 32 => ⟨S100000x128, .f32⟩
  | 33 => ⟨S_, .f32⟩
  | 34 => ⟨S100000x128, .f32⟩
  | 35 => ⟨S100000x128, .f32⟩
  | 36 => ⟨S100000x128, .f32⟩
  | 37 => ⟨S1x128, .f32⟩
  | 38 => ⟨S100000x128, .f32⟩
  | 39 => ⟨S100000x128, .f32⟩
  | 40 => ⟨S1x128, .f32⟩
  | 41 => ⟨S128, .f32⟩
  | 42 => ⟨S1x128, .f32⟩
  | 43 => ⟨S128, .f32⟩
  | 44 => ⟨S_, .f32⟩
  | 45 => ⟨S128, .f32⟩
  | 46 => ⟨S_, .f32⟩
  | 47 => ⟨S128, .f32⟩
  | 48 => ⟨S128, .f32⟩
  | 49 => ⟨S_, .i32⟩
  | 50 => ⟨S_, .f32⟩
  | 51 => ⟨S128, .f32⟩
  | 52 => ⟨S1x128, .f32⟩
  | 53 => ⟨S_, .f32⟩
  | 54 => ⟨S1x128, .f32⟩
  | 55 => ⟨S1x128, .f32⟩
  | 56 => ⟨S100000x128, .f32⟩
  | 57 => ⟨S100000x128, .f32⟩
  | 58 => ⟨S100000x128, .f32⟩
  | 59 => ⟨S_, .f32⟩
  | 60 => ⟨S_, .f32⟩
  | 61 => ⟨S_, .f32⟩
  | 62 => ⟨S_, .f32⟩
  | 63 => ⟨S128, .f32⟩
  | 64 => ⟨S128, .f32⟩
  | 65 => ⟨S128, .f32⟩
  | 66 => ⟨S_, .f32⟩
  | 67 => ⟨S_, .i1⟩
  | 68 => ⟨S_, .f32⟩
  | 69 => ⟨S_, .f32⟩
  | 70 => ⟨S128, .f32⟩
  | 71 => ⟨S128, .f32⟩
  | 72 => ⟨S1x128, .f32⟩
  | 73 => ⟨S100000x128, .f32⟩
  | 74 => ⟨S100000x128, .f32⟩
  | 75 => ⟨S_, .f32⟩
  | 76 => ⟨S128, .f32⟩
  | 77 => ⟨S128, .f32⟩
  | 78 => ⟨S128, .f32⟩
  | 79 => ⟨S1x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S1x128x128, .f32⟩
  | 92 => ⟨S128x128, .f32⟩
  | 93 => ⟨S1x128, .f32⟩
  | 94 => ⟨S128, .f32⟩
  | 95 => ⟨S1x128x128, .f32⟩
  | 96 => ⟨S128x128, .f32⟩
  | 97 => ⟨S1x128, .f32⟩
  | 98 => ⟨S128, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S_, .f32⟩
  | 109 => ⟨S100000x128, .f32⟩
  | 110 => ⟨S1600000x1, .i32⟩
  | 111 => ⟨S100000x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S100000x128, .f32⟩
  | 121 => ⟨S1x128, .f32⟩
  | 122 => ⟨S100000x128, .f32⟩
  | 123 => ⟨S100000x128, .f32⟩
  | 124 => ⟨S1x128, .f32⟩
  | 125 => ⟨S128, .f32⟩
  | 126 => ⟨S1x128, .f32⟩
  | 127 => ⟨S128, .f32⟩
  | _ => ⟨S100000x128, .f32⟩

abbrev hbmTy0_3 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S_, .i32⟩
  | 6 => ⟨S_, .f32⟩
  | 7 => ⟨S128, .f32⟩
  | 8 => ⟨S1x128, .f32⟩
  | 9 => ⟨S_, .f32⟩
  | 10 => ⟨S1x128, .f32⟩
  | 11 => ⟨S1x128, .f32⟩
  | 12 => ⟨S100000x128, .f32⟩
  | 13 => ⟨S100000x128, .f32⟩
  | 14 => ⟨S100000x128, .f32⟩
  | 15 => ⟨S_, .f32⟩
  | 16 => ⟨S_, .f32⟩
  | 17 => ⟨S_, .f32⟩
  | 18 => ⟨S_, .f32⟩
  | 19 => ⟨S128, .f32⟩
  | 20 => ⟨S128, .f32⟩
  | 21 => ⟨S128, .f32⟩
  | 22 => ⟨S_, .f32⟩
  | 23 => ⟨S_, .i1⟩
  | 24 => ⟨S_, .f32⟩
  | 25 => ⟨S_, .f32⟩
  | 26 => ⟨S128, .f32⟩
  | 27 => ⟨S128, .f32⟩
  | 28 => ⟨S1x128, .f32⟩
  | 29 => ⟨S100000x128, .f32⟩
  | 30 => ⟨S100000x128, .f32⟩
  | 31 => ⟨S_, .f32⟩
  | 32 => ⟨S128, .f32⟩
  | 33 => ⟨S128, .f32⟩
  | 34 => ⟨S128, .f32⟩
  | 35 => ⟨S1x128, .f32⟩
  | 36 => ⟨S100000x128, .f32⟩
  | 37 => ⟨S100000x128, .f32⟩
  | 38 => ⟨S1x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S_, .f32⟩
  | 45 => ⟨S100000x128, .f32⟩
  | 46 => ⟨S100000x128, .f32⟩
  | 47 => ⟨S100000x128, .f32⟩
  | 48 => ⟨S1x128x128, .f32⟩
  | 49 => ⟨S128x128, .f32⟩
  | 50 => ⟨S1x128, .f32⟩
  | 51 => ⟨S128, .f32⟩
  | 52 => ⟨S1x128x128, .f32⟩
  | 53 => ⟨S128x128, .f32⟩
  | 54 => ⟨S1x128, .f32⟩
  | 55 => ⟨S128, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x128, .f32⟩
  | 65 => ⟨S_, .f32⟩
  | 66 => ⟨S100000x128, .f32⟩
  | 67 => ⟨S1600000x1, .i32⟩
  | 68 => ⟨S100000x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S1x128, .f32⟩
  | 82 => ⟨S128, .f32⟩
  | 83 => ⟨S1x128, .f32⟩
  | 84 => ⟨S128, .f32⟩
  | 85 => ⟨S_, .f32⟩
  | 86 => ⟨S128, .f32⟩
  | 87 => ⟨S_, .f32⟩
  | 88 => ⟨S128, .f32⟩
  | 89 => ⟨S128, .f32⟩
  | 90 => ⟨S_, .i32⟩
  | 91 => ⟨S_, .f32⟩
  | 92 => ⟨S128, .f32⟩
  | 93 => ⟨S1x128, .f32⟩
  | 94 => ⟨S_, .f32⟩
  | 95 => ⟨S1x128, .f32⟩
  | 96 => ⟨S1x128, .f32⟩
  | 97 => ⟨S100000x128, .f32⟩
  | 98 => ⟨S100000x128, .f32⟩
  | 99 => ⟨S100000x128, .f32⟩
  | 100 => ⟨S_, .f32⟩
  | 101 => ⟨S_, .f32⟩
  | 102 => ⟨S_, .f32⟩
  | 103 => ⟨S_, .f32⟩
  | 104 => ⟨S128, .f32⟩
  | 105 => ⟨S128, .f32⟩
  | 106 => ⟨S128, .f32⟩
  | 107 => ⟨S_, .f32⟩
  | 108 => ⟨S_, .i1⟩
  | 109 => ⟨S_, .f32⟩
  | 110 => ⟨S_, .f32⟩
  | 111 => ⟨S128, .f32⟩
  | 112 => ⟨S128, .f32⟩
  | 113 => ⟨S1x128, .f32⟩
  | 114 => ⟨S100000x128, .f32⟩
  | 115 => ⟨S100000x128, .f32⟩
  | 116 => ⟨S_, .f32⟩
  | 117 => ⟨S128, .f32⟩
  | 118 => ⟨S128, .f32⟩
  | 119 => ⟨S128, .f32⟩
  | 120 => ⟨S1x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S1x128, .f32⟩
  | 127 => ⟨S100000x128, .f32⟩
  | _ => ⟨S100000x128, .f32⟩

abbrev hbmTy0_4 (i : Nat) : BufTy := match i % 128 with
  | 0 => ⟨S100000x128, .f32⟩
  | 1 => ⟨S_, .f32⟩
  | 2 => ⟨S100000x128, .f32⟩
  | 3 => ⟨S100000x128, .f32⟩
  | 4 => ⟨S1x128x128, .f32⟩
  | 5 => ⟨S128x128, .f32⟩
  | 6 => ⟨S1x128, .f32⟩
  | 7 => ⟨S128, .f32⟩
  | 8 => ⟨S1x128x128, .f32⟩
  | 9 => ⟨S128x128, .f32⟩
  | 10 => ⟨S1x128, .f32⟩
  | 11 => ⟨S128, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x128, .f32⟩
  | 21 => ⟨S_, .f32⟩
  | 22 => ⟨S100000x128, .f32⟩
  | 23 => ⟨S1600000x1, .i32⟩
  | 24 => ⟨S100000x128, .f32⟩
  | 25 => ⟨S100000x128, .f32⟩
  | 26 => ⟨S100000x128, .f32⟩
  | 27 => ⟨S1x128, .f32⟩
  | 28 => ⟨S100000x128, .f32⟩
  | 29 => ⟨S100000x128, .f32⟩
  | 30 => ⟨S_, .f32⟩
  | 31 => ⟨S100000x128, .f32⟩
  | 32 => ⟨S100000x128, .f32⟩
  | 33 => ⟨S100000x128, .f32⟩
  | 34 => ⟨S1x128, .f32⟩
  | 35 => ⟨S100000x128, .f32⟩
  | 36 => ⟨S100000x128, .f32⟩
  | 37 => ⟨S1x128, .f32⟩
  | 38 => ⟨S128, .f32⟩
  | 39 => ⟨S1x128, .f32⟩
  | 40 => ⟨S128, .f32⟩
  | 41 => ⟨S_, .f32⟩
  | 42 => ⟨S128, .f32⟩
  | 43 => ⟨S_, .f32⟩
  | 44 => ⟨S128, .f32⟩
  | 45 => ⟨S128, .f32⟩
  | 46 => ⟨S_, .i32⟩
  | 47 => ⟨S_, .f32⟩
  | 48 => ⟨S128, .f32⟩
  | 49 => ⟨S1x128, .f32⟩
  | 50 => ⟨S_, .f32⟩
  | 51 => ⟨S1x128, .f32⟩
  | 52 => ⟨S1x128, .f32⟩
  | 53 => ⟨S100000x128, .f32⟩
  | 54 => ⟨S100000x128, .f32⟩
  | 55 => ⟨S100000x128, .f32⟩
  | 56 => ⟨S_, .f32⟩
  | 57 => ⟨S_, .f32⟩
  | 58 => ⟨S_, .f32⟩
  | 59 => ⟨S_, .f32⟩
  | 60 => ⟨S128, .f32⟩
  | 61 => ⟨S128, .f32⟩
  | 62 => ⟨S128, .f32⟩
  | 63 => ⟨S_, .f32⟩
  | 64 => ⟨S_, .i1⟩
  | 65 => ⟨S_, .f32⟩
  | 66 => ⟨S_, .f32⟩
  | 67 => ⟨S128, .f32⟩
  | 68 => ⟨S128, .f32⟩
  | 69 => ⟨S1x128, .f32⟩
  | 70 => ⟨S100000x128, .f32⟩
  | 71 => ⟨S100000x128, .f32⟩
  | 72 => ⟨S_, .f32⟩
  | 73 => ⟨S128, .f32⟩
  | 74 => ⟨S128, .f32⟩
  | 75 => ⟨S128, .f32⟩
  | 76 => ⟨S1x128, .f32⟩
  | 77 => ⟨S100000x128, .f32⟩
  | 78 => ⟨S100000x128, .f32⟩
  | 79 => ⟨S1x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S_, .f32⟩
  | 86 => ⟨S100000x128, .f32⟩
  | 87 => ⟨S100000x128, .f32⟩
  | 88 => ⟨S100000x128, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x128, .f32⟩
  | 98 => ⟨S_, .f32⟩
  | 99 => ⟨S100000x128, .f32⟩
  | 100 => ⟨S1600000x1, .i32⟩
  | 101 => ⟨S100000x128, .f32⟩
  | 102 => ⟨S100000x128, .f32⟩
  | 103 => ⟨S100000x32, .f32⟩
  | 104 => ⟨S1x32, .f32⟩
  | 105 => ⟨S100000x32, .f32⟩
  | 106 => ⟨S100000x32, .f32⟩
  | 107 => ⟨S_, .f32⟩
  | 108 => ⟨S100000x32, .f32⟩
  | 109 => ⟨S100000x32, .f32⟩
  | 110 => ⟨S100000x3, .f32⟩
  | 111 => ⟨S1x3, .f32⟩
  | 112 => ⟨S100000x3, .f32⟩
  | 113 => ⟨S100000x3, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_2 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_c_4 : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_cst_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_cst_1 : Ref sig .tc := ⟨.hbm, 63, rfl⟩
abbrev main_call0_v8 : Ref sig .tc := ⟨.hbm, 64, rfl⟩
abbrev main_call0_cst_2 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_cst_3 : Ref sig .tc := ⟨.hbm, 69, rfl⟩
abbrev main_call0_v12 : Ref sig .tc := ⟨.hbm, 70, rfl⟩
abbrev main_call0_cst_4 : Ref sig .tc := ⟨.hbm, 71, rfl⟩
abbrev main_call0_call0_v0 : Ref sig .tc := ⟨.hbm, 72, rfl⟩
abbrev main_call0_call0_v1 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_cst_5 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_cst_6 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_c_7 : Ref sig .tc := ⟨.hbm, 102, rfl⟩
abbrev main_v54 : Ref sig .tc := ⟨.hbm, 103, rfl⟩
abbrev main_v55 : Ref sig .tc := ⟨.hbm, 104, rfl⟩
abbrev main_c_8 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_cst_9 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_cst_10 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_cst_11 : Ref sig .tc := ⟨.hbm, 131, rfl⟩
abbrev main_v79 : Ref sig .tc := ⟨.hbm, 132, rfl⟩
abbrev main_cst_12 : Ref sig .tc := ⟨.hbm, 133, rfl⟩
abbrev main_v80 : Ref sig .tc := ⟨.hbm, 134, rfl⟩
abbrev main_v81 : Ref sig .tc := ⟨.hbm, 135, rfl⟩
abbrev main_c_13 : Ref sig .tc := ⟨.hbm, 136, rfl⟩
abbrev main_call1_cst : Ref sig .tc := ⟨.hbm, 137, rfl⟩
abbrev main_call1_v0 : Ref sig .tc := ⟨.hbm, 138, rfl⟩
abbrev main_call1_v1 : Ref sig .tc := ⟨.hbm, 139, rfl⟩
abbrev main_call1_cst_0 : Ref sig .tc := ⟨.hbm, 140, rfl⟩
abbrev main_call1_v2 : Ref sig .tc := ⟨.hbm, 141, rfl⟩
abbrev main_call1_v3 : Ref sig .tc := ⟨.hbm, 142, rfl⟩
abbrev main_call1_v4 : Ref sig .tc := ⟨.hbm, 143, rfl⟩
abbrev main_call1_v5 : Ref sig .tc := ⟨.hbm, 144, rfl⟩
abbrev main_call1_v6 : Ref sig .tc := ⟨.hbm, 145, rfl⟩
abbrev main_call1_v7 : Ref sig .tc := ⟨.hbm, 146, rfl⟩
abbrev main_call1_cst_1 : Ref sig .tc := ⟨.hbm, 147, rfl⟩
abbrev main_call1_v8 : Ref sig .tc := ⟨.hbm, 148, rfl⟩
abbrev main_call1_cst_2 : Ref sig .tc := ⟨.hbm, 149, rfl⟩
abbrev main_call1_v9 : Ref sig .tc := ⟨.hbm, 150, rfl⟩
abbrev main_call1_v10 : Ref sig .tc := ⟨.hbm, 151, rfl⟩
abbrev main_call1_v11 : Ref sig .tc := ⟨.hbm, 152, rfl⟩
abbrev main_call1_cst_3 : Ref sig .tc := ⟨.hbm, 153, rfl⟩
abbrev main_call1_v12 : Ref sig .tc := ⟨.hbm, 154, rfl⟩
abbrev main_call1_cst_4 : Ref sig .tc := ⟨.hbm, 155, rfl⟩
abbrev main_call1_call0_v0 : Ref sig .tc := ⟨.hbm, 156, rfl⟩
abbrev main_call1_call0_v1 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_cst_14 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_cst_15 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_c_16 : Ref sig .tc := ⟨.hbm, 186, rfl⟩
abbrev main_v108 : Ref sig .tc := ⟨.hbm, 187, rfl⟩
abbrev main_v109 : Ref sig .tc := ⟨.hbm, 188, rfl⟩
abbrev main_c_17 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_cst_18 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_cst_19 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_cst_20 : Ref sig .tc := ⟨.hbm, 215, rfl⟩
abbrev main_v133 : Ref sig .tc := ⟨.hbm, 216, rfl⟩
abbrev main_cst_21 : Ref sig .tc := ⟨.hbm, 217, rfl⟩
abbrev main_v134 : Ref sig .tc := ⟨.hbm, 218, rfl⟩
abbrev main_v135 : Ref sig .tc := ⟨.hbm, 219, rfl⟩
abbrev main_c_22 : Ref sig .tc := ⟨.hbm, 220, rfl⟩
abbrev main_call2_cst : Ref sig .tc := ⟨.hbm, 221, rfl⟩
abbrev main_call2_v0 : Ref sig .tc := ⟨.hbm, 222, rfl⟩
abbrev main_call2_v1 : Ref sig .tc := ⟨.hbm, 223, rfl⟩
abbrev main_call2_cst_0 : Ref sig .tc := ⟨.hbm, 224, rfl⟩
abbrev main_call2_v2 : Ref sig .tc := ⟨.hbm, 225, rfl⟩
abbrev main_call2_v3 : Ref sig .tc := ⟨.hbm, 226, rfl⟩
abbrev main_call2_v4 : Ref sig .tc := ⟨.hbm, 227, rfl⟩
abbrev main_call2_v5 : Ref sig .tc := ⟨.hbm, 228, rfl⟩
abbrev main_call2_v6 : Ref sig .tc := ⟨.hbm, 229, rfl⟩
abbrev main_call2_v7 : Ref sig .tc := ⟨.hbm, 230, rfl⟩
abbrev main_call2_cst_1 : Ref sig .tc := ⟨.hbm, 231, rfl⟩
abbrev main_call2_v8 : Ref sig .tc := ⟨.hbm, 232, rfl⟩
abbrev main_call2_cst_2 : Ref sig .tc := ⟨.hbm, 233, rfl⟩
abbrev main_call2_v9 : Ref sig .tc := ⟨.hbm, 234, rfl⟩
abbrev main_call2_v10 : Ref sig .tc := ⟨.hbm, 235, rfl⟩
abbrev main_call2_v11 : Ref sig .tc := ⟨.hbm, 236, rfl⟩
abbrev main_call2_cst_3 : Ref sig .tc := ⟨.hbm, 237, rfl⟩
abbrev main_call2_v12 : Ref sig .tc := ⟨.hbm, 238, rfl⟩
abbrev main_call2_cst_4 : Ref sig .tc := ⟨.hbm, 239, rfl⟩
abbrev main_call2_call0_v0 : Ref sig .tc := ⟨.hbm, 240, rfl⟩
abbrev main_call2_call0_v1 : Ref sig .tc := ⟨.hbm, 241, rfl⟩
abbrev main_v136 : Ref sig .tc := ⟨.hbm, 242, rfl⟩
abbrev main_v137 : Ref sig .tc := ⟨.hbm, 243, rfl⟩
abbrev main_v138 : Ref sig .tc := ⟨.hbm, 244, rfl⟩
abbrev main_v139 : Ref sig .tc := ⟨.hbm, 245, rfl⟩
abbrev main_cst_23 : Ref sig .tc := ⟨.hbm, 246, rfl⟩
abbrev main_v140 : Ref sig .tc := ⟨.hbm, 247, rfl⟩
abbrev main_v141 : Ref sig .tc := ⟨.hbm, 248, rfl⟩
abbrev main_v142 : Ref sig .tc := ⟨.hbm, 249, rfl⟩
abbrev main_v143 : Ref sig .tc := ⟨.hbm, 250, rfl⟩
abbrev main_v144 : Ref sig .tc := ⟨.hbm, 251, rfl⟩
abbrev main_v145 : Ref sig .tc := ⟨.hbm, 252, rfl⟩
abbrev main_v146 : Ref sig .tc := ⟨.hbm, 253, rfl⟩
abbrev main_v147 : Ref sig .tc := ⟨.hbm, 254, rfl⟩
abbrev main_v148 : Ref sig .tc := ⟨.hbm, 255, rfl⟩
abbrev main_v149 : Ref sig .tc := ⟨.hbm, 256, rfl⟩
abbrev main_v150 : Ref sig .tc := ⟨.hbm, 257, rfl⟩
abbrev main_v151 : Ref sig .tc := ⟨.hbm, 258, rfl⟩
abbrev main_cst_24 : Ref sig .tc := ⟨.hbm, 259, rfl⟩
abbrev main_v152 : Ref sig .tc := ⟨.hbm, 260, rfl⟩
abbrev main_v153 : Ref sig .tc := ⟨.hbm, 261, rfl⟩
abbrev main_v154 : Ref sig .tc := ⟨.hbm, 262, rfl⟩
abbrev main_v155 : Ref sig .tc := ⟨.hbm, 263, rfl⟩
abbrev main_v156 : Ref sig .tc := ⟨.hbm, 264, rfl⟩
abbrev main_v157 : Ref sig .tc := ⟨.hbm, 265, rfl⟩
abbrev main_v158 : Ref sig .tc := ⟨.hbm, 266, rfl⟩
abbrev main_v159 : Ref sig .tc := ⟨.hbm, 267, rfl⟩
abbrev main_v160 : Ref sig .tc := ⟨.hbm, 268, rfl⟩
abbrev main_v161 : Ref sig .tc := ⟨.hbm, 269, rfl⟩
abbrev main_v162 : Ref sig .tc := ⟨.hbm, 270, rfl⟩
abbrev main_c_25 : Ref sig .tc := ⟨.hbm, 271, rfl⟩
abbrev main_v163 : Ref sig .tc := ⟨.hbm, 272, rfl⟩
abbrev main_v164 : Ref sig .tc := ⟨.hbm, 273, rfl⟩
abbrev main_c_26 : Ref sig .tc := ⟨.hbm, 274, rfl⟩
abbrev main_v165 : Ref sig .tc := ⟨.hbm, 275, rfl⟩
abbrev main_v166 : Ref sig .tc := ⟨.hbm, 276, rfl⟩
abbrev main_v167 : Ref sig .tc := ⟨.hbm, 277, rfl⟩
abbrev main_v168 : Ref sig .tc := ⟨.hbm, 278, rfl⟩
abbrev main_v169 : Ref sig .tc := ⟨.hbm, 279, rfl⟩
abbrev main_cst_27 : Ref sig .tc := ⟨.hbm, 280, rfl⟩
abbrev main_v170 : Ref sig .tc := ⟨.hbm, 281, rfl⟩
abbrev main_v171 : Ref sig .tc := ⟨.hbm, 282, rfl⟩
abbrev main_v172 : Ref sig .tc := ⟨.hbm, 283, rfl⟩
abbrev main_v173 : Ref sig .tc := ⟨.hbm, 284, rfl⟩
abbrev main_v174 : Ref sig .tc := ⟨.hbm, 285, rfl⟩
abbrev main_v175 : Ref sig .tc := ⟨.hbm, 286, rfl⟩
abbrev main_v176 : Ref sig .tc := ⟨.hbm, 287, rfl⟩
abbrev main_v177 : Ref sig .tc := ⟨.hbm, 288, rfl⟩
abbrev main_cst_28 : Ref sig .tc := ⟨.hbm, 289, rfl⟩
abbrev main_v178 : Ref sig .tc := ⟨.hbm, 290, rfl⟩
abbrev main_v179 : Ref sig .tc := ⟨.hbm, 291, rfl⟩
abbrev main_v180 : Ref sig .tc := ⟨.hbm, 292, rfl⟩
abbrev main_v181 : Ref sig .tc := ⟨.hbm, 293, rfl⟩
abbrev main_v182 : Ref sig .tc := ⟨.hbm, 294, rfl⟩
abbrev main_v183 : Ref sig .tc := ⟨.hbm, 295, rfl⟩
abbrev main_v184 : Ref sig .tc := ⟨.hbm, 296, rfl⟩
abbrev main_v185 : Ref sig .tc := ⟨.hbm, 297, rfl⟩
abbrev main_v186 : Ref sig .tc := ⟨.hbm, 298, rfl⟩
abbrev main_v187 : Ref sig .tc := ⟨.hbm, 299, rfl⟩
abbrev main_cst_29 : Ref sig .tc := ⟨.hbm, 300, rfl⟩
abbrev main_v188 : Ref sig .tc := ⟨.hbm, 301, rfl⟩
abbrev main_cst_30 : Ref sig .tc := ⟨.hbm, 302, rfl⟩
abbrev main_v189 : Ref sig .tc := ⟨.hbm, 303, rfl⟩
abbrev main_v190 : Ref sig .tc := ⟨.hbm, 304, rfl⟩
abbrev main_c_31 : Ref sig .tc := ⟨.hbm, 305, rfl⟩
abbrev main_call3_cst : Ref sig .tc := ⟨.hbm, 306, rfl⟩
abbrev main_call3_v0 : Ref sig .tc := ⟨.hbm, 307, rfl⟩
abbrev main_call3_v1 : Ref sig .tc := ⟨.hbm, 308, rfl⟩
abbrev main_call3_cst_0 : Ref sig .tc := ⟨.hbm, 309, rfl⟩
abbrev main_call3_v2 : Ref sig .tc := ⟨.hbm, 310, rfl⟩
abbrev main_call3_v3 : Ref sig .tc := ⟨.hbm, 311, rfl⟩
abbrev main_call3_v4 : Ref sig .tc := ⟨.hbm, 312, rfl⟩
abbrev main_call3_v5 : Ref sig .tc := ⟨.hbm, 313, rfl⟩
abbrev main_call3_v6 : Ref sig .tc := ⟨.hbm, 314, rfl⟩
abbrev main_call3_v7 : Ref sig .tc := ⟨.hbm, 315, rfl⟩
abbrev main_call3_cst_1 : Ref sig .tc := ⟨.hbm, 316, rfl⟩
abbrev main_call3_v8 : Ref sig .tc := ⟨.hbm, 317, rfl⟩
abbrev main_call3_cst_2 : Ref sig .tc := ⟨.hbm, 318, rfl⟩
abbrev main_call3_v9 : Ref sig .tc := ⟨.hbm, 319, rfl⟩
abbrev main_call3_v10 : Ref sig .tc := ⟨.hbm, 320, rfl⟩
abbrev main_call3_v11 : Ref sig .tc := ⟨.hbm, 321, rfl⟩
abbrev main_call3_cst_3 : Ref sig .tc := ⟨.hbm, 322, rfl⟩
abbrev main_call3_v12 : Ref sig .tc := ⟨.hbm, 323, rfl⟩
abbrev main_call3_cst_4 : Ref sig .tc := ⟨.hbm, 324, rfl⟩
abbrev main_call3_call0_v0 : Ref sig .tc := ⟨.hbm, 325, rfl⟩
abbrev main_call3_call0_v1 : Ref sig .tc := ⟨.hbm, 326, rfl⟩
abbrev main_v191 : Ref sig .tc := ⟨.hbm, 327, rfl⟩
abbrev main_v192 : Ref sig .tc := ⟨.hbm, 328, rfl⟩
abbrev main_v193 : Ref sig .tc := ⟨.hbm, 329, rfl⟩
abbrev main_v194 : Ref sig .tc := ⟨.hbm, 330, rfl⟩
abbrev main_cst_32 : Ref sig .tc := ⟨.hbm, 331, rfl⟩
abbrev main_v195 : Ref sig .tc := ⟨.hbm, 332, rfl⟩
abbrev main_v196 : Ref sig .tc := ⟨.hbm, 333, rfl⟩
abbrev main_v197 : Ref sig .tc := ⟨.hbm, 334, rfl⟩
abbrev main_v198 : Ref sig .tc := ⟨.hbm, 335, rfl⟩
abbrev main_v199 : Ref sig .tc := ⟨.hbm, 336, rfl⟩
abbrev main_v200 : Ref sig .tc := ⟨.hbm, 337, rfl⟩
abbrev main_v201 : Ref sig .tc := ⟨.hbm, 338, rfl⟩
abbrev main_v202 : Ref sig .tc := ⟨.hbm, 339, rfl⟩
abbrev main_v203 : Ref sig .tc := ⟨.hbm, 340, rfl⟩
abbrev main_v204 : Ref sig .tc := ⟨.hbm, 341, rfl⟩
abbrev main_v205 : Ref sig .tc := ⟨.hbm, 342, rfl⟩
abbrev main_v206 : Ref sig .tc := ⟨.hbm, 343, rfl⟩
abbrev main_cst_33 : Ref sig .tc := ⟨.hbm, 344, rfl⟩
abbrev main_v207 : Ref sig .tc := ⟨.hbm, 345, rfl⟩
abbrev main_v208 : Ref sig .tc := ⟨.hbm, 346, rfl⟩
abbrev main_v209 : Ref sig .tc := ⟨.hbm, 347, rfl⟩
abbrev main_v210 : Ref sig .tc := ⟨.hbm, 348, rfl⟩
abbrev main_v211 : Ref sig .tc := ⟨.hbm, 349, rfl⟩
abbrev main_v212 : Ref sig .tc := ⟨.hbm, 350, rfl⟩
abbrev main_v213 : Ref sig .tc := ⟨.hbm, 351, rfl⟩
abbrev main_v214 : Ref sig .tc := ⟨.hbm, 352, rfl⟩
abbrev main_v215 : Ref sig .tc := ⟨.hbm, 353, rfl⟩
abbrev main_v216 : Ref sig .tc := ⟨.hbm, 354, rfl⟩
abbrev main_c_34 : Ref sig .tc := ⟨.hbm, 355, rfl⟩
abbrev main_v217 : Ref sig .tc := ⟨.hbm, 356, rfl⟩
abbrev main_v218 : Ref sig .tc := ⟨.hbm, 357, rfl⟩
abbrev main_c_35 : Ref sig .tc := ⟨.hbm, 358, rfl⟩
abbrev main_v219 : Ref sig .tc := ⟨.hbm, 359, rfl⟩
abbrev main_v220 : Ref sig .tc := ⟨.hbm, 360, rfl⟩
abbrev main_v221 : Ref sig .tc := ⟨.hbm, 361, rfl⟩
abbrev main_v222 : Ref sig .tc := ⟨.hbm, 362, rfl⟩
abbrev main_v223 : Ref sig .tc := ⟨.hbm, 363, rfl⟩
abbrev main_cst_36 : Ref sig .tc := ⟨.hbm, 364, rfl⟩
abbrev main_v224 : Ref sig .tc := ⟨.hbm, 365, rfl⟩
abbrev main_v225 : Ref sig .tc := ⟨.hbm, 366, rfl⟩
abbrev main_v226 : Ref sig .tc := ⟨.hbm, 367, rfl⟩
abbrev main_v227 : Ref sig .tc := ⟨.hbm, 368, rfl⟩
abbrev main_v228 : Ref sig .tc := ⟨.hbm, 369, rfl⟩
abbrev main_v229 : Ref sig .tc := ⟨.hbm, 370, rfl⟩
abbrev main_v230 : Ref sig .tc := ⟨.hbm, 371, rfl⟩
abbrev main_v231 : Ref sig .tc := ⟨.hbm, 372, rfl⟩
abbrev main_cst_37 : Ref sig .tc := ⟨.hbm, 373, rfl⟩
abbrev main_v232 : Ref sig .tc := ⟨.hbm, 374, rfl⟩
abbrev main_v233 : Ref sig .tc := ⟨.hbm, 375, rfl⟩
abbrev main_v234 : Ref sig .tc := ⟨.hbm, 376, rfl⟩
abbrev main_v235 : Ref sig .tc := ⟨.hbm, 377, rfl⟩
abbrev main_v236 : Ref sig .tc := ⟨.hbm, 378, rfl⟩
abbrev main_v237 : Ref sig .tc := ⟨.hbm, 379, rfl⟩
abbrev main_v238 : Ref sig .tc := ⟨.hbm, 380, rfl⟩
abbrev main_v239 : Ref sig .tc := ⟨.hbm, 381, rfl⟩
abbrev main_v240 : Ref sig .tc := ⟨.hbm, 382, rfl⟩
abbrev main_v241 : Ref sig .tc := ⟨.hbm, 383, rfl⟩
abbrev main_cst_38 : Ref sig .tc := ⟨.hbm, 384, rfl⟩
abbrev main_v242 : Ref sig .tc := ⟨.hbm, 385, rfl⟩
abbrev main_cst_39 : Ref sig .tc := ⟨.hbm, 386, rfl⟩
abbrev main_v243 : Ref sig .tc := ⟨.hbm, 387, rfl⟩
abbrev main_v244 : Ref sig .tc := ⟨.hbm, 388, rfl⟩
abbrev main_c_40 : Ref sig .tc := ⟨.hbm, 389, rfl⟩
abbrev main_call4_cst : Ref sig .tc := ⟨.hbm, 390, rfl⟩
abbrev main_call4_v0 : Ref sig .tc := ⟨.hbm, 391, rfl⟩
abbrev main_call4_v1 : Ref sig .tc := ⟨.hbm, 392, rfl⟩
abbrev main_call4_cst_0 : Ref sig .tc := ⟨.hbm, 393, rfl⟩
abbrev main_call4_v2 : Ref sig .tc := ⟨.hbm, 394, rfl⟩
abbrev main_call4_v3 : Ref sig .tc := ⟨.hbm, 395, rfl⟩
abbrev main_call4_v4 : Ref sig .tc := ⟨.hbm, 396, rfl⟩
abbrev main_call4_v5 : Ref sig .tc := ⟨.hbm, 397, rfl⟩
abbrev main_call4_v6 : Ref sig .tc := ⟨.hbm, 398, rfl⟩
abbrev main_call4_v7 : Ref sig .tc := ⟨.hbm, 399, rfl⟩
abbrev main_call4_cst_1 : Ref sig .tc := ⟨.hbm, 400, rfl⟩
abbrev main_call4_v8 : Ref sig .tc := ⟨.hbm, 401, rfl⟩
abbrev main_call4_cst_2 : Ref sig .tc := ⟨.hbm, 402, rfl⟩
abbrev main_call4_v9 : Ref sig .tc := ⟨.hbm, 403, rfl⟩
abbrev main_call4_v10 : Ref sig .tc := ⟨.hbm, 404, rfl⟩
abbrev main_call4_v11 : Ref sig .tc := ⟨.hbm, 405, rfl⟩
abbrev main_call4_cst_3 : Ref sig .tc := ⟨.hbm, 406, rfl⟩
abbrev main_call4_v12 : Ref sig .tc := ⟨.hbm, 407, rfl⟩
abbrev main_call4_cst_4 : Ref sig .tc := ⟨.hbm, 408, rfl⟩
abbrev main_call4_call0_v0 : Ref sig .tc := ⟨.hbm, 409, rfl⟩
abbrev main_call4_call0_v1 : Ref sig .tc := ⟨.hbm, 410, rfl⟩
abbrev main_v245 : Ref sig .tc := ⟨.hbm, 411, rfl⟩
abbrev main_v246 : Ref sig .tc := ⟨.hbm, 412, rfl⟩
abbrev main_v247 : Ref sig .tc := ⟨.hbm, 413, rfl⟩
abbrev main_v248 : Ref sig .tc := ⟨.hbm, 414, rfl⟩
abbrev main_cst_41 : Ref sig .tc := ⟨.hbm, 415, rfl⟩
abbrev main_v249 : Ref sig .tc := ⟨.hbm, 416, rfl⟩
abbrev main_v250 : Ref sig .tc := ⟨.hbm, 417, rfl⟩
abbrev main_v251 : Ref sig .tc := ⟨.hbm, 418, rfl⟩
abbrev main_v252 : Ref sig .tc := ⟨.hbm, 419, rfl⟩
abbrev main_v253 : Ref sig .tc := ⟨.hbm, 420, rfl⟩
abbrev main_v254 : Ref sig .tc := ⟨.hbm, 421, rfl⟩
abbrev main_v255 : Ref sig .tc := ⟨.hbm, 422, rfl⟩
abbrev main_v256 : Ref sig .tc := ⟨.hbm, 423, rfl⟩
abbrev main_v257 : Ref sig .tc := ⟨.hbm, 424, rfl⟩
abbrev main_v258 : Ref sig .tc := ⟨.hbm, 425, rfl⟩
abbrev main_v259 : Ref sig .tc := ⟨.hbm, 426, rfl⟩
abbrev main_v260 : Ref sig .tc := ⟨.hbm, 427, rfl⟩
abbrev main_cst_42 : Ref sig .tc := ⟨.hbm, 428, rfl⟩
abbrev main_v261 : Ref sig .tc := ⟨.hbm, 429, rfl⟩
abbrev main_v262 : Ref sig .tc := ⟨.hbm, 430, rfl⟩
abbrev main_v263 : Ref sig .tc := ⟨.hbm, 431, rfl⟩
abbrev main_v264 : Ref sig .tc := ⟨.hbm, 432, rfl⟩
abbrev main_v265 : Ref sig .tc := ⟨.hbm, 433, rfl⟩
abbrev main_v266 : Ref sig .tc := ⟨.hbm, 434, rfl⟩
abbrev main_v267 : Ref sig .tc := ⟨.hbm, 435, rfl⟩
abbrev main_v268 : Ref sig .tc := ⟨.hbm, 436, rfl⟩
abbrev main_v269 : Ref sig .tc := ⟨.hbm, 437, rfl⟩
abbrev main_v270 : Ref sig .tc := ⟨.hbm, 438, rfl⟩
abbrev main_v271 : Ref sig .tc := ⟨.hbm, 439, rfl⟩
abbrev main_c_43 : Ref sig .tc := ⟨.hbm, 440, rfl⟩
abbrev main_v272 : Ref sig .tc := ⟨.hbm, 441, rfl⟩
abbrev main_v273 : Ref sig .tc := ⟨.hbm, 442, rfl⟩
abbrev main_c_44 : Ref sig .tc := ⟨.hbm, 443, rfl⟩
abbrev main_v274 : Ref sig .tc := ⟨.hbm, 444, rfl⟩
abbrev main_v275 : Ref sig .tc := ⟨.hbm, 445, rfl⟩
abbrev main_v276 : Ref sig .tc := ⟨.hbm, 446, rfl⟩
abbrev main_v277 : Ref sig .tc := ⟨.hbm, 447, rfl⟩
abbrev main_v278 : Ref sig .tc := ⟨.hbm, 448, rfl⟩
abbrev main_cst_45 : Ref sig .tc := ⟨.hbm, 449, rfl⟩
abbrev main_v279 : Ref sig .tc := ⟨.hbm, 450, rfl⟩
abbrev main_v280 : Ref sig .tc := ⟨.hbm, 451, rfl⟩
abbrev main_v281 : Ref sig .tc := ⟨.hbm, 452, rfl⟩
abbrev main_v282 : Ref sig .tc := ⟨.hbm, 453, rfl⟩
abbrev main_v283 : Ref sig .tc := ⟨.hbm, 454, rfl⟩
abbrev main_v284 : Ref sig .tc := ⟨.hbm, 455, rfl⟩
abbrev main_v285 : Ref sig .tc := ⟨.hbm, 456, rfl⟩
abbrev main_v286 : Ref sig .tc := ⟨.hbm, 457, rfl⟩
abbrev main_cst_46 : Ref sig .tc := ⟨.hbm, 458, rfl⟩
abbrev main_v287 : Ref sig .tc := ⟨.hbm, 459, rfl⟩
abbrev main_v288 : Ref sig .tc := ⟨.hbm, 460, rfl⟩
abbrev main_v289 : Ref sig .tc := ⟨.hbm, 461, rfl⟩
abbrev main_v290 : Ref sig .tc := ⟨.hbm, 462, rfl⟩
abbrev main_v291 : Ref sig .tc := ⟨.hbm, 463, rfl⟩
abbrev main_v292 : Ref sig .tc := ⟨.hbm, 464, rfl⟩
abbrev main_v293 : Ref sig .tc := ⟨.hbm, 465, rfl⟩
abbrev main_v294 : Ref sig .tc := ⟨.hbm, 466, rfl⟩
abbrev main_v295 : Ref sig .tc := ⟨.hbm, 467, rfl⟩
abbrev main_v296 : Ref sig .tc := ⟨.hbm, 468, rfl⟩
abbrev main_cst_47 : Ref sig .tc := ⟨.hbm, 469, rfl⟩
abbrev main_v297 : Ref sig .tc := ⟨.hbm, 470, rfl⟩
abbrev main_cst_48 : Ref sig .tc := ⟨.hbm, 471, rfl⟩
abbrev main_v298 : Ref sig .tc := ⟨.hbm, 472, rfl⟩
abbrev main_v299 : Ref sig .tc := ⟨.hbm, 473, rfl⟩
abbrev main_c_49 : Ref sig .tc := ⟨.hbm, 474, rfl⟩
abbrev main_call5_cst : Ref sig .tc := ⟨.hbm, 475, rfl⟩
abbrev main_call5_v0 : Ref sig .tc := ⟨.hbm, 476, rfl⟩
abbrev main_call5_v1 : Ref sig .tc := ⟨.hbm, 477, rfl⟩
abbrev main_call5_cst_0 : Ref sig .tc := ⟨.hbm, 478, rfl⟩
abbrev main_call5_v2 : Ref sig .tc := ⟨.hbm, 479, rfl⟩
abbrev main_call5_v3 : Ref sig .tc := ⟨.hbm, 480, rfl⟩
abbrev main_call5_v4 : Ref sig .tc := ⟨.hbm, 481, rfl⟩
abbrev main_call5_v5 : Ref sig .tc := ⟨.hbm, 482, rfl⟩
abbrev main_call5_v6 : Ref sig .tc := ⟨.hbm, 483, rfl⟩
abbrev main_call5_v7 : Ref sig .tc := ⟨.hbm, 484, rfl⟩
abbrev main_call5_cst_1 : Ref sig .tc := ⟨.hbm, 485, rfl⟩
abbrev main_call5_v8 : Ref sig .tc := ⟨.hbm, 486, rfl⟩
abbrev main_call5_cst_2 : Ref sig .tc := ⟨.hbm, 487, rfl⟩
abbrev main_call5_v9 : Ref sig .tc := ⟨.hbm, 488, rfl⟩
abbrev main_call5_v10 : Ref sig .tc := ⟨.hbm, 489, rfl⟩
abbrev main_call5_v11 : Ref sig .tc := ⟨.hbm, 490, rfl⟩
abbrev main_call5_cst_3 : Ref sig .tc := ⟨.hbm, 491, rfl⟩
abbrev main_call5_v12 : Ref sig .tc := ⟨.hbm, 492, rfl⟩
abbrev main_call5_cst_4 : Ref sig .tc := ⟨.hbm, 493, rfl⟩
abbrev main_call5_call0_v0 : Ref sig .tc := ⟨.hbm, 494, rfl⟩
abbrev main_call5_call0_v1 : Ref sig .tc := ⟨.hbm, 495, rfl⟩
abbrev main_v300 : Ref sig .tc := ⟨.hbm, 496, rfl⟩
abbrev main_v301 : Ref sig .tc := ⟨.hbm, 497, rfl⟩
abbrev main_v302 : Ref sig .tc := ⟨.hbm, 498, rfl⟩
abbrev main_v303 : Ref sig .tc := ⟨.hbm, 499, rfl⟩
abbrev main_cst_50 : Ref sig .tc := ⟨.hbm, 500, rfl⟩
abbrev main_v304 : Ref sig .tc := ⟨.hbm, 501, rfl⟩
abbrev main_v305 : Ref sig .tc := ⟨.hbm, 502, rfl⟩
abbrev main_v306 : Ref sig .tc := ⟨.hbm, 503, rfl⟩
abbrev main_v307 : Ref sig .tc := ⟨.hbm, 504, rfl⟩
abbrev main_v308 : Ref sig .tc := ⟨.hbm, 505, rfl⟩
abbrev main_v309 : Ref sig .tc := ⟨.hbm, 506, rfl⟩
abbrev main_v310 : Ref sig .tc := ⟨.hbm, 507, rfl⟩
abbrev main_v311 : Ref sig .tc := ⟨.hbm, 508, rfl⟩
abbrev main_v312 : Ref sig .tc := ⟨.hbm, 509, rfl⟩
abbrev main_v313 : Ref sig .tc := ⟨.hbm, 510, rfl⟩
abbrev main_v314 : Ref sig .tc := ⟨.hbm, 511, rfl⟩
abbrev main_v315 : Ref sig .tc := ⟨.hbm, 512, rfl⟩
abbrev main_cst_51 : Ref sig .tc := ⟨.hbm, 513, rfl⟩
abbrev main_v316 : Ref sig .tc := ⟨.hbm, 514, rfl⟩
abbrev main_v317 : Ref sig .tc := ⟨.hbm, 515, rfl⟩
abbrev main_v318 : Ref sig .tc := ⟨.hbm, 516, rfl⟩
abbrev main_v319 : Ref sig .tc := ⟨.hbm, 517, rfl⟩
abbrev main_v320 : Ref sig .tc := ⟨.hbm, 518, rfl⟩
abbrev main_v321 : Ref sig .tc := ⟨.hbm, 519, rfl⟩
abbrev main_v322 : Ref sig .tc := ⟨.hbm, 520, rfl⟩
abbrev main_v323 : Ref sig .tc := ⟨.hbm, 521, rfl⟩
abbrev main_v324 : Ref sig .tc := ⟨.hbm, 522, rfl⟩
abbrev main_v325 : Ref sig .tc := ⟨.hbm, 523, rfl⟩
abbrev main_c_52 : Ref sig .tc := ⟨.hbm, 524, rfl⟩
abbrev main_v326 : Ref sig .tc := ⟨.hbm, 525, rfl⟩
abbrev main_v327 : Ref sig .tc := ⟨.hbm, 526, rfl⟩
abbrev main_c_53 : Ref sig .tc := ⟨.hbm, 527, rfl⟩
abbrev main_v328 : Ref sig .tc := ⟨.hbm, 528, rfl⟩
abbrev main_v329 : Ref sig .tc := ⟨.hbm, 529, rfl⟩
abbrev main_v330 : Ref sig .tc := ⟨.hbm, 530, rfl⟩
abbrev main_v331 : Ref sig .tc := ⟨.hbm, 531, rfl⟩
abbrev main_v332 : Ref sig .tc := ⟨.hbm, 532, rfl⟩
abbrev main_cst_54 : Ref sig .tc := ⟨.hbm, 533, rfl⟩
abbrev main_v333 : Ref sig .tc := ⟨.hbm, 534, rfl⟩
abbrev main_v334 : Ref sig .tc := ⟨.hbm, 535, rfl⟩
abbrev main_v335 : Ref sig .tc := ⟨.hbm, 536, rfl⟩
abbrev main_v336 : Ref sig .tc := ⟨.hbm, 537, rfl⟩
abbrev main_v337 : Ref sig .tc := ⟨.hbm, 538, rfl⟩
abbrev main_v338 : Ref sig .tc := ⟨.hbm, 539, rfl⟩
abbrev main_v339 : Ref sig .tc := ⟨.hbm, 540, rfl⟩
abbrev main_v340 : Ref sig .tc := ⟨.hbm, 541, rfl⟩
abbrev main_cst_55 : Ref sig .tc := ⟨.hbm, 542, rfl⟩
abbrev main_v341 : Ref sig .tc := ⟨.hbm, 543, rfl⟩
abbrev main_v342 : Ref sig .tc := ⟨.hbm, 544, rfl⟩
abbrev main_v343 : Ref sig .tc := ⟨.hbm, 545, rfl⟩
abbrev main_v344 : Ref sig .tc := ⟨.hbm, 546, rfl⟩
abbrev main_v345 : Ref sig .tc := ⟨.hbm, 547, rfl⟩
abbrev main_v346 : Ref sig .tc := ⟨.hbm, 548, rfl⟩
abbrev main_v347 : Ref sig .tc := ⟨.hbm, 549, rfl⟩
abbrev main_v348 : Ref sig .tc := ⟨.hbm, 550, rfl⟩
abbrev main_v349 : Ref sig .tc := ⟨.hbm, 551, rfl⟩
abbrev main_v350 : Ref sig .tc := ⟨.hbm, 552, rfl⟩
abbrev main_cst_56 : Ref sig .tc := ⟨.hbm, 553, rfl⟩
abbrev main_v351 : Ref sig .tc := ⟨.hbm, 554, rfl⟩
abbrev main_cst_57 : Ref sig .tc := ⟨.hbm, 555, rfl⟩
abbrev main_v352 : Ref sig .tc := ⟨.hbm, 556, rfl⟩
abbrev main_v353 : Ref sig .tc := ⟨.hbm, 557, rfl⟩
abbrev main_c_58 : Ref sig .tc := ⟨.hbm, 558, rfl⟩
abbrev main_call6_cst : Ref sig .tc := ⟨.hbm, 559, rfl⟩
abbrev main_call6_v0 : Ref sig .tc := ⟨.hbm, 560, rfl⟩
abbrev main_call6_v1 : Ref sig .tc := ⟨.hbm, 561, rfl⟩
abbrev main_call6_cst_0 : Ref sig .tc := ⟨.hbm, 562, rfl⟩
abbrev main_call6_v2 : Ref sig .tc := ⟨.hbm, 563, rfl⟩
abbrev main_call6_v3 : Ref sig .tc := ⟨.hbm, 564, rfl⟩
abbrev main_call6_v4 : Ref sig .tc := ⟨.hbm, 565, rfl⟩
abbrev main_call6_v5 : Ref sig .tc := ⟨.hbm, 566, rfl⟩
abbrev main_call6_v6 : Ref sig .tc := ⟨.hbm, 567, rfl⟩
abbrev main_call6_v7 : Ref sig .tc := ⟨.hbm, 568, rfl⟩
abbrev main_call6_cst_1 : Ref sig .tc := ⟨.hbm, 569, rfl⟩
abbrev main_call6_v8 : Ref sig .tc := ⟨.hbm, 570, rfl⟩
abbrev main_call6_cst_2 : Ref sig .tc := ⟨.hbm, 571, rfl⟩
abbrev main_call6_v9 : Ref sig .tc := ⟨.hbm, 572, rfl⟩
abbrev main_call6_v10 : Ref sig .tc := ⟨.hbm, 573, rfl⟩
abbrev main_call6_v11 : Ref sig .tc := ⟨.hbm, 574, rfl⟩
abbrev main_call6_cst_3 : Ref sig .tc := ⟨.hbm, 575, rfl⟩
abbrev main_call6_v12 : Ref sig .tc := ⟨.hbm, 576, rfl⟩
abbrev main_call6_cst_4 : Ref sig .tc := ⟨.hbm, 577, rfl⟩
abbrev main_call6_call0_v0 : Ref sig .tc := ⟨.hbm, 578, rfl⟩
abbrev main_call6_call0_v1 : Ref sig .tc := ⟨.hbm, 579, rfl⟩
abbrev main_v354 : Ref sig .tc := ⟨.hbm, 580, rfl⟩
abbrev main_v355 : Ref sig .tc := ⟨.hbm, 581, rfl⟩
abbrev main_v356 : Ref sig .tc := ⟨.hbm, 582, rfl⟩
abbrev main_v357 : Ref sig .tc := ⟨.hbm, 583, rfl⟩
abbrev main_cst_59 : Ref sig .tc := ⟨.hbm, 584, rfl⟩
abbrev main_v358 : Ref sig .tc := ⟨.hbm, 585, rfl⟩
abbrev main_v359 : Ref sig .tc := ⟨.hbm, 586, rfl⟩
abbrev main_v360 : Ref sig .tc := ⟨.hbm, 587, rfl⟩
abbrev main_v361 : Ref sig .tc := ⟨.hbm, 588, rfl⟩
abbrev main_v362 : Ref sig .tc := ⟨.hbm, 589, rfl⟩
abbrev main_v363 : Ref sig .tc := ⟨.hbm, 590, rfl⟩
abbrev main_v364 : Ref sig .tc := ⟨.hbm, 591, rfl⟩
abbrev main_v365 : Ref sig .tc := ⟨.hbm, 592, rfl⟩
abbrev main_v366 : Ref sig .tc := ⟨.hbm, 593, rfl⟩
abbrev main_v367 : Ref sig .tc := ⟨.hbm, 594, rfl⟩
abbrev main_v368 : Ref sig .tc := ⟨.hbm, 595, rfl⟩
abbrev main_v369 : Ref sig .tc := ⟨.hbm, 596, rfl⟩
abbrev main_cst_60 : Ref sig .tc := ⟨.hbm, 597, rfl⟩
abbrev main_v370 : Ref sig .tc := ⟨.hbm, 598, rfl⟩
abbrev main_v371 : Ref sig .tc := ⟨.hbm, 599, rfl⟩
abbrev main_v372 : Ref sig .tc := ⟨.hbm, 600, rfl⟩
abbrev main_c_61 : Ref sig .tc := ⟨.hbm, 601, rfl⟩
abbrev main_v373 : Ref sig .tc := ⟨.hbm, 602, rfl⟩
abbrev main_v374 : Ref sig .tc := ⟨.hbm, 603, rfl⟩
abbrev main_c_62 : Ref sig .tc := ⟨.hbm, 604, rfl⟩
abbrev main_v375 : Ref sig .tc := ⟨.hbm, 605, rfl⟩
abbrev main_v376 : Ref sig .tc := ⟨.hbm, 606, rfl⟩
abbrev main_v377 : Ref sig .tc := ⟨.hbm, 607, rfl⟩
abbrev main_v378 : Ref sig .tc := ⟨.hbm, 608, rfl⟩
abbrev main_v379 : Ref sig .tc := ⟨.hbm, 609, rfl⟩
abbrev main_cst_63 : Ref sig .tc := ⟨.hbm, 610, rfl⟩
abbrev main_v380 : Ref sig .tc := ⟨.hbm, 611, rfl⟩
abbrev main_v381 : Ref sig .tc := ⟨.hbm, 612, rfl⟩
abbrev main_v382 : Ref sig .tc := ⟨.hbm, 613, rfl⟩
abbrev main_v383 : Ref sig .tc := ⟨.hbm, 614, rfl⟩
abbrev main_v384 : Ref sig .tc := ⟨.hbm, 615, rfl⟩
abbrev main_v385 : Ref sig .tc := ⟨.hbm, 616, rfl⟩
abbrev main_v386 : Ref sig .tc := ⟨.hbm, 617, rfl⟩
abbrev main_v387 : Ref sig .tc := ⟨.hbm, 618, rfl⟩
abbrev main_cst_64 : Ref sig .tc := ⟨.hbm, 619, rfl⟩
abbrev main_v388 : Ref sig .tc := ⟨.hbm, 620, rfl⟩
abbrev main_v389 : Ref sig .tc := ⟨.hbm, 621, rfl⟩
abbrev main_v390 : Ref sig .tc := ⟨.hbm, 622, rfl⟩
abbrev main_v391 : Ref sig .tc := ⟨.hbm, 623, rfl⟩
abbrev main_v392 : Ref sig .tc := ⟨.hbm, 624, rfl⟩
abbrev main_v393 : Ref sig .tc := ⟨.hbm, 625, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S6x128x128_S1x128x128_0_0_0 : S6x128x128.Slices ![0, 0, 0] S1x128x128
  shapeCasts_S1x128x128_S128x128 : S1x128x128.ShapeCasts S128x128
  slices_S6x128_S1x128_0_0 : S6x128.Slices ![0, 0] S1x128
  shapeCasts_S1x128_S128 : S1x128.ShapeCasts S128
  slices_S6x128x128_S1x128x128_1_0_0 : S6x128x128.Slices ![1, 0, 0] S1x128x128
  slices_S6x128_S1x128_1_0 : S6x128.Slices ![1, 0] S1x128
  slices_S6x128x128_S1x128x128_2_0_0 : S6x128x128.Slices ![2, 0, 0] S1x128x128
  slices_S6x128_S1x128_2_0 : S6x128.Slices ![2, 0] S1x128
  slices_S6x128x128_S1x128x128_3_0_0 : S6x128x128.Slices ![3, 0, 0] S1x128x128
  slices_S6x128_S1x128_3_0 : S6x128.Slices ![3, 0] S1x128
  slices_S6x128x128_S1x128x128_4_0_0 : S6x128x128.Slices ![4, 0, 0] S1x128x128
  slices_S6x128_S1x128_4_0 : S6x128.Slices ![4, 0] S1x128
  slices_S6x128x128_S1x128x128_5_0_0 : S6x128x128.Slices ![5, 0, 0] S1x128x128
  slices_S6x128_S1x128_5_0 : S6x128.Slices ![5, 0] S1x128
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x256_S100000x256_1_0_0_1_n_n_wf : DotDims.WF S100000x128 S128x256 S100000x256 [1] [0] [0] [1] [] []
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []
  dot_S100000x128_S128x32_S100000x32_1_0_0_1_n_n_wf : DotDims.WF S100000x128 S128x32 S100000x32 [1] [0] [0] [1] [] []
  dot_S100000x32_S32x3_S100000x3_1_0_0_1_n_n_wf : DotDims.WF S100000x32 S32x3 S100000x3 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S100000x32_S32x3_S100000x3_1_0_0_1_n_n : DotDims S100000x32 S32x3 S100000x3 where
  lhsContracting := [1]
  rhsContracting := [0]
  lhsNonContracting := [0]
  rhsNonContracting := [1]
  lhsBatch := []
  rhsBatch := []
  wf := dot_S100000x32_S32x3_S100000x3_1_0_0_1_n_n_wf

class Facts : Prop extends Facts₀ where

variable [Facts]
-- ==== Proof.Spec.lean ====
import proofs.«108604_j12824772346523_2_alg».proof.Proof.Gen.ReferenceIdeal
import Idealize.ShloMosaic.PureOps.Ideal
import Idealize.ShloMosaic.Lib.ValueIdx

noncomputable section

namespace Cert.Gnn

open Idealize.ShloMosaic Cert.ReferenceIdeal Cert.ReferenceIdeal.Gen

abbrev T (S : Shape) := FVec Ideal S .f32
abbrev I32 (S : Shape) := IVec S 32

def zero : T S_ := constant (F := Ideal) S_ .f32 0x00000000#32
def nodes : T S_ := constant (F := Ideal) S_ .f32 0x47C35000#32
def eps : T S_ := constant (F := Ideal) S_ .f32 0x3727C5AC#32

def rows256 (v : T S256) : T S100000x256 :=
  broadcastInDim S100000x256 ![0, 1] bcast_S1x256_S100000x256_0_1 (broadcastInDim S1x256 ![1] bcast_S256_S1x256_1 v)
def rows128 (v : T S128) : T S100000x128 :=
  broadcastInDim S100000x128 ![0, 1] bcast_S1x128_S100000x128_0_1 (broadcastInDim S1x128 ![1] bcast_S128_S1x128_1 v)
def rows32 (v : T S32) : T S100000x32 :=
  broadcastInDim S100000x32 ![0, 1] bcast_S1x32_S100000x32_0_1 (broadcastInDim S1x32 ![1] bcast_S32_S1x32_1 v)
def rows3 (v : T S3) : T S100000x3 :=
  broadcastInDim S100000x3 ![0, 1] bcast_S1x3_S100000x3_0_1 (broadcastInDim S1x3 ![1] bcast_S3_S1x3_1 v)

def wrapIdx (src : I32 S1600000) : I32 S1600000x1 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

def aggregate (h : T S100000x128) (src dst : I32 S1600000) : T S100000x128 :=
  Host.scatterAdd scatter_S100000x128_S1600000x1_S1600000x128_1_0_0_1
    (broadcastInDim S100000x128 ![] bcast_S_S100000x128 zero)
    (broadcastInDim S1600000x1 ![0] bcast_S1600000_S1600000x1_0 dst)
    (Host.gather gather_S100000x128_S1600000x1_S1600000x128_1_0_n_n_0_1_1128 h (wrapIdx src))

def mlpHead (h a : T S100000x128) (w1 : T S128x256) (b1 : T S256) (w2 : T S256x128) (b2 : T S128) : T S100000x128 :=
  addf (Host.dotGeneral dot_S100000x256_S256x128_S100000x128_1_0_0_1_n_n none
    (maximumf (addf (Host.dotGeneral dot_S100000x128_S128x256_S100000x256_1_0_0_1_n_n none (addf h a) w1) (rows256 b1))
      (broadcastInDim S100000x256 ![] bcast_S_S100000x256 zero)) w2) (rows128 b2)
def mlpRes (h a : T S100000x128) (w1 : T S128x128) (b1 : T S128) (w2 : T S128x128) (b2 : T S128) : T S100000x128 :=
  addf (Host.dotGeneral dot_S100000x128_S128x128_S100000x128_1_0_0_1_n_n none
    (maximumf (addf (Host.dotGeneral dot_S100000x128_S128x128_S100000x128_1_0_0_1_n_n none (addf h a) w1) (rows128 b1))
      (broadcastInDim S100000x128 ![] bcast_S_S100000x128 zero)) w2) (rows128 b2)
def mlpTail (h a : T S100000x128) (w1 : T S128x32) (b1 : T S32) (w2 : T S32x3) (b2 : T S3) : T S100000x3 :=
  addf (Host.dotGeneral dot_S100000x32_S32x3_S100000x3_1_0_0_1_n_n none
    (maximumf (addf (Host.dotGeneral dot_S100000x128_S128x32_S100000x32_1_0_0_1_n_n none (addf h a) w1) (rows32 b1))
      (broadcastInDim S100000x32 ![] bcast_S_S100000x32 zero)) w2) (rows3 b2)

def colSum (p : T S100000x128) : T S128 := Host.reduceAdd p zero reducesTo_S100000x128_S128_d0 h_S_
def colMean (p : T S100000x128) : T S128 :=
  Host.divf (colSum p) (broadcastInDim S128 ![] bcast_S_S128 nodes)

def colVar (p : T S100000x128) : T S128 :=
  let dof : T S_ := subf nodes (sitofp .f32 (constantI S_ 32 0#32))
  let dev : T S100000x128 := subf p (broadcastInDim S100000x128 ![0, 1] bcast_S1x128_S100000x128_0_1
    (Host.divf (broadcastInDim S1x128 ![1] bcast_S128_S1x128_1 (colSum p)) (broadcastInDim S1x128 ![] bcast_S_S1x128 nodes)))
  select (broadcastInDim S128 ![] bcast_S_S128 (cmpf .ogt dof zero))
    (Host.divf (Host.reduceAdd (mulf dev dev) zero reducesTo_S100000x128_S128_d0 h_S_) (broadcastInDim S128 ![] bcast_S_S128 dof))
    (broadcastInDim S128 ![] bcast_S_S128 (constant (F := Ideal) S_ .f32 0x7FC00000#32))

def normRelu (p : T S100000x128) (mean var g beta : T S128) : T S100000x128 :=
  maximumf (addf (mulf (mulf (subf p (rows128 mean))
      (rows128 (Host.rsqrt (addf var (broadcastInDim S128 ![] bcast_S_S128 eps))))) (rows128 g)) (rows128 beta))
    (broadcastInDim S100000x128 ![] bcast_S_S100000x128 zero)

def batchNormRelu (p : T S100000x128) (g beta : T S128) : T S100000x128 := normRelu p (colMean p) (colVar p) g beta

def vec0 (a : T S6x128) : T S128 := shapeCast S128 (extractStridedSlice S1x128 ![0, 0] a slices_S6x128_S1x128_0_0) shapeCasts_S1x128_S128
def vec1 (a : T S6x128) : T S128 := shapeCast S128 (extractStridedSlice S1x128 ![1, 0] a slices_S6x128_S1x128_1_0) shapeCasts_S1x128_S128
def vec2 (a : T S6x128) : T S128 := shapeCast S128 (extractStridedSlice S1x128 ![2, 0] a slices_S6x128_S1x128_2_0) shapeCasts_S1x128_S128
def vec3 (a : T S6x128) : T S128 := shapeCast S128 (extractStridedSlice S1x128 ![3, 0] a slices_S6x128_S1x128_3_0) shapeCasts_S1x128_S128
def vec4 (a : T S6x128) : T S128 := shapeCast S128 (extractStridedSlice S1x128 ![4, 0] a slices_S6x128_S1x128_4_0) shapeCasts_S1x128_S128
def vec5 (a : T S6x128) : T S128 := shapeCast S128 (extractStridedSlice S1x128 ![5, 0] a slices_S6x128_S1x128_5_0) shapeCasts_S1x128_S128
def mat0 (a : T S6x128x128) : T S128x128 := shapeCast S128x128 (extractStridedSlice S1x128x128 ![0, 0, 0] a slices_S6x128x128_S1x128x128_0_0_0) shapeCasts_S1x128x128_S128x128
def mat1 (a : T S6x128x128) : T S128x128 := shapeCast S128x128 (extractStridedSlice S1x128x128 ![1, 0, 0] a slices_S6x128x128_S1x128x128_1_0_0) shapeCasts_S1x128x128_S128x128
def mat2 (a : T S6x128x128) : T S128x128 := shapeCast S128x128 (extractStridedSlice S1x128x128 ![2, 0, 0] a slices_S6x128x128_S1x128x128_2_0_0) shapeCasts_S1x128x128_S128x128
def mat3 (a : T S6x128x128) : T S128x128 := shapeCast S128x128 (extractStridedSlice S1x128x128 ![3, 0, 0] a slices_S6x128x128_S1x128x128_3_0_0) shapeCasts_S1x128x128_S128x128
def mat4 (a : T S6x128x128) : T S128x128 := shapeCast S128x128 (extractStridedSlice S1x128x128 ![4, 0, 0] a slices_S6x128x128_S1x128x128_4_0_0) shapeCasts_S1x128x128_S128x128
def mat5 (a : T S6x128x128) : T S128x128 := shapeCast S128x128 (extractStridedSlice S1x128x128 ![5, 0, 0] a slices_S6x128x128_S1x128x128_5_0_0) shapeCasts_S1x128x128_S128x128

def edgeSrc (e : I32 S2x1600000) : I32 S1600000 :=
  shapeCast S1600000 (extractStridedSlice S1x1600000 ![0, 0] e slices_S2x1600000_S1x1600000_0_0) shapeCasts_S1x1600000_S1600000
def edgeDst (e : I32 S2x1600000) : I32 S1600000 :=
  shapeCast S1600000 (extractStridedSlice S1x1600000 ![1, 0] e slices_S2x1600000_S1x1600000_1_0) shapeCasts_S1x1600000_S1600000

def layerHead (h : T S100000x128) (src dst : I32 S1600000) (w1 : T S128x256) (b1 : T S256) (w2 : T S256x128) (b2 g beta : T S128) :
    T S100000x128 := batchNormRelu (mlpHead h (aggregate h src dst) w1 b1 w2 b2) g beta
def layerRes (h : T S100000x128) (src dst : I32 S1600000) (w1 : T S128x128) (b1 : T S128) (w2 : T S128x128) (b2 g beta : T S128) :
    T S100000x128 := batchNormRelu (mlpRes h (aggregate h src dst) w1 b1 w2 b2) g beta
def layerTail (h : T S100000x128) (src dst : I32 S1600000) (w1 : T S128x32) (b1 : T S32) (w2 : T S32x3) (b2 : T S3) : T S100000x3 :=
  mlpTail h (aggregate h src dst) w1 b1 w2 b2

def tileSums (p : T S100000x128) : FVec Ideal (⟨2, ![160, 128]⟩ : Shape) .f32 := fun q =>
  if (q 0).val % 8 = 0 then ∑ r : Fin 5000, p (ValueIdx.ix2 (⟨5000 * ((q 0).val / 8) + r.val, by
      have h0 : (q 0).val < 160 := (q 0).isLt; have := r.isLt; omega⟩ : Fin 100000) (⟨(q 1).val, (show (q 1).val < 128 from (q 1).isLt)⟩ : Fin 128)) else 0

abbrev S160x128 : Shape := ⟨2, ![160, 128]⟩
theorem reduces160 : S160x128.ReducesTo [0] S128 := by decide

def meanTiled (s : T S160x128) : T S128 :=
  Host.divf (Host.reduceAdd s zero reduces160 h_S_) (broadcastInDim S128 ![] bcast_S_S128 nodes)
def varOnePass (s sq : T S160x128) : T S128 :=
  maximumf (subf (Host.divf (Host.reduceAdd sq zero reduces160 h_S_) (broadcastInDim S128 ![] bcast_S_S128 nodes))
    (mulf (meanTiled s) (meanTiled s))) (broadcastInDim S128 ![] bcast_S_S128 zero)

def normTiled (p : T S100000x128) (g beta : T S128) : T S100000x128 :=
  normRelu p (meanTiled (tileSums p)) (varOnePass (tileSums p) (tileSums (mulf p p))) g beta

def networkWith (N : T S100000x128 → T S128 → T S128 → T S100000x128)
    (x : T S100000x128) (e : I32 S2x1600000) (hw1 : T S128x256) (hb1 : T S256) (hw2 : T S256x128) (hb2 hg hbeta : T S128)
    (rw1 : T S6x128x128) (rb1 : T S6x128) (rw2 : T S6x128x128) (rb2 rg rbeta : T S6x128)
    (tw1 : T S128x32) (tb1 : T S32) (tw2 : T S32x3) (tb2 : T S3) : T S100000x3 :=
  let src := edgeSrc e
  let dst := edgeDst e
  let h0 := N (mlpHead x (aggregate x src dst) hw1 hb1 hw2 hb2) hg hbeta
  let h1 := N (mlpRes h0 (aggregate h0 src dst) (mat0 rw1) (vec0 rb1) (mat0 rw2) (vec0 rb2)) (vec0 rg) (vec0 rbeta)
  let h2 := addf (N (mlpRes h1 (aggregate h1 src dst) (mat1 rw1) (vec1 rb1) (mat1 rw2) (vec1 rb2)) (vec1 rg) (vec1 rbeta)) h0
  let h3 := N (mlpRes h2 (aggregate h2 src dst) (mat2 rw1) (vec2 rb1) (mat2 rw2) (vec2 rb2)) (vec2 rg) (vec2 rbeta)
  let h4 := addf (N (mlpRes h3 (aggregate h3 src dst) (mat3 rw1) (vec3 rb1) (mat3 rw2) (vec3 rb2)) (vec3 rg) (vec3 rbeta)) h2
  let h5 := N (mlpRes h4 (aggregate h4 src dst) (mat4 rw1) (vec4 rb1) (mat4 rw2) (vec4 rb2)) (vec4 rg) (vec4 rbeta)
  let h6 := addf (N (mlpRes h5 (aggregate h5 src dst) (mat5 rw1) (vec5 rb1) (mat5 rw2) (vec5 rb2)) (vec5 rg) (vec5 rbeta)) h4
  mlpTail h6 (aggregate h6 src dst) tw1 tb1 tw2 tb2

def network := networkWith batchNormRelu
def networkTiled := networkWith normTiled

def Finite {S : Shape} (v : S.Idx → EReal) : Prop := ∀ i, ∃ r : ℝ, v i = (r : EReal)

end Cert.Gnn

end
-- ==== Proof.LibHost.lean ====
import proofs.«108604_j12824772346523_2_alg».proof.Proof.Gen.KernelIdeal.Launch
import proofs.«108604_j12824772346523_2_alg».proof.Proof.Spec
import Idealize.ShloMosaic.Lib.StableHlo.Run
import Idealize.ShloMosaic.PureOps.Ideal

namespace Cert.KernelIdeal.HostValue

open Idealize.ShloMosaic Idealize.ShloMosaic.StableHlo

variable {τ : Topo} {sig : RefSig} {Val : EltTy → Type}

/-- If the operations write, one each, exactly the references `ys`, a reference outside `ys` is written by none. -/
theorem keep_of_writes {ops : List (HloOp τ sig Val)} {ys : List (Ref sig .tc)} (V : Valuation τ sig Val)
    {b : Ref sig .tc} (hb : b ∉ ys) (h : ops.map HloOp.writes = ys.map fun y => {Proc.devRef .tc y}) :
    after ops V (Proc.devRef .tc b) = V (Proc.devRef .tc b) :=
  after_of_forall_not_mem ops V fun op hop hm => by
    obtain ⟨y, hy, e⟩ := List.mem_map.mp (h ▸ List.mem_map_of_mem hop)
    rw [← e, Finset.mem_singleton] at hm
    exact hb (Proc.devRef_injective _ hm ▸ hy)

end Cert.KernelIdeal.HostValue
-- ==== Proof.KHost0.lean ====
import proofs.«108604_j12824772346523_2_alg».proof.Proof.LibHost

namespace Cert.KernelIdeal.HostValue

open Cert.KernelIdeal Cert.KernelIdeal.Gen Idealize.ShloMosaic Idealize.ShloMosaic.TcCoe Idealize.SL.Sem Idealize.ShloMosaic.StableHlo

abbrev host0_writes : List (Ref sig .tc) :=
  [main_v0, main_v1, main_v2, main_v3, main_c, main_v4, main_v5, main_c_0, main_v6, main_v7, main_v8, main_v9, main_v10,
    main_cst, main_v11, main_v12, main_v13, main_v14, main_v15]

theorem host0_keep (W : Valuation τ sig (Elt Ideal)) (b : Ref sig .tc) (hb : b ∉ host0_writes) :
    StableHlo.after (hostOps0 (F := Ideal)) W (Proc.devRef .tc b) = W (Proc.devRef .tc b) :=
  keep_of_writes W hb rfl

theorem host0_src (W : Valuation τ sig (Elt Ideal)) :
    StableHlo.after (hostOps0 (F := Ideal)) W (Proc.devRef .tc main_v1) = Cert.Gnn.edgeSrc (W (Proc.devRef .tc main_arg1)) := by
  after_results; rfl

theorem host0_dst (W : Valuation τ sig (Elt Ideal)) :
    StableHlo.after (hostOps0 (F := Ideal)) W (Proc.devRef .tc main_v3) = Cert.Gnn.edgeDst (W (Proc.devRef .tc main_arg1)) := by
  after_results; rfl

theorem host0_agg (W : Valuation τ sig (Elt Ideal)) :
    StableHlo.after (hostOps0 (F := Ideal)) W (Proc.devRef .tc main_v13)
      = Cert.Gnn.aggregate (W (Proc.devRef .tc main_arg0)) (Cert.Gnn.edgeSrc (W (Proc.devRef .tc main_arg1)))
          (Cert.Gnn.edgeDst (W (Proc.devRef .tc main_arg1))) := by
  after_results; rfl

theorem host0_b1row (W : Valuation τ sig (Elt Ideal)) :
    StableHlo.after (hostOps0 (F := Ideal)) W (Proc.devRef .tc main_v14)
      = shapeCast S1x256 (W (Proc.devRef .tc main_arg3)) shapeCasts_S256_S1x256 := by
  after_results; rfl

theorem host0_b2row (W : Valuation τ sig (Elt Ideal)) :
    StableHlo.after (hostOps0 (F := Ideal)) W (Proc.devRef .tc main_v15)
      = shapeCast S1x128 (W (Proc.devRef .tc main_arg5)) shapeCasts_S128_S1x128 := by
  after_results; rfl

end Cert.KernelIdeal.HostValue
-- ==== Proof.KHost1.lean ====
import proofs.«108604_j12824772346523_2_alg».proof.Proof.LibHost

namespace Cert.KernelIdeal.HostValue

open Cert.KernelIdeal Cert.KernelIdeal.Gen Idealize.ShloMosaic Idealize.ShloMosaic.TcCoe Idealize.SL.Sem Idealize.ShloMosaic.StableHlo

abbrev host1_writes : List (Ref sig .tc) :=
  [main_cst_1, main_v17, main_cst_2, main_v18, main_cst_3, main_v19, main_v20, main_cst_4, main_v21, main_v22, main_v23,
    main_v24, main_cst_5, main_v25, main_v26, main_v27, main_v28, main_v29, main_v30]

theorem host1_keep (W : Valuation τ sig (Elt Ideal)) (b : Ref sig .tc) (hb : b ∉ host1_writes) :
    StableHlo.after (hostOps1 (F := Ideal)) W (Proc.devRef .tc b) = W (Proc.devRef .tc b) :=
  keep_of_writes W hb rfl

theorem host1_mean (W : Valuation τ sig (Elt Ideal)) :
    StableHlo.after (hostOps1 (F := Ideal)) W (Proc.devRef .tc main_v27)
      = shapeCast S1x128 (Cert.Gnn.meanTiled (W (Proc.devRef .tc main_v16_1))) shapeCasts_S128_S1x128 := by
  after_results; rfl

theorem host1_var (W : Valuation τ sig (Elt Ideal)) :
    StableHlo.after (hostOps1 (F := Ideal)) W (Proc.devRef .tc main_v28)
      = shapeCast S1x128 (Cert.Gnn.varOnePass (W (Proc.devRef .tc main_v16_1)) (W (Proc.devRef .tc main_v16_2)))
          shapeCasts_S128_S1x128 := by
  after_results; rfl

theorem host1_g (W : Valuation τ sig (Elt Ideal)) :
    StableHlo.after (hostOps1 (F := Ideal)) W (Proc.devRef .tc main_v29)
      = shapeCast S1x128 (W (Proc.devRef .tc main_arg6)) shapeCasts_S128_S1x128 := by
  after_results; rfl

theorem host1_beta (W : Valuation τ sig (Elt Ideal)) :
    StableHlo.after (hostOps1 (F := Ideal)) W (Proc.devRef .tc main_v30)
      = shapeCast S1x128 (W (Proc.devRef .tc main_arg7)) shapeCasts_S128_S1x128 := by
  after_results; rfl

end Cert.KernelIdeal.HostValue
-- ==== Proof.KHost2.lean ====
import proofs.«108604_j12824772346523_2_alg».proof.Proof.LibHost

namespace Cert.KernelIdeal.HostValue

open Cert.KernelIdeal Cert.KernelIdeal.Gen Idealize.ShloMosaic Idealize.ShloMosaic.TcCoe Idealize.SL.Sem Idealize.ShloMosaic.StableHlo

abbrev host2_writes : List (Ref sig .tc) :=
  [main_v32, main_v33, main_v34, main_v35, main_v36, main_v37, main_v38, main_v39, main_v40, main_v41, main_v42,
    main_v43, main_c_6, main_v44, main_v45, main_c_7, main_v46, main_v47, main_v48, main_v49, main_v50, main_cst_8,
    main_v51, main_v52, main_v53, main_v54, main_v55]

theorem host2_keep (W : Valuation τ sig (Elt Ideal)) (b : Ref sig .tc) (hb : b ∉ host2_writes) :
    StableHlo.after (hostOps2 (F := Ideal)) W (Proc.devRef .tc b) = W (Proc.devRef .tc b) :=
  keep_of_writes W hb rfl

theorem host2_w1 (W : Valuation τ sig (Elt Ideal)) :
    StableHlo.after (hostOps2 (F := Ideal)) W (Proc.devRef .tc main_v33)
      = Cert.Gnn.mat0 (W (Proc.devRef .tc main_arg8)) := by
  after_results; rfl

theorem host2_b1row (W : Valuation τ sig (Elt Ideal)) :
    StableHlo.after (hostOps2 (F := Ideal)) W (Proc.devRef .tc main_v54)
      = shapeCast S1x128 (Cert.Gnn.vec0 (W (Proc.devRef .tc main_arg9))) shapeCasts_S128_S1x128 := by
  after_results; rfl

theorem host2_w2 (W : Valuation τ sig (Elt Ideal)) :
    StableHlo.after (hostOps2 (F := Ideal)) W (Proc.devRef .tc main_v37)
      = Cert.Gnn.mat0 (W (Proc.devRef .tc main_arg10)) := by
  after_results; rfl

theorem host2_b2row (W : Valuation τ sig (Elt Ideal)) :
    StableHlo.after (hostOps2 (F := Ideal)) W (Proc.devRef .tc main_v55)
      = shapeCast S1x128 (Cert.Gnn.vec0 (W (Proc.devRef .tc main_arg11))) shapeCasts_S128_S1x128 := by
  after_results; rfl

theorem host2_g (W : Valuation τ sig (Elt Ideal)) :
    StableHlo.after (hostOps2 (F := Ideal)) W (Proc.devRef .tc main_v41)
      = Cert.Gnn.vec0 (W (Proc.devRef .tc main_arg12)) := by
  after_results; rfl

theorem host2_beta (W : Valuation τ sig (Elt Ideal)) :
    StableHlo.after (hostOps2 (F := Ideal)) W (Proc.devRef .tc main_v43)
      = Cert.Gnn.vec0 (W (Proc.devRef .tc main_arg13)) := by
  after_results; rfl

theorem host2_agg (W : Valuation τ sig (Elt Ideal)) :
    StableHlo.after (hostOps2 (F := Ideal)) W (Proc.devRef .tc main_v53)
      = Cert.Gnn.aggregate (W (Proc.devRef .tc main_v31)) (W (Proc.devRef .tc main_v1)) (W (Proc.devRef .tc main_v3)) := by
  after_results_simp
  unfold Cert.Gnn.aggregate Cert.Gnn.wrapIdx Cert.Gnn.zero
  rfl

end Cert.KernelIdeal.HostValue
-- ==== Proof.KHost3.lean ====
import proofs.«108604_j12824772346523_2_alg».proof.Proof.LibHost

namespace Cert.KernelIdeal.HostValue

open Cert.KernelIdeal Cert.KernelIdeal.Gen Idealize.ShloMosaic Idealize.ShloMosaic.TcCoe Idealize.SL.Sem Idealize.ShloMosaic.StableHlo

abbrev host3_writes : List (Ref sig .tc) :=
  [main_cst_9, main_v57, main_cst_10, main_v58, main_cst_11, main_v59, main_v60, main_cst_12, main_v61, main_v62,
    main_v63, main_v64, main_cst_13, main_v65, main_v66, main_v67, main_v68, main_v69, main_v70]

theorem host3_keep (W : Valuation τ sig (Elt Ideal)) (b : Ref sig .tc) (hb : b ∉ host3_writes) :
    StableHlo.after (hostOps3 (F := Ideal)) W (Proc.devRef .tc b) = W (Proc.devRef .tc b) :=
  keep_of_writes W hb rfl

theorem host3_mean (W : Valuation τ sig (Elt Ideal)) :
    StableHlo.after (hostOps3 (F := Ideal)) W (Proc.devRef .tc main_v67)
      = shapeCast S1x128 (Cert.Gnn.meanTiled (W (Proc.devRef .tc main_v56_1))) shapeCasts_S128_S1x128 := by
  after_results; rfl

theorem host3_var (W : Valuation τ sig (Elt Ideal)) :
    StableHlo.after (hostOps3 (F := Ideal)) W (Proc.devRef .tc main_v68)
      = shapeCast S1x128 (Cert.Gnn.varOnePass (W (Proc.devRef .tc main_v56_1)) (W (Proc.devRef .tc main_v56_2)))
          shapeCasts_S128_S1x128 := by
  after_results; rfl

theorem host3_g (W : Valuation τ sig (Elt Ideal)) :
    StableHlo.after (hostOps3 (F := Ideal)) W (Proc.devRef .tc main_v69)
      = shapeCast S1x128 (W (Proc.devRef .tc main_v41)) shapeCasts_S128_S1x128 := by
  after_results; rfl

theorem host3_beta (W : Valuation τ sig (Elt Ideal)) :
    StableHlo.after (hostOps3 (F := Ideal)) W (Proc.devRef .tc main_v70)
      = shapeCast S1x128 (W (Proc.devRef .tc main_v43)) shapeCasts_S128_S1x128 := by
  after_results; rfl

end Cert.KernelIdeal.HostValue
-- ==== Proof.KHost4.lean ====
import proofs.«108604_j12824772346523_2_alg».proof.Proof.LibHost

namespace Cert.KernelIdeal.HostValue

open Cert.KernelIdeal Cert.KernelIdeal.Gen Idealize.ShloMosaic Idealize.ShloMosaic.TcCoe Idealize.SL.Sem Idealize.ShloMosaic.StableHlo

abbrev host4_writes : List (Ref sig .tc) :=
  [main_v72, main_v73, main_v74, main_v75, main_v76, main_v77, main_v78, main_v79, main_v80, main_v81, main_v82,
    main_v83, main_c_14, main_v84, main_v85, main_c_15, main_v86, main_v87, main_v88, main_v89, main_v90, main_cst_16,
    main_v91, main_v92, main_v93, main_v94, main_v95]

theorem host4_keep (W : Valuation τ sig (Elt Ideal)) (b : Ref sig .tc) (hb : b ∉ host4_writes) :
    StableHlo.after (hostOps4 (F := Ideal)) W (Proc.devRef .tc b) = W (Proc.devRef .tc b) :=
  keep_of_writes W hb rfl

theorem host4_w1 (W : Valuation τ sig (Elt Ideal)) :
    StableHlo.after (hostOps4 (F := Ideal)) W (Proc.devRef .tc main_v73)
      = Cert.Gnn.mat1 (W (Proc.devRef .tc main_arg8)) := by
  after_results; rfl

theorem host4_b1row (W : Valuation τ sig (Elt Ideal)) :
    StableHlo.after (hostOps4 (F := Ideal)) W (Proc.devRef .tc main_v94)
      = shapeCast S1x128 (Cert.Gnn.vec1 (W (Proc.devRef .tc main_arg9))) shapeCasts_S128_S1x128 := by
  after_results; rfl

theorem host4_w2 (W : Valuation τ sig (Elt Ideal)) :
    StableHlo.after (hostOps4 (F := Ideal)) W (Proc.devRef .tc main_v77)
      = Cert.Gnn.mat1 (W (Proc.devRef .tc main_arg10)) := by
  after_results; rfl

theorem host4_b2row (W : Valuation τ sig (Elt Ideal)) :
    StableHlo.after (hostOps4 (F := Ideal)) W (Proc.devRef .tc main_v95)
      = shapeCast S1x128 (Cert.Gnn.vec1 (W (Proc.devRef .tc main_arg11))) shapeCasts_S128_S1x128 := by
  after_results; rfl

theorem host4_g (W : Valuation τ sig (Elt Ideal)) :
    StableHlo.after (hostOps4 (F := Ideal)) W (Proc.devRef .tc main_v81)
      = Cert.Gnn.vec1 (W (Proc.devRef .tc main_arg12)) := by
  after_results; rfl

theorem host4_beta (W : Valuation τ sig (Elt Ideal)) :
    StableHlo.after (hostOps4 (F := Ideal)) W (Proc.devRef .tc main_v83)
      = Cert.Gnn.vec1 (W (Proc.devRef .tc main_arg13)) := by
  after_results; rfl

theorem host4_agg (W : Valuation τ sig (Elt Ideal)) :
    StableHlo.after (hostOps4 (F := Ideal)) W (Proc.devRef .tc main_v93)
      = Cert.Gnn.aggregate (W (Proc.devRef .tc main_v71)) (W (Proc.devRef .tc main_v1)) (W (Proc.devRef .tc main_v3)) := by
  after_results_simp
  unfold Cert.Gnn.aggregate Cert.Gnn.wrapIdx Cert.Gnn.zero
  rfl

end Cert.KernelIdeal.HostValue
-- ==== Proof.KHost5.lean ====
import proofs.«108604_j12824772346523_2_alg».proof.Proof.LibHost

namespace Cert.KernelIdeal.HostValue

open Cert.KernelIdeal Cert.KernelIdeal.Gen Idealize.ShloMosaic Idealize.ShloMosaic.TcCoe Idealize.SL.Sem Idealize.ShloMosaic.StableHlo

abbrev host5_writes : List (Ref sig .tc) :=
  [main_cst_17, main_v97, main_cst_18, main_v98, main_cst_19, main_v99, main_v100, main_cst_20, main_v101, main_v102,
    main_v103, main_v104, main_cst_21, main_v105, main_v106, main_v107, main_v108, main_v109, main_v110]

theorem host5_keep (W : Valuation τ sig (Elt Ideal)) (b : Ref sig .tc) (hb : b ∉ host5_writes) :
    StableHlo.after (hostOps5 (F := Ideal)) W (Proc.devRef .tc b) = W (Proc.devRef .tc b) :=
  keep_of_writes W hb rfl

theorem host5_mean (W : Valuation τ sig (Elt Ideal)) :
    StableHlo.after (hostOps5 (F := Ideal)) W (Proc.devRef .tc main_v107)
      = shapeCast S1x128 (Cert.Gnn.meanTiled (W (Proc.devRef .tc main_v96_1))) shapeCasts_S128_S1x128 := by
  after_results; rfl

theorem host5_var (W : Valuation τ sig (Elt Ideal)) :
    StableHlo.after (hostOps5 (F := Ideal)) W (Proc.devRef .tc main_v108)
      = shapeCast S1x128 (Cert.Gnn.varOnePass (W (Proc.devRef .tc main_v96_1)) (W (Proc.devRef .tc main_v96_2)))
          shapeCasts_S128_S1x128 := by
  after_results; rfl

theorem host5_g (W : Valuation τ sig (Elt Ideal)) :
    StableHlo.after (hostOps5 (F := Ideal)) W (Proc.devRef .tc main_v109)
      = shapeCast S1x128 (W (Proc.devRef .tc main_v81)) shapeCasts_S128_S1x128 := by
  after_results; rfl

theorem host5_beta (W : Valuation τ sig (Elt Ideal)) :
    StableHlo.after (hostOps5 (F := Ideal)) W (Proc.devRef .tc main_v110)
      = shapeCast S1x128 (W (Proc.devRef .tc main_v83)) shapeCasts_S128_S1x128 := by
  after_results; rfl

end Cert.KernelIdeal.HostValue
-- ==== Proof.KHost6.lean ====
import proofs.«108604_j12824772346523_2_alg».proof.Proof.LibHost

namespace Cert.KernelIdeal.HostValue

open Cert.KernelIdeal Cert.KernelIdeal.Gen Idealize.ShloMosaic Idealize.ShloMosaic.TcCoe Idealize.SL.Sem Idealize.ShloMosaic.StableHlo

abbrev host6_writes : List (Ref sig .tc) :=
  [main_v112, main_v113, main_v114, main_v115, main_v116, main_v117, main_v118, main_v119, main_v120, main_v121, main_v122,
    main_v123, main_c_22, main_v124, main_v125, main_c_23, main_v126, main_v127, main_v128, main_v129, main_v130, main_cst_24,
    main_v131, main_v132, main_v133, main_v134, main_v135]

theorem host6_keep (W : Valuation τ sig (Elt Ideal)) (b : Ref sig .tc) (hb : b ∉ host6_writes) :
    StableHlo.after (hostOps6 (F := Ideal)) W (Proc.devRef .tc b) = W (Proc.devRef .tc b) :=
  keep_of_writes W hb rfl

theorem host6_w1 (W : Valuation τ sig (Elt Ideal)) :
    StableHlo.after (hostOps6 (F := Ideal)) W (Proc.devRef .tc main_v113)
      = Cert.Gnn.mat2 (W (Proc.devRef .tc main_arg8)) := by
  after_results; rfl

theorem host6_b1row (W : Valuation τ sig (Elt Ideal)) :
    StableHlo.after (hostOps6 (F := Ideal)) W (Proc.devRef .tc main_v134)
      = shapeCast S1x128 (Cert.Gnn.vec2 (W (Proc.devRef .tc main_arg9))) shapeCasts_S128_S1x128 := by
  after_results; rfl

theorem host6_w2 (W : Valuation τ sig (Elt Ideal)) :
    StableHlo.after (hostOps6 (F := Ideal)) W (Proc.devRef .tc main_v117)
      = Cert.Gnn.mat2 (W (Proc.devRef .tc main_arg10)) := by
  after_results; rfl

theorem host6_b2row (W : Valuation τ sig (Elt Ideal)) :
    StableHlo.after (hostOps6 (F := Ideal)) W (Proc.devRef .tc main_v135)
      = shapeCast S1x128 (Cert.Gnn.vec2 (W (Proc.devRef .tc main_arg11))) shapeCasts_S128_S1x128 := by
  after_results; rfl

theorem host6_g (W : Valuation τ sig (Elt Ideal)) :
    StableHlo.after (hostOps6 (F := Ideal)) W (Proc.devRef .tc main_v121)
      = Cert.Gnn.vec2 (W (Proc.devRef .tc main_arg12)) := by
  after_results; rfl

theorem host6_beta (W : Valuation τ sig (Elt Ideal)) :
    StableHlo.after (hostOps6 (F := Ideal)) W (Proc.devRef .tc main_v123)
      = Cert.Gnn.vec2 (W (Proc.devRef .tc main_arg13)) := by
  after_results; rfl

theorem host6_agg (W : Valuation τ sig (Elt Ideal)) :
    StableHlo.after (hostOps6 (F := Ideal)) W (Proc.devRef .tc main_v133)
      = Cert.Gnn.aggregate (W (Proc.devRef .tc main_v111)) (W (Proc.devRef .tc main_v1)) (W (Proc.devRef .tc main_v3)) := by
  after_results_simp
  unfold Cert.Gnn.aggregate Cert.Gnn.wrapIdx Cert.Gnn.zero
  rfl

end Cert.KernelIdeal.HostValue
-- ==== Proof.KHost7.lean ====
import proofs.«108604_j12824772346523_2_alg».proof.Proof.LibHost

namespace Cert.KernelIdeal.HostValue

open Cert.KernelIdeal Cert.KernelIdeal.Gen Idealize.ShloMosaic Idealize.ShloMosaic.TcCoe Idealize.SL.Sem Idealize.ShloMosaic.StableHlo

abbrev host7_writes : List (Ref sig .tc) :=
  [main_cst_25, main_v137, main_cst_26, main_v138, main_cst_27, main_v139, main_v140, main_cst_28, main_v141, main_v142,
    main_v143, main_v144, main_cst_29, main_v145, main_v146, main_v147, main_v148, main_v149, main_v150]

theorem host7_keep (W : Valuation τ sig (Elt Ideal)) (b : Ref sig .tc) (hb : b ∉ host7_writes) :
    StableHlo.after (hostOps7 (F := Ideal)) W (Proc.devRef .tc b) = W (Proc.devRef .tc b) :=
  keep_of_writes W hb rfl

theorem host7_mean (W : Valuation τ sig (Elt Ideal)) :
    StableHlo.after (hostOps7 (F := Ideal)) W (Proc.devRef .tc main_v147)
      = shapeCast S1x128 (Cert.Gnn.meanTiled (W (Proc.devRef .tc main_v136_1))) shapeCasts_S128_S1x128 := by
  after_results; rfl

theorem host7_var (W : Valuation τ sig (Elt Ideal)) :
    StableHlo.after (hostOps7 (F := Ideal)) W (Proc.devRef .tc main_v148)
      = shapeCast S1x128 (Cert.Gnn.varOnePass (W (Proc.devRef .tc main_v136_1)) (W (Proc.devRef .tc main_v136_2)))
          shapeCasts_S128_S1x128 := by
  after_results; rfl

theorem host7_g (W : Valuation τ sig (Elt Ideal)) :
    StableHlo.after (hostOps7 (F := Ideal)) W (Proc.devRef .tc main_v149)
      = shapeCast S1x128 (W (Proc.devRef .tc main_v121)) shapeCasts_S128_S1x128 := by
  after_results; rfl

theorem host7_beta (W : Valuation τ sig (Elt Ideal)) :
    StableHlo.after (hostOps7 (F := Ideal)) W (Proc.devRef .tc main_v150)
      = shapeCast S1x128 (W (Proc.devRef .tc main_v123)) shapeCasts_S128_S1x128 := by
  after_results; rfl

end Cert.KernelIdeal.HostValue
-- ==== Proof.KHost8.lean ====
import proofs.«108604_j12824772346523_2_alg».proof.Proof.LibHost

namespace Cert.KernelIdeal.HostValue

open Cert.KernelIdeal Cert.KernelIdeal.Gen Idealize.ShloMosaic Idealize.ShloMosaic.TcCoe Idealize.SL.Sem Idealize.ShloMosaic.StableHlo

abbrev host8_writes : List (Ref sig .tc) :=
  [main_v152, main_v153, main_v154, main_v155, main_v156, main_v157, main_v158, main_v159, main_v160, main_v161, main_v162,
    main_v163, main_c_30, main_v164, main_v165, main_c_31, main_v166, main_v167, main_v168, main_v169, main_v170, main_cst_32,
    main_v171, main_v172, main_v173, main_v174, main_v175]

theorem host8_keep (W : Valuation τ sig (Elt Ideal)) (b : Ref sig .tc) (hb : b ∉ host8_writes) :
    StableHlo.after (hostOps8 (F := Ideal)) W (Proc.devRef .tc b) = W (Proc.devRef .tc b) :=
  keep_of_writes W hb rfl

theorem host8_w1 (W : Valuation τ sig (Elt Ideal)) :
    StableHlo.after (hostOps8 (F := Ideal)) W (Proc.devRef .tc main_v153)
      = Cert.Gnn.mat3 (W (Proc.devRef .tc main_arg8)) := by
  after_results; rfl

theorem host8_b1row (W : Valuation τ sig (Elt Ideal)) :
    StableHlo.after (hostOps8 (F := Ideal)) W (Proc.devRef .tc main_v174)
      = shapeCast S1x128 (Cert.Gnn.vec3 (W (Proc.devRef .tc main_arg9))) shapeCasts_S128_S1x128 := by
  after_results; rfl

theorem host8_w2 (W : Valuation τ sig (Elt Ideal)) :
    StableHlo.after (hostOps8 (F := Ideal)) W (Proc.devRef .tc main_v157)
      = Cert.Gnn.mat3 (W (Proc.devRef .tc main_arg10)) := by
  after_results; rfl

theorem host8_b2row (W : Valuation τ sig (Elt Ideal)) :
    StableHlo.after (hostOps8 (F := Ideal)) W (Proc.devRef .tc main_v175)
      = shapeCast S1x128 (Cert.Gnn.vec3 (W (Proc.devRef .tc main_arg11))) shapeCasts_S128_S1x128 := by
  after_results; rfl

theorem host8_g (W : Valuation τ sig (Elt Ideal)) :
    StableHlo.after (hostOps8 (F := Ideal)) W (Proc.devRef .tc main_v161)
      = Cert.Gnn.vec3 (W (Proc.devRef .tc main_arg12)) := by
  after_results; rfl

theorem host8_beta (W : Valuation τ sig (Elt Ideal)) :
    StableHlo.after (hostOps8 (F := Ideal)) W (Proc.devRef .tc main_v163)
      = Cert.Gnn.vec3 (W (Proc.devRef .tc main_arg13)) := by
  after_results; rfl

theorem host8_agg (W : Valuation τ sig (Elt Ideal)) :
    StableHlo.after (hostOps8 (F := Ideal)) W (Proc.devRef .tc main_v173)
      = Cert.Gnn.aggregate (W (Proc.devRef .tc main_v151)) (W (Proc.devRef .tc main_v1)) (W (Proc.devRef .tc main_v3)) := by
  after_results_simp
  unfold Cert.Gnn.aggregate Cert.Gnn.wrapIdx Cert.Gnn.zero
  rfl

end Cert.KernelIdeal.HostValue
-- ==== Proof.KHost9.lean ====
import proofs.«108604_j12824772346523_2_alg».proof.Proof.LibHost

namespace Cert.KernelIdeal.HostValue

open Cert.KernelIdeal Cert.KernelIdeal.Gen Idealize.ShloMosaic Idealize.ShloMosaic.TcCoe Idealize.SL.Sem Idealize.ShloMosaic.StableHlo

abbrev host9_writes : List (Ref sig .tc) :=
  [main_cst_33, main_v177, main_cst_34, main_v178, main_cst_35, main_v179, main_v180, main_cst_36, main_v181, main_v182,
    main_v183, main_v184, main_cst_37, main_v185, main_v186, main_v187, main_v188, main_v189, main_v190]

theorem host9_keep (W : Valuation τ sig (Elt Ideal)) (b : Ref sig .tc) (hb : b ∉ host9_writes) :
    StableHlo.after (hostOps9 (F := Ideal)) W (Proc.devRef .tc b) = W (Proc.devRef .tc b) :=
  keep_of_writes W hb rfl

theorem host9_mean (W : Valuation τ sig (Elt Ideal)) :
    StableHlo.after (hostOps9 (F := Ideal)) W (Proc.devRef .tc main_v187)
      = shapeCast S1x128 (Cert.Gnn.meanTiled (W (Proc.devRef .tc main_v176_1))) shapeCasts_S128_S1x128 := by
  after_results; rfl

theorem host9_var (W : Valuation τ sig (Elt Ideal)) :
    StableHlo.after (hostOps9 (F := Ideal)) W (Proc.devRef .tc main_v188)
      = shapeCast S1x128 (Cert.Gnn.varOnePass (W (Proc.devRef .tc main_v176_1)) (W (Proc.devRef .tc main_v176_2)))
          shapeCasts_S128_S1x128 := by
  after_results; rfl

theorem host9_g (W : Valuation τ sig (Elt Ideal)) :
    StableHlo.after (hostOps9 (F := Ideal)) W (Proc.devRef .tc main_v189)
      = shapeCast S1x128 (W (Proc.devRef .tc main_v161)) shapeCasts_S128_S1x128 := by
  after_results; rfl

theorem host9_beta (W : Valuation τ sig (Elt Ideal)) :
    StableHlo.after (hostOps9 (F := Ideal)) W (Proc.devRef .tc main_v190)
      = shapeCast S1x128 (W (Proc.devRef .tc main_v163)) shapeCasts_S128_S1x128 := by
  after_results; rfl

end Cert.KernelIdeal.HostValue
-- ==== Proof.KHost10.lean ====
import proofs.«108604_j12824772346523_2_alg».proof.Proof.LibHost

namespace Cert.KernelIdeal.HostValue

open Cert.KernelIdeal Cert.KernelIdeal.Gen Idealize.ShloMosaic Idealize.ShloMosaic.TcCoe Idealize.SL.Sem Idealize.ShloMosaic.StableHlo

abbrev host10_writes : List (Ref sig .tc) :=
  [main_v192, main_v193, main_v194, main_v195, main_v196, main_v197, main_v198, main_v199, main_v200, main_v201, main_v202,
    main_v203, main_c_38, main_v204, main_v205, main_c_39, main_v206, main_v207, main_v208, main_v209, main_v210, main_cst_40,
    main_v211, main_v212, main_v213, main_v214, main_v215]

theorem host10_keep (W : Valuation τ sig (Elt Ideal)) (b : Ref sig .tc) (hb : b ∉ host10_writes) :
    StableHlo.after (hostOps10 (F := Ideal)) W (Proc.devRef .tc b) = W (Proc.devRef .tc b) :=
  keep_of_writes W hb rfl

theorem host10_w1 (W : Valuation τ sig (Elt Ideal)) :
    StableHlo.after (hostOps10 (F := Ideal)) W (Proc.devRef .tc main_v193)
      = Cert.Gnn.mat4 (W (Proc.devRef .tc main_arg8)) := by
  after_results; rfl

theorem host10_b1row (W : Valuation τ sig (Elt Ideal)) :
    StableHlo.after (hostOps10 (F := Ideal)) W (Proc.devRef .tc main_v214)
      = shapeCast S1x128 (Cert.Gnn.vec4 (W (Proc.devRef .tc main_arg9))) shapeCasts_S128_S1x128 := by
  after_results; rfl

theorem host10_w2 (W : Valuation τ sig (Elt Ideal)) :
    StableHlo.after (hostOps10 (F := Ideal)) W (Proc.devRef .tc main_v197)
      = Cert.Gnn.mat4 (W (Proc.devRef .tc main_arg10)) := by
  after_results; rfl

theorem host10_b2row (W : Valuation τ sig (Elt Ideal)) :
    StableHlo.after (hostOps10 (F := Ideal)) W (Proc.devRef .tc main_v215)
      = shapeCast S1x128 (Cert.Gnn.vec4 (W (Proc.devRef .tc main_arg11))) shapeCasts_S128_S1x128 := by
  after_results; rfl

theorem host10_g (W : Valuation τ sig (Elt Ideal)) :
    StableHlo.after (hostOps10 (F := Ideal)) W (Proc.devRef .tc main_v201)
      = Cert.Gnn.vec4 (W (Proc.devRef .tc main_arg12)) := by
  after_results; rfl

theorem host10_beta (W : Valuation τ sig (Elt Ideal)) :
    StableHlo.after (hostOps10 (F := Ideal)) W (Proc.devRef .tc main_v203)
      = Cert.Gnn.vec4 (W (Proc.devRef .tc main_arg13)) := by
  after_results; rfl

theorem host10_agg (W : Valuation τ sig (Elt Ideal)) :
    StableHlo.after (hostOps10 (F := Ideal)) W (Proc.devRef .tc main_v213)
      = Cert.Gnn.aggregate (W (Proc.devRef .tc main_v191)) (W (Proc.devRef .tc main_v1)) (W (Proc.devRef .tc main_v3)) := by
  after_results_simp
  unfold Cert.Gnn.aggregate Cert.Gnn.wrapIdx Cert.Gnn.zero
  rfl

end Cert.KernelIdeal.HostValue
-- ==== Proof.KHost11.lean ====
import proofs.«108604_j12824772346523_2_alg».proof.Proof.LibHost

namespace Cert.KernelIdeal.HostValue

open Cert.KernelIdeal Cert.KernelIdeal.Gen Idealize.ShloMosaic Idealize.ShloMosaic.TcCoe Idealize.SL.Sem Idealize.ShloMosaic.StableHlo

abbrev host11_writes : List (Ref sig .tc) :=
  [main_cst_41, main_v217, main_cst_42, main_v218, main_cst_43, main_v219, main_v220, main_cst_44, main_v221, main_v222,
    main_v223, main_v224, main_cst_45, main_v225, main_v226, main_v227, main_v228, main_v229, main_v230]

theorem host11_keep (W : Valuation τ sig (Elt Ideal)) (b : Ref sig .tc) (hb : b ∉ host11_writes) :
    StableHlo.after (hostOps11 (F := Ideal)) W (Proc.devRef .tc b) = W (Proc.devRef .tc b) :=
  keep_of_writes W hb rfl

theorem host11_mean (W : Valuation τ sig (Elt Ideal)) :
    StableHlo.after (hostOps11 (F := Ideal)) W (Proc.devRef .tc main_v227)
      = shapeCast S1x128 (Cert.Gnn.meanTiled (W (Proc.devRef .tc main_v216_1))) shapeCasts_S128_S1x128 := by
  after_results; rfl

theorem host11_var (W : Valuation τ sig (Elt Ideal)) :
    StableHlo.after (hostOps11 (F := Ideal)) W (Proc.devRef .tc main_v228)
      = shapeCast S1x128 (Cert.Gnn.varOnePass (W (Proc.devRef .tc main_v216_1)) (W (Proc.devRef .tc main_v216_2)))
          shapeCasts_S128_S1x128 := by
  after_results; rfl

theorem host11_g (W : Valuation τ sig (Elt Ideal)) :
    StableHlo.after (hostOps11 (F := Ideal)) W (Proc.devRef .tc main_v229)
      = shapeCast S1x128 (W (Proc.devRef .tc main_v201)) shapeCasts_S128_S1x128 := by
  after_results; rfl

theorem host11_beta (W : Valuation τ sig (Elt Ideal)) :
    StableHlo.after (hostOps11 (F := Ideal)) W (Proc.devRef .tc main_v230)
      = shapeCast S1x128 (W (Proc.devRef .tc main_v203)) shapeCasts_S128_S1x128 := by
  after_results; rfl

end Cert.KernelIdeal.HostValue
-- ==== Proof.KHost12.lean ====
import proofs.«108604_j12824772346523_2_alg».proof.Proof.LibHost

namespace Cert.KernelIdeal.HostValue

open Cert.KernelIdeal Cert.KernelIdeal.Gen Idealize.ShloMosaic Idealize.ShloMosaic.TcCoe Idealize.SL.Sem Idealize.ShloMosaic.StableHlo

abbrev host12_writes : List (Ref sig .tc) :=
  [main_v232, main_v233, main_v234, main_v235, main_v236, main_v237, main_v238, main_v239, main_v240, main_v241, main_v242,
    main_v243, main_c_46, main_v244, main_v245, main_c_47, main_v246, main_v247, main_v248, main_v249, main_v250, main_cst_48,
    main_v251, main_v252, main_v253, main_v254, main_v255]

theorem host12_keep (W : Valuation τ sig (Elt Ideal)) (b : Ref sig .tc) (hb : b ∉ host12_writes) :
    StableHlo.after (hostOps12 (F := Ideal)) W (Proc.devRef .tc b) = W (Proc.devRef .tc b) :=
  keep_of_writes W hb rfl

theorem host12_w1 (W : Valuation τ sig (Elt Ideal)) :
    StableHlo.after (hostOps12 (F := Ideal)) W (Proc.devRef .tc main_v233)
      = Cert.Gnn.mat5 (W (Proc.devRef .tc main_arg8)) := by
  after_results; rfl

theorem host12_b1row (W : Valuation τ sig (Elt Ideal)) :
    StableHlo.after (hostOps12 (F := Ideal)) W (Proc.devRef .tc main_v254)
      = shapeCast S1x128 (Cert.Gnn.vec5 (W (Proc.devRef .tc main_arg9))) shapeCasts_S128_S1x128 := by
  after_results; rfl

theorem host12_w2 (W : Valuation τ sig (Elt Ideal)) :
    StableHlo.after (hostOps12 (F := Ideal)) W (Proc.devRef .tc main_v237)
      = Cert.Gnn.mat5 (W (Proc.devRef .tc main_arg10)) := by
  after_results; rfl

theorem host12_b2row (W : Valuation τ sig (Elt Ideal)) :
    StableHlo.after (hostOps12 (F := Ideal)) W (Proc.devRef .tc main_v255)
      = shapeCast S1x128 (Cert.Gnn.vec5 (W (Proc.devRef .tc main_arg11))) shapeCasts_S128_S1x128 := by
  after_results; rfl

theorem host12_g (W : Valuation τ sig (Elt Ideal)) :
    StableHlo.after (hostOps12 (F := Ideal)) W (Proc.devRef .tc main_v241)
      = Cert.Gnn.vec5 (W (Proc.devRef .tc main_arg12)) := by
  after_results; rfl

theorem host12_beta (W : Valuation τ sig (Elt Ideal)) :
    StableHlo.after (hostOps12 (F := Ideal)) W (Proc.devRef .tc main_v243)
      = Cert.Gnn.vec5 (W (Proc.devRef .tc main_arg13)) := by
  after_results; rfl

theorem host12_agg (W : Valuation τ sig (Elt Ideal)) :
    StableHlo.after (hostOps12 (F := Ideal)) W (Proc.devRef .tc main_v253)
      = Cert.Gnn.aggregate (W (Proc.devRef .tc main_v231)) (W (Proc.devRef .tc main_v1)) (W (Proc.devRef .tc main_v3)) := by
  after_results_simp
  unfold Cert.Gnn.aggregate Cert.Gnn.wrapIdx Cert.Gnn.zero
  rfl

end Cert.KernelIdeal.HostValue
-- ==== Proof.KHost13.lean ====
import proofs.«108604_j12824772346523_2_alg».proof.Proof.LibHost

namespace Cert.KernelIdeal.HostValue

open Cert.KernelIdeal Cert.KernelIdeal.Gen Idealize.ShloMosaic Idealize.ShloMosaic.TcCoe Idealize.SL.Sem Idealize.ShloMosaic.StableHlo

abbrev host13_writes : List (Ref sig .tc) :=
  [main_cst_49, main_v257, main_cst_50, main_v258, main_cst_51, main_v259, main_v260, main_cst_52, main_v261, main_v262,
    main_v263, main_v264, main_cst_53, main_v265, main_v266, main_v267, main_v268, main_v269, main_v270]

theorem host13_keep (W : Valuation τ sig (Elt Ideal)) (b : Ref sig .tc) (hb : b ∉ host13_writes) :
    StableHlo.after (hostOps13 (F := Ideal)) W (Proc.devRef .tc b) = W (Proc.devRef .tc b) :=
  keep_of_writes W hb rfl

theorem host13_mean (W : Valuation τ sig (Elt Ideal)) :
    StableHlo.after (hostOps13 (F := Ideal)) W (Proc.devRef .tc main_v267)
      = shapeCast S1x128 (Cert.Gnn.meanTiled (W (Proc.devRef .tc main_v256_1))) shapeCasts_S128_S1x128 := by
  after_results; rfl

theorem host13_var (W : Valuation τ sig (Elt Ideal)) :
    StableHlo.after (hostOps13 (F := Ideal)) W (Proc.devRef .tc main_v268)
      = shapeCast S1x128 (Cert.Gnn.varOnePass (W (Proc.devRef .tc main_v256_1)) (W (Proc.devRef .tc main_v256_2)))
          shapeCasts_S128_S1x128 := by
  after_results; rfl

theorem host13_g (W : Valuation τ sig (Elt Ideal)) :
    StableHlo.after (hostOps13 (F := Ideal)) W (Proc.devRef .tc main_v269)
      = shapeCast S1x128 (W (Proc.devRef .tc main_v241)) shapeCasts_S128_S1x128 := by
  after_results; rfl

theorem host13_beta (W : Valuation τ sig (Elt Ideal)) :
    StableHlo.after (hostOps13 (F := Ideal)) W (Proc.devRef .tc main_v270)
      = shapeCast S1x128 (W (Proc.devRef .tc main_v243)) shapeCasts_S128_S1x128 := by
  after_results; rfl

end Cert.KernelIdeal.HostValue
-- ==== Proof.KHost14.lean ====
import proofs.«108604_j12824772346523_2_alg».proof.Proof.LibHost

namespace Cert.KernelIdeal.HostValue

open Cert.KernelIdeal Cert.KernelIdeal.Gen Idealize.ShloMosaic Idealize.ShloMosaic.TcCoe Idealize.SL.Sem Idealize.ShloMosaic.StableHlo

abbrev host14_writes : List (Ref sig .tc) :=
  [main_c_54, main_v272, main_v273, main_c_55, main_v274, main_v275, main_v276, main_v277, main_v278, main_cst_56,
    main_v279, main_v280, main_v281, main_v282, main_v283]

theorem host14_keep (W : Valuation τ sig (Elt Ideal)) (b : Ref sig .tc) (hb : b ∉ host14_writes) :
    StableHlo.after (hostOps14 (F := Ideal)) W (Proc.devRef .tc b) = W (Proc.devRef .tc b) :=
  keep_of_writes W hb rfl

theorem host14_agg (W : Valuation τ sig (Elt Ideal)) :
    StableHlo.after (hostOps14 (F := Ideal)) W (Proc.devRef .tc main_v281)
      = Cert.Gnn.aggregate (W (Proc.devRef .tc main_v271)) (W (Proc.devRef .tc main_v1)) (W (Proc.devRef .tc main_v3)) := by
  after_results_simp
  unfold Cert.Gnn.aggregate Cert.Gnn.wrapIdx Cert.Gnn.zero
  rfl

theorem host14_b1row (W : Valuation τ sig (Elt Ideal)) :
    StableHlo.after (hostOps14 (F := Ideal)) W (Proc.devRef .tc main_v282)
      = shapeCast S1x32 (W (Proc.devRef .tc main_arg15)) shapeCasts_S32_S1x32 := by
  after_results; rfl

theorem host14_b2row (W : Valuation τ sig (Elt Ideal)) :
    StableHlo.after (hostOps14 (F := Ideal)) W (Proc.devRef .tc main_v283)
      = shapeCast S1x3 (W (Proc.devRef .tc main_arg17)) shapeCasts_S3_S1x3 := by
  after_results; rfl

end Cert.KernelIdeal.HostValue
-- ==== Proof.KRegion2Idx.lean ====
import proofs.«108604_j12824772346523_2_alg».proof.Proof.Spec
import Idealize.ShloMosaic.Lib.Pipeline.Value
import Idealize.ShloMosaic.Lib.ValueIdx
import Idealize.ShloMosaic.Lib.KernelVsHost
import Idealize.ShloMosaic.Lib.StackMember
import Idealize.ShloMosaic.PureOps.Ideal.Laws

noncomputable section

namespace Cert.KernelIdeal.RegionValue

open Idealize.ShloMosaic Idealize.ShloMosaic.ValueIdx

theorem rowBroadcast_apply {α : Type} {M N : Nat} (b : (⟨1, ![N]⟩ : Shape).Idx → α)
    (h1 : (⟨1, ![N]⟩ : Shape).ShapeCasts ⟨2, ![1, N]⟩) (hb : (⟨2, ![1, N]⟩ : Shape).Broadcasts ⟨2, ![M, N]⟩)
    (r : Fin M) (j : Fin N) :
    broadcastTo ⟨2, ![M, N]⟩ (shapeCast ⟨2, ![1, N]⟩ b h1) hb (ix2 r j) = b (ix1 j) := by
  have e1 := broadcastTo_apply (shapeCast ⟨2, ![1, N]⟩ b h1) hb (ix2 r j) (ix2 (0 : Fin 1) j) (by
    intro a
    match a with
    | ⟨0, _⟩ => rfl
    | ⟨1, _⟩ =>
      show j.val = if N = 1 then 0 else j.val
      split
      · have := j.isLt; omega
      · rfl)
  have e2 := shapeCast_apply b h1 (ix2 (0 : Fin 1) j) (ix1 j) (by
    rw [Shape.rowMajor_val_two, Shape.rowMajor_val_one]; show j.val = 0 * N + j.val; omega)
  exact e1.trans e2

theorem rows_apply {α : Type} {M N : Nat} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (j : Fin N) :
    broadcastInDim ⟨2, ![M, N]⟩ ![0, 1] h2 (broadcastInDim ⟨2, ![1, N]⟩ ![1] h1 b) (ix2 r j) = b (ix1 j) := by
  refine (broadcastInDim_oneRow_apply h2 _ r j).trans ?_
  refine broadcastInDim_apply ![1] h1 b (ix2 (0 : Fin 1) j) (ix1 j) ?_
  intro a
  match a with
  | ⟨0, _⟩ =>
    show j.val = if N = 1 then 0 else j.val
    split
    · have := j.isLt; omega
    · rfl

theorem matmul_plain_apply {M K N : Nat} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (a : Fin M) (b : Fin N) :
    matmul d prec A B (constant (F := Ideal) ⟨2, ![M, N]⟩ .f32 0x00000000#32) (ix2 a b) = ∑ c : Fin K, A (ix2 a c) * B (ix2 c b) := by
  subst hd
  rw [matmul_zero_eq_dotGeneral]
  exact StackMember.dotGeneral_plain_apply prec A B a b

theorem hostDot_plain_apply {M K N : Nat} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (a : Fin M) (b : Fin N) :
    Host.dotGeneral d prec A B (ix2 a b) = ∑ c : Fin K, A (ix2 a c) * B (ix2 c b) := by
  subst hd
  exact StackMember.dotGeneral_plain_apply prec A B a b

theorem colSum_apply {M N : Nat} (P : FVec Ideal ⟨2, ![M, N]⟩ .f32)
    (h : (⟨2, ![M, N]⟩ : Shape).Reduces [0] ⟨1, ![N]⟩) (hφ : FKind.Formats .f32)
    (hacc : (0x00000000#32 : BitVec 32) = FKind.add.neutral .f32 hφ) (j : Fin N) :
    multiReduction .add [0] ⟨1, ![N]⟩ P 0x00000000#32 h hφ hacc (ix1 j) = ∑ r : Fin M, P (ix2 r j) := by
  refine (Ideal.multiReduction_add_single P _ h hφ hacc (ix1 j)).trans ?_
  show ∑ k : Fin M, P (h.lift (ix1 j) k) = ∑ r : Fin M, P (ix2 r j)
  refine Finset.sum_congr rfl fun k _ => congrArg P ?_
  funext c
  apply Fin.ext
  match c with
  | ⟨0, _⟩ => rfl
  | ⟨1, _⟩ => rfl

theorem tileRow_apply {α : Type} {N : Nat} (v : (⟨1, ![N]⟩ : Shape).Idx → α) (z : α)
    (hc : (⟨1, ![N]⟩ : Shape).ShapeCasts ⟨2, ![1, N]⟩)
    (hcat : Shape.Concatenates [(⟨2, ![1, N]⟩ : Shape), ⟨2, ![7, N]⟩] ⟨2, ![8, N]⟩ 0) (q : Fin 8) (j : Fin N) :
    concatenate ⟨2, ![8, N]⟩ 0 [⟨⟨2, ![1, N]⟩, shapeCast ⟨2, ![1, N]⟩ v hc⟩, ⟨⟨2, ![7, N]⟩, broadcast ⟨2, ![7, N]⟩ z⟩] hcat (ix2 q j)
      = if q.val = 0 then v (ix1 j) else z := by
  have hq := q.isLt
  by_cases h : q.val = 0
  · rw [if_pos h]
    refine (concatenate_pair_apply_left (t := ⟨2, ![8, N]⟩) (s₁ := ⟨2, ![1, N]⟩) (s₂ := ⟨2, ![7, N]⟩) (0 : Fin 2) _ _ hcat _ rfl
      (ix2 (0 : Fin 1) j) (by
        intro b
        match b with
        | ⟨0, _⟩ => show (0 : ℕ) = q.val; omega
        | ⟨1, _⟩ => rfl)).trans ?_
    exact shapeCast_apply v hc (ix2 (0 : Fin 1) j) (ix1 j) (by
      rw [Shape.rowMajor_val_two, Shape.rowMajor_val_one]; show j.val = 0 * N + j.val; omega)
  · rw [if_neg h]
    exact concatenate_pair_apply_right (t := ⟨2, ![8, N]⟩) (s₁ := ⟨2, ![1, N]⟩) (s₂ := ⟨2, ![7, N]⟩) (0 : Fin 2) _ _ hcat _ rfl rfl
      (ix2 (⟨q.val - 1, by omega⟩ : Fin 7) j) (by
        intro b hb
        match b with
        | ⟨0, _⟩ => exact absurd rfl hb
        | ⟨1, _⟩ => rfl) (by show q.val - 1 + 1 = q.val; omega)

def rowMlp {K H N : Nat} (x y : Fin K → EReal) (w1 : FVec Ideal ⟨2, ![K, H]⟩ .f32) (b1 : FVec Ideal ⟨1, ![H]⟩ .f32)
    (w2 : FVec Ideal ⟨2, ![H, N]⟩ .f32) (b2 : FVec Ideal ⟨1, ![N]⟩ .f32) (j : Fin N) : EReal :=
  (∑ k : Fin H, max ((∑ l : Fin K, (x l + y l) * w1 (ix2 l k)) + b1 (ix1 k)) (Ideal.ofBits .f32 0x00000000#32) * w2 (ix2 k j))
    + b2 (ix1 j)

theorem kernelMlp_apply {M K H N : Nat}
    (d1 : DotDims ⟨2, ![M, K]⟩ ⟨2, ![K, H]⟩ ⟨2, ![M, H]⟩) (hd1 : d1 = DotDims.plain M K H)
    (d2 : DotDims ⟨2, ![M, H]⟩ ⟨2, ![H, N]⟩ ⟨2, ![M, N]⟩) (hd2 : d2 = DotDims.plain M H N)
    (x0 x1 : FVec Ideal ⟨2, ![M, K]⟩ .f32) (w1 : FVec Ideal ⟨2, ![K, H]⟩ .f32) (b1 : FVec Ideal ⟨1, ![H]⟩ .f32)
    (w2 : FVec Ideal ⟨2, ![H, N]⟩ .f32) (b2 : FVec Ideal ⟨1, ![N]⟩ .f32)
    (hc1 : (⟨1, ![H]⟩ : Shape).ShapeCasts ⟨2, ![1, H]⟩) (hb1 : (⟨2, ![1, H]⟩ : Shape).Broadcasts ⟨2, ![M, H]⟩)
    (hc2 : (⟨1, ![N]⟩ : Shape).ShapeCasts ⟨2, ![1, N]⟩) (hb2 : (⟨2, ![1, N]⟩ : Shape).Broadcasts ⟨2, ![M, N]⟩)
    (hbf : FTy.bf16.bits < FTy.f32.bits) (r : Fin M) (j : Fin N) :
    addf (matmul d2 none
        (truncf .bf16 (maximumf (addf (matmul d1 none (truncf .bf16 (addf x0 x1) hbf) (truncf .bf16 w1 hbf)
            (constant (F := Ideal) ⟨2, ![M, H]⟩ .f32 0x00000000#32)) (broadcastTo ⟨2, ![M, H]⟩ (shapeCast ⟨2, ![1, H]⟩ b1 hc1) hb1))
          (broadcast ⟨2, ![M, H]⟩ (Scalar.ofBits (F := Ideal) .f32 0x00000000#32))) hbf)
        (truncf .bf16 w2 hbf) (constant (F := Ideal) ⟨2, ![M, N]⟩ .f32 0x00000000#32))
      (broadcastTo ⟨2, ![M, N]⟩ (shapeCast ⟨2, ![1, N]⟩ b2 hc2) hb2) (ix2 r j)
    = rowMlp (fun l => x0 (ix2 r l)) (fun l => x1 (ix2 r l)) w1 b1 w2 b2 j := by
  rw [addf_apply, rowBroadcast_apply, matmul_plain_apply d2 hd2]
  unfold rowMlp
  refine congrArg (· + b2 (ix1 j)) (Finset.sum_congr rfl fun k _ => ?_)
  rw [truncf_apply, truncf_apply, maximumf_apply, addf_apply, rowBroadcast_apply, matmul_plain_apply d1 hd1]
  rfl

theorem hostMlp_apply {M K H N : Nat}
    (d1 : DotDims ⟨2, ![M, K]⟩ ⟨2, ![K, H]⟩ ⟨2, ![M, H]⟩) (hd1 : d1 = DotDims.plain M K H)
    (d2 : DotDims ⟨2, ![M, H]⟩ ⟨2, ![H, N]⟩ ⟨2, ![M, N]⟩) (hd2 : d2 = DotDims.plain M H N)
    (x0 x1 : FVec Ideal ⟨2, ![M, K]⟩ .f32) (w1 : FVec Ideal ⟨2, ![K, H]⟩ .f32) (b1 : FVec Ideal ⟨1, ![H]⟩ .f32)
    (w2 : FVec Ideal ⟨2, ![H, N]⟩ .f32) (b2 : FVec Ideal ⟨1, ![N]⟩ .f32)
    (ha1 : (⟨1, ![H]⟩ : Shape).BroadcastsInDim ⟨2, ![1, H]⟩ ![1]) (hb1 : (⟨2, ![1, H]⟩ : Shape).BroadcastsInDim ⟨2, ![M, H]⟩ ![0, 1])
    (ha2 : (⟨1, ![N]⟩ : Shape).BroadcastsInDim ⟨2, ![1, N]⟩ ![1]) (hb2 : (⟨2, ![1, N]⟩ : Shape).BroadcastsInDim ⟨2, ![M, N]⟩ ![0, 1])
    (hz : (⟨0, ![]⟩ : Shape).BroadcastsInDim ⟨2, ![M, H]⟩ ![]) (r : Fin M) (j : Fin N) :
    addf (Host.dotGeneral d2 none
        (maximumf (addf (Host.dotGeneral d1 none (addf x0 x1) w1)
            (broadcastInDim ⟨2, ![M, H]⟩ ![0, 1] hb1 (broadcastInDim ⟨2, ![1, H]⟩ ![1] ha1 b1)))
          (broadcastInDim ⟨2, ![M, H]⟩ ![] hz (constant (F := Ideal) ⟨0, ![]⟩ .f32 0x00000000#32))) w2)
      (broadcastInDim ⟨2, ![M, N]⟩ ![0, 1] hb2 (broadcastInDim ⟨2, ![1, N]⟩ ![1] ha2 b2)) (ix2 r j)
    = rowMlp (fun l => x0 (ix2 r l)) (fun l => x1 (ix2 r l)) w1 b1 w2 b2 j := by
  rw [addf_apply, rows_apply, hostDot_plain_apply d2 hd2]
  unfold rowMlp
  refine congrArg (· + b2 (ix1 j)) (Finset.sum_congr rfl fun k _ => ?_)
  rw [maximumf_apply, addf_apply, rows_apply, hostDot_plain_apply d1 hd1]
  rfl

theorem mlpRes_apply (h a : Cert.Gnn.T Cert.ReferenceIdeal.S100000x128) (w1 : Cert.Gnn.T Cert.ReferenceIdeal.S128x128)
    (b1 : Cert.Gnn.T Cert.ReferenceIdeal.S128) (w2 : Cert.Gnn.T Cert.ReferenceIdeal.S128x128) (b2 : Cert.Gnn.T Cert.ReferenceIdeal.S128)
    (R : Fin 100000) (j : Fin 128) :
    Cert.Gnn.mlpRes h a w1 b1 w2 b2 (ix2 R j) = rowMlp (fun l => h (ix2 R l)) (fun l => a (ix2 R l)) w1 b1 w2 b2 j := by
  unfold Cert.Gnn.mlpRes Cert.Gnn.rows128 Cert.Gnn.zero
  exact hostMlp_apply _ rfl _ rfl h a w1 b1 w2 b2 _ _ _ _ _ R j

theorem mlpTail_apply (h a : Cert.Gnn.T Cert.ReferenceIdeal.S100000x128) (w1 : Cert.Gnn.T Cert.ReferenceIdeal.S128x32)
    (b1 : Cert.Gnn.T Cert.ReferenceIdeal.S32) (w2 : Cert.Gnn.T Cert.ReferenceIdeal.S32x3) (b2 : Cert.Gnn.T Cert.ReferenceIdeal.S3)
    (R : Fin 100000) (j : Fin 3) :
    Cert.Gnn.mlpTail h a w1 b1 w2 b2 (ix2 R j) = rowMlp (fun l => h (ix2 R l)) (fun l => a (ix2 R l)) w1 b1 w2 b2 j := by
  unfold Cert.Gnn.mlpTail Cert.Gnn.rows32 Cert.Gnn.rows3 Cert.Gnn.zero
  exact hostMlp_apply _ rfl _ rfl h a w1 b1 w2 b2 _ _ _ _ _ R j

theorem tile_block (P : FVec Ideal ⟨2, ![5000, 128]⟩ .f32) (G : Cert.Gnn.T Cert.ReferenceIdeal.S100000x128) (tv : ℕ) (htv : tv < 20)
    (hP : ∀ (r : Fin 5000) (j : Fin 128) (R : Fin 100000), R.val = 5000 * tv + r.val → P (ix2 r j) = G (ix2 R j))
    (hred : (⟨2, ![5000, 128]⟩ : Shape).Reduces [0] ⟨1, ![128]⟩) (hφ : FKind.Formats .f32)
    (hacc : (0x00000000#32 : BitVec 32) = FKind.add.neutral .f32 hφ)
    (hc : (⟨1, ![128]⟩ : Shape).ShapeCasts ⟨2, ![1, 128]⟩)
    (hcat : Shape.Concatenates [(⟨2, ![1, 128]⟩ : Shape), ⟨2, ![7, 128]⟩] ⟨2, ![8, 128]⟩ 0)
    (y : (⟨2, ![8, 128]⟩ : Shape).Idx) (i : (⟨2, ![160, 128]⟩ : Shape).Idx)
    (hi0 : (i 0).val = 8 * tv + (y 0).val) (hi1 : (i 1).val = (y 1).val) :
    concatenate ⟨2, ![8, 128]⟩ 0 [⟨⟨2, ![1, 128]⟩, shapeCast ⟨2, ![1, 128]⟩ (multiReduction .add [0] ⟨1, ![128]⟩ P 0x00000000#32 hred hφ hacc) hc⟩,
        ⟨⟨2, ![7, 128]⟩, broadcast ⟨2, ![7, 128]⟩ (Scalar.ofBits (F := Ideal) .f32 0x00000000#32)⟩] hcat y
      = Cert.Gnn.tileSums G i := by
  obtain ⟨q, j, rfl⟩ : ∃ (q : Fin 8) (j : Fin 128), y = ix2 q j := ⟨y 0, y 1, eq_ix2 y⟩
  have hq : q.val < 8 := q.isLt
  have h0 : (i 0).val = 8 * tv + q.val := hi0
  have h1 : (i 1).val = j.val := hi1
  refine (tileRow_apply _ _ hc hcat q j).trans ?_
  unfold Cert.Gnn.tileSums
  by_cases hq0 : q.val = 0
  · rw [if_pos hq0, if_pos (by omega)]
    refine (colSum_apply P hred hφ hacc j).trans ?_
    refine Finset.sum_congr rfl fun r _ => ?_
    have hR : 5000 * ((i 0).val / 8) + r.val < 100000 := by have := r.isLt; omega
    refine (hP r j ⟨5000 * ((i 0).val / 8) + r.val, hR⟩ ?_).trans ?_
    · show 5000 * ((i 0).val / 8) + r.val = 5000 * tv + r.val
      have : (i 0).val / 8 = tv := by omega
      rw [this]
    · exact congrArg G (congrArg (ix2 _) (Fin.ext h1.symm))
  · rw [if_neg hq0, if_neg (by omega)]
    exact Ideal.ofBits_zero_f32

theorem mlpHead_apply (h a : Cert.Gnn.T Cert.ReferenceIdeal.S100000x128) (w1 : Cert.Gnn.T Cert.ReferenceIdeal.S128x256)
    (b1 : Cert.Gnn.T Cert.ReferenceIdeal.S256) (w2 : Cert.Gnn.T Cert.ReferenceIdeal.S256x128) (b2 : Cert.Gnn.T Cert.ReferenceIdeal.S128)
    (R : Fin 100000) (j : Fin 128) :
    Cert.Gnn.mlpHead h a w1 b1 w2 b2 (ix2 R j) = rowMlp (fun l => h (ix2 R l)) (fun l => a (ix2 R l)) w1 b1 w2 b2 j := by
  unfold Cert.Gnn.mlpHead Cert.Gnn.rows256 Cert.Gnn.rows128 Cert.Gnn.zero
  exact hostMlp_apply _ rfl _ rfl h a w1 b1 w2 b2 _ _ _ _ _ R j

/-- The six tiles a perceptron region reads at point tv: rows 5000·tv … of the two node arrays, the whole of the weights and bias rows. -/
structure MlpTiles {H N : Nat} (x0 x1 : FVec Ideal ⟨2, ![5000, 128]⟩ .f32) (x2 : FVec Ideal ⟨2, ![128, H]⟩ .f32)
    (x3 : FVec Ideal ⟨2, ![1, H]⟩ .f32) (x4 : FVec Ideal ⟨2, ![H, N]⟩ .f32) (x5 : FVec Ideal ⟨2, ![1, N]⟩ .f32)
    (h a : Cert.Gnn.T Cert.ReferenceIdeal.S100000x128) (w1 : FVec Ideal ⟨2, ![128, H]⟩ .f32) (b1 : FVec Ideal ⟨2, ![1, H]⟩ .f32)
    (w2 : FVec Ideal ⟨2, ![H, N]⟩ .f32) (b2 : FVec Ideal ⟨2, ![1, N]⟩ .f32) (tv : ℕ) : Prop where
  n0 : ∀ (r : Fin 5000) (l : Fin 128) (R : Fin 100000), R.val = 5000 * tv + r.val → x0 (ix2 r l) = h (ix2 R l)
  n1 : ∀ (r : Fin 5000) (l : Fin 128) (R : Fin 100000), R.val = 5000 * tv + r.val → x1 (ix2 r l) = a (ix2 R l)
  o2 : x2 = w1
  o3 : x3 = b1
  o4 : x4 = w2
  o5 : x5 = b2

end Cert.KernelIdeal.RegionValue

end
-- ==== Proof.LibWindow.lean ====
import Idealize.ShloMosaic.Lib.Pipeline.Value

namespace Idealize.ShloMosaic.Pipeline

variable {sig : RefSig} {G : Grid}

/-- Row blocks tile: when a window over a whole array steps along one axis by its block size, one block per grid point, and
    spans every other axis, each element lies in the block of the point `coordinate / block size`. -/
theorem Window.cover_of_rows (w : Window sig G) (a0 : Fin w.shape.rank) (harr : w.arr.IsWhole)
    (hidx : ∀ t a, w.index t a = if a = a0 then t.val else 0)
    (hsz : ∀ a, a ≠ a0 → w.size a = w.shape.size a)
    (hrow : w.shape.size a0 = G.N * w.size a0)
    (hx : ∀ t a, w.xsize (G.coords t) a = w.size a)
    (hfl : ∀ t, w.flush t = true) (i : w.arr.view.ty.Idx) :
    ∃ t : Fin G.N, w.flush t = true ∧ i ∈ (w.blk t).view.set := by
  obtain ⟨j, rfl⟩ := w.arr.view.exists_emb_of_mem_set (i := i) (by rw [harr.set_eq_univ]; exact Finset.mem_univ _)
  have hj : (j a0).val < G.N * w.size a0 := Nat.lt_of_lt_of_eq (j a0).isLt hrow
  have hpos : 0 < w.size a0 := by
    rcases Nat.eq_zero_or_pos (w.size a0) with h | h
    · rw [h, Nat.mul_zero] at hj; exact absurd hj (Nat.not_lt_zero _)
    · exact h
  have hlt : (j a0).val / w.size a0 < G.N := (Nat.div_lt_iff_lt_mul hpos).mpr hj
  refine ⟨⟨_, hlt⟩, hfl _, ?_⟩
  rw [show (w.blk ⟨_, hlt⟩).view.set = (w.rect ⟨_, hlt⟩).set.map w.arr.view.emb from View.set_slice _ _]
  refine Finset.mem_map_of_mem _ (Rect.mem_set_unit.mpr fun a => ?_)
  rw [hidx, hx]
  by_cases ha : a = a0
  · subst ha
    rw [if_pos rfl]
    exact ⟨Nat.div_mul_le_self _ _, Nat.lt_div_mul_add hpos⟩
  · rw [if_neg ha, hsz a ha, Nat.zero_mul, Nat.zero_add]
    exact ⟨Nat.zero_le _, (j a).isLt⟩

end Idealize.ShloMosaic.Pipeline

namespace Cert.KernelIdeal.RegionValue

theorem zeroOffsets : (![0, 0] : Fin 2 → Nat) = fun _ => 0 := funext fun a => by fin_cases a <;> rfl

end Cert.KernelIdeal.RegionValue
-- ==== Proof.KRegion0.lean ====
import proofs.«108604_j12824772346523_2_alg».proof.Proof.Gen.KernelIdeal.Frame
import proofs.«108604_j12824772346523_2_alg».proof.Proof.Spec
import proofs.«108604_j12824772346523_2_alg».proof.Proof.KRegion2Idx
import proofs.«108604_j12824772346523_2_alg».proof.Proof.LibWindow
import Idealize.ShloMosaic.Lib.Pipeline.Value

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

namespace MlpTiles

variable {x0 x1 : Vec Ideal S5000x128 .f32} {x2 : Vec Ideal S128x256 .f32} {x3 : Vec Ideal S1x256 .f32}
    {x4 : Vec Ideal S256x128 .f32} {x5 : Vec Ideal S1x128 .f32} {h a : Cert.Gnn.T S100000x128} {w1 : Cert.Gnn.T S128x256}
    {b1 : Cert.Gnn.T S256} {w2 : Cert.Gnn.T S256x128} {b2 : Cert.Gnn.T S128} {tv : ℕ}
    (T : MlpTiles x0 x1 x2 x3 x4 x5 h a w1 (shapeCast S1x256 b1 shapeCasts_S256_S1x256) w2 (shapeCast S1x128 b2 shapeCasts_S128_S1x128) tv)
include T

/-- Both sides are the row perceptron of row 5000·tv + y₀ of the node arrays. -/
theorem pay0 (y : S5000x128.Idx) (i : S100000x128.Idx) (hi0 : (i 0).val = 5000 * tv + (y 0).val) (hi1 : (i 1).val = (y 1).val) :
    k0_pay1 (F := Ideal) x0 x1 x2 x3 x4 x5 y = Cert.Gnn.mlpHead h a w1 b1 w2 b2 i := by
  obtain ⟨hx0, hx1, rfl, rfl, rfl, rfl⟩ := T
  obtain ⟨r, j, rfl⟩ : ∃ (r : Fin 5000) (j : Fin 128), y = ix2 r j := ⟨y 0, y 1, eq_ix2 y⟩
  obtain ⟨R, j', rfl⟩ : ∃ (R : Fin 100000) (j' : Fin 128), i = ix2 R j' := ⟨i 0, i 1, eq_ix2 i⟩
  obtain rfl : j = j' := (Fin.ext hi1).symm
  refine Eq.trans (by unfold k0_pay1; simp only [shapeCast_self]; exact kernelMlp_apply _ rfl _ rfl x0 x1 _ b1 _ b2 _ _ _ _ _ r j) ?_
  rw [mlpHead_apply, funext fun l => hx0 r l R hi0, funext fun l => hx1 r l R hi0]

theorem out0_6 (y : S5000x128.Idx) (i : S100000x128.Idx) (hi0 : (i 0).val = 5000 * tv + (y 0).val) (hi1 : (i 1).val = (y 1).val) :
    Gen.out0_6 (F := Ideal) x0 x1 x2 x3 x4 x5 y = Cert.Gnn.mlpHead h a w1 b1 w2 b2 i := by
  unfold Gen.out0_6
  rw [View.canon_unit_zero zeroOffsets]
  simp only [View.ld_unit_zero (S := S5000x128) zeroOffsets,
    View.ld_unit_zero (S := S128x256) zeroOffsets,
    View.ld_unit_zero (S := S1x256) zeroOffsets,
    View.ld_unit_zero (S := S256x128) zeroOffsets,
    View.ld_unit_zero (S := S1x128) zeroOffsets]
  exact T.pay0 y i hi0 hi1

theorem out0_7 (htv : tv < 20) (y : S8x128.Idx) (i : S160x128.Idx) (hi0 : (i 0).val = 8 * tv + (y 0).val) (hi1 : (i 1).val = (y 1).val) :
    Gen.out0_7 (F := Ideal) x0 x1 x2 x3 x4 x5 y = Cert.Gnn.tileSums (Cert.Gnn.mlpHead h a w1 b1 w2 b2) i := by
  unfold Gen.out0_7
  rw [View.canon_unit_zero zeroOffsets]
  simp only [View.ld_unit_zero (S := S5000x128) zeroOffsets,
    View.ld_unit_zero (S := S128x256) zeroOffsets,
    View.ld_unit_zero (S := S1x256) zeroOffsets,
    View.ld_unit_zero (S := S256x128) zeroOffsets,
    View.ld_unit_zero (S := S1x128) zeroOffsets]
  unfold k0_pay3 k0_pay2
  dsimp only
  exact tile_block _ _ tv htv (fun r j R hR => T.pay0 (ix2 r j) (ix2 R j) hR rfl) _ _ _ _ _ y i hi0 hi1

theorem out0_8 (htv : tv < 20) (y : S8x128.Idx) (i : S160x128.Idx) (hi0 : (i 0).val = 8 * tv + (y 0).val) (hi1 : (i 1).val = (y 1).val) :
    Gen.out0_8 (F := Ideal) x0 x1 x2 x3 x4 x5 y = Cert.Gnn.tileSums (mulf (Cert.Gnn.mlpHead h a w1 b1 w2 b2) (Cert.Gnn.mlpHead h a w1 b1 w2 b2)) i := by
  unfold Gen.out0_8
  rw [View.canon_unit_zero zeroOffsets]
  simp only [View.ld_unit_zero (S := S5000x128) zeroOffsets,
    View.ld_unit_zero (S := S128x256) zeroOffsets,
    View.ld_unit_zero (S := S1x256) zeroOffsets,
    View.ld_unit_zero (S := S256x128) zeroOffsets,
    View.ld_unit_zero (S := S1x128) zeroOffsets]
  unfold k0_pay4 k0_pay2
  dsimp only
  exact tile_block _ _ tv htv (fun r j R hR => congrArg (fun v => v * v) (T.pay0 (ix2 r j) (ix2 R j) hR rfl)) _ _ _ _ _ y i hi0 hi1

end MlpTiles

namespace R0

theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

variable (V : (c : Dev nD) → (b : Ref sig .tc) → Buf (Elt Ideal) ((c : Thread nD τ).loc b)) (c : Dev nD)

theorem blk0 (t : Fin cfg0.N) (r : Fin 5000) (l : Fin 128) (R : Fin 100000) (hR : R.val = 5000 * t.val + r.val) :
    (iblk0 V c 0 t : Vec Ideal S5000x128 .f32) (ix2 r l)
      = (V c (Pipeline.arrRef spec0 0) : S100000x128.Idx → Elt Ideal .f32) (ix2 R l) := by
  obtain ⟨p0, p1, -⟩ := idx t
  unfold iblk0
  rw [View.read_apply]
  refine congrArg (V c (Pipeline.arrRef spec0 0) : S100000x128.Idx → Elt Ideal .f32) (Shape.idx_ext₂ ?_ ?_)
  · show win0_0.index t (0 : Fin 2) * 5000 + 1 * r.val = R.val; rw [p0, hR]; omega
  · show win0_0.index t (1 : Fin 2) * 128 + 1 * l.val = l.val; rw [p1]; omega

theorem blk1 (t : Fin cfg0.N) (r : Fin 5000) (l : Fin 128) (R : Fin 100000) (hR : R.val = 5000 * t.val + r.val) :
    (iblk0 V c 1 t : Vec Ideal S5000x128 .f32) (ix2 r l)
      = (V c (Pipeline.arrRef spec0 1) : S100000x128.Idx → Elt Ideal .f32) (ix2 R l) := by
  obtain ⟨-, -, p0, p1, -⟩ := idx t
  unfold iblk0
  rw [View.read_apply]
  refine congrArg (V c (Pipeline.arrRef spec0 1) : S100000x128.Idx → Elt Ideal .f32) (Shape.idx_ext₂ ?_ ?_)
  · show win0_1.index t (0 : Fin 2) * 5000 + 1 * r.val = R.val; rw [p0, hR]; omega
  · show win0_1.index t (1 : Fin 2) * 128 + 1 * l.val = l.val; rw [p1]; omega

theorem blk2 (t : Fin cfg0.N) :
    (iblk0 V c 2 t : Vec Ideal S128x256 .f32) = (V c (Pipeline.arrRef spec0 2) : S128x256.Idx → Elt Ideal .f32) := by
  obtain ⟨-, -, -, -, p0, p1, -⟩ := idx t
  funext x
  unfold iblk0
  rw [View.read_apply]
  refine congrArg (V c (Pipeline.arrRef spec0 2) : S128x256.Idx → Elt Ideal .f32) (Shape.idx_ext₂ ?_ ?_)
  · show win0_2.index t (0 : Fin 2) * 128 + 1 * (x 0).val = (x 0).val; rw [p0]; omega
  · show win0_2.index t (1 : Fin 2) * 256 + 1 * (x 1).val = (x 1).val; rw [p1]; omega

theorem blk3 (t : Fin cfg0.N) :
    (iblk0 V c 3 t : Vec Ideal S1x256 .f32) = (V c (Pipeline.arrRef spec0 3) : S1x256.Idx → Elt Ideal .f32) := by
  obtain ⟨-, -, -, -, -, -, p0, p1, -⟩ := idx t
  funext x
  unfold iblk0
  rw [View.read_apply]
  refine congrArg (V c (Pipeline.arrRef spec0 3) : S1x256.Idx → Elt Ideal .f32) (Shape.idx_ext₂ ?_ ?_)
  · show win0_3.index t (0 : Fin 2) * 1 + 1 * (x 0).val = (x 0).val; rw [p0]; omega
  · show win0_3.index t (1 : Fin 2) * 256 + 1 * (x 1).val = (x 1).val; rw [p1]; omega

theorem blk4 (t : Fin cfg0.N) :
    (iblk0 V c 4 t : Vec Ideal S256x128 .f32) = (V c (Pipeline.arrRef spec0 4) : S256x128.Idx → Elt Ideal .f32) := by
  obtain ⟨-, -, -, -, -, -, -, -, p0, p1, -⟩ := idx t
  funext x
  unfold iblk0
  rw [View.read_apply]
  refine congrArg (V c (Pipeline.arrRef spec0 4) : S256x128.Idx → Elt Ideal .f32) (Shape.idx_ext₂ ?_ ?_)
  · show win0_4.index t (0 : Fin 2) * 256 + 1 * (x 0).val = (x 0).val; rw [p0]; omega
  · show win0_4.index t (1 : Fin 2) * 128 + 1 * (x 1).val = (x 1).val; rw [p1]; omega

theorem blk5 (t : Fin cfg0.N) :
    (iblk0 V c 5 t : Vec Ideal S1x128 .f32) = (V c (Pipeline.arrRef spec0 5) : S1x128.Idx → Elt Ideal .f32) := by
  obtain ⟨-, -, -, -, -, -, -, -, -, -, p0, p1, -⟩ := idx t
  funext x
  unfold iblk0
  rw [View.read_apply]
  refine congrArg (V c (Pipeline.arrRef spec0 5) : S1x128.Idx → Elt Ideal .f32) (Shape.idx_ext₂ ?_ ?_)
  · show win0_5.index t (0 : Fin 2) * 1 + 1 * (x 0).val = (x 0).val; rw [p0]; omega
  · show win0_5.index t (1 : Fin 2) * 128 + 1 * (x 1).val = (x 1).val; rw [p1]; omega

variable (h a : Cert.Gnn.T S100000x128) (w1 : Cert.Gnn.T S128x256) (b1 : Cert.Gnn.T S256) (w2 : Cert.Gnn.T S256x128) (b2 : Cert.Gnn.T S128)
    (e0 : V c (Pipeline.arrRef spec0 0) = h) (e1 : V c (Pipeline.arrRef spec0 1) = a) (e2 : V c (Pipeline.arrRef spec0 2) = w1)
    (e3 : V c (Pipeline.arrRef spec0 3) = shapeCast S1x256 b1 shapeCasts_S256_S1x256) (e4 : V c (Pipeline.arrRef spec0 4) = w2)
    (e5 : V c (Pipeline.arrRef spec0 5) = shapeCast S1x128 b2 shapeCasts_S128_S1x128)
include e0 e1 e2 e3 e4 e5

theorem tiles (t : Fin cfg0.N) :
    MlpTiles (iblk0 V c 0 t) (iblk0 V c 1 t) (iblk0 V c 2 t) (iblk0 V c 3 t) (iblk0 V c 4 t) (iblk0 V c 5 t)
      h a w1 (shapeCast S1x256 b1 shapeCasts_S256_S1x256) w2 (shapeCast S1x128 b2 shapeCasts_S128_S1x128) t.val := by
  rw [← e0, ← e1, ← e2, ← e3, ← e4, ← e5]
  exact ⟨blk0 V c t, blk1 V c t, blk2 V c t, blk3 V c t, blk4 V c t, blk5 V c t⟩

end R0

variable (V : (c : Dev nD) → (b : Ref sig .tc) → Buf (Elt Ideal) ((c : Thread nD τ).loc b)) (c : Dev nD)
    (h a : Cert.Gnn.T S100000x128) (w1 : Cert.Gnn.T S128x256) (b1 : Cert.Gnn.T S256) (w2 : Cert.Gnn.T S256x128) (b2 : Cert.Gnn.T S128)
    (e0 : V c (Pipeline.arrRef spec0 0) = h) (e1 : V c (Pipeline.arrRef spec0 1) = a) (e2 : V c (Pipeline.arrRef spec0 2) = w1)
    (e3 : V c (Pipeline.arrRef spec0 3) = shapeCast S1x256 b1 shapeCasts_S256_S1x256) (e4 : V c (Pipeline.arrRef spec0 4) = w2)
    (e5 : V c (Pipeline.arrRef spec0 5) = shapeCast S1x128 b2 shapeCasts_S128_S1x128)
include e0 e1 e2 e3 e4 e5

theorem region0_pre :
    (dat0 (F := Ideal) V c).arrAt 6 cfg0.N = Cert.Gnn.mlpHead h a w1 b1 w2 b2 :=
  (dat0 (F := Ideal) V c).arrAt_eq_of_cover 6 _
    (fun t _ => by
      obtain ⟨-, -, -, -, -, -, -, -, -, -, -, -, i0, i1, -⟩ := R0.idx t
      show (cfg0.win 6).cut (grid0.coords t) ((dat0 V c).after 6 t) = _
      rw [after0_6]
      funext y
      refine (R0.tiles V c h a w1 b1 w2 b2 e0 e1 e2 e3 e4 e5 t).out0_6 y (((cfg0.win 6).blk t).view.emb y) ?_ ?_
      · show win0_6.index t (0 : Fin 2) * 5000 + 1 * (y 0).val = 5000 * t.val + (y 0).val; rw [i0]; omega
      · show win0_6.index t (1 : Fin 2) * 128 + 1 * (y 1).val = (y 1).val; rw [i1]; omega)
    (win0_6.cover_of_rows 0 (Memref.isWhole_whole _)
      (by decide +kernel : ∀ t : Fin grid0.N, ∀ a : Fin 2, _) (by decide) rfl (fun _ _ => rfl) flush0_6)

theorem region0_sum :
    (dat0 (F := Ideal) V c).arrAt 7 cfg0.N = Cert.Gnn.tileSums (Cert.Gnn.mlpHead h a w1 b1 w2 b2) :=
  (dat0 (F := Ideal) V c).arrAt_eq_of_cover 7 _
    (fun t _ => by
      obtain ⟨-, -, -, -, -, -, -, -, -, -, -, -, -, -, i0, i1, -⟩ := R0.idx t
      show (cfg0.win 7).cut (grid0.coords t) ((dat0 V c).after 7 t) = _
      rw [after0_7]
      funext y
      refine (R0.tiles V c h a w1 b1 w2 b2 e0 e1 e2 e3 e4 e5 t).out0_7 (Nat.lt_of_lt_of_eq t.isLt N_0) y (((cfg0.win 7).blk t).view.emb y) ?_ ?_
      · show win0_7.index t (0 : Fin 2) * 8 + 1 * (y 0).val = 8 * t.val + (y 0).val; rw [i0]; omega
      · show win0_7.index t (1 : Fin 2) * 128 + 1 * (y 1).val = (y 1).val; rw [i1]; omega)
    (win0_7.cover_of_rows 0 (Memref.isWhole_whole _)
      (by decide +kernel : ∀ t : Fin grid0.N, ∀ a : Fin 2, _) (by decide) rfl (fun _ _ => rfl) flush0_7)

theorem region0_sumsq :
    (dat0 (F := Ideal) V c).arrAt 8 cfg0.N = Cert.Gnn.tileSums (mulf (Cert.Gnn.mlpHead h a w1 b1 w2 b2) (Cert.Gnn.mlpHead h a w1 b1 w2 b2)) :=
  (dat0 (F := Ideal) V c).arrAt_eq_of_cover 8 _
    (fun t _ => by
      obtain ⟨-, -, -, -, -, -, -, -, -, -, -, -, -, -, -, -, i0, i1⟩ := R0.idx t
      show (cfg0.win 8).cut (grid0.coords t) ((dat0 V c).after 8 t) = _
      rw [after0_8]
      funext y
      refine (R0.tiles V c h a w1 b1 w2 b2 e0 e1 e2 e3 e4 e5 t).out0_8 (Nat.lt_of_lt_of_eq t.isLt N_0) y (((cfg0.win 8).blk t).view.emb y) ?_ ?_
      · show win0_8.index t (0 : Fin 2) * 8 + 1 * (y 0).val = 8 * t.val + (y 0).val; rw [i0]; omega
      · show win0_8.index t (1 : Fin 2) * 128 + 1 * (y 1).val = (y 1).val; rw [i1]; omega)
    (win0_8.cover_of_rows 0 (Memref.isWhole_whole _)
      (by decide +kernel : ∀ t : Fin grid0.N, ∀ a : Fin 2, _) (by decide) rfl (fun _ _ => rfl) flush0_8)

end Cert.KernelIdeal.RegionValue

end
-- ==== Proof.KNormIdx.lean ====
import proofs.«108604_j12824772346523_2_alg».proof.Proof.Gen.KernelIdeal.Skeleton
import proofs.«108604_j12824772346523_2_alg».proof.Proof.Spec
import Idealize.ShloMosaic.PureOps.Ideal
import Idealize.ShloMosaic.Lib.ValueIdx
import Idealize.ShloMosaic.Lib.Pipeline.Value

noncomputable section

namespace Cert.KernelIdeal.RegionValue

open Idealize.ShloMosaic Idealize.ShloMosaic.ValueIdx Cert.KernelIdeal Cert.KernelIdeal.Gen

def normPoint (x m v g b : EReal) : EReal :=
  max ((x - m) * Ideal.rsqrt (v + Ideal.ofBits .f32 0x3727C5AC#32) * g + b) (Ideal.ofBits .f32 0x00000000#32)

def normBlock (x0 : Vec Ideal S5000x128 .f32) (xv xm xg xb : Vec Ideal S1x128 .f32) : FVec Ideal S5000x128 .f32 :=
  maximumf (addf (mulf (mulf (subf x0 (broadcastTo S5000x128 xm broadcasts_S1x128_S5000x128))
      (broadcastTo S5000x128 (rsqrt (addf xv (broadcast S1x128 (Scalar.ofBits .f32 0x3727C5AC#32)))) broadcasts_S1x128_S5000x128))
      (broadcastTo S5000x128 xg broadcasts_S1x128_S5000x128)) (broadcastTo S5000x128 xb broadcasts_S1x128_S5000x128))
    (broadcast S5000x128 (Scalar.ofBits .f32 0x00000000#32))

theorem rowRepeat_apply {α : Type} (x : S1x128.Idx → α) (r : Fin 5000) (j : Fin 128) :
    broadcastTo S5000x128 x broadcasts_S1x128_S5000x128 (ix2 r j) = x (ix2 (0 : Fin 1) j) :=
  broadcastTo_apply x broadcasts_S1x128_S5000x128 (ix2 r j) (ix2 (0 : Fin 1) j) fun a =>
    match a with
    | ⟨0, _⟩ => rfl
    | ⟨1, _⟩ => rfl

theorem normBlock_apply (x0 : Vec Ideal S5000x128 .f32) (xv xm xg xb : Vec Ideal S1x128 .f32) (r : Fin 5000) (j : Fin 128) :
    normBlock x0 xv xm xg xb (ix2 r j)
      = normPoint (x0 (ix2 r j)) (xm (ix2 (0 : Fin 1) j)) (xv (ix2 (0 : Fin 1) j)) (xg (ix2 (0 : Fin 1) j)) (xb (ix2 (0 : Fin 1) j)) := by
  unfold normBlock normPoint
  rw [maximumf_apply, addf_apply, mulf_apply, mulf_apply, subf_apply, rowRepeat_apply, rowRepeat_apply, rowRepeat_apply,
    rowRepeat_apply]
  rfl

theorem rows128_apply (v : Cert.Gnn.T S128) (r : Fin 100000) (j : Fin 128) :
    Cert.Gnn.rows128 v (ix2 r j) = v (ix1 j) := by
  unfold Cert.Gnn.rows128
  refine (broadcastInDim_apply _ _ _ (ix2 r j) (ix2 (0 : Fin 1) j) fun a => ?_).trans
    (broadcastInDim_apply _ _ _ (ix2 (0 : Fin 1) j) (ix1 j) fun a => ?_)
  · match a with
    | ⟨0, _⟩ => rfl
    | ⟨1, _⟩ => rfl
  · match a with
    | ⟨0, _⟩ => rfl

theorem normRelu_apply (p : Cert.Gnn.T S100000x128) (mean var g beta : Cert.Gnn.T S128) (r : Fin 100000) (j : Fin 128) :
    Cert.Gnn.normRelu p mean var g beta (ix2 r j)
      = normPoint (p (ix2 r j)) (mean (ix1 j)) (var (ix1 j)) (g (ix1 j)) (beta (ix1 j)) := by
  unfold Cert.Gnn.normRelu normPoint
  rw [maximumf_apply, addf_apply, mulf_apply, mulf_apply, subf_apply, rows128_apply, rows128_apply, rows128_apply,
    rows128_apply]
  rfl

theorem rowCast_apply (v : Cert.Gnn.T S128) (j : Fin 128) :
    shapeCast S1x128 v shapeCasts_S128_S1x128 (ix2 (0 : Fin 1) j) = v (ix1 j) :=
  shapeCast_apply v shapeCasts_S128_S1x128 (ix2 (0 : Fin 1) j) (ix1 j) (by
    rw [Shape.rowMajor_val_one, Shape.rowMajor_val_two]
    show j.val = 0 * _ + j.val
    omega)

theorem normBlock_eq (x0 : Vec Ideal S5000x128 .f32) (xv xm xg xb : Vec Ideal S1x128 .f32)
    (p : Cert.Gnn.T S100000x128) (mean var g beta : Cert.Gnn.T S128) (r : Fin 5000) (j : Fin 128) (i : Fin 100000)
    (h0 : x0 (ix2 r j) = p (ix2 i j))
    (hm : xm = shapeCast S1x128 mean shapeCasts_S128_S1x128) (hv : xv = shapeCast S1x128 var shapeCasts_S128_S1x128)
    (hg : xg = shapeCast S1x128 g shapeCasts_S128_S1x128) (hb : xb = shapeCast S1x128 beta shapeCasts_S128_S1x128) :
    normBlock x0 xv xm xg xb (ix2 r j) = Cert.Gnn.normRelu p mean var g beta (ix2 i j) := by
  rw [normBlock_apply, normRelu_apply, h0, hm, hv, hg, hb, rowCast_apply, rowCast_apply, rowCast_apply, rowCast_apply]

def normAddBlock (x0 : Vec Ideal S5000x128 .f32) (xv xm xg xb : Vec Ideal S1x128 .f32) (x5 : Vec Ideal S5000x128 .f32) :
    FVec Ideal S5000x128 .f32 :=
  addf (normBlock x0 xv xm xg xb) x5

theorem normAddBlock_eq (x0 : Vec Ideal S5000x128 .f32) (xv xm xg xb : Vec Ideal S1x128 .f32) (x5 : Vec Ideal S5000x128 .f32)
    (p : Cert.Gnn.T S100000x128) (mean var g beta : Cert.Gnn.T S128) (idn : Cert.Gnn.T S100000x128)
    (r : Fin 5000) (j : Fin 128) (i : Fin 100000)
    (h0 : x0 (ix2 r j) = p (ix2 i j)) (h5 : x5 (ix2 r j) = idn (ix2 i j))
    (hm : xm = shapeCast S1x128 mean shapeCasts_S128_S1x128) (hv : xv = shapeCast S1x128 var shapeCasts_S128_S1x128)
    (hg : xg = shapeCast S1x128 g shapeCasts_S128_S1x128) (hb : xb = shapeCast S1x128 beta shapeCasts_S128_S1x128) :
    normAddBlock x0 xv xm xg xb x5 (ix2 r j) = addf (Cert.Gnn.normRelu p mean var g beta) idn (ix2 i j) := by
  unfold normAddBlock
  rw [addf_apply, addf_apply, normBlock_eq x0 xv xm xg xb p mean var g beta r j i h0 hm hv hg hb, h5]

end Cert.KernelIdeal.RegionValue

end
-- ==== Proof.KRegion1.lean ====
import proofs.«108604_j12824772346523_2_alg».proof.Proof.Gen.KernelIdeal.Frame
import proofs.«108604_j12824772346523_2_alg».proof.Proof.Spec
import proofs.«108604_j12824772346523_2_alg».proof.Proof.KNormIdx
import proofs.«108604_j12824772346523_2_alg».proof.Proof.LibWindow
import Idealize.ShloMosaic.Lib.Pipeline.Value

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

/-- The tiles a normalising region reads at point tv: rows 5000·tv … of the feature array, and the four statistics and parameter rows. -/
structure NormTiles (x0 : Vec Ideal S5000x128 .f32) (xv xm xg xb : Vec Ideal S1x128 .f32) (p : Cert.Gnn.T S100000x128)
    (mean var g beta : Vec Ideal S1x128 .f32) (tv : ℕ) : Prop where
  n0 : ∀ (r : Fin 5000) (l : Fin 128) (R : Fin 100000), R.val = 5000 * tv + r.val → x0 (ix2 r l) = p (ix2 R l)
  om : xm = mean
  ov : xv = var
  og : xg = g
  ob : xb = beta

/-- The block's arithmetic at (r, j) is the specification's layer at (5000·tv + r, j). -/
theorem NormTiles.out5 {x0 : Vec Ideal S5000x128 .f32} {xv xm xg xb : Vec Ideal S1x128 .f32} {p : Cert.Gnn.T S100000x128}
    {mean var g beta : Cert.Gnn.T S128} {tv : ℕ}
    (T : NormTiles x0 xv xm xg xb p (shapeCast S1x128 mean shapeCasts_S128_S1x128) (shapeCast S1x128 var shapeCasts_S128_S1x128)
      (shapeCast S1x128 g shapeCasts_S128_S1x128) (shapeCast S1x128 beta shapeCasts_S128_S1x128) tv)
    (y : S5000x128.Idx) (i : S100000x128.Idx) (hi0 : (i 0).val = 5000 * tv + (y 0).val) (hi1 : (i 1).val = (y 1).val) :
    out1_5 (F := Ideal) x0 xm xv xg xb y = Cert.Gnn.normRelu p mean var g beta i := by
  obtain ⟨r, j, rfl⟩ : ∃ (r : Fin 5000) (j : Fin 128), y = ix2 r j := ⟨y 0, y 1, eq_ix2 y⟩
  obtain ⟨R, j', rfl⟩ : ∃ (R : Fin 100000) (j' : Fin 128), i = ix2 R j' := ⟨i 0, i 1, eq_ix2 i⟩
  obtain rfl : j = j' := (Fin.ext hi1).symm
  unfold out1_5
  rw [View.canon_unit_zero zeroOffsets]
  simp only [View.ld_unit_zero (S := S5000x128) zeroOffsets, View.ld_unit_zero (S := S1x128) zeroOffsets]
  show normBlock (shapeCast S5000x128 x0 shapeCasts_S5000x128_S5000x128) (shapeCast S1x128 xv shapeCasts_S1x128_S1x128)
      (shapeCast S1x128 xm shapeCasts_S1x128_S1x128) (shapeCast S1x128 xg shapeCasts_S1x128_S1x128)
      (shapeCast S1x128 xb shapeCasts_S1x128_S1x128) (ix2 r j) = _
  rw [shapeCast_self x0, shapeCast_self xv, shapeCast_self xm, shapeCast_self xg, shapeCast_self xb]
  exact normBlock_eq x0 xv xm xg xb p mean var g beta r j R (T.n0 r j R hi0) T.om T.ov T.og T.ob

namespace R1

theorem idx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b)) (c : Dev nD)

theorem blk0 (t : Fin cfg1.N) (r : Fin 5000) (l : Fin 128) (R : Fin 100000) (hR : R.val = 5000 * t.val + r.val) :
    (iblk1 V c 0 t : Vec Ideal S5000x128 .f32) (ix2 r l)
      = (V c (Pipeline.arrRef spec1 0) : S100000x128.Idx → Elt Ideal .f32) (ix2 R l) := by
  obtain ⟨p0, p1, -⟩ := idx t
  unfold iblk1
  rw [View.read_apply]
  refine congrArg (V c (Pipeline.arrRef spec1 0) : S100000x128.Idx → Elt Ideal .f32) (Shape.idx_ext₂ ?_ ?_)
  · show win1_0.index t (0 : Fin 2) * 5000 + 1 * r.val = R.val; rw [p0, hR]; omega
  · show win1_0.index t (1 : Fin 2) * 128 + 1 * l.val = l.val; rw [p1]; omega

theorem blk1 (t : Fin cfg1.N) :
    (iblk1 V c 1 t : Vec Ideal S1x128 .f32) = (V c (Pipeline.arrRef spec1 1) : S1x128.Idx → Elt Ideal .f32) := by
  obtain ⟨-, -, p0, p1, -⟩ := idx t
  funext x
  unfold iblk1
  rw [View.read_apply]
  refine congrArg (V c (Pipeline.arrRef spec1 1) : S1x128.Idx → Elt Ideal .f32) (Shape.idx_ext₂ ?_ ?_)
  · show win1_1.index t (0 : Fin 2) * 1 + 1 * (x 0).val = (x 0).val; rw [p0]; omega
  · show win1_1.index t (1 : Fin 2) * 128 + 1 * (x 1).val = (x 1).val; rw [p1]; omega

theorem blk2 (t : Fin cfg1.N) :
    (iblk1 V c 2 t : Vec Ideal S1x128 .f32) = (V c (Pipeline.arrRef spec1 2) : S1x128.Idx → Elt Ideal .f32) := by
  obtain ⟨-, -, -, -, p0, p1, -⟩ := idx t
  funext x
  unfold iblk1
  rw [View.read_apply]
  refine congrArg (V c (Pipeline.arrRef spec1 2) : S1x128.Idx → Elt Ideal .f32) (Shape.idx_ext₂ ?_ ?_)
  · show win1_2.index t (0 : Fin 2) * 1 + 1 * (x 0).val = (x 0).val; rw [p0]; omega
  · show win1_2.index t (1 : Fin 2) * 128 + 1 * (x 1).val = (x 1).val; rw [p1]; omega

theorem blk3 (t : Fin cfg1.N) :
    (iblk1 V c 3 t : Vec Ideal S1x128 .f32) = (V c (Pipeline.arrRef spec1 3) : S1x128.Idx → Elt Ideal .f32) := by
  obtain ⟨-, -, -, -, -, -, p0, p1, -⟩ := idx t
  funext x
  unfold iblk1
  rw [View.read_apply]
  refine congrArg (V c (Pipeline.arrRef spec1 3) : S1x128.Idx → Elt Ideal .f32) (Shape.idx_ext₂ ?_ ?_)
  · show win1_3.index t (0 : Fin 2) * 1 + 1 * (x 0).val = (x 0).val; rw [p0]; omega
  · show win1_3.index t (1 : Fin 2) * 128 + 1 * (x 1).val = (x 1).val; rw [p1]; omega

theorem blk4 (t : Fin cfg1.N) :
    (iblk1 V c 4 t : Vec Ideal S1x128 .f32) = (V c (Pipeline.arrRef spec1 4) : S1x128.Idx → Elt Ideal .f32) := by
  obtain ⟨-, -, -, -, -, -, -, -, p0, p1, -⟩ := idx t
  funext x
  unfold iblk1
  rw [View.read_apply]
  refine congrArg (V c (Pipeline.arrRef spec1 4) : S1x128.Idx → Elt Ideal .f32) (Shape.idx_ext₂ ?_ ?_)
  · show win1_4.index t (0 : Fin 2) * 1 + 1 * (x 0).val = (x 0).val; rw [p0]; omega
  · show win1_4.index t (1 : Fin 2) * 128 + 1 * (x 1).val = (x 1).val; rw [p1]; omega

variable (p : Cert.Gnn.T S100000x128) (mean var g beta : Cert.Gnn.T S128)
    (e0 : V c (Pipeline.arrRef spec1 0) = p)
    (e1 : V c (Pipeline.arrRef spec1 1) = shapeCast S1x128 mean shapeCasts_S128_S1x128)
    (e2 : V c (Pipeline.arrRef spec1 2) = shapeCast S1x128 var shapeCasts_S128_S1x128)
    (e3 : V c (Pipeline.arrRef spec1 3) = shapeCast S1x128 g shapeCasts_S128_S1x128)
    (e4 : V c (Pipeline.arrRef spec1 4) = shapeCast S1x128 beta shapeCasts_S128_S1x128)
include e0 e1 e2 e3 e4

theorem tiles (t : Fin cfg1.N) :
    NormTiles (iblk1 V c 0 t) (iblk1 V c 2 t) (iblk1 V c 1 t) (iblk1 V c 3 t) (iblk1 V c 4 t)
      p (shapeCast S1x128 mean shapeCasts_S128_S1x128) (shapeCast S1x128 var shapeCasts_S128_S1x128) (shapeCast S1x128 g shapeCasts_S128_S1x128) (shapeCast S1x128 beta shapeCasts_S128_S1x128) t.val := by
  rw [← e0, ← e1, ← e2, ← e3, ← e4]
  exact ⟨blk0 V c t, blk1 V c t, blk2 V c t, blk3 V c t, blk4 V c t⟩

end R1

variable (V : (c : Dev nD) → (b : Ref sig .tc) → Buf (Elt Ideal) ((c : Thread nD τ).loc b)) (c : Dev nD)
    (p : Cert.Gnn.T S100000x128) (mean var g beta : Cert.Gnn.T S128)
    (e0 : V c (Pipeline.arrRef spec1 0) = p)
    (e1 : V c (Pipeline.arrRef spec1 1) = shapeCast S1x128 mean shapeCasts_S128_S1x128)
    (e2 : V c (Pipeline.arrRef spec1 2) = shapeCast S1x128 var shapeCasts_S128_S1x128)
    (e3 : V c (Pipeline.arrRef spec1 3) = shapeCast S1x128 g shapeCasts_S128_S1x128)
    (e4 : V c (Pipeline.arrRef spec1 4) = shapeCast S1x128 beta shapeCasts_S128_S1x128)
include e0 e1 e2 e3 e4

theorem region1_out : (dat1 (F := Ideal) V c).arrAt 5 cfg1.N = Cert.Gnn.normRelu p mean var g beta :=
  (dat1 (F := Ideal) V c).arrAt_eq_of_cover 5 _
    (fun t _ => by
      obtain ⟨-, -, -, -, -, -, -, -, -, -, i0, i1⟩ := R1.idx t
      show (cfg1.win 5).cut (grid1.coords t) ((dat1 V c).after 5 t) = _
      rw [after1_5]
      funext y
      refine (R1.tiles V c p mean var g beta e0 e1 e2 e3 e4 t).out5 y (((cfg1.win 5).blk t).view.emb y) ?_ ?_
      · show win1_5.index t (0 : Fin 2) * 5000 + 1 * (y 0).val = 5000 * t.val + (y 0).val; rw [i0]; omega
      · show win1_5.index t (1 : Fin 2) * 128 + 1 * (y 1).val = (y 1).val; rw [i1]; omega)
    (win1_5.cover_of_rows 0 (Memref.isWhole_whole _)
      (by decide +kernel : ∀ t : Fin grid1.N, ∀ a : Fin 2, _) (by decide) rfl (fun _ _ => rfl) flush1_5)

end Cert.KernelIdeal.RegionValue

end
-- ==== Proof.KRegion2.lean ====
import proofs.«108604_j12824772346523_2_alg».proof.Proof.Gen.KernelIdeal.Frame
import proofs.«108604_j12824772346523_2_alg».proof.Proof.Spec
import proofs.«108604_j12824772346523_2_alg».proof.Proof.KRegion2Idx
import proofs.«108604_j12824772346523_2_alg».proof.Proof.LibWindow
import Idealize.ShloMosaic.Lib.Pipeline.Value

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

namespace MlpTiles

variable {x0 x1 : Vec Ideal S5000x128 .f32} {x2 : Vec Ideal S128x128 .f32} {x3 : Vec Ideal S1x128 .f32}
    {x4 : Vec Ideal S128x128 .f32} {x5 : Vec Ideal S1x128 .f32} {h a : Cert.Gnn.T S100000x128} {w1 : Cert.Gnn.T S128x128}
    {b1 : Cert.Gnn.T S128} {w2 : Cert.Gnn.T S128x128} {b2 : Cert.Gnn.T S128} {tv : ℕ}
    (T : MlpTiles x0 x1 x2 x3 x4 x5 h a w1 (shapeCast S1x128 b1 shapeCasts_S128_S1x128) w2 (shapeCast S1x128 b2 shapeCasts_S128_S1x128) tv)
include T

/-- Both sides are the row perceptron of row 5000·tv + y₀ of the node arrays. -/
theorem pay2 (y : S5000x128.Idx) (i : S100000x128.Idx) (hi0 : (i 0).val = 5000 * tv + (y 0).val) (hi1 : (i 1).val = (y 1).val) :
    k2_pay1 (F := Ideal) x0 x1 x2 x3 x4 x5 y = Cert.Gnn.mlpRes h a w1 b1 w2 b2 i := by
  obtain ⟨hx0, hx1, rfl, rfl, rfl, rfl⟩ := T
  obtain ⟨r, j, rfl⟩ : ∃ (r : Fin 5000) (j : Fin 128), y = ix2 r j := ⟨y 0, y 1, eq_ix2 y⟩
  obtain ⟨R, j', rfl⟩ : ∃ (R : Fin 100000) (j' : Fin 128), i = ix2 R j' := ⟨i 0, i 1, eq_ix2 i⟩
  obtain rfl : j = j' := (Fin.ext hi1).symm
  refine Eq.trans (by unfold k2_pay1; simp only [shapeCast_self]; exact kernelMlp_apply _ rfl _ rfl x0 x1 _ b1 _ b2 _ _ _ _ _ r j) ?_
  rw [mlpRes_apply, funext fun l => hx0 r l R hi0, funext fun l => hx1 r l R hi0]

theorem out2_6 (y : S5000x128.Idx) (i : S100000x128.Idx) (hi0 : (i 0).val = 5000 * tv + (y 0).val) (hi1 : (i 1).val = (y 1).val) :
    Gen.out2_6 (F := Ideal) x0 x1 x2 x3 x4 x5 y = Cert.Gnn.mlpRes h a w1 b1 w2 b2 i := by
  unfold Gen.out2_6
  rw [View.canon_unit_zero zeroOffsets]
  simp only [View.ld_unit_zero (S := S5000x128) zeroOffsets,
    View.ld_unit_zero (S := S128x128) zeroOffsets,
    View.ld_unit_zero (S := S1x128) zeroOffsets]
  exact T.pay2 y i hi0 hi1

theorem out2_7 (htv : tv < 20) (y : S8x128.Idx) (i : S160x128.Idx) (hi0 : (i 0).val = 8 * tv + (y 0).val) (hi1 : (i 1).val = (y 1).val) :
    Gen.out2_7 (F := Ideal) x0 x1 x2 x3 x4 x5 y = Cert.Gnn.tileSums (Cert.Gnn.mlpRes h a w1 b1 w2 b2) i := by
  unfold Gen.out2_7
  rw [View.canon_unit_zero zeroOffsets]
  simp only [View.ld_unit_zero (S := S5000x128) zeroOffsets,
    View.ld_unit_zero (S := S128x128) zeroOffsets,
    View.ld_unit_zero (S := S1x128) zeroOffsets]
  unfold k2_pay3 k2_pay2
  dsimp only
  exact tile_block _ _ tv htv (fun r j R hR => T.pay2 (ix2 r j) (ix2 R j) hR rfl) _ _ _ _ _ y i hi0 hi1

theorem out2_8 (htv : tv < 20) (y : S8x128.Idx) (i : S160x128.Idx) (hi0 : (i 0).val = 8 * tv + (y 0).val) (hi1 : (i 1).val = (y 1).val) :
    Gen.out2_8 (F := Ideal) x0 x1 x2 x3 x4 x5 y = Cert.Gnn.tileSums (mulf (Cert.Gnn.mlpRes h a w1 b1 w2 b2) (Cert.Gnn.mlpRes h a w1 b1 w2 b2)) i := by
  unfold Gen.out2_8
  rw [View.canon_unit_zero zeroOffsets]
  simp only [View.ld_unit_zero (S := S5000x128) zeroOffsets,
    View.ld_unit_zero (S := S128x128) zeroOffsets,
    View.ld_unit_zero (S := S1x128) zeroOffsets]
  unfold k2_pay4 k2_pay2
  dsimp only
  exact tile_block _ _ tv htv (fun r j R hR => congrArg (fun v => v * v) (T.pay2 (ix2 r j) (ix2 R j) hR rfl)) _ _ _ _ _ y i hi0 hi1

end MlpTiles

namespace R2

theorem idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 :=
  (by decide +kernel : ∀ t : Fin grid2.N, _)

variable (V : (c : Dev nD) → (b : Ref sig .tc) → Buf (Elt Ideal) ((c : Thread nD τ).loc b)) (c : Dev nD)

theorem blk0 (t : Fin cfg2.N) (r : Fin 5000) (l : Fin 128) (R : Fin 100000) (hR : R.val = 5000 * t.val + r.val) :
    (iblk2 V c 0 t : Vec Ideal S5000x128 .f32) (ix2 r l)
      = (V c (Pipeline.arrRef spec2 0) : S100000x128.Idx → Elt Ideal .f32) (ix2 R l) := by
  obtain ⟨p0, p1, -⟩ := idx t
  unfold iblk2
  rw [View.read_apply]
  refine congrArg (V c (Pipeline.arrRef spec2 0) : S100000x128.Idx → Elt Ideal .f32) (Shape.idx_ext₂ ?_ ?_)
  · show win2_0.index t (0 : Fin 2) * 5000 + 1 * r.val = R.val; rw [p0, hR]; omega
  · show win2_0.index t (1 : Fin 2) * 128 + 1 * l.val = l.val; rw [p1]; omega

theorem blk1 (t : Fin cfg2.N) (r : Fin 5000) (l : Fin 128) (R : Fin 100000) (hR : R.val = 5000 * t.val + r.val) :
    (iblk2 V c 1 t : Vec Ideal S5000x128 .f32) (ix2 r l)
      = (V c (Pipeline.arrRef spec2 1) : S100000x128.Idx → Elt Ideal .f32) (ix2 R l) := by
  obtain ⟨-, -, p0, p1, -⟩ := idx t
  unfold iblk2
  rw [View.read_apply]
  refine congrArg (V c (Pipeline.arrRef spec2 1) : S100000x128.Idx → Elt Ideal .f32) (Shape.idx_ext₂ ?_ ?_)
  · show win2_1.index t (0 : Fin 2) * 5000 + 1 * r.val = R.val; rw [p0, hR]; omega
  · show win2_1.index t (1 : Fin 2) * 128 + 1 * l.val = l.val; rw [p1]; omega

theorem blk2 (t : Fin cfg2.N) :
    (iblk2 V c 2 t : Vec Ideal S128x128 .f32) = (V c (Pipeline.arrRef spec2 2) : S128x128.Idx → Elt Ideal .f32) := by
  obtain ⟨-, -, -, -, p0, p1, -⟩ := idx t
  funext x
  unfold iblk2
  rw [View.read_apply]
  refine congrArg (V c (Pipeline.arrRef spec2 2) : S128x128.Idx → Elt Ideal .f32) (Shape.idx_ext₂ ?_ ?_)
  · show win2_2.index t (0 : Fin 2) * 128 + 1 * (x 0).val = (x 0).val; rw [p0]; omega
  · show win2_2.index t (1 : Fin 2) * 128 + 1 * (x 1).val = (x 1).val; rw [p1]; omega

theorem blk3 (t : Fin cfg2.N) :
    (iblk2 V c 3 t : Vec Ideal S1x128 .f32) = (V c (Pipeline.arrRef spec2 3) : S1x128.Idx → Elt Ideal .f32) := by
  obtain ⟨-, -, -, -, -, -, p0, p1, -⟩ := idx t
  funext x
  unfold iblk2
  rw [View.read_apply]
  refine congrArg (V c (Pipeline.arrRef spec2 3) : S1x128.Idx → Elt Ideal .f32) (Shape.idx_ext₂ ?_ ?_)
  · show win2_3.index t (0 : Fin 2) * 1 + 1 * (x 0).val = (x 0).val; rw [p0]; omega
  · show win2_3.index t (1 : Fin 2) * 128 + 1 * (x 1).val = (x 1).val; rw [p1]; omega

theorem blk4 (t : Fin cfg2.N) :
    (iblk2 V c 4 t : Vec Ideal S128x128 .f32) = (V c (Pipeline.arrRef spec2 4) : S128x128.Idx → Elt Ideal .f32) := by
  obtain ⟨-, -, -, -, -, -, -, -, p0, p1, -⟩ := idx t
  funext x
  unfold iblk2
  rw [View.read_apply]
  refine congrArg (V c (Pipeline.arrRef spec2 4) : S128x128.Idx → Elt Ideal .f32) (Shape.idx_ext₂ ?_ ?_)
  · show win2_4.index t (0 : Fin 2) * 128 + 1 * (x 0).val = (x 0).val; rw [p0]; omega
  · show win2_4.index t (1 : Fin 2) * 128 + 1 * (x 1).val = (x 1).val; rw [p1]; omega

theorem blk5 (t : Fin cfg2.N) :
    (iblk2 V c 5 t : Vec Ideal S1x128 .f32) = (V c (Pipeline.arrRef spec2 5) : S1x128.Idx → Elt Ideal .f32) := by
  obtain ⟨-, -, -, -, -, -, -, -, -, -, p0, p1, -⟩ := idx t
  funext x
  unfold iblk2
  rw [View.read_apply]
  refine congrArg (V c (Pipeline.arrRef spec2 5) : S1x128.Idx → Elt Ideal .f32) (Shape.idx_ext₂ ?_ ?_)
  · show win2_5.index t (0 : Fin 2) * 1 + 1 * (x 0).val = (x 0).val; rw [p0]; omega
  · show win2_5.index t (1 : Fin 2) * 128 + 1 * (x 1).val = (x 1).val; rw [p1]; omega

variable (h a : Cert.Gnn.T S100000x128) (w1 : Cert.Gnn.T S128x128) (b1 : Cert.Gnn.T S128) (w2 : Cert.Gnn.T S128x128) (b2 : Cert.Gnn.T S128)
    (e0 : V c (Pipeline.arrRef spec2 0) = h) (e1 : V c (Pipeline.arrRef spec2 1) = a) (e2 : V c (Pipeline.arrRef spec2 2) = w1)
    (e3 : V c (Pipeline.arrRef spec2 3) = shapeCast S1x128 b1 shapeCasts_S128_S1x128) (e4 : V c (Pipeline.arrRef spec2 4) = w2)
    (e5 : V c (Pipeline.arrRef spec2 5) = shapeCast S1x128 b2 shapeCasts_S128_S1x128)
include e0 e1 e2 e3 e4 e5

theorem tiles (t : Fin cfg2.N) :
    MlpTiles (iblk2 V c 0 t) (iblk2 V c 1 t) (iblk2 V c 2 t) (iblk2 V c 3 t) (iblk2 V c 4 t) (iblk2 V c 5 t)
      h a w1 (shapeCast S1x128 b1 shapeCasts_S128_S1x128) w2 (shapeCast S1x128 b2 shapeCasts_S128_S1x128) t.val := by
  rw [← e0, ← e1, ← e2, ← e3, ← e4, ← e5]
  exact ⟨blk0 V c t, blk1 V c t, blk2 V c t, blk3 V c t, blk4 V c t, blk5 V c t⟩

end R2

variable (V : (c : Dev nD) → (b : Ref sig .tc) → Buf (Elt Ideal) ((c : Thread nD τ).loc b)) (c : Dev nD)
    (h a : Cert.Gnn.T S100000x128) (w1 : Cert.Gnn.T S128x128) (b1 : Cert.Gnn.T S128) (w2 : Cert.Gnn.T S128x128) (b2 : Cert.Gnn.T S128)
    (e0 : V c (Pipeline.arrRef spec2 0) = h) (e1 : V c (Pipeline.arrRef spec2 1) = a) (e2 : V c (Pipeline.arrRef spec2 2) = w1)
    (e3 : V c (Pipeline.arrRef spec2 3) = shapeCast S1x128 b1 shapeCasts_S128_S1x128) (e4 : V c (Pipeline.arrRef spec2 4) = w2)
    (e5 : V c (Pipeline.arrRef spec2 5) = shapeCast S1x128 b2 shapeCasts_S128_S1x128)
include e0 e1 e2 e3 e4 e5

theorem region2_pre :
    (dat2 (F := Ideal) V c).arrAt 6 cfg2.N = Cert.Gnn.mlpRes h a w1 b1 w2 b2 :=
  (dat2 (F := Ideal) V c).arrAt_eq_of_cover 6 _
    (fun t _ => by
      obtain ⟨-, -, -, -, -, -, -, -, -, -, -, -, i0, i1, -⟩ := R2.idx t
      show (cfg2.win 6).cut (grid2.coords t) ((dat2 V c).after 6 t) = _
      rw [after2_6]
      funext y
      refine (R2.tiles V c h a w1 b1 w2 b2 e0 e1 e2 e3 e4 e5 t).out2_6 y (((cfg2.win 6).blk t).view.emb y) ?_ ?_
      · show win2_6.index t (0 : Fin 2) * 5000 + 1 * (y 0).val = 5000 * t.val + (y 0).val; rw [i0]; omega
      · show win2_6.index t (1 : Fin 2) * 128 + 1 * (y 1).val = (y 1).val; rw [i1]; omega)
    (win2_6.cover_of_rows 0 (Memref.isWhole_whole _)
      (by decide +kernel : ∀ t : Fin grid2.N, ∀ a : Fin 2, _) (by decide) rfl (fun _ _ => rfl) flush2_6)

theorem region2_sum :
    (dat2 (F := Ideal) V c).arrAt 7 cfg2.N = Cert.Gnn.tileSums (Cert.Gnn.mlpRes h a w1 b1 w2 b2) :=
  (dat2 (F := Ideal) V c).arrAt_eq_of_cover 7 _
    (fun t _ => by
      obtain ⟨-, -, -, -, -, -, -, -, -, -, -, -, -, -, i0, i1, -⟩ := R2.idx t
      show (cfg2.win 7).cut (grid2.coords t) ((dat2 V c).after 7 t) = _
      rw [after2_7]
      funext y
      refine (R2.tiles V c h a w1 b1 w2 b2 e0 e1 e2 e3 e4 e5 t).out2_7 (Nat.lt_of_lt_of_eq t.isLt N_2) y (((cfg2.win 7).blk t).view.emb y) ?_ ?_
      · show win2_7.index t (0 : Fin 2) * 8 + 1 * (y 0).val = 8 * t.val + (y 0).val; rw [i0]; omega
      · show win2_7.index t (1 : Fin 2) * 128 + 1 * (y 1).val = (y 1).val; rw [i1]; omega)
    (win2_7.cover_of_rows 0 (Memref.isWhole_whole _)
      (by decide +kernel : ∀ t : Fin grid2.N, ∀ a : Fin 2, _) (by decide) rfl (fun _ _ => rfl) flush2_7)

theorem region2_sumsq :
    (dat2 (F := Ideal) V c).arrAt 8 cfg2.N = Cert.Gnn.tileSums (mulf (Cert.Gnn.mlpRes h a w1 b1 w2 b2) (Cert.Gnn.mlpRes h a w1 b1 w2 b2)) :=
  (dat2 (F := Ideal) V c).arrAt_eq_of_cover 8 _
    (fun t _ => by
      obtain ⟨-, -, -, -, -, -, -, -, -, -, -, -, -, -, -, -, i0, i1⟩ := R2.idx t
      show (cfg2.win 8).cut (grid2.coords t) ((dat2 V c).after 8 t) = _
      rw [after2_8]
      funext y
      refine (R2.tiles V c h a w1 b1 w2 b2 e0 e1 e2 e3 e4 e5 t).out2_8 (Nat.lt_of_lt_of_eq t.isLt N_2) y (((cfg2.win 8).blk t).view.emb y) ?_ ?_
      · show win2_8.index t (0 : Fin 2) * 8 + 1 * (y 0).val = 8 * t.val + (y 0).val; rw [i0]; omega
      · show win2_8.index t (1 : Fin 2) * 128 + 1 * (y 1).val = (y 1).val; rw [i1]; omega)
    (win2_8.cover_of_rows 0 (Memref.isWhole_whole _)
      (by decide +kernel : ∀ t : Fin grid2.N, ∀ a : Fin 2, _) (by decide) rfl (fun _ _ => rfl) flush2_8)

end Cert.KernelIdeal.RegionValue

end
-- ==== Proof.KRegion3.lean ====
import proofs.«108604_j12824772346523_2_alg».proof.Proof.Gen.KernelIdeal.Frame
import proofs.«108604_j12824772346523_2_alg».proof.Proof.Spec
import proofs.«108604_j12824772346523_2_alg».proof.Proof.KRegion1
import Idealize.ShloMosaic.Lib.Pipeline.Value

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

namespace R3

theorem idx : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

variable (V : (c : Dev nD) → (b : Ref sig .tc) → Buf (Elt Ideal) ((c : Thread nD τ).loc b)) (c : Dev nD)

theorem blk0 (t : Fin cfg3.N) (r : Fin 5000) (l : Fin 128) (R : Fin 100000) (hR : R.val = 5000 * t.val + r.val) :
    (iblk3 V c 0 t : Vec Ideal S5000x128 .f32) (ix2 r l)
      = (V c (Pipeline.arrRef spec3 0) : S100000x128.Idx → Elt Ideal .f32) (ix2 R l) := by
  obtain ⟨p0, p1, -⟩ := idx t
  unfold iblk3
  rw [View.read_apply]
  refine congrArg (V c (Pipeline.arrRef spec3 0) : S100000x128.Idx → Elt Ideal .f32) (Shape.idx_ext₂ ?_ ?_)
  · show win3_0.index t (0 : Fin 2) * 5000 + 1 * r.val = R.val; rw [p0, hR]; omega
  · show win3_0.index t (1 : Fin 2) * 128 + 1 * l.val = l.val; rw [p1]; omega

theorem blk1 (t : Fin cfg3.N) :
    (iblk3 V c 1 t : Vec Ideal S1x128 .f32) = (V c (Pipeline.arrRef spec3 1) : S1x128.Idx → Elt Ideal .f32) := by
  obtain ⟨-, -, p0, p1, -⟩ := idx t
  funext x
  unfold iblk3
  rw [View.read_apply]
  refine congrArg (V c (Pipeline.arrRef spec3 1) : S1x128.Idx → Elt Ideal .f32) (Shape.idx_ext₂ ?_ ?_)
  · show win3_1.index t (0 : Fin 2) * 1 + 1 * (x 0).val = (x 0).val; rw [p0]; omega
  · show win3_1.index t (1 : Fin 2) * 128 + 1 * (x 1).val = (x 1).val; rw [p1]; omega

theorem blk2 (t : Fin cfg3.N) :
    (iblk3 V c 2 t : Vec Ideal S1x128 .f32) = (V c (Pipeline.arrRef spec3 2) : S1x128.Idx → Elt Ideal .f32) := by
  obtain ⟨-, -, -, -, p0, p1, -⟩ := idx t
  funext x
  unfold iblk3
  rw [View.read_apply]
  refine congrArg (V c (Pipeline.arrRef spec3 2) : S1x128.Idx → Elt Ideal .f32) (Shape.idx_ext₂ ?_ ?_)
  · show win3_2.index t (0 : Fin 2) * 1 + 1 * (x 0).val = (x 0).val; rw [p0]; omega
  · show win3_2.index t (1 : Fin 2) * 128 + 1 * (x 1).val = (x 1).val; rw [p1]; omega

theorem blk3 (t : Fin cfg3.N) :
    (iblk3 V c 3 t : Vec Ideal S1x128 .f32) = (V c (Pipeline.arrRef spec3 3) : S1x128.Idx → Elt Ideal .f32) := by
  obtain ⟨-, -, -, -, -, -, p0, p1, -⟩ := idx t
  funext x
  unfold iblk3
  rw [View.read_apply]
  refine congrArg (V c (Pipeline.arrRef spec3 3) : S1x128.Idx → Elt Ideal .f32) (Shape.idx_ext₂ ?_ ?_)
  · show win3_3.index t (0 : Fin 2) * 1 + 1 * (x 0).val = (x 0).val; rw [p0]; omega
  · show win3_3.index t (1 : Fin 2) * 128 + 1 * (x 1).val = (x 1).val; rw [p1]; omega

theorem blk4 (t : Fin cfg3.N) :
    (iblk3 V c 4 t : Vec Ideal S1x128 .f32) = (V c (Pipeline.arrRef spec3 4) : S1x128.Idx → Elt Ideal .f32) := by
  obtain ⟨-, -, -, -, -, -, -, -, p0, p1, -⟩ := idx t
  funext x
  unfold iblk3
  rw [View.read_apply]
  refine congrArg (V c (Pipeline.arrRef spec3 4) : S1x128.Idx → Elt Ideal .f32) (Shape.idx_ext₂ ?_ ?_)
  · show win3_4.index t (0 : Fin 2) * 1 + 1 * (x 0).val = (x 0).val; rw [p0]; omega
  · show win3_4.index t (1 : Fin 2) * 128 + 1 * (x 1).val = (x 1).val; rw [p1]; omega

variable (p : Cert.Gnn.T S100000x128) (mean var g beta : Cert.Gnn.T S128)
    (e0 : V c (Pipeline.arrRef spec3 0) = p)
    (e1 : V c (Pipeline.arrRef spec3 1) = shapeCast S1x128 mean shapeCasts_S128_S1x128)
    (e2 : V c (Pipeline.arrRef spec3 2) = shapeCast S1x128 var shapeCasts_S128_S1x128)
    (e3 : V c (Pipeline.arrRef spec3 3) = shapeCast S1x128 g shapeCasts_S128_S1x128)
    (e4 : V c (Pipeline.arrRef spec3 4) = shapeCast S1x128 beta shapeCasts_S128_S1x128)
include e0 e1 e2 e3 e4

theorem tiles (t : Fin cfg3.N) :
    NormTiles (iblk3 V c 0 t) (iblk3 V c 2 t) (iblk3 V c 1 t) (iblk3 V c 3 t) (iblk3 V c 4 t)
      p (shapeCast S1x128 mean shapeCasts_S128_S1x128) (shapeCast S1x128 var shapeCasts_S128_S1x128) (shapeCast S1x128 g shapeCasts_S128_S1x128) (shapeCast S1x128 beta shapeCasts_S128_S1x128) t.val := by
  rw [← e0, ← e1, ← e2, ← e3, ← e4]
  exact ⟨blk0 V c t, blk1 V c t, blk2 V c t, blk3 V c t, blk4 V c t⟩

end R3

variable (V : (c : Dev nD) → (b : Ref sig .tc) → Buf (Elt Ideal) ((c : Thread nD τ).loc b)) (c : Dev nD)
    (p : Cert.Gnn.T S100000x128) (mean var g beta : Cert.Gnn.T S128)
    (e0 : V c (Pipeline.arrRef spec3 0) = p)
    (e1 : V c (Pipeline.arrRef spec3 1) = shapeCast S1x128 mean shapeCasts_S128_S1x128)
    (e2 : V c (Pipeline.arrRef spec3 2) = shapeCast S1x128 var shapeCasts_S128_S1x128)
    (e3 : V c (Pipeline.arrRef spec3 3) = shapeCast S1x128 g shapeCasts_S128_S1x128)
    (e4 : V c (Pipeline.arrRef spec3 4) = shapeCast S1x128 beta shapeCasts_S128_S1x128)
include e0 e1 e2 e3 e4

theorem region3_out : (dat3 (F := Ideal) V c).arrAt 5 cfg3.N = Cert.Gnn.normRelu p mean var g beta :=
  (dat3 (F := Ideal) V c).arrAt_eq_of_cover 5 _
    (fun t _ => by
      obtain ⟨-, -, -, -, -, -, -, -, -, -, i0, i1⟩ := R3.idx t
      show (cfg3.win 5).cut (grid3.coords t) ((dat3 V c).after 5 t) = _
      rw [after3_5]
      funext y
      refine (R3.tiles V c p mean var g beta e0 e1 e2 e3 e4 t).out5 y (((cfg3.win 5).blk t).view.emb y) ?_ ?_
      · show win3_5.index t (0 : Fin 2) * 5000 + 1 * (y 0).val = 5000 * t.val + (y 0).val; rw [i0]; omega
      · show win3_5.index t (1 : Fin 2) * 128 + 1 * (y 1).val = (y 1).val; rw [i1]; omega)
    (win3_5.cover_of_rows 0 (Memref.isWhole_whole _)
      (by decide +kernel : ∀ t : Fin grid3.N, ∀ a : Fin 2, _) (by decide) rfl (fun _ _ => rfl) flush3_5)

end Cert.KernelIdeal.RegionValue

end
-- ==== Proof.KRegion4.lean ====
import proofs.«108604_j12824772346523_2_alg».proof.Proof.Gen.KernelIdeal.Frame
import proofs.«108604_j12824772346523_2_alg».proof.Proof.Spec
import proofs.«108604_j12824772346523_2_alg».proof.Proof.KRegion2
import Idealize.ShloMosaic.Lib.Pipeline.Value

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

namespace R4

theorem idx : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = t.val ∧ win4_7.index t (1 : Fin 2) = 0
    ∧ win4_8.index t (0 : Fin 2) = t.val ∧ win4_8.index t (1 : Fin 2) = 0 :=
  (by decide +kernel : ∀ t : Fin grid4.N, _)

variable (V : (c : Dev nD) → (b : Ref sig .tc) → Buf (Elt Ideal) ((c : Thread nD τ).loc b)) (c : Dev nD)

theorem blk0 (t : Fin cfg4.N) (r : Fin 5000) (l : Fin 128) (R : Fin 100000) (hR : R.val = 5000 * t.val + r.val) :
    (iblk4 V c 0 t : Vec Ideal S5000x128 .f32) (ix2 r l)
      = (V c (Pipeline.arrRef spec4 0) : S100000x128.Idx → Elt Ideal .f32) (ix2 R l) := by
  obtain ⟨p0, p1, -⟩ := idx t
  unfold iblk4
  rw [View.read_apply]
  refine congrArg (V c (Pipeline.arrRef spec4 0) : S100000x128.Idx → Elt Ideal .f32) (Shape.idx_ext₂ ?_ ?_)
  · show win4_0.index t (0 : Fin 2) * 5000 + 1 * r.val = R.val; rw [p0, hR]; omega
  · show win4_0.index t (1 : Fin 2) * 128 + 1 * l.val = l.val; rw [p1]; omega

theorem blk1 (t : Fin cfg4.N) (r : Fin 5000) (l : Fin 128) (R : Fin 100000) (hR : R.val = 5000 * t.val + r.val) :
    (iblk4 V c 1 t : Vec Ideal S5000x128 .f32) (ix2 r l)
      = (V c (Pipeline.arrRef spec4 1) : S100000x128.Idx → Elt Ideal .f32) (ix2 R l) := by
  obtain ⟨-, -, p0, p1, -⟩ := idx t
  unfold iblk4
  rw [View.read_apply]
  refine congrArg (V c (Pipeline.arrRef spec4 1) : S100000x128.Idx → Elt Ideal .f32) (Shape.idx_ext₂ ?_ ?_)
  · show win4_1.index t (0 : Fin 2) * 5000 + 1 * r.val = R.val; rw [p0, hR]; omega
  · show win4_1.index t (1 : Fin 2) * 128 + 1 * l.val = l.val; rw [p1]; omega

theorem blk2 (t : Fin cfg4.N) :
    (iblk4 V c 2 t : Vec Ideal S128x128 .f32) = (V c (Pipeline.arrRef spec4 2) : S128x128.Idx → Elt Ideal .f32) := by
  obtain ⟨-, -, -, -, p0, p1, -⟩ := idx t
  funext x
  unfold iblk4
  rw [View.read_apply]
  refine congrArg (V c (Pipeline.arrRef spec4 2) : S128x128.Idx → Elt Ideal .f32) (Shape.idx_ext₂ ?_ ?_)
  · show win4_2.index t (0 : Fin 2) * 128 + 1 * (x 0).val = (x 0).val; rw [p0]; omega
  · show win4_2.index t (1 : Fin 2) * 128 + 1 * (x 1).val = (x 1).val; rw [p1]; omega

theorem blk3 (t : Fin cfg4.N) :
    (iblk4 V c 3 t : Vec Ideal S1x128 .f32) = (V c (Pipeline.arrRef spec4 3) : S1x128.Idx → Elt Ideal .f32) := by
  obtain ⟨-, -, -, -, -, -, p0, p1, -⟩ := idx t
  funext x
  unfold iblk4
  rw [View.read_apply]
  refine congrArg (V c (Pipeline.arrRef spec4 3) : S1x128.Idx → Elt Ideal .f32) (Shape.idx_ext₂ ?_ ?_)
  · show win4_3.index t (0 : Fin 2) * 1 + 1 * (x 0).val = (x 0).val; rw [p0]; omega
  · show win4_3.index t (1 : Fin 2) * 128 + 1 * (x 1).val = (x 1).val; rw [p1]; omega

theorem blk4 (t : Fin cfg4.N) :
    (iblk4 V c 4 t : Vec Ideal S128x128 .f32) = (V c (Pipeline.arrRef spec4 4) : S128x128.Idx → Elt Ideal .f32) := by
  obtain ⟨-, -, -, -, -, -, -, -, p0, p1, -⟩ := idx t
  funext x
  unfold iblk4
  rw [View.read_apply]
  refine congrArg (V c (Pipeline.arrRef spec4 4) : S128x128.Idx → Elt Ideal .f32) (Shape.idx_ext₂ ?_ ?_)
  · show win4_4.index t (0 : Fin 2) * 128 + 1 * (x 0).val = (x 0).val; rw [p0]; omega
  · show win4_4.index t (1 : Fin 2) * 128 + 1 * (x 1).val = (x 1).val; rw [p1]; omega

theorem blk5 (t : Fin cfg4.N) :
    (iblk4 V c 5 t : Vec Ideal S1x128 .f32) = (V c (Pipeline.arrRef spec4 5) : S1x128.Idx → Elt Ideal .f32) := by
  obtain ⟨-, -, -, -, -, -, -, -, -, -, p0, p1, -⟩ := idx t
  funext x
  unfold iblk4
  rw [View.read_apply]
  refine congrArg (V c (Pipeline.arrRef spec4 5) : S1x128.Idx → Elt Ideal .f32) (Shape.idx_ext₂ ?_ ?_)
  · show win4_5.index t (0 : Fin 2) * 1 + 1 * (x 0).val = (x 0).val; rw [p0]; omega
  · show win4_5.index t (1 : Fin 2) * 128 + 1 * (x 1).val = (x 1).val; rw [p1]; omega

variable (h a : Cert.Gnn.T S100000x128) (w1 : Cert.Gnn.T S128x128) (b1 : Cert.Gnn.T S128) (w2 : Cert.Gnn.T S128x128) (b2 : Cert.Gnn.T S128)
    (e0 : V c (Pipeline.arrRef spec4 0) = h) (e1 : V c (Pipeline.arrRef spec4 1) = a) (e2 : V c (Pipeline.arrRef spec4 2) = w1)
    (e3 : V c (Pipeline.arrRef spec4 3) = shapeCast S1x128 b1 shapeCasts_S128_S1x128) (e4 : V c (Pipeline.arrRef spec4 4) = w2)
    (e5 : V c (Pipeline.arrRef spec4 5) = shapeCast S1x128 b2 shapeCasts_S128_S1x128)
include e0 e1 e2 e3 e4 e5

theorem tiles (t : Fin cfg4.N) :
    MlpTiles (iblk4 V c 0 t) (iblk4 V c 1 t) (iblk4 V c 2 t) (iblk4 V c 3 t) (iblk4 V c 4 t) (iblk4 V c 5 t)
      h a w1 (shapeCast S1x128 b1 shapeCasts_S128_S1x128) w2 (shapeCast S1x128 b2 shapeCasts_S128_S1x128) t.val := by
  rw [← e0, ← e1, ← e2, ← e3, ← e4, ← e5]
  exact ⟨blk0 V c t, blk1 V c t, blk2 V c t, blk3 V c t, blk4 V c t, blk5 V c t⟩

end R4

variable (V : (c : Dev nD) → (b : Ref sig .tc) → Buf (Elt Ideal) ((c : Thread nD τ).loc b)) (c : Dev nD)
    (h a : Cert.Gnn.T S100000x128) (w1 : Cert.Gnn.T S128x128) (b1 : Cert.Gnn.T S128) (w2 : Cert.Gnn.T S128x128) (b2 : Cert.Gnn.T S128)
    (e0 : V c (Pipeline.arrRef spec4 0) = h) (e1 : V c (Pipeline.arrRef spec4 1) = a) (e2 : V c (Pipeline.arrRef spec4 2) = w1)
    (e3 : V c (Pipeline.arrRef spec4 3) = shapeCast S1x128 b1 shapeCasts_S128_S1x128) (e4 : V c (Pipeline.arrRef spec4 4) = w2)
    (e5 : V c (Pipeline.arrRef spec4 5) = shapeCast S1x128 b2 shapeCasts_S128_S1x128)
include e0 e1 e2 e3 e4 e5

theorem region4_pre :
    (dat4 (F := Ideal) V c).arrAt 6 cfg4.N = Cert.Gnn.mlpRes h a w1 b1 w2 b2 :=
  (dat4 (F := Ideal) V c).arrAt_eq_of_cover 6 _
    (fun t _ => by
      obtain ⟨-, -, -, -, -, -, -, -, -, -, -, -, i0, i1, -⟩ := R4.idx t
      show (cfg4.win 6).cut (grid4.coords t) ((dat4 V c).after 6 t) = _
      rw [after4_6]
      funext y
      refine (R4.tiles V c h a w1 b1 w2 b2 e0 e1 e2 e3 e4 e5 t).out2_6 y (((cfg4.win 6).blk t).view.emb y) ?_ ?_
      · show win4_6.index t (0 : Fin 2) * 5000 + 1 * (y 0).val = 5000 * t.val + (y 0).val; rw [i0]; omega
      · show win4_6.index t (1 : Fin 2) * 128 + 1 * (y 1).val = (y 1).val; rw [i1]; omega)
    (win4_6.cover_of_rows 0 (Memref.isWhole_whole _)
      (by decide +kernel : ∀ t : Fin grid4.N, ∀ a : Fin 2, _) (by decide) rfl (fun _ _ => rfl) flush4_6)

theorem region4_sum :
    (dat4 (F := Ideal) V c).arrAt 7 cfg4.N = Cert.Gnn.tileSums (Cert.Gnn.mlpRes h a w1 b1 w2 b2) :=
  (dat4 (F := Ideal) V c).arrAt_eq_of_cover 7 _
    (fun t _ => by
      obtain ⟨-, -, -, -, -, -, -, -, -, -, -, -, -, -, i0, i1, -⟩ := R4.idx t
      show (cfg4.win 7).cut (grid4.coords t) ((dat4 V c).after 7 t) = _
      rw [after4_7]
      funext y
      refine (R4.tiles V c h a w1 b1 w2 b2 e0 e1 e2 e3 e4 e5 t).out2_7 (Nat.lt_of_lt_of_eq t.isLt N_4) y (((cfg4.win 7).blk t).view.emb y) ?_ ?_
      · show win4_7.index t (0 : Fin 2) * 8 + 1 * (y 0).val = 8 * t.val + (y 0).val; rw [i0]; omega
      · show win4_7.index t (1 : Fin 2) * 128 + 1 * (y 1).val = (y 1).val; rw [i1]; omega)
    (win4_7.cover_of_rows 0 (Memref.isWhole_whole _)
      (by decide +kernel : ∀ t : Fin grid4.N, ∀ a : Fin 2, _) (by decide) rfl (fun _ _ => rfl) flush4_7)

theorem region4_sumsq :
    (dat4 (F := Ideal) V c).arrAt 8 cfg4.N = Cert.Gnn.tileSums (mulf (Cert.Gnn.mlpRes h a w1 b1 w2 b2) (Cert.Gnn.mlpRes h a w1 b1 w2 b2)) :=
  (dat4 (F := Ideal) V c).arrAt_eq_of_cover 8 _
    (fun t _ => by
      obtain ⟨-, -, -, -, -, -, -, -, -, -, -, -, -, -, -, -, i0, i1⟩ := R4.idx t
      show (cfg4.win 8).cut (grid4.coords t) ((dat4 V c).after 8 t) = _
      rw [after4_8]
      funext y
      refine (R4.tiles V c h a w1 b1 w2 b2 e0 e1 e2 e3 e4 e5 t).out2_8 (Nat.lt_of_lt_of_eq t.isLt N_4) y (((cfg4.win 8).blk t).view.emb y) ?_ ?_
      · show win4_8.index t (0 : Fin 2) * 8 + 1 * (y 0).val = 8 * t.val + (y 0).val; rw [i0]; omega
      · show win4_8.index t (1 : Fin 2) * 128 + 1 * (y 1).val = (y 1).val; rw [i1]; omega)
    (win4_8.cover_of_rows 0 (Memref.isWhole_whole _)
      (by decide +kernel : ∀ t : Fin grid4.N, ∀ a : Fin 2, _) (by decide) rfl (fun _ _ => rfl) flush4_8)

end Cert.KernelIdeal.RegionValue

end
-- ==== Proof.KRegion5.lean ====
import proofs.«108604_j12824772346523_2_alg».proof.Proof.Gen.KernelIdeal.Frame
import proofs.«108604_j12824772346523_2_alg».proof.Proof.Spec
import proofs.«108604_j12824772346523_2_alg».proof.Proof.KRegion1
import Idealize.ShloMosaic.Lib.Pipeline.Value

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

/-- The tiles of a normalising region that also adds a second feature array: those of the plain one, and the same rows of the added array. -/
structure NormAddTiles (x0 : Vec Ideal S5000x128 .f32) (xv xm xg xb : Vec Ideal S1x128 .f32) (x5 : Vec Ideal S5000x128 .f32)
    (p : Cert.Gnn.T S100000x128) (mean var g beta : Vec Ideal S1x128 .f32) (idn : Cert.Gnn.T S100000x128) (tv : ℕ) : Prop
    extends NormTiles x0 xv xm xg xb p mean var g beta tv where
  n5 : ∀ (r : Fin 5000) (l : Fin 128) (R : Fin 100000), R.val = 5000 * tv + r.val → x5 (ix2 r l) = idn (ix2 R l)

theorem NormAddTiles.out6 {x0 : Vec Ideal S5000x128 .f32} {xv xm xg xb : Vec Ideal S1x128 .f32} {x5 : Vec Ideal S5000x128 .f32}
    {p : Cert.Gnn.T S100000x128} {mean var g beta : Cert.Gnn.T S128} {idn : Cert.Gnn.T S100000x128} {tv : ℕ}
    (T : NormAddTiles x0 xv xm xg xb x5 p (shapeCast S1x128 mean shapeCasts_S128_S1x128) (shapeCast S1x128 var shapeCasts_S128_S1x128)
      (shapeCast S1x128 g shapeCasts_S128_S1x128) (shapeCast S1x128 beta shapeCasts_S128_S1x128) idn tv)
    (y : S5000x128.Idx) (i : S100000x128.Idx) (hi0 : (i 0).val = 5000 * tv + (y 0).val) (hi1 : (i 1).val = (y 1).val) :
    out5_6 (F := Ideal) x0 xm xv xg xb x5 y = addf (Cert.Gnn.normRelu p mean var g beta) idn i := by
  obtain ⟨r, j, rfl⟩ : ∃ (r : Fin 5000) (j : Fin 128), y = ix2 r j := ⟨y 0, y 1, eq_ix2 y⟩
  obtain ⟨R, j', rfl⟩ : ∃ (R : Fin 100000) (j' : Fin 128), i = ix2 R j' := ⟨i 0, i 1, eq_ix2 i⟩
  obtain rfl : j = j' := (Fin.ext hi1).symm
  unfold out5_6
  rw [View.canon_unit_zero zeroOffsets]
  simp only [View.ld_unit_zero (S := S5000x128) zeroOffsets, View.ld_unit_zero (S := S1x128) zeroOffsets]
  show normAddBlock (shapeCast S5000x128 x0 shapeCasts_S5000x128_S5000x128) (shapeCast S1x128 xv shapeCasts_S1x128_S1x128)
      (shapeCast S1x128 xm shapeCasts_S1x128_S1x128) (shapeCast S1x128 xg shapeCasts_S1x128_S1x128)
      (shapeCast S1x128 xb shapeCasts_S1x128_S1x128) (shapeCast S5000x128 x5 shapeCasts_S5000x128_S5000x128) (ix2 r j) = _
  rw [shapeCast_self x0, shapeCast_self xv, shapeCast_self xm, shapeCast_self xg, shapeCast_self xb, shapeCast_self x5]
  exact normAddBlock_eq x0 xv xm xg xb x5 p mean var g beta idn r j R (T.n0 r j R hi0) (T.n5 r j R hi0) T.om T.ov T.og T.ob

namespace R5

theorem idx : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0 :=
  (by decide +kernel : ∀ t : Fin grid5.N, _)

variable (V : (c : Dev nD) → (b : Ref sig .tc) → Buf (Elt Ideal) ((c : Thread nD τ).loc b)) (c : Dev nD)

theorem blk0 (t : Fin cfg5.N) (r : Fin 5000) (l : Fin 128) (R : Fin 100000) (hR : R.val = 5000 * t.val + r.val) :
    (iblk5 V c 0 t : Vec Ideal S5000x128 .f32) (ix2 r l)
      = (V c (Pipeline.arrRef spec5 0) : S100000x128.Idx → Elt Ideal .f32) (ix2 R l) := by
  obtain ⟨p0, p1, -⟩ := idx t
  unfold iblk5
  rw [View.read_apply]
  refine congrArg (V c (Pipeline.arrRef spec5 0) : S100000x128.Idx → Elt Ideal .f32) (Shape.idx_ext₂ ?_ ?_)
  · show win5_0.index t (0 : Fin 2) * 5000 + 1 * r.val = R.val; rw [p0, hR]; omega
  · show win5_0.index t (1 : Fin 2) * 128 + 1 * l.val = l.val; rw [p1]; omega

theorem blk1 (t : Fin cfg5.N) :
    (iblk5 V c 1 t : Vec Ideal S1x128 .f32) = (V c (Pipeline.arrRef spec5 1) : S1x128.Idx → Elt Ideal .f32) := by
  obtain ⟨-, -, p0, p1, -⟩ := idx t
  funext x
  unfold iblk5
  rw [View.read_apply]
  refine congrArg (V c (Pipeline.arrRef spec5 1) : S1x128.Idx → Elt Ideal .f32) (Shape.idx_ext₂ ?_ ?_)
  · show win5_1.index t (0 : Fin 2) * 1 + 1 * (x 0).val = (x 0).val; rw [p0]; omega
  · show win5_1.index t (1 : Fin 2) * 128 + 1 * (x 1).val = (x 1).val; rw [p1]; omega

theorem blk2 (t : Fin cfg5.N) :
    (iblk5 V c 2 t : Vec Ideal S1x128 .f32) = (V c (Pipeline.arrRef spec5 2) : S1x128.Idx → Elt Ideal .f32) := by
  obtain ⟨-, -, -, -, p0, p1, -⟩ := idx t
  funext x
  unfold iblk5
  rw [View.read_apply]
  refine congrArg (V c (Pipeline.arrRef spec5 2) : S1x128.Idx → Elt Ideal .f32) (Shape.idx_ext₂ ?_ ?_)
  · show win5_2.index t (0 : Fin 2) * 1 + 1 * (x 0).val = (x 0).val; rw [p0]; omega
  · show win5_2.index t (1 : Fin 2) * 128 + 1 * (x 1).val = (x 1).val; rw [p1]; omega

theorem blk3 (t : Fin cfg5.N) :
    (iblk5 V c 3 t : Vec Ideal S1x128 .f32) = (V c (Pipeline.arrRef spec5 3) : S1x128.Idx → Elt Ideal .f32) := by
  obtain ⟨-, -, -, -, -, -, p0, p1, -⟩ := idx t
  funext x
  unfold iblk5
  rw [View.read_apply]
  refine congrArg (V c (Pipeline.arrRef spec5 3) : S1x128.Idx → Elt Ideal .f32) (Shape.idx_ext₂ ?_ ?_)
  · show win5_3.index t (0 : Fin 2) * 1 + 1 * (x 0).val = (x 0).val; rw [p0]; omega
  · show win5_3.index t (1 : Fin 2) * 128 + 1 * (x 1).val = (x 1).val; rw [p1]; omega

theorem blk4 (t : Fin cfg5.N) :
    (iblk5 V c 4 t : Vec Ideal S1x128 .f32) = (V c (Pipeline.arrRef spec5 4) : S1x128.Idx → Elt Ideal .f32) := by
  obtain ⟨-, -, -, -, -, -, -, -, p0, p1, -⟩ := idx t
  funext x
  unfold iblk5
  rw [View.read_apply]
  refine congrArg (V c (Pipeline.arrRef spec5 4) : S1x128.Idx → Elt Ideal .f32) (Shape.idx_ext₂ ?_ ?_)
  · show win5_4.index t (0 : Fin 2) * 1 + 1 * (x 0).val = (x 0).val; rw [p0]; omega
  · show win5_4.index t (1 : Fin 2) * 128 + 1 * (x 1).val = (x 1).val; rw [p1]; omega

theorem blk5 (t : Fin cfg5.N) (r : Fin 5000) (l : Fin 128) (R : Fin 100000) (hR : R.val = 5000 * t.val + r.val) :
    (iblk5 V c 5 t : Vec Ideal S5000x128 .f32) (ix2 r l)
      = (V c (Pipeline.arrRef spec5 5) : S100000x128.Idx → Elt Ideal .f32) (ix2 R l) := by
  obtain ⟨-, -, -, -, -, -, -, -, -, -, p0, p1, -⟩ := idx t
  unfold iblk5
  rw [View.read_apply]
  refine congrArg (V c (Pipeline.arrRef spec5 5) : S100000x128.Idx → Elt Ideal .f32) (Shape.idx_ext₂ ?_ ?_)
  · show win5_5.index t (0 : Fin 2) * 5000 + 1 * r.val = R.val; rw [p0, hR]; omega
  · show win5_5.index t (1 : Fin 2) * 128 + 1 * l.val = l.val; rw [p1]; omega

variable (p : Cert.Gnn.T S100000x128) (mean var g beta : Cert.Gnn.T S128) (idn : Cert.Gnn.T S100000x128)
    (e0 : V c (Pipeline.arrRef spec5 0) = p)
    (e1 : V c (Pipeline.arrRef spec5 1) = shapeCast S1x128 mean shapeCasts_S128_S1x128)
    (e2 : V c (Pipeline.arrRef spec5 2) = shapeCast S1x128 var shapeCasts_S128_S1x128)
    (e3 : V c (Pipeline.arrRef spec5 3) = shapeCast S1x128 g shapeCasts_S128_S1x128)
    (e4 : V c (Pipeline.arrRef spec5 4) = shapeCast S1x128 beta shapeCasts_S128_S1x128)
    (e5 : V c (Pipeline.arrRef spec5 5) = idn)
include e0 e1 e2 e3 e4 e5

theorem tiles (t : Fin cfg5.N) :
    NormAddTiles (iblk5 V c 0 t) (iblk5 V c 2 t) (iblk5 V c 1 t) (iblk5 V c 3 t) (iblk5 V c 4 t) (iblk5 V c 5 t)
      p (shapeCast S1x128 mean shapeCasts_S128_S1x128) (shapeCast S1x128 var shapeCasts_S128_S1x128) (shapeCast S1x128 g shapeCasts_S128_S1x128) (shapeCast S1x128 beta shapeCasts_S128_S1x128) idn t.val := by
  rw [← e0, ← e1, ← e2, ← e3, ← e4, ← e5]
  exact ⟨⟨blk0 V c t, blk1 V c t, blk2 V c t, blk3 V c t, blk4 V c t⟩, blk5 V c t⟩

end R5

variable (V : (c : Dev nD) → (b : Ref sig .tc) → Buf (Elt Ideal) ((c : Thread nD τ).loc b)) (c : Dev nD)
    (p : Cert.Gnn.T S100000x128) (mean var g beta : Cert.Gnn.T S128) (idn : Cert.Gnn.T S100000x128)
    (e0 : V c (Pipeline.arrRef spec5 0) = p)
    (e1 : V c (Pipeline.arrRef spec5 1) = shapeCast S1x128 mean shapeCasts_S128_S1x128)
    (e2 : V c (Pipeline.arrRef spec5 2) = shapeCast S1x128 var shapeCasts_S128_S1x128)
    (e3 : V c (Pipeline.arrRef spec5 3) = shapeCast S1x128 g shapeCasts_S128_S1x128)
    (e4 : V c (Pipeline.arrRef spec5 4) = shapeCast S1x128 beta shapeCasts_S128_S1x128)
    (e5 : V c (Pipeline.arrRef spec5 5) = idn)
include e0 e1 e2 e3 e4 e5

theorem region5_out : (dat5 (F := Ideal) V c).arrAt 6 cfg5.N = addf (Cert.Gnn.normRelu p mean var g beta) idn :=
  (dat5 (F := Ideal) V c).arrAt_eq_of_cover 6 _
    (fun t _ => by
      obtain ⟨-, -, -, -, -, -, -, -, -, -, -, -, i0, i1⟩ := R5.idx t
      show (cfg5.win 6).cut (grid5.coords t) ((dat5 V c).after 6 t) = _
      rw [after5_6]
      funext y
      refine (R5.tiles V c p mean var g beta idn e0 e1 e2 e3 e4 e5 t).out6 y (((cfg5.win 6).blk t).view.emb y) ?_ ?_
      · show win5_6.index t (0 : Fin 2) * 5000 + 1 * (y 0).val = 5000 * t.val + (y 0).val; rw [i0]; omega
      · show win5_6.index t (1 : Fin 2) * 128 + 1 * (y 1).val = (y 1).val; rw [i1]; omega)
    (win5_6.cover_of_rows 0 (Memref.isWhole_whole _)
      (by decide +kernel : ∀ t : Fin grid5.N, ∀ a : Fin 2, _) (by decide) rfl (fun _ _ => rfl) flush5_6)

end Cert.KernelIdeal.RegionValue

end
-- ==== Proof.KRegion6.lean ====
import proofs.«108604_j12824772346523_2_alg».proof.Proof.Gen.KernelIdeal.Frame
import proofs.«108604_j12824772346523_2_alg».proof.Proof.Spec
import proofs.«108604_j12824772346523_2_alg».proof.Proof.KRegion2
import Idealize.ShloMosaic.Lib.Pipeline.Value

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

namespace R6

theorem idx : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0
    ∧ win6_7.index t (0 : Fin 2) = t.val ∧ win6_7.index t (1 : Fin 2) = 0
    ∧ win6_8.index t (0 : Fin 2) = t.val ∧ win6_8.index t (1 : Fin 2) = 0 :=
  (by decide +kernel : ∀ t : Fin grid6.N, _)

variable (V : (c : Dev nD) → (b : Ref sig .tc) → Buf (Elt Ideal) ((c : Thread nD τ).loc b)) (c : Dev nD)

theorem blk0 (t : Fin cfg6.N) (r : Fin 5000) (l : Fin 128) (R : Fin 100000) (hR : R.val = 5000 * t.val + r.val) :
    (iblk6 V c 0 t : Vec Ideal S5000x128 .f32) (ix2 r l)
      = (V c (Pipeline.arrRef spec6 0) : S100000x128.Idx → Elt Ideal .f32) (ix2 R l) := by
  obtain ⟨p0, p1, -⟩ := idx t
  unfold iblk6
  rw [View.read_apply]
  refine congrArg (V c (Pipeline.arrRef spec6 0) : S100000x128.Idx → Elt Ideal .f32) (Shape.idx_ext₂ ?_ ?_)
  · show win6_0.index t (0 : Fin 2) * 5000 + 1 * r.val = R.val; rw [p0, hR]; omega
  · show win6_0.index t (1 : Fin 2) * 128 + 1 * l.val = l.val; rw [p1]; omega

theorem blk1 (t : Fin cfg6.N) (r : Fin 5000) (l : Fin 128) (R : Fin 100000) (hR : R.val = 5000 * t.val + r.val) :
    (iblk6 V c 1 t : Vec Ideal S5000x128 .f32) (ix2 r l)
      = (V c (Pipeline.arrRef spec6 1) : S100000x128.Idx → Elt Ideal .f32) (ix2 R l) := by
  obtain ⟨-, -, p0, p1, -⟩ := idx t
  unfold iblk6
  rw [View.read_apply]
  refine congrArg (V c (Pipeline.arrRef spec6 1) : S100000x128.Idx → Elt Ideal .f32) (Shape.idx_ext₂ ?_ ?_)
  · show win6_1.index t (0 : Fin 2) * 5000 + 1 * r.val = R.val; rw [p0, hR]; omega
  · show win6_1.index t (1 : Fin 2) * 128 + 1 * l.val = l.val; rw [p1]; omega

theorem blk2 (t : Fin cfg6.N) :
    (iblk6 V c 2 t : Vec Ideal S128x128 .f32) = (V c (Pipeline.arrRef spec6 2) : S128x128.Idx → Elt Ideal .f32) := by
  obtain ⟨-, -, -, -, p0, p1, -⟩ := idx t
  funext x
  unfold iblk6
  rw [View.read_apply]
  refine congrArg (V c (Pipeline.arrRef spec6 2) : S128x128.Idx → Elt Ideal .f32) (Shape.idx_ext₂ ?_ ?_)
  · show win6_2.index t (0 : Fin 2) * 128 + 1 * (x 0).val = (x 0).val; rw [p0]; omega
  · show win6_2.index t (1 : Fin 2) * 128 + 1 * (x 1).val = (x 1).val; rw [p1]; omega

theorem blk3 (t : Fin cfg6.N) :
    (iblk6 V c 3 t : Vec Ideal S1x128 .f32) = (V c (Pipeline.arrRef spec6 3) : S1x128.Idx → Elt Ideal .f32) := by
  obtain ⟨-, -, -, -, -, -, p0, p1, -⟩ := idx t
  funext x
  unfold iblk6
  rw [View.read_apply]
  refine congrArg (V c (Pipeline.arrRef spec6 3) : S1x128.Idx → Elt Ideal .f32) (Shape.idx_ext₂ ?_ ?_)
  · show win6_3.index t (0 : Fin 2) * 1 + 1 * (x 0).val = (x 0).val; rw [p0]; omega
  · show win6_3.index t (1 : Fin 2) * 128 + 1 * (x 1).val = (x 1).val; rw [p1]; omega

theorem blk4 (t : Fin cfg6.N) :
    (iblk6 V c 4 t : Vec Ideal S128x128 .f32) = (V c (Pipeline.arrRef spec6 4) : S128x128.Idx → Elt Ideal .f32) := by
  obtain ⟨-, -, -, -, -, -, -, -, p0, p1, -⟩ := idx t
  funext x
  unfold iblk6
  rw [View.read_apply]
  refine congrArg (V c (Pipeline.arrRef spec6 4) : S128x128.Idx → Elt Ideal .f32) (Shape.idx_ext₂ ?_ ?_)
  · show win6_4.index t (0 : Fin 2) * 128 + 1 * (x 0).val = (x 0).val; rw [p0]; omega
  · show win6_4.index t (1 : Fin 2) * 128 + 1 * (x 1).val = (x 1).val; rw [p1]; omega

theorem blk5 (t : Fin cfg6.N) :
    (iblk6 V c 5 t : Vec Ideal S1x128 .f32) = (V c (Pipeline.arrRef spec6 5) : S1x128.Idx → Elt Ideal .f32) := by
  obtain ⟨-, -, -, -, -, -, -, -, -, -, p0, p1, -⟩ := idx t
  funext x
  unfold iblk6
  rw [View.read_apply]
  refine congrArg (V c (Pipeline.arrRef spec6 5) : S1x128.Idx → Elt Ideal .f32) (Shape.idx_ext₂ ?_ ?_)
  · show win6_5.index t (0 : Fin 2) * 1 + 1 * (x 0).val = (x 0).val; rw [p0]; omega
  · show win6_5.index t (1 : Fin 2) * 128 + 1 * (x 1).val = (x 1).val; rw [p1]; omega

variable (h a : Cert.Gnn.T S100000x128) (w1 : Cert.Gnn.T S128x128) (b1 : Cert.Gnn.T S128) (w2 : Cert.Gnn.T S128x128) (b2 : Cert.Gnn.T S128)
    (e0 : V c (Pipeline.arrRef spec6 0) = h) (e1 : V c (Pipeline.arrRef spec6 1) = a) (e2 : V c (Pipeline.arrRef spec6 2) = w1)
    (e3 : V c (Pipeline.arrRef spec6 3) = shapeCast S1x128 b1 shapeCasts_S128_S1x128) (e4 : V c (Pipeline.arrRef spec6 4) = w2)
    (e5 : V c (Pipeline.arrRef spec6 5) = shapeCast S1x128 b2 shapeCasts_S128_S1x128)
include e0 e1 e2 e3 e4 e5

theorem tiles (t : Fin cfg6.N) :
    MlpTiles (iblk6 V c 0 t) (iblk6 V c 1 t) (iblk6 V c 2 t) (iblk6 V c 3 t) (iblk6 V c 4 t) (iblk6 V c 5 t)
      h a w1 (shapeCast S1x128 b1 shapeCasts_S128_S1x128) w2 (shapeCast S1x128 b2 shapeCasts_S128_S1x128) t.val := by
  rw [← e0, ← e1, ← e2, ← e3, ← e4, ← e5]
  exact ⟨blk0 V c t, blk1 V c t, blk2 V c t, blk3 V c t, blk4 V c t, blk5 V c t⟩

end R6

variable (V : (c : Dev nD) → (b : Ref sig .tc) → Buf (Elt Ideal) ((c : Thread nD τ).loc b)) (c : Dev nD)
    (h a : Cert.Gnn.T S100000x128) (w1 : Cert.Gnn.T S128x128) (b1 : Cert.Gnn.T S128) (w2 : Cert.Gnn.T S128x128) (b2 : Cert.Gnn.T S128)
    (e0 : V c (Pipeline.arrRef spec6 0) = h) (e1 : V c (Pipeline.arrRef spec6 1) = a) (e2 : V c (Pipeline.arrRef spec6 2) = w1)
    (e3 : V c (Pipeline.arrRef spec6 3) = shapeCast S1x128 b1 shapeCasts_S128_S1x128) (e4 : V c (Pipeline.arrRef spec6 4) = w2)
    (e5 : V c (Pipeline.arrRef spec6 5) = shapeCast S1x128 b2 shapeCasts_S128_S1x128)
include e0 e1 e2 e3 e4 e5

theorem region6_pre :
    (dat6 (F := Ideal) V c).arrAt 6 cfg6.N = Cert.Gnn.mlpRes h a w1 b1 w2 b2 :=
  (dat6 (F := Ideal) V c).arrAt_eq_of_cover 6 _
    (fun t _ => by
      obtain ⟨-, -, -, -, -, -, -, -, -, -, -, -, i0, i1, -⟩ := R6.idx t
      show (cfg6.win 6).cut (grid6.coords t) ((dat6 V c).after 6 t) = _
      rw [after6_6]
      funext y
      refine (R6.tiles V c h a w1 b1 w2 b2 e0 e1 e2 e3 e4 e5 t).out2_6 y (((cfg6.win 6).blk t).view.emb y) ?_ ?_
      · show win6_6.index t (0 : Fin 2) * 5000 + 1 * (y 0).val = 5000 * t.val + (y 0).val; rw [i0]; omega
      · show win6_6.index t (1 : Fin 2) * 128 + 1 * (y 1).val = (y 1).val; rw [i1]; omega)
    (win6_6.cover_of_rows 0 (Memref.isWhole_whole _)
      (by decide +kernel : ∀ t : Fin grid6.N, ∀ a : Fin 2, _) (by decide) rfl (fun _ _ => rfl) flush6_6)

theorem region6_sum :
    (dat6 (F := Ideal) V c).arrAt 7 cfg6.N = Cert.Gnn.tileSums (Cert.Gnn.mlpRes h a w1 b1 w2 b2) :=
  (dat6 (F := Ideal) V c).arrAt_eq_of_cover 7 _
    (fun t _ => by
      obtain ⟨-, -, -, -, -, -, -, -, -, -, -, -, -, -, i0, i1, -⟩ := R6.idx t
      show (cfg6.win 7).cut (grid6.coords t) ((dat6 V c).after 7 t) = _
      rw [after6_7]
      funext y
      refine (R6.tiles V c h a w1 b1 w2 b2 e0 e1 e2 e3 e4 e5 t).out2_7 (Nat.lt_of_lt_of_eq t.isLt N_6) y (((cfg6.win 7).blk t).view.emb y) ?_ ?_
      · show win6_7.index t (0 : Fin 2) * 8 + 1 * (y 0).val = 8 * t.val + (y 0).val; rw [i0]; omega
      · show win6_7.index t (1 : Fin 2) * 128 + 1 * (y 1).val = (y 1).val; rw [i1]; omega)
    (win6_7.cover_of_rows 0 (Memref.isWhole_whole _)
      (by decide +kernel : ∀ t : Fin grid6.N, ∀ a : Fin 2, _) (by decide) rfl (fun _ _ => rfl) flush6_7)

theorem region6_sumsq :
    (dat6 (F := Ideal) V c).arrAt 8 cfg6.N = Cert.Gnn.tileSums (mulf (Cert.Gnn.mlpRes h a w1 b1 w2 b2) (Cert.Gnn.mlpRes h a w1 b1 w2 b2)) :=
  (dat6 (F := Ideal) V c).arrAt_eq_of_cover 8 _
    (fun t _ => by
      obtain ⟨-, -, -, -, -, -, -, -, -, -, -, -, -, -, -, -, i0, i1⟩ := R6.idx t
      show (cfg6.win 8).cut (grid6.coords t) ((dat6 V c).after 8 t) = _
      rw [after6_8]
      funext y
      refine (R6.tiles V c h a w1 b1 w2 b2 e0 e1 e2 e3 e4 e5 t).out2_8 (Nat.lt_of_lt_of_eq t.isLt N_6) y (((cfg6.win 8).blk t).view.emb y) ?_ ?_
      · show win6_8.index t (0 : Fin 2) * 8 + 1 * (y 0).val = 8 * t.val + (y 0).val; rw [i0]; omega
      · show win6_8.index t (1 : Fin 2) * 128 + 1 * (y 1).val = (y 1).val; rw [i1]; omega)
    (win6_8.cover_of_rows 0 (Memref.isWhole_whole _)
      (by decide +kernel : ∀ t : Fin grid6.N, ∀ a : Fin 2, _) (by decide) rfl (fun _ _ => rfl) flush6_8)

end Cert.KernelIdeal.RegionValue

end
-- ==== Proof.KRegion7.lean ====
import proofs.«108604_j12824772346523_2_alg».proof.Proof.Gen.KernelIdeal.Frame
import proofs.«108604_j12824772346523_2_alg».proof.Proof.Spec
import proofs.«108604_j12824772346523_2_alg».proof.Proof.KRegion1
import Idealize.ShloMosaic.Lib.Pipeline.Value

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

namespace R7

theorem idx : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

variable (V : (c : Dev nD) → (b : Ref sig .tc) → Buf (Elt Ideal) ((c : Thread nD τ).loc b)) (c : Dev nD)

theorem blk0 (t : Fin cfg7.N) (r : Fin 5000) (l : Fin 128) (R : Fin 100000) (hR : R.val = 5000 * t.val + r.val) :
    (iblk7 V c 0 t : Vec Ideal S5000x128 .f32) (ix2 r l)
      = (V c (Pipeline.arrRef spec7 0) : S100000x128.Idx → Elt Ideal .f32) (ix2 R l) := by
  obtain ⟨p0, p1, -⟩ := idx t
  unfold iblk7
  rw [View.read_apply]
  refine congrArg (V c (Pipeline.arrRef spec7 0) : S100000x128.Idx → Elt Ideal .f32) (Shape.idx_ext₂ ?_ ?_)
  · show win7_0.index t (0 : Fin 2) * 5000 + 1 * r.val = R.val; rw [p0, hR]; omega
  · show win7_0.index t (1 : Fin 2) * 128 + 1 * l.val = l.val; rw [p1]; omega

theorem blk1 (t : Fin cfg7.N) :
    (iblk7 V c 1 t : Vec Ideal S1x128 .f32) = (V c (Pipeline.arrRef spec7 1) : S1x128.Idx → Elt Ideal .f32) := by
  obtain ⟨-, -, p0, p1, -⟩ := idx t
  funext x
  unfold iblk7
  rw [View.read_apply]
  refine congrArg (V c (Pipeline.arrRef spec7 1) : S1x128.Idx → Elt Ideal .f32) (Shape.idx_ext₂ ?_ ?_)
  · show win7_1.index t (0 : Fin 2) * 1 + 1 * (x 0).val = (x 0).val; rw [p0]; omega
  · show win7_1.index t (1 : Fin 2) * 128 + 1 * (x 1).val = (x 1).val; rw [p1]; omega

theorem blk2 (t : Fin cfg7.N) :
    (iblk7 V c 2 t : Vec Ideal S1x128 .f32) = (V c (Pipeline.arrRef spec7 2) : S1x128.Idx → Elt Ideal .f32) := by
  obtain ⟨-, -, -, -, p0, p1, -⟩ := idx t
  funext x
  unfold iblk7
  rw [View.read_apply]
  refine congrArg (V c (Pipeline.arrRef spec7 2) : S1x128.Idx → Elt Ideal .f32) (Shape.idx_ext₂ ?_ ?_)
  · show win7_2.index t (0 : Fin 2) * 1 + 1 * (x 0).val = (x 0).val; rw [p0]; omega
  · show win7_2.index t (1 : Fin 2) * 128 + 1 * (x 1).val = (x 1).val; rw [p1]; omega

theorem blk3 (t : Fin cfg7.N) :
    (iblk7 V c 3 t : Vec Ideal S1x128 .f32) = (V c (Pipeline.arrRef spec7 3) : S1x128.Idx → Elt Ideal .f32) := by
  obtain ⟨-, -, -, -, -, -, p0, p1, -⟩ := idx t
  funext x
  unfold iblk7
  rw [View.read_apply]
  refine congrArg (V c (Pipeline.arrRef spec7 3) : S1x128.Idx → Elt Ideal .f32) (Shape.idx_ext₂ ?_ ?_)
  · show win7_3.index t (0 : Fin 2) * 1 + 1 * (x 0).val = (x 0).val; rw [p0]; omega
  · show win7_3.index t (1 : Fin 2) * 128 + 1 * (x 1).val = (x 1).val; rw [p1]; omega

theorem blk4 (t : Fin cfg7.N) :
    (iblk7 V c 4 t : Vec Ideal S1x128 .f32) = (V c (Pipeline.arrRef spec7 4) : S1x128.Idx → Elt Ideal .f32) := by
  obtain ⟨-, -, -, -, -, -, -, -, p0, p1, -⟩ := idx t
  funext x
  unfold iblk7
  rw [View.read_apply]
  refine congrArg (V c (Pipeline.arrRef spec7 4) : S1x128.Idx → Elt Ideal .f32) (Shape.idx_ext₂ ?_ ?_)
  · show win7_4.index t (0 : Fin 2) * 1 + 1 * (x 0).val = (x 0).val; rw [p0]; omega
  · show win7_4.index t (1 : Fin 2) * 128 + 1 * (x 1).val = (x 1).val; rw [p1]; omega

variable (p : Cert.Gnn.T S100000x128) (mean var g beta : Cert.Gnn.T S128)
    (e0 : V c (Pipeline.arrRef spec7 0) = p)
    (e1 : V c (Pipeline.arrRef spec7 1) = shapeCast S1x128 mean shapeCasts_S128_S1x128)
    (e2 : V c (Pipeline.arrRef spec7 2) = shapeCast S1x128 var shapeCasts_S128_S1x128)
    (e3 : V c (Pipeline.arrRef spec7 3) = shapeCast S1x128 g shapeCasts_S128_S1x128)
    (e4 : V c (Pipeline.arrRef spec7 4) = shapeCast S1x128 beta shapeCasts_S128_S1x128)
include e0 e1 e2 e3 e4

theorem tiles (t : Fin cfg7.N) :
    NormTiles (iblk7 V c 0 t) (iblk7 V c 2 t) (iblk7 V c 1 t) (iblk7 V c 3 t) (iblk7 V c 4 t)
      p (shapeCast S1x128 mean shapeCasts_S128_S1x128) (shapeCast S1x128 var shapeCasts_S128_S1x128) (shapeCast S1x128 g shapeCasts_S128_S1x128) (shapeCast S1x128 beta shapeCasts_S128_S1x128) t.val := by
  rw [← e0, ← e1, ← e2, ← e3, ← e4]
  exact ⟨blk0 V c t, blk1 V c t, blk2 V c t, blk3 V c t, blk4 V c t⟩

end R7

variable (V : (c : Dev nD) → (b : Ref sig .tc) → Buf (Elt Ideal) ((c : Thread nD τ).loc b)) (c : Dev nD)
    (p : Cert.Gnn.T S100000x128) (mean var g beta : Cert.Gnn.T S128)
    (e0 : V c (Pipeline.arrRef spec7 0) = p)
    (e1 : V c (Pipeline.arrRef spec7 1) = shapeCast S1x128 mean shapeCasts_S128_S1x128)
    (e2 : V c (Pipeline.arrRef spec7 2) = shapeCast S1x128 var shapeCasts_S128_S1x128)
    (e3 : V c (Pipeline.arrRef spec7 3) = shapeCast S1x128 g shapeCasts_S128_S1x128)
    (e4 : V c (Pipeline.arrRef spec7 4) = shapeCast S1x128 beta shapeCasts_S128_S1x128)
include e0 e1 e2 e3 e4

theorem region7_out : (dat7 (F := Ideal) V c).arrAt 5 cfg7.N = Cert.Gnn.normRelu p mean var g beta :=
  (dat7 (F := Ideal) V c).arrAt_eq_of_cover 5 _
    (fun t _ => by
      obtain ⟨-, -, -, -, -, -, -, -, -, -, i0, i1⟩ := R7.idx t
      show (cfg7.win 5).cut (grid7.coords t) ((dat7 V c).after 5 t) = _
      rw [after7_5]
      funext y
      refine (R7.tiles V c p mean var g beta e0 e1 e2 e3 e4 t).out5 y (((cfg7.win 5).blk t).view.emb y) ?_ ?_
      · show win7_5.index t (0 : Fin 2) * 5000 + 1 * (y 0).val = 5000 * t.val + (y 0).val; rw [i0]; omega
      · show win7_5.index t (1 : Fin 2) * 128 + 1 * (y 1).val = (y 1).val; rw [i1]; omega)
    (win7_5.cover_of_rows 0 (Memref.isWhole_whole _)
      (by decide +kernel : ∀ t : Fin grid7.N, ∀ a : Fin 2, _) (by decide) rfl (fun _ _ => rfl) flush7_5)

end Cert.KernelIdeal.RegionValue

end
-- ==== Proof.KRegion8.lean ====
import proofs.«108604_j12824772346523_2_alg».proof.Proof.Gen.KernelIdeal.Frame
import proofs.«108604_j12824772346523_2_alg».proof.Proof.Spec
import proofs.«108604_j12824772346523_2_alg».proof.Proof.KRegion2
import Idealize.ShloMosaic.Lib.Pipeline.Value

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

namespace R8

theorem idx : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = t.val ∧ win8_6.index t (1 : Fin 2) = 0
    ∧ win8_7.index t (0 : Fin 2) = t.val ∧ win8_7.index t (1 : Fin 2) = 0
    ∧ win8_8.index t (0 : Fin 2) = t.val ∧ win8_8.index t (1 : Fin 2) = 0 :=
  (by decide +kernel : ∀ t : Fin grid8.N, _)

variable (V : (c : Dev nD) → (b : Ref sig .tc) → Buf (Elt Ideal) ((c : Thread nD τ).loc b)) (c : Dev nD)

theorem blk0 (t : Fin cfg8.N) (r : Fin 5000) (l : Fin 128) (R : Fin 100000) (hR : R.val = 5000 * t.val + r.val) :
    (iblk8 V c 0 t : Vec Ideal S5000x128 .f32) (ix2 r l)
      = (V c (Pipeline.arrRef spec8 0) : S100000x128.Idx → Elt Ideal .f32) (ix2 R l) := by
  obtain ⟨p0, p1, -⟩ := idx t
  unfold iblk8
  rw [View.read_apply]
  refine congrArg (V c (Pipeline.arrRef spec8 0) : S100000x128.Idx → Elt Ideal .f32) (Shape.idx_ext₂ ?_ ?_)
  · show win8_0.index t (0 : Fin 2) * 5000 + 1 * r.val = R.val; rw [p0, hR]; omega
  · show win8_0.index t (1 : Fin 2) * 128 + 1 * l.val = l.val; rw [p1]; omega

theorem blk1 (t : Fin cfg8.N) (r : Fin 5000) (l : Fin 128) (R : Fin 100000) (hR : R.val = 5000 * t.val + r.val) :
    (iblk8 V c 1 t : Vec Ideal S5000x128 .f32) (ix2 r l)
      = (V c (Pipeline.arrRef spec8 1) : S100000x128.Idx → Elt Ideal .f32) (ix2 R l) := by
  obtain ⟨-, -, p0, p1, -⟩ := idx t
  unfold iblk8
  rw [View.read_apply]
  refine congrArg (V c (Pipeline.arrRef spec8 1) : S100000x128.Idx → Elt Ideal .f32) (Shape.idx_ext₂ ?_ ?_)
  · show win8_1.index t (0 : Fin 2) * 5000 + 1 * r.val = R.val; rw [p0, hR]; omega
  · show win8_1.index t (1 : Fin 2) * 128 + 1 * l.val = l.val; rw [p1]; omega

theorem blk2 (t : Fin cfg8.N) :
    (iblk8 V c 2 t : Vec Ideal S128x128 .f32) = (V c (Pipeline.arrRef spec8 2) : S128x128.Idx → Elt Ideal .f32) := by
  obtain ⟨-, -, -, -, p0, p1, -⟩ := idx t
  funext x
  unfold iblk8
  rw [View.read_apply]
  refine congrArg (V c (Pipeline.arrRef spec8 2) : S128x128.Idx → Elt Ideal .f32) (Shape.idx_ext₂ ?_ ?_)
  · show win8_2.index t (0 : Fin 2) * 128 + 1 * (x 0).val = (x 0).val; rw [p0]; omega
  · show win8_2.index t (1 : Fin 2) * 128 + 1 * (x 1).val = (x 1).val; rw [p1]; omega

theorem blk3 (t : Fin cfg8.N) :
    (iblk8 V c 3 t : Vec Ideal S1x128 .f32) = (V c (Pipeline.arrRef spec8 3) : S1x128.Idx → Elt Ideal .f32) := by
  obtain ⟨-, -, -, -, -, -, p0, p1, -⟩ := idx t
  funext x
  unfold iblk8
  rw [View.read_apply]
  refine congrArg (V c (Pipeline.arrRef spec8 3) : S1x128.Idx → Elt Ideal .f32) (Shape.idx_ext₂ ?_ ?_)
  · show win8_3.index t (0 : Fin 2) * 1 + 1 * (x 0).val = (x 0).val; rw [p0]; omega
  · show win8_3.index t (1 : Fin 2) * 128 + 1 * (x 1).val = (x 1).val; rw [p1]; omega

theorem blk4 (t : Fin cfg8.N) :
    (iblk8 V c 4 t : Vec Ideal S128x128 .f32) = (V c (Pipeline.arrRef spec8 4) : S128x128.Idx → Elt Ideal .f32) := by
  obtain ⟨-, -, -, -, -, -, -, -, p0, p1, -⟩ := idx t
  funext x
  unfold iblk8
  rw [View.read_apply]
  refine congrArg (V c (Pipeline.arrRef spec8 4) : S128x128.Idx → Elt Ideal .f32) (Shape.idx_ext₂ ?_ ?_)
  · show win8_4.index t (0 : Fin 2) * 128 + 1 * (x 0).val = (x 0).val; rw [p0]; omega
  · show win8_4.index t (1 : Fin 2) * 128 + 1 * (x 1).val = (x 1).val; rw [p1]; omega

theorem blk5 (t : Fin cfg8.N) :
    (iblk8 V c 5 t : Vec Ideal S1x128 .f32) = (V c (Pipeline.arrRef spec8 5) : S1x128.Idx → Elt Ideal .f32) := by
  obtain ⟨-, -, -, -, -, -, -, -, -, -, p0, p1, -⟩ := idx t
  funext x
  unfold iblk8
  rw [View.read_apply]
  refine congrArg (V c (Pipeline.arrRef spec8 5) : S1x128.Idx → Elt Ideal .f32) (Shape.idx_ext₂ ?_ ?_)
  · show win8_5.index t (0 : Fin 2) * 1 + 1 * (x 0).val = (x 0).val; rw [p0]; omega
  · show win8_5.index t (1 : Fin 2) * 128 + 1 * (x 1).val = (x 1).val; rw [p1]; omega

variable (h a : Cert.Gnn.T S100000x128) (w1 : Cert.Gnn.T S128x128) (b1 : Cert.Gnn.T S128) (w2 : Cert.Gnn.T S128x128) (b2 : Cert.Gnn.T S128)
    (e0 : V c (Pipeline.arrRef spec8 0) = h) (e1 : V c (Pipeline.arrRef spec8 1) = a) (e2 : V c (Pipeline.arrRef spec8 2) = w1)
    (e3 : V c (Pipeline.arrRef spec8 3) = shapeCast S1x128 b1 shapeCasts_S128_S1x128) (e4 : V c (Pipeline.arrRef spec8 4) = w2)
    (e5 : V c (Pipeline.arrRef spec8 5) = shapeCast S1x128 b2 shapeCasts_S128_S1x128)
include e0 e1 e2 e3 e4 e5

theorem tiles (t : Fin cfg8.N) :
    MlpTiles (iblk8 V c 0 t) (iblk8 V c 1 t) (iblk8 V c 2 t) (iblk8 V c 3 t) (iblk8 V c 4 t) (iblk8 V c 5 t)
      h a w1 (shapeCast S1x128 b1 shapeCasts_S128_S1x128) w2 (shapeCast S1x128 b2 shapeCasts_S128_S1x128) t.val := by
  rw [← e0, ← e1, ← e2, ← e3, ← e4, ← e5]
  exact ⟨blk0 V c t, blk1 V c t, blk2 V c t, blk3 V c t, blk4 V c t, blk5 V c t⟩

end R8

variable (V : (c : Dev nD) → (b : Ref sig .tc) → Buf (Elt Ideal) ((c : Thread nD τ).loc b)) (c : Dev nD)
    (h a : Cert.Gnn.T S100000x128) (w1 : Cert.Gnn.T S128x128) (b1 : Cert.Gnn.T S128) (w2 : Cert.Gnn.T S128x128) (b2 : Cert.Gnn.T S128)
    (e0 : V c (Pipeline.arrRef spec8 0) = h) (e1 : V c (Pipeline.arrRef spec8 1) = a) (e2 : V c (Pipeline.arrRef spec8 2) = w1)
    (e3 : V c (Pipeline.arrRef spec8 3) = shapeCast S1x128 b1 shapeCasts_S128_S1x128) (e4 : V c (Pipeline.arrRef spec8 4) = w2)
    (e5 : V c (Pipeline.arrRef spec8 5) = shapeCast S1x128 b2 shapeCasts_S128_S1x128)
include e0 e1 e2 e3 e4 e5

theorem region8_pre :
    (dat8 (F := Ideal) V c).arrAt 6 cfg8.N = Cert.Gnn.mlpRes h a w1 b1 w2 b2 :=
  (dat8 (F := Ideal) V c).arrAt_eq_of_cover 6 _
    (fun t _ => by
      obtain ⟨-, -, -, -, -, -, -, -, -, -, -, -, i0, i1, -⟩ := R8.idx t
      show (cfg8.win 6).cut (grid8.coords t) ((dat8 V c).after 6 t) = _
      rw [after8_6]
      funext y
      refine (R8.tiles V c h a w1 b1 w2 b2 e0 e1 e2 e3 e4 e5 t).out2_6 y (((cfg8.win 6).blk t).view.emb y) ?_ ?_
      · show win8_6.index t (0 : Fin 2) * 5000 + 1 * (y 0).val = 5000 * t.val + (y 0).val; rw [i0]; omega
      · show win8_6.index t (1 : Fin 2) * 128 + 1 * (y 1).val = (y 1).val; rw [i1]; omega)
    (win8_6.cover_of_rows 0 (Memref.isWhole_whole _)
      (by decide +kernel : ∀ t : Fin grid8.N, ∀ a : Fin 2, _) (by decide) rfl (fun _ _ => rfl) flush8_6)

theorem region8_sum :
    (dat8 (F := Ideal) V c).arrAt 7 cfg8.N = Cert.Gnn.tileSums (Cert.Gnn.mlpRes h a w1 b1 w2 b2) :=
  (dat8 (F := Ideal) V c).arrAt_eq_of_cover 7 _
    (fun t _ => by
      obtain ⟨-, -, -, -, -, -, -, -, -, -, -, -, -, -, i0, i1, -⟩ := R8.idx t
      show (cfg8.win 7).cut (grid8.coords t) ((dat8 V c).after 7 t) = _
      rw [after8_7]
      funext y
      refine (R8.tiles V c h a w1 b1 w2 b2 e0 e1 e2 e3 e4 e5 t).out2_7 (Nat.lt_of_lt_of_eq t.isLt N_8) y (((cfg8.win 7).blk t).view.emb y) ?_ ?_
      · show win8_7.index t (0 : Fin 2) * 8 + 1 * (y 0).val = 8 * t.val + (y 0).val; rw [i0]; omega
      · show win8_7.index t (1 : Fin 2) * 128 + 1 * (y 1).val = (y 1).val; rw [i1]; omega)
    (win8_7.cover_of_rows 0 (Memref.isWhole_whole _)
      (by decide +kernel : ∀ t : Fin grid8.N, ∀ a : Fin 2, _) (by decide) rfl (fun _ _ => rfl) flush8_7)

theorem region8_sumsq :
    (dat8 (F := Ideal) V c).arrAt 8 cfg8.N = Cert.Gnn.tileSums (mulf (Cert.Gnn.mlpRes h a w1 b1 w2 b2) (Cert.Gnn.mlpRes h a w1 b1 w2 b2)) :=
  (dat8 (F := Ideal) V c).arrAt_eq_of_cover 8 _
    (fun t _ => by
      obtain ⟨-, -, -, -, -, -, -, -, -, -, -, -, -, -, -, -, i0, i1⟩ := R8.idx t
      show (cfg8.win 8).cut (grid8.coords t) ((dat8 V c).after 8 t) = _
      rw [after8_8]
      funext y
      refine (R8.tiles V c h a w1 b1 w2 b2 e0 e1 e2 e3 e4 e5 t).out2_8 (Nat.lt_of_lt_of_eq t.isLt N_8) y (((cfg8.win 8).blk t).view.emb y) ?_ ?_
      · show win8_8.index t (0 : Fin 2) * 8 + 1 * (y 0).val = 8 * t.val + (y 0).val; rw [i0]; omega
      · show win8_8.index t (1 : Fin 2) * 128 + 1 * (y 1).val = (y 1).val; rw [i1]; omega)
    (win8_8.cover_of_rows 0 (Memref.isWhole_whole _)
      (by decide +kernel : ∀ t : Fin grid8.N, ∀ a : Fin 2, _) (by decide) rfl (fun _ _ => rfl) flush8_8)

end Cert.KernelIdeal.RegionValue

end
-- ==== Proof.KRegion9.lean ====
import proofs.«108604_j12824772346523_2_alg».proof.Proof.Gen.KernelIdeal.Frame
import proofs.«108604_j12824772346523_2_alg».proof.Proof.Spec
import proofs.«108604_j12824772346523_2_alg».proof.Proof.KRegion5
import Idealize.ShloMosaic.Lib.Pipeline.Value

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

namespace R9

theorem idx : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0
    ∧ win9_6.index t (0 : Fin 2) = t.val ∧ win9_6.index t (1 : Fin 2) = 0 :=
  (by decide +kernel : ∀ t : Fin grid9.N, _)

variable (V : (c : Dev nD) → (b : Ref sig .tc) → Buf (Elt Ideal) ((c : Thread nD τ).loc b)) (c : Dev nD)

theorem blk0 (t : Fin cfg9.N) (r : Fin 5000) (l : Fin 128) (R : Fin 100000) (hR : R.val = 5000 * t.val + r.val) :
    (iblk9 V c 0 t : Vec Ideal S5000x128 .f32) (ix2 r l)
      = (V c (Pipeline.arrRef spec9 0) : S100000x128.Idx → Elt Ideal .f32) (ix2 R l) := by
  obtain ⟨p0, p1, -⟩ := idx t
  unfold iblk9
  rw [View.read_apply]
  refine congrArg (V c (Pipeline.arrRef spec9 0) : S100000x128.Idx → Elt Ideal .f32) (Shape.idx_ext₂ ?_ ?_)
  · show win9_0.index t (0 : Fin 2) * 5000 + 1 * r.val = R.val; rw [p0, hR]; omega
  · show win9_0.index t (1 : Fin 2) * 128 + 1 * l.val = l.val; rw [p1]; omega

theorem blk1 (t : Fin cfg9.N) :
    (iblk9 V c 1 t : Vec Ideal S1x128 .f32) = (V c (Pipeline.arrRef spec9 1) : S1x128.Idx → Elt Ideal .f32) := by
  obtain ⟨-, -, p0, p1, -⟩ := idx t
  funext x
  unfold iblk9
  rw [View.read_apply]
  refine congrArg (V c (Pipeline.arrRef spec9 1) : S1x128.Idx → Elt Ideal .f32) (Shape.idx_ext₂ ?_ ?_)
  · show win9_1.index t (0 : Fin 2) * 1 + 1 * (x 0).val = (x 0).val; rw [p0]; omega
  · show win9_1.index t (1 : Fin 2) * 128 + 1 * (x 1).val = (x 1).val; rw [p1]; omega

theorem blk2 (t : Fin cfg9.N) :
    (iblk9 V c 2 t : Vec Ideal S1x128 .f32) = (V c (Pipeline.arrRef spec9 2) : S1x128.Idx → Elt Ideal .f32) := by
  obtain ⟨-, -, -, -, p0, p1, -⟩ := idx t
  funext x
  unfold iblk9
  rw [View.read_apply]
  refine congrArg (V c (Pipeline.arrRef spec9 2) : S1x128.Idx → Elt Ideal .f32) (Shape.idx_ext₂ ?_ ?_)
  · show win9_2.index t (0 : Fin 2) * 1 + 1 * (x 0).val = (x 0).val; rw [p0]; omega
  · show win9_2.index t (1 : Fin 2) * 128 + 1 * (x 1).val = (x 1).val; rw [p1]; omega

theorem blk3 (t : Fin cfg9.N) :
    (iblk9 V c 3 t : Vec Ideal S1x128 .f32) = (V c (Pipeline.arrRef spec9 3) : S1x128.Idx → Elt Ideal .f32) := by
  obtain ⟨-, -, -, -, -, -, p0, p1, -⟩ := idx t
  funext x
  unfold iblk9
  rw [View.read_apply]
  refine congrArg (V c (Pipeline.arrRef spec9 3) : S1x128.Idx → Elt Ideal .f32) (Shape.idx_ext₂ ?_ ?_)
  · show win9_3.index t (0 : Fin 2) * 1 + 1 * (x 0).val = (x 0).val; rw [p0]; omega
  · show win9_3.index t (1 : Fin 2) * 128 + 1 * (x 1).val = (x 1).val; rw [p1]; omega

theorem blk4 (t : Fin cfg9.N) :
    (iblk9 V c 4 t : Vec Ideal S1x128 .f32) = (V c (Pipeline.arrRef spec9 4) : S1x128.Idx → Elt Ideal .f32) := by
  obtain ⟨-, -, -, -, -, -, -, -, p0, p1, -⟩ := idx t
  funext x
  unfold iblk9
  rw [View.read_apply]
  refine congrArg (V c (Pipeline.arrRef spec9 4) : S1x128.Idx → Elt Ideal .f32) (Shape.idx_ext₂ ?_ ?_)
  · show win9_4.index t (0 : Fin 2) * 1 + 1 * (x 0).val = (x 0).val; rw [p0]; omega
  · show win9_4.index t (1 : Fin 2) * 128 + 1 * (x 1).val = (x 1).val; rw [p1]; omega

theorem blk5 (t : Fin cfg9.N) (r : Fin 5000) (l : Fin 128) (R : Fin 100000) (hR : R.val = 5000 * t.val + r.val) :
    (iblk9 V c 5 t : Vec Ideal S5000x128 .f32) (ix2 r l)
      = (V c (Pipeline.arrRef spec9 5) : S100000x128.Idx → Elt Ideal .f32) (ix2 R l) := by
  obtain ⟨-, -, -, -, -, -, -, -, -, -, p0, p1, -⟩ := idx t
  unfold iblk9
  rw [View.read_apply]
  refine congrArg (V c (Pipeline.arrRef spec9 5) : S100000x128.Idx → Elt Ideal .f32) (Shape.idx_ext₂ ?_ ?_)
  · show win9_5.index t (0 : Fin 2) * 5000 + 1 * r.val = R.val; rw [p0, hR]; omega
  · show win9_5.index t (1 : Fin 2) * 128 + 1 * l.val = l.val; rw [p1]; omega

variable (p : Cert.Gnn.T S100000x128) (mean var g beta : Cert.Gnn.T S128) (idn : Cert.Gnn.T S100000x128)
    (e0 : V c (Pipeline.arrRef spec9 0) = p)
    (e1 : V c (Pipeline.arrRef spec9 1) = shapeCast S1x128 mean shapeCasts_S128_S1x128)
    (e2 : V c (Pipeline.arrRef spec9 2) = shapeCast S1x128 var shapeCasts_S128_S1x128)
    (e3 : V c (Pipeline.arrRef spec9 3) = shapeCast S1x128 g shapeCasts_S128_S1x128)
    (e4 : V c (Pipeline.arrRef spec9 4) = shapeCast S1x128 beta shapeCasts_S128_S1x128)
    (e5 : V c (Pipeline.arrRef spec9 5) = idn)
include e0 e1 e2 e3 e4 e5

theorem tiles (t : Fin cfg9.N) :
    NormAddTiles (iblk9 V c 0 t) (iblk9 V c 2 t) (iblk9 V c 1 t) (iblk9 V c 3 t) (iblk9 V c 4 t) (iblk9 V c 5 t)
      p (shapeCast S1x128 mean shapeCasts_S128_S1x128) (shapeCast S1x128 var shapeCasts_S128_S1x128) (shapeCast S1x128 g shapeCasts_S128_S1x128) (shapeCast S1x128 beta shapeCasts_S128_S1x128) idn t.val := by
  rw [← e0, ← e1, ← e2, ← e3, ← e4, ← e5]
  exact ⟨⟨blk0 V c t, blk1 V c t, blk2 V c t, blk3 V c t, blk4 V c t⟩, blk5 V c t⟩

end R9

variable (V : (c : Dev nD) → (b : Ref sig .tc) → Buf (Elt Ideal) ((c : Thread nD τ).loc b)) (c : Dev nD)
    (p : Cert.Gnn.T S100000x128) (mean var g beta : Cert.Gnn.T S128) (idn : Cert.Gnn.T S100000x128)
    (e0 : V c (Pipeline.arrRef spec9 0) = p)
    (e1 : V c (Pipeline.arrRef spec9 1) = shapeCast S1x128 mean shapeCasts_S128_S1x128)
    (e2 : V c (Pipeline.arrRef spec9 2) = shapeCast S1x128 var shapeCasts_S128_S1x128)
    (e3 : V c (Pipeline.arrRef spec9 3) = shapeCast S1x128 g shapeCasts_S128_S1x128)
    (e4 : V c (Pipeline.arrRef spec9 4) = shapeCast S1x128 beta shapeCasts_S128_S1x128)
    (e5 : V c (Pipeline.arrRef spec9 5) = idn)
include e0 e1 e2 e3 e4 e5

theorem region9_out : (dat9 (F := Ideal) V c).arrAt 6 cfg9.N = addf (Cert.Gnn.normRelu p mean var g beta) idn :=
  (dat9 (F := Ideal) V c).arrAt_eq_of_cover 6 _
    (fun t _ => by
      obtain ⟨-, -, -, -, -, -, -, -, -, -, -, -, i0, i1⟩ := R9.idx t
      show (cfg9.win 6).cut (grid9.coords t) ((dat9 V c).after 6 t) = _
      rw [after9_6]
      funext y
      refine (R9.tiles V c p mean var g beta idn e0 e1 e2 e3 e4 e5 t).out6 y (((cfg9.win 6).blk t).view.emb y) ?_ ?_
      · show win9_6.index t (0 : Fin 2) * 5000 + 1 * (y 0).val = 5000 * t.val + (y 0).val; rw [i0]; omega
      · show win9_6.index t (1 : Fin 2) * 128 + 1 * (y 1).val = (y 1).val; rw [i1]; omega)
    (win9_6.cover_of_rows 0 (Memref.isWhole_whole _)
      (by decide +kernel : ∀ t : Fin grid9.N, ∀ a : Fin 2, _) (by decide) rfl (fun _ _ => rfl) flush9_6)

end Cert.KernelIdeal.RegionValue

end
-- ==== Proof.KRegion10.lean ====
import proofs.«108604_j12824772346523_2_alg».proof.Proof.Gen.KernelIdeal.Frame
import proofs.«108604_j12824772346523_2_alg».proof.Proof.Spec
import proofs.«108604_j12824772346523_2_alg».proof.Proof.KRegion2
import Idealize.ShloMosaic.Lib.Pipeline.Value

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

namespace R10

theorem idx : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = t.val ∧ win10_6.index t (1 : Fin 2) = 0
    ∧ win10_7.index t (0 : Fin 2) = t.val ∧ win10_7.index t (1 : Fin 2) = 0
    ∧ win10_8.index t (0 : Fin 2) = t.val ∧ win10_8.index t (1 : Fin 2) = 0 :=
  (by decide +kernel : ∀ t : Fin grid10.N, _)

variable (V : (c : Dev nD) → (b : Ref sig .tc) → Buf (Elt Ideal) ((c : Thread nD τ).loc b)) (c : Dev nD)

theorem blk0 (t : Fin cfg10.N) (r : Fin 5000) (l : Fin 128) (R : Fin 100000) (hR : R.val = 5000 * t.val + r.val) :
    (iblk10 V c 0 t : Vec Ideal S5000x128 .f32) (ix2 r l)
      = (V c (Pipeline.arrRef spec10 0) : S100000x128.Idx → Elt Ideal .f32) (ix2 R l) := by
  obtain ⟨p0, p1, -⟩ := idx t
  unfold iblk10
  rw [View.read_apply]
  refine congrArg (V c (Pipeline.arrRef spec10 0) : S100000x128.Idx → Elt Ideal .f32) (Shape.idx_ext₂ ?_ ?_)
  · show win10_0.index t (0 : Fin 2) * 5000 + 1 * r.val = R.val; rw [p0, hR]; omega
  · show win10_0.index t (1 : Fin 2) * 128 + 1 * l.val = l.val; rw [p1]; omega

theorem blk1 (t : Fin cfg10.N) (r : Fin 5000) (l : Fin 128) (R : Fin 100000) (hR : R.val = 5000 * t.val + r.val) :
    (iblk10 V c 1 t : Vec Ideal S5000x128 .f32) (ix2 r l)
      = (V c (Pipeline.arrRef spec10 1) : S100000x128.Idx → Elt Ideal .f32) (ix2 R l) := by
  obtain ⟨-, -, p0, p1, -⟩ := idx t
  unfold iblk10
  rw [View.read_apply]
  refine congrArg (V c (Pipeline.arrRef spec10 1) : S100000x128.Idx → Elt Ideal .f32) (Shape.idx_ext₂ ?_ ?_)
  · show win10_1.index t (0 : Fin 2) * 5000 + 1 * r.val = R.val; rw [p0, hR]; omega
  · show win10_1.index t (1 : Fin 2) * 128 + 1 * l.val = l.val; rw [p1]; omega

theorem blk2 (t : Fin cfg10.N) :
    (iblk10 V c 2 t : Vec Ideal S128x128 .f32) = (V c (Pipeline.arrRef spec10 2) : S128x128.Idx → Elt Ideal .f32) := by
  obtain ⟨-, -, -, -, p0, p1, -⟩ := idx t
  funext x
  unfold iblk10
  rw [View.read_apply]
  refine congrArg (V c (Pipeline.arrRef spec10 2) : S128x128.Idx → Elt Ideal .f32) (Shape.idx_ext₂ ?_ ?_)
  · show win10_2.index t (0 : Fin 2) * 128 + 1 * (x 0).val = (x 0).val; rw [p0]; omega
  · show win10_2.index t (1 : Fin 2) * 128 + 1 * (x 1).val = (x 1).val; rw [p1]; omega

theorem blk3 (t : Fin cfg10.N) :
    (iblk10 V c 3 t : Vec Ideal S1x128 .f32) = (V c (Pipeline.arrRef spec10 3) : S1x128.Idx → Elt Ideal .f32) := by
  obtain ⟨-, -, -, -, -, -, p0, p1, -⟩ := idx t
  funext x
  unfold iblk10
  rw [View.read_apply]
  refine congrArg (V c (Pipeline.arrRef spec10 3) : S1x128.Idx → Elt Ideal .f32) (Shape.idx_ext₂ ?_ ?_)
  · show win10_3.index t (0 : Fin 2) * 1 + 1 * (x 0).val = (x 0).val; rw [p0]; omega
  · show win10_3.index t (1 : Fin 2) * 128 + 1 * (x 1).val = (x 1).val; rw [p1]; omega

theorem blk4 (t : Fin cfg10.N) :
    (iblk10 V c 4 t : Vec Ideal S128x128 .f32) = (V c (Pipeline.arrRef spec10 4) : S128x128.Idx → Elt Ideal .f32) := by
  obtain ⟨-, -, -, -, -, -, -, -, p0, p1, -⟩ := idx t
  funext x
  unfold iblk10
  rw [View.read_apply]
  refine congrArg (V c (Pipeline.arrRef spec10 4) : S128x128.Idx → Elt Ideal .f32) (Shape.idx_ext₂ ?_ ?_)
  · show win10_4.index t (0 : Fin 2) * 128 + 1 * (x 0).val = (x 0).val; rw [p0]; omega
  · show win10_4.index t (1 : Fin 2) * 128 + 1 * (x 1).val = (x 1).val; rw [p1]; omega

theorem blk5 (t : Fin cfg10.N) :
    (iblk10 V c 5 t : Vec Ideal S1x128 .f32) = (V c (Pipeline.arrRef spec10 5) : S1x128.Idx → Elt Ideal .f32) := by
  obtain ⟨-, -, -, -, -, -, -, -, -, -, p0, p1, -⟩ := idx t
  funext x
  unfold iblk10
  rw [View.read_apply]
  refine congrArg (V c (Pipeline.arrRef spec10 5) : S1x128.Idx → Elt Ideal .f32) (Shape.idx_ext₂ ?_ ?_)
  · show win10_5.index t (0 : Fin 2) * 1 + 1 * (x 0).val = (x 0).val; rw [p0]; omega
  · show win10_5.index t (1 : Fin 2) * 128 + 1 * (x 1).val = (x 1).val; rw [p1]; omega

variable (h a : Cert.Gnn.T S100000x128) (w1 : Cert.Gnn.T S128x128) (b1 : Cert.Gnn.T S128) (w2 : Cert.Gnn.T S128x128) (b2 : Cert.Gnn.T S128)
    (e0 : V c (Pipeline.arrRef spec10 0) = h) (e1 : V c (Pipeline.arrRef spec10 1) = a) (e2 : V c (Pipeline.arrRef spec10 2) = w1)
    (e3 : V c (Pipeline.arrRef spec10 3) = shapeCast S1x128 b1 shapeCasts_S128_S1x128) (e4 : V c (Pipeline.arrRef spec10 4) = w2)
    (e5 : V c (Pipeline.arrRef spec10 5) = shapeCast S1x128 b2 shapeCasts_S128_S1x128)
include e0 e1 e2 e3 e4 e5

theorem tiles (t : Fin cfg10.N) :
    MlpTiles (iblk10 V c 0 t) (iblk10 V c 1 t) (iblk10 V c 2 t) (iblk10 V c 3 t) (iblk10 V c 4 t) (iblk10 V c 5 t)
      h a w1 (shapeCast S1x128 b1 shapeCasts_S128_S1x128) w2 (shapeCast S1x128 b2 shapeCasts_S128_S1x128) t.val := by
  rw [← e0, ← e1, ← e2, ← e3, ← e4, ← e5]
  exact ⟨blk0 V c t, blk1 V c t, blk2 V c t, blk3 V c t, blk4 V c t, blk5 V c t⟩

end R10

variable (V : (c : Dev nD) → (b : Ref sig .tc) → Buf (Elt Ideal) ((c : Thread nD τ).loc b)) (c : Dev nD)
    (h a : Cert.Gnn.T S100000x128) (w1 : Cert.Gnn.T S128x128) (b1 : Cert.Gnn.T S128) (w2 : Cert.Gnn.T S128x128) (b2 : Cert.Gnn.T S128)
    (e0 : V c (Pipeline.arrRef spec10 0) = h) (e1 : V c (Pipeline.arrRef spec10 1) = a) (e2 : V c (Pipeline.arrRef spec10 2) = w1)
    (e3 : V c (Pipeline.arrRef spec10 3) = shapeCast S1x128 b1 shapeCasts_S128_S1x128) (e4 : V c (Pipeline.arrRef spec10 4) = w2)
    (e5 : V c (Pipeline.arrRef spec10 5) = shapeCast S1x128 b2 shapeCasts_S128_S1x128)
include e0 e1 e2 e3 e4 e5

theorem region10_pre :
    (dat10 (F := Ideal) V c).arrAt 6 cfg10.N = Cert.Gnn.mlpRes h a w1 b1 w2 b2 :=
  (dat10 (F := Ideal) V c).arrAt_eq_of_cover 6 _
    (fun t _ => by
      obtain ⟨-, -, -, -, -, -, -, -, -, -, -, -, i0, i1, -⟩ := R10.idx t
      show (cfg10.win 6).cut (grid10.coords t) ((dat10 V c).after 6 t) = _
      rw [after10_6]
      funext y
      refine (R10.tiles V c h a w1 b1 w2 b2 e0 e1 e2 e3 e4 e5 t).out2_6 y (((cfg10.win 6).blk t).view.emb y) ?_ ?_
      · show win10_6.index t (0 : Fin 2) * 5000 + 1 * (y 0).val = 5000 * t.val + (y 0).val; rw [i0]; omega
      · show win10_6.index t (1 : Fin 2) * 128 + 1 * (y 1).val = (y 1).val; rw [i1]; omega)
    (win10_6.cover_of_rows 0 (Memref.isWhole_whole _)
      (by decide +kernel : ∀ t : Fin grid10.N, ∀ a : Fin 2, _) (by decide) rfl (fun _ _ => rfl) flush10_6)

theorem region10_sum :
    (dat10 (F := Ideal) V c).arrAt 7 cfg10.N = Cert.Gnn.tileSums (Cert.Gnn.mlpRes h a w1 b1 w2 b2) :=
  (dat10 (F := Ideal) V c).arrAt_eq_of_cover 7 _
    (fun t _ => by
      obtain ⟨-, -, -, -, -, -, -, -, -, -, -, -, -, -, i0, i1, -⟩ := R10.idx t
      show (cfg10.win 7).cut (grid10.coords t) ((dat10 V c).after 7 t) = _
      rw [after10_7]
      funext y
      refine (R10.tiles V c h a w1 b1 w2 b2 e0 e1 e2 e3 e4 e5 t).out2_7 (Nat.lt_of_lt_of_eq t.isLt N_10) y (((cfg10.win 7).blk t).view.emb y) ?_ ?_
      · show win10_7.index t (0 : Fin 2) * 8 + 1 * (y 0).val = 8 * t.val + (y 0).val; rw [i0]; omega
      · show win10_7.index t (1 : Fin 2) * 128 + 1 * (y 1).val = (y 1).val; rw [i1]; omega)
    (win10_7.cover_of_rows 0 (Memref.isWhole_whole _)
      (by decide +kernel : ∀ t : Fin grid10.N, ∀ a : Fin 2, _) (by decide) rfl (fun _ _ => rfl) flush10_7)

theorem region10_sumsq :
    (dat10 (F := Ideal) V c).arrAt 8 cfg10.N = Cert.Gnn.tileSums (mulf (Cert.Gnn.mlpRes h a w1 b1 w2 b2) (Cert.Gnn.mlpRes h a w1 b1 w2 b2)) :=
  (dat10 (F := Ideal) V c).arrAt_eq_of_cover 8 _
    (fun t _ => by
      obtain ⟨-, -, -, -, -, -, -, -, -, -, -, -, -, -, -, -, i0, i1⟩ := R10.idx t
      show (cfg10.win 8).cut (grid10.coords t) ((dat10 V c).after 8 t) = _
      rw [after10_8]
      funext y
      refine (R10.tiles V c h a w1 b1 w2 b2 e0 e1 e2 e3 e4 e5 t).out2_8 (Nat.lt_of_lt_of_eq t.isLt N_10) y (((cfg10.win 8).blk t).view.emb y) ?_ ?_
      · show win10_8.index t (0 : Fin 2) * 8 + 1 * (y 0).val = 8 * t.val + (y 0).val; rw [i0]; omega
      · show win10_8.index t (1 : Fin 2) * 128 + 1 * (y 1).val = (y 1).val; rw [i1]; omega)
    (win10_8.cover_of_rows 0 (Memref.isWhole_whole _)
      (by decide +kernel : ∀ t : Fin grid10.N, ∀ a : Fin 2, _) (by decide) rfl (fun _ _ => rfl) flush10_8)

end Cert.KernelIdeal.RegionValue

end
-- ==== Proof.KRegion11.lean ====
import proofs.«108604_j12824772346523_2_alg».proof.Proof.Gen.KernelIdeal.Frame
import proofs.«108604_j12824772346523_2_alg».proof.Proof.Spec
import proofs.«108604_j12824772346523_2_alg».proof.Proof.KRegion1
import Idealize.ShloMosaic.Lib.Pipeline.Value

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

namespace R11

theorem idx : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

variable (V : (c : Dev nD) → (b : Ref sig .tc) → Buf (Elt Ideal) ((c : Thread nD τ).loc b)) (c : Dev nD)

theorem blk0 (t : Fin cfg11.N) (r : Fin 5000) (l : Fin 128) (R : Fin 100000) (hR : R.val = 5000 * t.val + r.val) :
    (iblk11 V c 0 t : Vec Ideal S5000x128 .f32) (ix2 r l)
      = (V c (Pipeline.arrRef spec11 0) : S100000x128.Idx → Elt Ideal .f32) (ix2 R l) := by
  obtain ⟨p0, p1, -⟩ := idx t
  unfold iblk11
  rw [View.read_apply]
  refine congrArg (V c (Pipeline.arrRef spec11 0) : S100000x128.Idx → Elt Ideal .f32) (Shape.idx_ext₂ ?_ ?_)
  · show win11_0.index t (0 : Fin 2) * 5000 + 1 * r.val = R.val; rw [p0, hR]; omega
  · show win11_0.index t (1 : Fin 2) * 128 + 1 * l.val = l.val; rw [p1]; omega

theorem blk1 (t : Fin cfg11.N) :
    (iblk11 V c 1 t : Vec Ideal S1x128 .f32) = (V c (Pipeline.arrRef spec11 1) : S1x128.Idx → Elt Ideal .f32) := by
  obtain ⟨-, -, p0, p1, -⟩ := idx t
  funext x
  unfold iblk11
  rw [View.read_apply]
  refine congrArg (V c (Pipeline.arrRef spec11 1) : S1x128.Idx → Elt Ideal .f32) (Shape.idx_ext₂ ?_ ?_)
  · show win11_1.index t (0 : Fin 2) * 1 + 1 * (x 0).val = (x 0).val; rw [p0]; omega
  · show win11_1.index t (1 : Fin 2) * 128 + 1 * (x 1).val = (x 1).val; rw [p1]; omega

theorem blk2 (t : Fin cfg11.N) :
    (iblk11 V c 2 t : Vec Ideal S1x128 .f32) = (V c (Pipeline.arrRef spec11 2) : S1x128.Idx → Elt Ideal .f32) := by
  obtain ⟨-, -, -, -, p0, p1, -⟩ := idx t
  funext x
  unfold iblk11
  rw [View.read_apply]
  refine congrArg (V c (Pipeline.arrRef spec11 2) : S1x128.Idx → Elt Ideal .f32) (Shape.idx_ext₂ ?_ ?_)
  · show win11_2.index t (0 : Fin 2) * 1 + 1 * (x 0).val = (x 0).val; rw [p0]; omega
  · show win11_2.index t (1 : Fin 2) * 128 + 1 * (x 1).val = (x 1).val; rw [p1]; omega

theorem blk3 (t : Fin cfg11.N) :
    (iblk11 V c 3 t : Vec Ideal S1x128 .f32) = (V c (Pipeline.arrRef spec11 3) : S1x128.Idx → Elt Ideal .f32) := by
  obtain ⟨-, -, -, -, -, -, p0, p1, -⟩ := idx t
  funext x
  unfold iblk11
  rw [View.read_apply]
  refine congrArg (V c (Pipeline.arrRef spec11 3) : S1x128.Idx → Elt Ideal .f32) (Shape.idx_ext₂ ?_ ?_)
  · show win11_3.index t (0 : Fin 2) * 1 + 1 * (x 0).val = (x 0).val; rw [p0]; omega
  · show win11_3.index t (1 : Fin 2) * 128 + 1 * (x 1).val = (x 1).val; rw [p1]; omega

theorem blk4 (t : Fin cfg11.N) :
    (iblk11 V c 4 t : Vec Ideal S1x128 .f32) = (V c (Pipeline.arrRef spec11 4) : S1x128.Idx → Elt Ideal .f32) := by
  obtain ⟨-, -, -, -, -, -, -, -, p0, p1, -⟩ := idx t
  funext x
  unfold iblk11
  rw [View.read_apply]
  refine congrArg (V c (Pipeline.arrRef spec11 4) : S1x128.Idx → Elt Ideal .f32) (Shape.idx_ext₂ ?_ ?_)
  · show win11_4.index t (0 : Fin 2) * 1 + 1 * (x 0).val = (x 0).val; rw [p0]; omega
  · show win11_4.index t (1 : Fin 2) * 128 + 1 * (x 1).val = (x 1).val; rw [p1]; omega

variable (p : Cert.Gnn.T S100000x128) (mean var g beta : Cert.Gnn.T S128)
    (e0 : V c (Pipeline.arrRef spec11 0) = p)
    (e1 : V c (Pipeline.arrRef spec11 1) = shapeCast S1x128 mean shapeCasts_S128_S1x128)
    (e2 : V c (Pipeline.arrRef spec11 2) = shapeCast S1x128 var shapeCasts_S128_S1x128)
    (e3 : V c (Pipeline.arrRef spec11 3) = shapeCast S1x128 g shapeCasts_S128_S1x128)
    (e4 : V c (Pipeline.arrRef spec11 4) = shapeCast S1x128 beta shapeCasts_S128_S1x128)
include e0 e1 e2 e3 e4

theorem tiles (t : Fin cfg11.N) :
    NormTiles (iblk11 V c 0 t) (iblk11 V c 2 t) (iblk11 V c 1 t) (iblk11 V c 3 t) (iblk11 V c 4 t)
      p (shapeCast S1x128 mean shapeCasts_S128_S1x128) (shapeCast S1x128 var shapeCasts_S128_S1x128) (shapeCast S1x128 g shapeCasts_S128_S1x128) (shapeCast S1x128 beta shapeCasts_S128_S1x128) t.val := by
  rw [← e0, ← e1, ← e2, ← e3, ← e4]
  exact ⟨blk0 V c t, blk1 V c t, blk2 V c t, blk3 V c t, blk4 V c t⟩

end R11

variable (V : (c : Dev nD) → (b : Ref sig .tc) → Buf (Elt Ideal) ((c : Thread nD τ).loc b)) (c : Dev nD)
    (p : Cert.Gnn.T S100000x128) (mean var g beta : Cert.Gnn.T S128)
    (e0 : V c (Pipeline.arrRef spec11 0) = p)
    (e1 : V c (Pipeline.arrRef spec11 1) = shapeCast S1x128 mean shapeCasts_S128_S1x128)
    (e2 : V c (Pipeline.arrRef spec11 2) = shapeCast S1x128 var shapeCasts_S128_S1x128)
    (e3 : V c (Pipeline.arrRef spec11 3) = shapeCast S1x128 g shapeCasts_S128_S1x128)
    (e4 : V c (Pipeline.arrRef spec11 4) = shapeCast S1x128 beta shapeCasts_S128_S1x128)
include e0 e1 e2 e3 e4

theorem region11_out : (dat11 (F := Ideal) V c).arrAt 5 cfg11.N = Cert.Gnn.normRelu p mean var g beta :=
  (dat11 (F := Ideal) V c).arrAt_eq_of_cover 5 _
    (fun t _ => by
      obtain ⟨-, -, -, -, -, -, -, -, -, -, i0, i1⟩ := R11.idx t
      show (cfg11.win 5).cut (grid11.coords t) ((dat11 V c).after 5 t) = _
      rw [after11_5]
      funext y
      refine (R11.tiles V c p mean var g beta e0 e1 e2 e3 e4 t).out5 y (((cfg11.win 5).blk t).view.emb y) ?_ ?_
      · show win11_5.index t (0 : Fin 2) * 5000 + 1 * (y 0).val = 5000 * t.val + (y 0).val; rw [i0]; omega
      · show win11_5.index t (1 : Fin 2) * 128 + 1 * (y 1).val = (y 1).val; rw [i1]; omega)
    (win11_5.cover_of_rows 0 (Memref.isWhole_whole _)
      (by decide +kernel : ∀ t : Fin grid11.N, ∀ a : Fin 2, _) (by decide) rfl (fun _ _ => rfl) flush11_5)

end Cert.KernelIdeal.RegionValue

end
-- ==== Proof.KRegion12.lean ====
import proofs.«108604_j12824772346523_2_alg».proof.Proof.Gen.KernelIdeal.Frame
import proofs.«108604_j12824772346523_2_alg».proof.Proof.Spec
import proofs.«108604_j12824772346523_2_alg».proof.Proof.KRegion2
import Idealize.ShloMosaic.Lib.Pipeline.Value

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

namespace R12

theorem idx : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = 0 ∧ win12_5.index t (1 : Fin 2) = 0
    ∧ win12_6.index t (0 : Fin 2) = t.val ∧ win12_6.index t (1 : Fin 2) = 0
    ∧ win12_7.index t (0 : Fin 2) = t.val ∧ win12_7.index t (1 : Fin 2) = 0
    ∧ win12_8.index t (0 : Fin 2) = t.val ∧ win12_8.index t (1 : Fin 2) = 0 :=
  (by decide +kernel : ∀ t : Fin grid12.N, _)

variable (V : (c : Dev nD) → (b : Ref sig .tc) → Buf (Elt Ideal) ((c : Thread nD τ).loc b)) (c : Dev nD)

theorem blk0 (t : Fin cfg12.N) (r : Fin 5000) (l : Fin 128) (R : Fin 100000) (hR : R.val = 5000 * t.val + r.val) :
    (iblk12 V c 0 t : Vec Ideal S5000x128 .f32) (ix2 r l)
      = (V c (Pipeline.arrRef spec12 0) : S100000x128.Idx → Elt Ideal .f32) (ix2 R l) := by
  obtain ⟨p0, p1, -⟩ := idx t
  unfold iblk12
  rw [View.read_apply]
  refine congrArg (V c (Pipeline.arrRef spec12 0) : S100000x128.Idx → Elt Ideal .f32) (Shape.idx_ext₂ ?_ ?_)
  · show win12_0.index t (0 : Fin 2) * 5000 + 1 * r.val = R.val; rw [p0, hR]; omega
  · show win12_0.index t (1 : Fin 2) * 128 + 1 * l.val = l.val; rw [p1]; omega

theorem blk1 (t : Fin cfg12.N) (r : Fin 5000) (l : Fin 128) (R : Fin 100000) (hR : R.val = 5000 * t.val + r.val) :
    (iblk12 V c 1 t : Vec Ideal S5000x128 .f32) (ix2 r l)
      = (V c (Pipeline.arrRef spec12 1) : S100000x128.Idx → Elt Ideal .f32) (ix2 R l) := by
  obtain ⟨-, -, p0, p1, -⟩ := idx t
  unfold iblk12
  rw [View.read_apply]
  refine congrArg (V c (Pipeline.arrRef spec12 1) : S100000x128.Idx → Elt Ideal .f32) (Shape.idx_ext₂ ?_ ?_)
  · show win12_1.index t (0 : Fin 2) * 5000 + 1 * r.val = R.val; rw [p0, hR]; omega
  · show win12_1.index t (1 : Fin 2) * 128 + 1 * l.val = l.val; rw [p1]; omega

theorem blk2 (t : Fin cfg12.N) :
    (iblk12 V c 2 t : Vec Ideal S128x128 .f32) = (V c (Pipeline.arrRef spec12 2) : S128x128.Idx → Elt Ideal .f32) := by
  obtain ⟨-, -, -, -, p0, p1, -⟩ := idx t
  funext x
  unfold iblk12
  rw [View.read_apply]
  refine congrArg (V c (Pipeline.arrRef spec12 2) : S128x128.Idx → Elt Ideal .f32) (Shape.idx_ext₂ ?_ ?_)
  · show win12_2.index t (0 : Fin 2) * 128 + 1 * (x 0).val = (x 0).val; rw [p0]; omega
  · show win12_2.index t (1 : Fin 2) * 128 + 1 * (x 1).val = (x 1).val; rw [p1]; omega

theorem blk3 (t : Fin cfg12.N) :
    (iblk12 V c 3 t : Vec Ideal S1x128 .f32) = (V c (Pipeline.arrRef spec12 3) : S1x128.Idx → Elt Ideal .f32) := by
  obtain ⟨-, -, -, -, -, -, p0, p1, -⟩ := idx t
  funext x
  unfold iblk12
  rw [View.read_apply]
  refine congrArg (V c (Pipeline.arrRef spec12 3) : S1x128.Idx → Elt Ideal .f32) (Shape.idx_ext₂ ?_ ?_)
  · show win12_3.index t (0 : Fin 2) * 1 + 1 * (x 0).val = (x 0).val; rw [p0]; omega
  · show win12_3.index t (1 : Fin 2) * 128 + 1 * (x 1).val = (x 1).val; rw [p1]; omega

theorem blk4 (t : Fin cfg12.N) :
    (iblk12 V c 4 t : Vec Ideal S128x128 .f32) = (V c (Pipeline.arrRef spec12 4) : S128x128.Idx → Elt Ideal .f32) := by
  obtain ⟨-, -, -, -, -, -, -, -, p0, p1, -⟩ := idx t
  funext x
  unfold iblk12
  rw [View.read_apply]
  refine congrArg (V c (Pipeline.arrRef spec12 4) : S128x128.Idx → Elt Ideal .f32) (Shape.idx_ext₂ ?_ ?_)
  · show win12_4.index t (0 : Fin 2) * 128 + 1 * (x 0).val = (x 0).val; rw [p0]; omega
  · show win12_4.index t (1 : Fin 2) * 128 + 1 * (x 1).val = (x 1).val; rw [p1]; omega

theorem blk5 (t : Fin cfg12.N) :
    (iblk12 V c 5 t : Vec Ideal S1x128 .f32) = (V c (Pipeline.arrRef spec12 5) : S1x128.Idx → Elt Ideal .f32) := by
  obtain ⟨-, -, -, -, -, -, -, -, -, -, p0, p1, -⟩ := idx t
  funext x
  unfold iblk12
  rw [View.read_apply]
  refine congrArg (V c (Pipeline.arrRef spec12 5) : S1x128.Idx → Elt Ideal .f32) (Shape.idx_ext₂ ?_ ?_)
  · show win12_5.index t (0 : Fin 2) * 1 + 1 * (x 0).val = (x 0).val; rw [p0]; omega
  · show win12_5.index t (1 : Fin 2) * 128 + 1 * (x 1).val = (x 1).val; rw [p1]; omega

variable (h a : Cert.Gnn.T S100000x128) (w1 : Cert.Gnn.T S128x128) (b1 : Cert.Gnn.T S128) (w2 : Cert.Gnn.T S128x128) (b2 : Cert.Gnn.T S128)
    (e0 : V c (Pipeline.arrRef spec12 0) = h) (e1 : V c (Pipeline.arrRef spec12 1) = a) (e2 : V c (Pipeline.arrRef spec12 2) = w1)
    (e3 : V c (Pipeline.arrRef spec12 3) = shapeCast S1x128 b1 shapeCasts_S128_S1x128) (e4 : V c (Pipeline.arrRef spec12 4) = w2)
    (e5 : V c (Pipeline.arrRef spec12 5) = shapeCast S1x128 b2 shapeCasts_S128_S1x128)
include e0 e1 e2 e3 e4 e5

theorem tiles (t : Fin cfg12.N) :
    MlpTiles (iblk12 V c 0 t) (iblk12 V c 1 t) (iblk12 V c 2 t) (iblk12 V c 3 t) (iblk12 V c 4 t) (iblk12 V c 5 t)
      h a w1 (shapeCast S1x128 b1 shapeCasts_S128_S1x128) w2 (shapeCast S1x128 b2 shapeCasts_S128_S1x128) t.val := by
  rw [← e0, ← e1, ← e2, ← e3, ← e4, ← e5]
  exact ⟨blk0 V c t, blk1 V c t, blk2 V c t, blk3 V c t, blk4 V c t, blk5 V c t⟩

end R12

variable (V : (c : Dev nD) → (b : Ref sig .tc) → Buf (Elt Ideal) ((c : Thread nD τ).loc b)) (c : Dev nD)
    (h a : Cert.Gnn.T S100000x128) (w1 : Cert.Gnn.T S128x128) (b1 : Cert.Gnn.T S128) (w2 : Cert.Gnn.T S128x128) (b2 : Cert.Gnn.T S128)
    (e0 : V c (Pipeline.arrRef spec12 0) = h) (e1 : V c (Pipeline.arrRef spec12 1) = a) (e2 : V c (Pipeline.arrRef spec12 2) = w1)
    (e3 : V c (Pipeline.arrRef spec12 3) = shapeCast S1x128 b1 shapeCasts_S128_S1x128) (e4 : V c (Pipeline.arrRef spec12 4) = w2)
    (e5 : V c (Pipeline.arrRef spec12 5) = shapeCast S1x128 b2 shapeCasts_S128_S1x128)
include e0 e1 e2 e3 e4 e5

theorem region12_pre :
    (dat12 (F := Ideal) V c).arrAt 6 cfg12.N = Cert.Gnn.mlpRes h a w1 b1 w2 b2 :=
  (dat12 (F := Ideal) V c).arrAt_eq_of_cover 6 _
    (fun t _ => by
      obtain ⟨-, -, -, -, -, -, -, -, -, -, -, -, i0, i1, -⟩ := R12.idx t
      show (cfg12.win 6).cut (grid12.coords t) ((dat12 V c).after 6 t) = _
      rw [after12_6]
      funext y
      refine (R12.tiles V c h a w1 b1 w2 b2 e0 e1 e2 e3 e4 e5 t).out2_6 y (((cfg12.win 6).blk t).view.emb y) ?_ ?_
      · show win12_6.index t (0 : Fin 2) * 5000 + 1 * (y 0).val = 5000 * t.val + (y 0).val; rw [i0]; omega
      · show win12_6.index t (1 : Fin 2) * 128 + 1 * (y 1).val = (y 1).val; rw [i1]; omega)
    (win12_6.cover_of_rows 0 (Memref.isWhole_whole _)
      (by decide +kernel : ∀ t : Fin grid12.N, ∀ a : Fin 2, _) (by decide) rfl (fun _ _ => rfl) flush12_6)

theorem region12_sum :
    (dat12 (F := Ideal) V c).arrAt 7 cfg12.N = Cert.Gnn.tileSums (Cert.Gnn.mlpRes h a w1 b1 w2 b2) :=
  (dat12 (F := Ideal) V c).arrAt_eq_of_cover 7 _
    (fun t _ => by
      obtain ⟨-, -, -, -, -, -, -, -, -, -, -, -, -, -, i0, i1, -⟩ := R12.idx t
      show (cfg12.win 7).cut (grid12.coords t) ((dat12 V c).after 7 t) = _
      rw [after12_7]
      funext y
      refine (R12.tiles V c h a w1 b1 w2 b2 e0 e1 e2 e3 e4 e5 t).out2_7 (Nat.lt_of_lt_of_eq t.isLt N_12) y (((cfg12.win 7).blk t).view.emb y) ?_ ?_
      · show win12_7.index t (0 : Fin 2) * 8 + 1 * (y 0).val = 8 * t.val + (y 0).val; rw [i0]; omega
      · show win12_7.index t (1 : Fin 2) * 128 + 1 * (y 1).val = (y 1).val; rw [i1]; omega)
    (win12_7.cover_of_rows 0 (Memref.isWhole_whole _)
      (by decide +kernel : ∀ t : Fin grid12.N, ∀ a : Fin 2, _) (by decide) rfl (fun _ _ => rfl) flush12_7)

theorem region12_sumsq :
    (dat12 (F := Ideal) V c).arrAt 8 cfg12.N = Cert.Gnn.tileSums (mulf (Cert.Gnn.mlpRes h a w1 b1 w2 b2) (Cert.Gnn.mlpRes h a w1 b1 w2 b2)) :=
  (dat12 (F := Ideal) V c).arrAt_eq_of_cover 8 _
    (fun t _ => by
      obtain ⟨-, -, -, -, -, -, -, -, -, -, -, -, -, -, -, -, i0, i1⟩ := R12.idx t
      show (cfg12.win 8).cut (grid12.coords t) ((dat12 V c).after 8 t) = _
      rw [after12_8]
      funext y
      refine (R12.tiles V c h a w1 b1 w2 b2 e0 e1 e2 e3 e4 e5 t).out2_8 (Nat.lt_of_lt_of_eq t.isLt N_12) y (((cfg12.win 8).blk t).view.emb y) ?_ ?_
      · show win12_8.index t (0 : Fin 2) * 8 + 1 * (y 0).val = 8 * t.val + (y 0).val; rw [i0]; omega
      · show win12_8.index t (1 : Fin 2) * 128 + 1 * (y 1).val = (y 1).val; rw [i1]; omega)
    (win12_8.cover_of_rows 0 (Memref.isWhole_whole _)
      (by decide +kernel : ∀ t : Fin grid12.N, ∀ a : Fin 2, _) (by decide) rfl (fun _ _ => rfl) flush12_8)

end Cert.KernelIdeal.RegionValue

end
-- ==== Proof.KRegion13.lean ====
import proofs.«108604_j12824772346523_2_alg».proof.Proof.Gen.KernelIdeal.Frame
import proofs.«108604_j12824772346523_2_alg».proof.Proof.Spec
import proofs.«108604_j12824772346523_2_alg».proof.Proof.KRegion5
import Idealize.ShloMosaic.Lib.Pipeline.Value

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

namespace R13

theorem idx : ∀ t : Fin cfg13.N,
    win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = t.val ∧ win13_5.index t (1 : Fin 2) = 0
    ∧ win13_6.index t (0 : Fin 2) = t.val ∧ win13_6.index t (1 : Fin 2) = 0 :=
  (by decide +kernel : ∀ t : Fin grid13.N, _)

variable (V : (c : Dev nD) → (b : Ref sig .tc) → Buf (Elt Ideal) ((c : Thread nD τ).loc b)) (c : Dev nD)

theorem blk0 (t : Fin cfg13.N) (r : Fin 5000) (l : Fin 128) (R : Fin 100000) (hR : R.val = 5000 * t.val + r.val) :
    (iblk13 V c 0 t : Vec Ideal S5000x128 .f32) (ix2 r l)
      = (V c (Pipeline.arrRef spec13 0) : S100000x128.Idx → Elt Ideal .f32) (ix2 R l) := by
  obtain ⟨p0, p1, -⟩ := idx t
  unfold iblk13
  rw [View.read_apply]
  refine congrArg (V c (Pipeline.arrRef spec13 0) : S100000x128.Idx → Elt Ideal .f32) (Shape.idx_ext₂ ?_ ?_)
  · show win13_0.index t (0 : Fin 2) * 5000 + 1 * r.val = R.val; rw [p0, hR]; omega
  · show win13_0.index t (1 : Fin 2) * 128 + 1 * l.val = l.val; rw [p1]; omega

theorem blk1 (t : Fin cfg13.N) :
    (iblk13 V c 1 t : Vec Ideal S1x128 .f32) = (V c (Pipeline.arrRef spec13 1) : S1x128.Idx → Elt Ideal .f32) := by
  obtain ⟨-, -, p0, p1, -⟩ := idx t
  funext x
  unfold iblk13
  rw [View.read_apply]
  refine congrArg (V c (Pipeline.arrRef spec13 1) : S1x128.Idx → Elt Ideal .f32) (Shape.idx_ext₂ ?_ ?_)
  · show win13_1.index t (0 : Fin 2) * 1 + 1 * (x 0).val = (x 0).val; rw [p0]; omega
  · show win13_1.index t (1 : Fin 2) * 128 + 1 * (x 1).val = (x 1).val; rw [p1]; omega

theorem blk2 (t : Fin cfg13.N) :
    (iblk13 V c 2 t : Vec Ideal S1x128 .f32) = (V c (Pipeline.arrRef spec13 2) : S1x128.Idx → Elt Ideal .f32) := by
  obtain ⟨-, -, -, -, p0, p1, -⟩ := idx t
  funext x
  unfold iblk13
  rw [View.read_apply]
  refine congrArg (V c (Pipeline.arrRef spec13 2) : S1x128.Idx → Elt Ideal .f32) (Shape.idx_ext₂ ?_ ?_)
  · show win13_2.index t (0 : Fin 2) * 1 + 1 * (x 0).val = (x 0).val; rw [p0]; omega
  · show win13_2.index t (1 : Fin 2) * 128 + 1 * (x 1).val = (x 1).val; rw [p1]; omega

theorem blk3 (t : Fin cfg13.N) :
    (iblk13 V c 3 t : Vec Ideal S1x128 .f32) = (V c (Pipeline.arrRef spec13 3) : S1x128.Idx → Elt Ideal .f32) := by
  obtain ⟨-, -, -, -, -, -, p0, p1, -⟩ := idx t
  funext x
  unfold iblk13
  rw [View.read_apply]
  refine congrArg (V c (Pipeline.arrRef spec13 3) : S1x128.Idx → Elt Ideal .f32) (Shape.idx_ext₂ ?_ ?_)
  · show win13_3.index t (0 : Fin 2) * 1 + 1 * (x 0).val = (x 0).val; rw [p0]; omega
  · show win13_3.index t (1 : Fin 2) * 128 + 1 * (x 1).val = (x 1).val; rw [p1]; omega

theorem blk4 (t : Fin cfg13.N) :
    (iblk13 V c 4 t : Vec Ideal S1x128 .f32) = (V c (Pipeline.arrRef spec13 4) : S1x128.Idx → Elt Ideal .f32) := by
  obtain ⟨-, -, -, -, -, -, -, -, p0, p1, -⟩ := idx t
  funext x
  unfold iblk13
  rw [View.read_apply]
  refine congrArg (V c (Pipeline.arrRef spec13 4) : S1x128.Idx → Elt Ideal .f32) (Shape.idx_ext₂ ?_ ?_)
  · show win13_4.index t (0 : Fin 2) * 1 + 1 * (x 0).val = (x 0).val; rw [p0]; omega
  · show win13_4.index t (1 : Fin 2) * 128 + 1 * (x 1).val = (x 1).val; rw [p1]; omega

theorem blk5 (t : Fin cfg13.N) (r : Fin 5000) (l : Fin 128) (R : Fin 100000) (hR : R.val = 5000 * t.val + r.val) :
    (iblk13 V c 5 t : Vec Ideal S5000x128 .f32) (ix2 r l)
      = (V c (Pipeline.arrRef spec13 5) : S100000x128.Idx → Elt Ideal .f32) (ix2 R l) := by
  obtain ⟨-, -, -, -, -, -, -, -, -, -, p0, p1, -⟩ := idx t
  unfold iblk13
  rw [View.read_apply]
  refine congrArg (V c (Pipeline.arrRef spec13 5) : S100000x128.Idx → Elt Ideal .f32) (Shape.idx_ext₂ ?_ ?_)
  · show win13_5.index t (0 : Fin 2) * 5000 + 1 * r.val = R.val; rw [p0, hR]; omega
  · show win13_5.index t (1 : Fin 2) * 128 + 1 * l.val = l.val; rw [p1]; omega

variable (p : Cert.Gnn.T S100000x128) (mean var g beta : Cert.Gnn.T S128) (idn : Cert.Gnn.T S100000x128)
    (e0 : V c (Pipeline.arrRef spec13 0) = p)
    (e1 : V c (Pipeline.arrRef spec13 1) = shapeCast S1x128 mean shapeCasts_S128_S1x128)
    (e2 : V c (Pipeline.arrRef spec13 2) = shapeCast S1x128 var shapeCasts_S128_S1x128)
    (e3 : V c (Pipeline.arrRef spec13 3) = shapeCast S1x128 g shapeCasts_S128_S1x128)
    (e4 : V c (Pipeline.arrRef spec13 4) = shapeCast S1x128 beta shapeCasts_S128_S1x128)
    (e5 : V c (Pipeline.arrRef spec13 5) = idn)
include e0 e1 e2 e3 e4 e5

theorem tiles (t : Fin cfg13.N) :
    NormAddTiles (iblk13 V c 0 t) (iblk13 V c 2 t) (iblk13 V c 1 t) (iblk13 V c 3 t) (iblk13 V c 4 t) (iblk13 V c 5 t)
      p (shapeCast S1x128 mean shapeCasts_S128_S1x128) (shapeCast S1x128 var shapeCasts_S128_S1x128) (shapeCast S1x128 g shapeCasts_S128_S1x128) (shapeCast S1x128 beta shapeCasts_S128_S1x128) idn t.val := by
  rw [← e0, ← e1, ← e2, ← e3, ← e4, ← e5]
  exact ⟨⟨blk0 V c t, blk1 V c t, blk2 V c t, blk3 V c t, blk4 V c t⟩, blk5 V c t⟩

end R13

variable (V : (c : Dev nD) → (b : Ref sig .tc) → Buf (Elt Ideal) ((c : Thread nD τ).loc b)) (c : Dev nD)
    (p : Cert.Gnn.T S100000x128) (mean var g beta : Cert.Gnn.T S128) (idn : Cert.Gnn.T S100000x128)
    (e0 : V c (Pipeline.arrRef spec13 0) = p)
    (e1 : V c (Pipeline.arrRef spec13 1) = shapeCast S1x128 mean shapeCasts_S128_S1x128)
    (e2 : V c (Pipeline.arrRef spec13 2) = shapeCast S1x128 var shapeCasts_S128_S1x128)
    (e3 : V c (Pipeline.arrRef spec13 3) = shapeCast S1x128 g shapeCasts_S128_S1x128)
    (e4 : V c (Pipeline.arrRef spec13 4) = shapeCast S1x128 beta shapeCasts_S128_S1x128)
    (e5 : V c (Pipeline.arrRef spec13 5) = idn)
include e0 e1 e2 e3 e4 e5

theorem region13_out : (dat13 (F := Ideal) V c).arrAt 6 cfg13.N = addf (Cert.Gnn.normRelu p mean var g beta) idn :=
  (dat13 (F := Ideal) V c).arrAt_eq_of_cover 6 _
    (fun t _ => by
      obtain ⟨-, -, -, -, -, -, -, -, -, -, -, -, i0, i1⟩ := R13.idx t
      show (cfg13.win 6).cut (grid13.coords t) ((dat13 V c).after 6 t) = _
      rw [after13_6]
      funext y
      refine (R13.tiles V c p mean var g beta idn e0 e1 e2 e3 e4 e5 t).out6 y (((cfg13.win 6).blk t).view.emb y) ?_ ?_
      · show win13_6.index t (0 : Fin 2) * 5000 + 1 * (y 0).val = 5000 * t.val + (y 0).val; rw [i0]; omega
      · show win13_6.index t (1 : Fin 2) * 128 + 1 * (y 1).val = (y 1).val; rw [i1]; omega)
    (win13_6.cover_of_rows 0 (Memref.isWhole_whole _)
      (by decide +kernel : ∀ t : Fin grid13.N, ∀ a : Fin 2, _) (by decide) rfl (fun _ _ => rfl) flush13_6)

end Cert.KernelIdeal.RegionValue

end
-- ==== Proof.KRegion14.lean ====
import proofs.«108604_j12824772346523_2_alg».proof.Proof.Gen.KernelIdeal.Frame
import proofs.«108604_j12824772346523_2_alg».proof.Proof.Spec
import proofs.«108604_j12824772346523_2_alg».proof.Proof.KRegion2Idx
import proofs.«108604_j12824772346523_2_alg».proof.Proof.LibWindow
import Idealize.ShloMosaic.Lib.Pipeline.Value

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

namespace MlpTiles

variable {x0 x1 : Vec Ideal S5000x128 .f32} {x2 : Vec Ideal S128x32 .f32} {x3 : Vec Ideal S1x32 .f32}
    {x4 : Vec Ideal S32x3 .f32} {x5 : Vec Ideal S1x3 .f32} {h a : Cert.Gnn.T S100000x128} {w1 : Cert.Gnn.T S128x32}
    {b1 : Cert.Gnn.T S32} {w2 : Cert.Gnn.T S32x3} {b2 : Cert.Gnn.T S3} {tv : ℕ}
    (T : MlpTiles x0 x1 x2 x3 x4 x5 h a w1 (shapeCast S1x32 b1 shapeCasts_S32_S1x32) w2 (shapeCast S1x3 b2 shapeCasts_S3_S1x3) tv)
include T

/-- Both sides are the row perceptron of row 5000·tv + y₀ of the node arrays. -/
theorem pay14 (y : S5000x3.Idx) (i : S100000x3.Idx) (hi0 : (i 0).val = 5000 * tv + (y 0).val) (hi1 : (i 1).val = (y 1).val) :
    k14_pay1 (F := Ideal) x0 x1 x2 x3 x4 x5 y = Cert.Gnn.mlpTail h a w1 b1 w2 b2 i := by
  obtain ⟨hx0, hx1, rfl, rfl, rfl, rfl⟩ := T
  obtain ⟨r, j, rfl⟩ : ∃ (r : Fin 5000) (j : Fin 3), y = ix2 r j := ⟨y 0, y 1, eq_ix2 y⟩
  obtain ⟨R, j', rfl⟩ : ∃ (R : Fin 100000) (j' : Fin 3), i = ix2 R j' := ⟨i 0, i 1, eq_ix2 i⟩
  obtain rfl : j = j' := (Fin.ext hi1).symm
  refine Eq.trans (by unfold k14_pay1; simp only [shapeCast_self]; exact kernelMlp_apply _ rfl _ rfl x0 x1 _ b1 _ b2 _ _ _ _ _ r j) ?_
  rw [mlpTail_apply, funext fun l => hx0 r l R hi0, funext fun l => hx1 r l R hi0]

theorem out14_6 (y : S5000x3.Idx) (i : S100000x3.Idx) (hi0 : (i 0).val = 5000 * tv + (y 0).val) (hi1 : (i 1).val = (y 1).val) :
    Gen.out14_6 (F := Ideal) x0 x1 x2 x3 x4 x5 y = Cert.Gnn.mlpTail h a w1 b1 w2 b2 i := by
  unfold Gen.out14_6
  rw [View.canon_unit_zero zeroOffsets]
  simp only [View.ld_unit_zero (S := S5000x128) zeroOffsets,
    View.ld_unit_zero (S := S128x32) zeroOffsets,
    View.ld_unit_zero (S := S1x32) zeroOffsets,
    View.ld_unit_zero (S := S32x3) zeroOffsets,
    View.ld_unit_zero (S := S1x3) zeroOffsets]
  exact T.pay14 y i hi0 hi1

end MlpTiles

namespace R14

theorem idx : ∀ t : Fin cfg14.N,
    win14_0.index t (0 : Fin 2) = t.val ∧ win14_0.index t (1 : Fin 2) = 0
    ∧ win14_1.index t (0 : Fin 2) = t.val ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = 0 ∧ win14_5.index t (1 : Fin 2) = 0
    ∧ win14_6.index t (0 : Fin 2) = t.val ∧ win14_6.index t (1 : Fin 2) = 0 :=
  (by decide +kernel : ∀ t : Fin grid14.N, _)

variable (V : (c : Dev nD) → (b : Ref sig .tc) → Buf (Elt Ideal) ((c : Thread nD τ).loc b)) (c : Dev nD)

theorem blk0 (t : Fin cfg14.N) (r : Fin 5000) (l : Fin 128) (R : Fin 100000) (hR : R.val = 5000 * t.val + r.val) :
    (iblk14 V c 0 t : Vec Ideal S5000x128 .f32) (ix2 r l)
      = (V c (Pipeline.arrRef spec14 0) : S100000x128.Idx → Elt Ideal .f32) (ix2 R l) := by
  obtain ⟨p0, p1, -⟩ := idx t
  unfold iblk14
  rw [View.read_apply]
  refine congrArg (V c (Pipeline.arrRef spec14 0) : S100000x128.Idx → Elt Ideal .f32) (Shape.idx_ext₂ ?_ ?_)
  · show win14_0.index t (0 : Fin 2) * 5000 + 1 * r.val = R.val; rw [p0, hR]; omega
  · show win14_0.index t (1 : Fin 2) * 128 + 1 * l.val = l.val; rw [p1]; omega

theorem blk1 (t : Fin cfg14.N) (r : Fin 5000) (l : Fin 128) (R : Fin 100000) (hR : R.val = 5000 * t.val + r.val) :
    (iblk14 V c 1 t : Vec Ideal S5000x128 .f32) (ix2 r l)
      = (V c (Pipeline.arrRef spec14 1) : S100000x128.Idx → Elt Ideal .f32) (ix2 R l) := by
  obtain ⟨-, -, p0, p1, -⟩ := idx t
  unfold iblk14
  rw [View.read_apply]
  refine congrArg (V c (Pipeline.arrRef spec14 1) : S100000x128.Idx → Elt Ideal .f32) (Shape.idx_ext₂ ?_ ?_)
  · show win14_1.index t (0 : Fin 2) * 5000 + 1 * r.val = R.val; rw [p0, hR]; omega
  · show win14_1.index t (1 : Fin 2) * 128 + 1 * l.val = l.val; rw [p1]; omega

theorem blk2 (t : Fin cfg14.N) :
    (iblk14 V c 2 t : Vec Ideal S128x32 .f32) = (V c (Pipeline.arrRef spec14 2) : S128x32.Idx → Elt Ideal .f32) := by
  obtain ⟨-, -, -, -, p0, p1, -⟩ := idx t
  funext x
  unfold iblk14
  rw [View.read_apply]
  refine congrArg (V c (Pipeline.arrRef spec14 2) : S128x32.Idx → Elt Ideal .f32) (Shape.idx_ext₂ ?_ ?_)
  · show win14_2.index t (0 : Fin 2) * 128 + 1 * (x 0).val = (x 0).val; rw [p0]; omega
  · show win14_2.index t (1 : Fin 2) * 32 + 1 * (x 1).val = (x 1).val; rw [p1]; omega

theorem blk3 (t : Fin cfg14.N) :
    (iblk14 V c 3 t : Vec Ideal S1x32 .f32) = (V c (Pipeline.arrRef spec14 3) : S1x32.Idx → Elt Ideal .f32) := by
  obtain ⟨-, -, -, -, -, -, p0, p1, -⟩ := idx t
  funext x
  unfold iblk14
  rw [View.read_apply]
  refine congrArg (V c (Pipeline.arrRef spec14 3) : S1x32.Idx → Elt Ideal .f32) (Shape.idx_ext₂ ?_ ?_)
  · show win14_3.index t (0 : Fin 2) * 1 + 1 * (x 0).val = (x 0).val; rw [p0]; omega
  · show win14_3.index t (1 : Fin 2) * 32 + 1 * (x 1).val = (x 1).val; rw [p1]; omega

theorem blk4 (t : Fin cfg14.N) :
    (iblk14 V c 4 t : Vec Ideal S32x3 .f32) = (V c (Pipeline.arrRef spec14 4) : S32x3.Idx → Elt Ideal .f32) := by
  obtain ⟨-, -, -, -, -, -, -, -, p0, p1, -⟩ := idx t
  funext x
  unfold iblk14
  rw [View.read_apply]
  refine congrArg (V c (Pipeline.arrRef spec14 4) : S32x3.Idx → Elt Ideal .f32) (Shape.idx_ext₂ ?_ ?_)
  · show win14_4.index t (0 : Fin 2) * 32 + 1 * (x 0).val = (x 0).val; rw [p0]; omega
  · show win14_4.index t (1 : Fin 2) * 3 + 1 * (x 1).val = (x 1).val; rw [p1]; omega

theorem blk5 (t : Fin cfg14.N) :
    (iblk14 V c 5 t : Vec Ideal S1x3 .f32) = (V c (Pipeline.arrRef spec14 5) : S1x3.Idx → Elt Ideal .f32) := by
  obtain ⟨-, -, -, -, -, -, -, -, -, -, p0, p1, -⟩ := idx t
  funext x
  unfold iblk14
  rw [View.read_apply]
  refine congrArg (V c (Pipeline.arrRef spec14 5) : S1x3.Idx → Elt Ideal .f32) (Shape.idx_ext₂ ?_ ?_)
  · show win14_5.index t (0 : Fin 2) * 1 + 1 * (x 0).val = (x 0).val; rw [p0]; omega
  · show win14_5.index t (1 : Fin 2) * 3 + 1 * (x 1).val = (x 1).val; rw [p1]; omega

variable (h a : Cert.Gnn.T S100000x128) (w1 : Cert.Gnn.T S128x32) (b1 : Cert.Gnn.T S32) (w2 : Cert.Gnn.T S32x3) (b2 : Cert.Gnn.T S3)
    (e0 : V c (Pipeline.arrRef spec14 0) = h) (e1 : V c (Pipeline.arrRef spec14 1) = a) (e2 : V c (Pipeline.arrRef spec14 2) = w1)
    (e3 : V c (Pipeline.arrRef spec14 3) = shapeCast S1x32 b1 shapeCasts_S32_S1x32) (e4 : V c (Pipeline.arrRef spec14 4) = w2)
    (e5 : V c (Pipeline.arrRef spec14 5) = shapeCast S1x3 b2 shapeCasts_S3_S1x3)
include e0 e1 e2 e3 e4 e5

theorem tiles (t : Fin cfg14.N) :
    MlpTiles (iblk14 V c 0 t) (iblk14 V c 1 t) (iblk14 V c 2 t) (iblk14 V c 3 t) (iblk14 V c 4 t) (iblk14 V c 5 t)
      h a w1 (shapeCast S1x32 b1 shapeCasts_S32_S1x32) w2 (shapeCast S1x3 b2 shapeCasts_S3_S1x3) t.val := by
  rw [← e0, ← e1, ← e2, ← e3, ← e4, ← e5]
  exact ⟨blk0 V c t, blk1 V c t, blk2 V c t, blk3 V c t, blk4 V c t, blk5 V c t⟩

end R14

variable (V : (c : Dev nD) → (b : Ref sig .tc) → Buf (Elt Ideal) ((c : Thread nD τ).loc b)) (c : Dev nD)
    (h a : Cert.Gnn.T S100000x128) (w1 : Cert.Gnn.T S128x32) (b1 : Cert.Gnn.T S32) (w2 : Cert.Gnn.T S32x3) (b2 : Cert.Gnn.T S3)
    (e0 : V c (Pipeline.arrRef spec14 0) = h) (e1 : V c (Pipeline.arrRef spec14 1) = a) (e2 : V c (Pipeline.arrRef spec14 2) = w1)
    (e3 : V c (Pipeline.arrRef spec14 3) = shapeCast S1x32 b1 shapeCasts_S32_S1x32) (e4 : V c (Pipeline.arrRef spec14 4) = w2)
    (e5 : V c (Pipeline.arrRef spec14 5) = shapeCast S1x3 b2 shapeCasts_S3_S1x3)
include e0 e1 e2 e3 e4 e5

theorem region14_out :
    (dat14 (F := Ideal) V c).arrAt 6 cfg14.N = Cert.Gnn.mlpTail h a w1 b1 w2 b2 :=
  (dat14 (F := Ideal) V c).arrAt_eq_of_cover 6 _
    (fun t _ => by
      obtain ⟨-, -, -, -, -, -, -, -, -, -, -, -, i0, i1⟩ := R14.idx t
      show (cfg14.win 6).cut (grid14.coords t) ((dat14 V c).after 6 t) = _
      rw [after14_6]
      funext y
      refine (R14.tiles V c h a w1 b1 w2 b2 e0 e1 e2 e3 e4 e5 t).out14_6 y (((cfg14.win 6).blk t).view.emb y) ?_ ?_
      · show win14_6.index t (0 : Fin 2) * 5000 + 1 * (y 0).val = 5000 * t.val + (y 0).val; rw [i0]; omega
      · show win14_6.index t (1 : Fin 2) * 3 + 1 * (y 1).val = (y 1).val; rw [i1]; omega)
    (win14_6.cover_of_rows 0 (Memref.isWhole_whole _)
      (by decide +kernel : ∀ t : Fin grid14.N, ∀ a : Fin 2, _) (by decide) rfl (fun _ _ => rfl) flush14_6)

end Cert.KernelIdeal.RegionValue

end
-- ==== Proof.KChain.lean ====
import proofs.«108604_j12824772346523_2_alg».proof.Proof.Spec
import proofs.«108604_j12824772346523_2_alg».proof.Proof.Gen.KernelIdeal.Frame
import proofs.«108604_j12824772346523_2_alg».proof.Proof.KHost0
import proofs.«108604_j12824772346523_2_alg».proof.Proof.KHost1
import proofs.«108604_j12824772346523_2_alg».proof.Proof.KHost2
import proofs.«108604_j12824772346523_2_alg».proof.Proof.KHost3
import proofs.«108604_j12824772346523_2_alg».proof.Proof.KHost4
import proofs.«108604_j12824772346523_2_alg».proof.Proof.KHost5
import proofs.«108604_j12824772346523_2_alg».proof.Proof.KHost6
import proofs.«108604_j12824772346523_2_alg».proof.Proof.KHost7
import proofs.«108604_j12824772346523_2_alg».proof.Proof.KHost8
import proofs.«108604_j12824772346523_2_alg».proof.Proof.KHost9
import proofs.«108604_j12824772346523_2_alg».proof.Proof.KHost10
import proofs.«108604_j12824772346523_2_alg».proof.Proof.KHost11
import proofs.«108604_j12824772346523_2_alg».proof.Proof.KHost12
import proofs.«108604_j12824772346523_2_alg».proof.Proof.KHost13
import proofs.«108604_j12824772346523_2_alg».proof.Proof.KHost14
import proofs.«108604_j12824772346523_2_alg».proof.Proof.KRegion0
import proofs.«108604_j12824772346523_2_alg».proof.Proof.KRegion1
import proofs.«108604_j12824772346523_2_alg».proof.Proof.KRegion2
import proofs.«108604_j12824772346523_2_alg».proof.Proof.KRegion3
import proofs.«108604_j12824772346523_2_alg».proof.Proof.KRegion4
import proofs.«108604_j12824772346523_2_alg».proof.Proof.KRegion5
import proofs.«108604_j12824772346523_2_alg».proof.Proof.KRegion6
import proofs.«108604_j12824772346523_2_alg».proof.Proof.KRegion7
import proofs.«108604_j12824772346523_2_alg».proof.Proof.KRegion8
import proofs.«108604_j12824772346523_2_alg».proof.Proof.KRegion9
import proofs.«108604_j12824772346523_2_alg».proof.Proof.KRegion10
import proofs.«108604_j12824772346523_2_alg».proof.Proof.KRegion11
import proofs.«108604_j12824772346523_2_alg».proof.Proof.KRegion12
import proofs.«108604_j12824772346523_2_alg».proof.Proof.KRegion13
import proofs.«108604_j12824772346523_2_alg».proof.Proof.KRegion14

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.HostValue Cert.KernelIdeal.RegionValue

variable (m : (ℓ : Loc nD τ sig) → Buf (Elt Ideal) ℓ) (ρ : Dev nD → PrngReg) (c : Dev nD)

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)
abbrev a10 := m ((c : Thread nD τ).loc main_arg10)
abbrev a11 := m ((c : Thread nD τ).loc main_arg11)
abbrev a12 := m ((c : Thread nD τ).loc main_arg12)
abbrev a13 := m ((c : Thread nD τ).loc main_arg13)
abbrev a14 := m ((c : Thread nD τ).loc main_arg14)
abbrev a15 := m ((c : Thread nD τ).loc main_arg15)
abbrev a16 := m ((c : Thread nD τ).loc main_arg16)
abbrev a17 := m ((c : Thread nD τ).loc main_arg17)
abbrev src := Cert.Gnn.edgeSrc (a1 m c)
abbrev dst := Cert.Gnn.edgeDst (a1 m c)
def p0 := Cert.Gnn.mlpHead (a0 m c) (Cert.Gnn.aggregate (a0 m c) (src m c) (dst m c)) (a2 m c) (a3 m c) (a4 m c) (a5 m c)
def h0 := Cert.Gnn.normTiled (p0 m c) (a6 m c) (a7 m c)
def p1 := Cert.Gnn.mlpRes (h0 m c) (Cert.Gnn.aggregate (h0 m c) (src m c) (dst m c)) (Cert.Gnn.mat0 (a8 m c)) (Cert.Gnn.vec0 (a9 m c)) (Cert.Gnn.mat0 (a10 m c)) (Cert.Gnn.vec0 (a11 m c))
def h1 := Cert.Gnn.normTiled (p1 m c) (Cert.Gnn.vec0 (a12 m c)) (Cert.Gnn.vec0 (a13 m c))
def p2 := Cert.Gnn.mlpRes (h1 m c) (Cert.Gnn.aggregate (h1 m c) (src m c) (dst m c)) (Cert.Gnn.mat1 (a8 m c)) (Cert.Gnn.vec1 (a9 m c)) (Cert.Gnn.mat1 (a10 m c)) (Cert.Gnn.vec1 (a11 m c))
def h2 := addf (Cert.Gnn.normTiled (p2 m c) (Cert.Gnn.vec1 (a12 m c)) (Cert.Gnn.vec1 (a13 m c))) (h0 m c)
def p3 := Cert.Gnn.mlpRes (h2 m c) (Cert.Gnn.aggregate (h2 m c) (src m c) (dst m c)) (Cert.Gnn.mat2 (a8 m c)) (Cert.Gnn.vec2 (a9 m c)) (Cert.Gnn.mat2 (a10 m c)) (Cert.Gnn.vec2 (a11 m c))
def h3 := Cert.Gnn.normTiled (p3 m c) (Cert.Gnn.vec2 (a12 m c)) (Cert.Gnn.vec2 (a13 m c))
def p4 := Cert.Gnn.mlpRes (h3 m c) (Cert.Gnn.aggregate (h3 m c) (src m c) (dst m c)) (Cert.Gnn.mat3 (a8 m c)) (Cert.Gnn.vec3 (a9 m c)) (Cert.Gnn.mat3 (a10 m c)) (Cert.Gnn.vec3 (a11 m c))
def h4 := addf (Cert.Gnn.normTiled (p4 m c) (Cert.Gnn.vec3 (a12 m c)) (Cert.Gnn.vec3 (a13 m c))) (h2 m c)
def p5 := Cert.Gnn.mlpRes (h4 m c) (Cert.Gnn.aggregate (h4 m c) (src m c) (dst m c)) (Cert.Gnn.mat4 (a8 m c)) (Cert.Gnn.vec4 (a9 m c)) (Cert.Gnn.mat4 (a10 m c)) (Cert.Gnn.vec4 (a11 m c))
def h5 := Cert.Gnn.normTiled (p5 m c) (Cert.Gnn.vec4 (a12 m c)) (Cert.Gnn.vec4 (a13 m c))
def p6 := Cert.Gnn.mlpRes (h5 m c) (Cert.Gnn.aggregate (h5 m c) (src m c) (dst m c)) (Cert.Gnn.mat5 (a8 m c)) (Cert.Gnn.vec5 (a9 m c)) (Cert.Gnn.mat5 (a10 m c)) (Cert.Gnn.vec5 (a11 m c))
def h6 := addf (Cert.Gnn.normTiled (p6 m c) (Cert.Gnn.vec5 (a12 m c)) (Cert.Gnn.vec5 (a13 m c))) (h4 m c)
def out := Cert.Gnn.mlpTail (h6 m c) (Cert.Gnn.aggregate (h6 m c) (src m c) (dst m c)) (a14 m c) (a15 m c) (a16 m c) (a17 m c)

theorem out_eq : out m c = Cert.Gnn.networkTiled (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) := rfl

-- The references that nothing after the first step writes.
noncomputable def kept : List (Ref sig .tc) :=
  [main_arg6, main_arg7, main_arg8, main_arg9, main_arg10, main_arg11, main_arg12, main_arg13, main_arg14, main_arg15, main_arg16, main_arg17, main_v1, main_v3]

section
variable {m ρ c} {b : Ref sig .tc}

-- A reference in kept holds at a later boundary what it held at boundary 1: no step in between writes it.
theorem k2 {v} (h : Gen.W1 m ρ c (Proc.devRef .tc b) = v) (hb : b ∈ kept := by decide) : Gen.W2 m ρ c (Proc.devRef .tc b) = v :=
  (Gen.W2_of_ne m ρ c b (by clear h v; revert b; decide)).trans h
theorem k4 {v} (h : Gen.W1 m ρ c (Proc.devRef .tc b) = v) (hb : b ∈ kept := by decide) : Gen.W4 m ρ c (Proc.devRef .tc b) = v :=
  (Gen.W4_of_ne m ρ c b (by clear h v; revert b; decide)).trans <| (host1_keep _ b (by clear h v; revert b; decide)).trans (k2 h hb)
theorem k8 {v} (h : Gen.W1 m ρ c (Proc.devRef .tc b) = v) (hb : b ∈ kept := by decide) : Gen.W8 m ρ c (Proc.devRef .tc b) = v :=
  (Gen.W8_of_ne m ρ c b (by clear h v; revert b; decide)).trans <| (host3_keep _ b (by clear h v; revert b; decide)).trans <| (Gen.W6_of_ne m ρ c b (by clear h v; revert b; decide)).trans <| (host2_keep _ b (by clear h v; revert b; decide)).trans (k4 h hb)
theorem k12 {v} (h : Gen.W1 m ρ c (Proc.devRef .tc b) = v) (hb : b ∈ kept := by decide) : Gen.W12 m ρ c (Proc.devRef .tc b) = v :=
  (Gen.W12_of_ne m ρ c b (by clear h v; revert b; decide)).trans <| (host5_keep _ b (by clear h v; revert b; decide)).trans <| (Gen.W10_of_ne m ρ c b (by clear h v; revert b; decide)).trans <| (host4_keep _ b (by clear h v; revert b; decide)).trans (k8 h hb)
theorem k16 {v} (h : Gen.W1 m ρ c (Proc.devRef .tc b) = v) (hb : b ∈ kept := by decide) : Gen.W16 m ρ c (Proc.devRef .tc b) = v :=
  (Gen.W16_of_ne m ρ c b (by clear h v; revert b; decide)).trans <| (host7_keep _ b (by clear h v; revert b; decide)).trans <| (Gen.W14_of_ne m ρ c b (by clear h v; revert b; decide)).trans <| (host6_keep _ b (by clear h v; revert b; decide)).trans (k12 h hb)
theorem k20 {v} (h : Gen.W1 m ρ c (Proc.devRef .tc b) = v) (hb : b ∈ kept := by decide) : Gen.W20 m ρ c (Proc.devRef .tc b) = v :=
  (Gen.W20_of_ne m ρ c b (by clear h v; revert b; decide)).trans <| (host9_keep _ b (by clear h v; revert b; decide)).trans <| (Gen.W18_of_ne m ρ c b (by clear h v; revert b; decide)).trans <| (host8_keep _ b (by clear h v; revert b; decide)).trans (k16 h hb)
theorem k24 {v} (h : Gen.W1 m ρ c (Proc.devRef .tc b) = v) (hb : b ∈ kept := by decide) : Gen.W24 m ρ c (Proc.devRef .tc b) = v :=
  (Gen.W24_of_ne m ρ c b (by clear h v; revert b; decide)).trans <| (host11_keep _ b (by clear h v; revert b; decide)).trans <| (Gen.W22_of_ne m ρ c b (by clear h v; revert b; decide)).trans <| (host10_keep _ b (by clear h v; revert b; decide)).trans (k20 h hb)
theorem k28 {v} (h : Gen.W1 m ρ c (Proc.devRef .tc b) = v) (hb : b ∈ kept := by decide) : Gen.W28 m ρ c (Proc.devRef .tc b) = v :=
  (Gen.W28_of_ne m ρ c b (by clear h v; revert b; decide)).trans <| (host13_keep _ b (by clear h v; revert b; decide)).trans <| (Gen.W26_of_ne m ρ c b (by clear h v; revert b; decide)).trans <| (host12_keep _ b (by clear h v; revert b; decide)).trans (k24 h hb)
theorem k29 {v} (h : Gen.W1 m ρ c (Proc.devRef .tc b) = v) (hb : b ∈ kept := by decide) : Gen.W29 m ρ c (Proc.devRef .tc b) = v :=
  (host14_keep _ b (by clear h v; revert b; decide)).trans (k28 h hb)

end

theorem f1_main_arg6 : (Gen.W1 m ρ c) (Proc.devRef .tc main_arg6) = a6 m c :=
  host0_keep _ _ (by decide)
theorem f1_main_arg7 : (Gen.W1 m ρ c) (Proc.devRef .tc main_arg7) = a7 m c :=
  host0_keep _ _ (by decide)
theorem f1_main_arg8 : (Gen.W1 m ρ c) (Proc.devRef .tc main_arg8) = a8 m c :=
  host0_keep _ _ (by decide)
theorem f1_main_arg9 : (Gen.W1 m ρ c) (Proc.devRef .tc main_arg9) = a9 m c :=
  host0_keep _ _ (by decide)
theorem f1_main_arg10 : (Gen.W1 m ρ c) (Proc.devRef .tc main_arg10) = a10 m c :=
  host0_keep _ _ (by decide)
theorem f1_main_arg11 : (Gen.W1 m ρ c) (Proc.devRef .tc main_arg11) = a11 m c :=
  host0_keep _ _ (by decide)
theorem f1_main_arg12 : (Gen.W1 m ρ c) (Proc.devRef .tc main_arg12) = a12 m c :=
  host0_keep _ _ (by decide)
theorem f1_main_arg13 : (Gen.W1 m ρ c) (Proc.devRef .tc main_arg13) = a13 m c :=
  host0_keep _ _ (by decide)
theorem f1_main_arg14 : (Gen.W1 m ρ c) (Proc.devRef .tc main_arg14) = a14 m c :=
  host0_keep _ _ (by decide)
theorem f1_main_arg15 : (Gen.W1 m ρ c) (Proc.devRef .tc main_arg15) = a15 m c :=
  host0_keep _ _ (by decide)
theorem f1_main_arg16 : (Gen.W1 m ρ c) (Proc.devRef .tc main_arg16) = a16 m c :=
  host0_keep _ _ (by decide)
theorem f1_main_arg17 : (Gen.W1 m ρ c) (Proc.devRef .tc main_arg17) = a17 m c :=
  host0_keep _ _ (by decide)
theorem f1_main_v1 : (Gen.W1 m ρ c) (Proc.devRef .tc main_v1) = (src m c) :=
  host0_src _
theorem f1_main_v3 : (Gen.W1 m ρ c) (Proc.devRef .tc main_v3) = (dst m c) :=
  host0_dst _
theorem f1_main_v13 : (Gen.W1 m ρ c) (Proc.devRef .tc main_v13) = Cert.Gnn.aggregate (a0 m c) (src m c) (dst m c) :=
  host0_agg _
theorem f1_main_v14 : (Gen.W1 m ρ c) (Proc.devRef .tc main_v14) = shapeCast S1x256 (a3 m c) shapeCasts_S256_S1x256 :=
  host0_b1row _
theorem f1_main_v15 : (Gen.W1 m ρ c) (Proc.devRef .tc main_v15) = shapeCast S1x128 (a5 m c) shapeCasts_S128_S1x128 :=
  host0_b2row _
theorem f1_main_arg0 : (Gen.W1 m ρ c) (Proc.devRef .tc main_arg0) = (a0 m c) :=
  host0_keep _ _ (by decide)
theorem f1_main_arg2 : (Gen.W1 m ρ c) (Proc.devRef .tc main_arg2) = (a2 m c) :=
  host0_keep _ _ (by decide)
theorem f1_main_arg4 : (Gen.W1 m ρ c) (Proc.devRef .tc main_arg4) = (a4 m c) :=
  host0_keep _ _ (by decide)
theorem f2_main_v16_0 : (Gen.W2 m ρ c) (Proc.devRef .tc main_v16_0) = p0 m c :=
  (Gen.W2_arr m ρ c 6).trans (region0_pre (Gen.V1 m ρ) c _ _ _ _ _ _ (f1_main_arg0 m ρ c) (f1_main_v13 m ρ c) (f1_main_arg2 m ρ c) (f1_main_v14 m ρ c) (f1_main_arg4 m ρ c) (f1_main_v15 m ρ c))
theorem f2_main_v16_1 : (Gen.W2 m ρ c) (Proc.devRef .tc main_v16_1) = Cert.Gnn.tileSums (p0 m c) :=
  (Gen.W2_arr m ρ c 7).trans (region0_sum (Gen.V1 m ρ) c _ _ _ _ _ _ (f1_main_arg0 m ρ c) (f1_main_v13 m ρ c) (f1_main_arg2 m ρ c) (f1_main_v14 m ρ c) (f1_main_arg4 m ρ c) (f1_main_v15 m ρ c))
theorem f2_main_v16_2 : (Gen.W2 m ρ c) (Proc.devRef .tc main_v16_2) = Cert.Gnn.tileSums (mulf (p0 m c) (p0 m c)) :=
  (Gen.W2_arr m ρ c 8).trans (region0_sumsq (Gen.V1 m ρ) c _ _ _ _ _ _ (f1_main_arg0 m ρ c) (f1_main_v13 m ρ c) (f1_main_arg2 m ρ c) (f1_main_v14 m ρ c) (f1_main_arg4 m ρ c) (f1_main_v15 m ρ c))
theorem f3_main_v27 : (Gen.W3 m ρ c) (Proc.devRef .tc main_v27) = shapeCast S1x128 (Cert.Gnn.meanTiled (Cert.Gnn.tileSums (p0 m c))) shapeCasts_S128_S1x128 :=
  (host1_mean _).trans (by rw [f2_main_v16_1 m ρ c])
theorem f3_main_v28 : (Gen.W3 m ρ c) (Proc.devRef .tc main_v28) = shapeCast S1x128 (Cert.Gnn.varOnePass (Cert.Gnn.tileSums (p0 m c)) (Cert.Gnn.tileSums (mulf (p0 m c) (p0 m c)))) shapeCasts_S128_S1x128 :=
  (host1_var _).trans (by rw [f2_main_v16_1 m ρ c, f2_main_v16_2 m ρ c])
theorem f3_main_v29 : (Gen.W3 m ρ c) (Proc.devRef .tc main_v29) = shapeCast S1x128 (a6 m c) shapeCasts_S128_S1x128 :=
  (host1_g _).trans (by rw [k2 (f1_main_arg6 m ρ c)])
theorem f3_main_v30 : (Gen.W3 m ρ c) (Proc.devRef .tc main_v30) = shapeCast S1x128 (a7 m c) shapeCasts_S128_S1x128 :=
  (host1_beta _).trans (by rw [k2 (f1_main_arg7 m ρ c)])
theorem f3_main_v16_0 : (Gen.W3 m ρ c) (Proc.devRef .tc main_v16_0) = p0 m c :=
  (host1_keep _ _ (by decide)).trans (f2_main_v16_0 m ρ c)
theorem f4_main_v31 : (Gen.W4 m ρ c) (Proc.devRef .tc main_v31) = h0 m c :=
  (Gen.W4_arr m ρ c 5).trans (region1_out (Gen.V3 m ρ) c _ _ _ _ _ (f3_main_v16_0 m ρ c) (f3_main_v27 m ρ c) (f3_main_v28 m ρ c) (f3_main_v29 m ρ c) (f3_main_v30 m ρ c))
theorem f5_main_v33 : (Gen.W5 m ρ c) (Proc.devRef .tc main_v33) = (Cert.Gnn.mat0 (a8 m c)) :=
  (host2_w1 _).trans (congrArg Cert.Gnn.mat0 (k4 (f1_main_arg8 m ρ c)))
theorem f5_main_v54 : (Gen.W5 m ρ c) (Proc.devRef .tc main_v54) = shapeCast S1x128 (Cert.Gnn.vec0 (a9 m c)) shapeCasts_S128_S1x128 :=
  (host2_b1row _).trans (by rw [k4 (f1_main_arg9 m ρ c)])
theorem f5_main_v37 : (Gen.W5 m ρ c) (Proc.devRef .tc main_v37) = (Cert.Gnn.mat0 (a10 m c)) :=
  (host2_w2 _).trans (congrArg Cert.Gnn.mat0 (k4 (f1_main_arg10 m ρ c)))
theorem f5_main_v55 : (Gen.W5 m ρ c) (Proc.devRef .tc main_v55) = shapeCast S1x128 (Cert.Gnn.vec0 (a11 m c)) shapeCasts_S128_S1x128 :=
  (host2_b2row _).trans (by rw [k4 (f1_main_arg11 m ρ c)])
theorem f5_main_v41 : (Gen.W5 m ρ c) (Proc.devRef .tc main_v41) = (Cert.Gnn.vec0 (a12 m c)) :=
  (host2_g _).trans (congrArg Cert.Gnn.vec0 (k4 (f1_main_arg12 m ρ c)))
theorem f5_main_v43 : (Gen.W5 m ρ c) (Proc.devRef .tc main_v43) = (Cert.Gnn.vec0 (a13 m c)) :=
  (host2_beta _).trans (congrArg Cert.Gnn.vec0 (k4 (f1_main_arg13 m ρ c)))
theorem f5_main_v53 : (Gen.W5 m ρ c) (Proc.devRef .tc main_v53) = Cert.Gnn.aggregate (h0 m c) (src m c) (dst m c) :=
  (host2_agg _).trans (by rw [f4_main_v31 m ρ c, k4 (f1_main_v1 m ρ c), k4 (f1_main_v3 m ρ c)])
theorem f5_main_v31 : (Gen.W5 m ρ c) (Proc.devRef .tc main_v31) = h0 m c :=
  (host2_keep _ _ (by decide)).trans (f4_main_v31 m ρ c)
theorem f6_main_v56_0 : (Gen.W6 m ρ c) (Proc.devRef .tc main_v56_0) = p1 m c :=
  (Gen.W6_arr m ρ c 6).trans (region2_pre (Gen.V5 m ρ) c _ _ _ _ _ _ (f5_main_v31 m ρ c) (f5_main_v53 m ρ c) (f5_main_v33 m ρ c) (f5_main_v54 m ρ c) (f5_main_v37 m ρ c) (f5_main_v55 m ρ c))
theorem f6_main_v56_1 : (Gen.W6 m ρ c) (Proc.devRef .tc main_v56_1) = Cert.Gnn.tileSums (p1 m c) :=
  (Gen.W6_arr m ρ c 7).trans (region2_sum (Gen.V5 m ρ) c _ _ _ _ _ _ (f5_main_v31 m ρ c) (f5_main_v53 m ρ c) (f5_main_v33 m ρ c) (f5_main_v54 m ρ c) (f5_main_v37 m ρ c) (f5_main_v55 m ρ c))
theorem f6_main_v56_2 : (Gen.W6 m ρ c) (Proc.devRef .tc main_v56_2) = Cert.Gnn.tileSums (mulf (p1 m c) (p1 m c)) :=
  (Gen.W6_arr m ρ c 8).trans (region2_sumsq (Gen.V5 m ρ) c _ _ _ _ _ _ (f5_main_v31 m ρ c) (f5_main_v53 m ρ c) (f5_main_v33 m ρ c) (f5_main_v54 m ρ c) (f5_main_v37 m ρ c) (f5_main_v55 m ρ c))
theorem f7_main_v67 : (Gen.W7 m ρ c) (Proc.devRef .tc main_v67) = shapeCast S1x128 (Cert.Gnn.meanTiled (Cert.Gnn.tileSums (p1 m c))) shapeCasts_S128_S1x128 :=
  (host3_mean _).trans (by rw [f6_main_v56_1 m ρ c])
theorem f7_main_v68 : (Gen.W7 m ρ c) (Proc.devRef .tc main_v68) = shapeCast S1x128 (Cert.Gnn.varOnePass (Cert.Gnn.tileSums (p1 m c)) (Cert.Gnn.tileSums (mulf (p1 m c) (p1 m c)))) shapeCasts_S128_S1x128 :=
  (host3_var _).trans (by rw [f6_main_v56_1 m ρ c, f6_main_v56_2 m ρ c])
theorem f6_main_v41 : (Gen.W6 m ρ c) (Proc.devRef .tc main_v41) = (Cert.Gnn.vec0 (a12 m c)) :=
  (Gen.W6_of_ne m ρ c _ (by decide)).trans (f5_main_v41 m ρ c)
theorem f7_main_v69 : (Gen.W7 m ρ c) (Proc.devRef .tc main_v69) = shapeCast S1x128 (Cert.Gnn.vec0 (a12 m c)) shapeCasts_S128_S1x128 :=
  (host3_g _).trans (by rw [f6_main_v41 m ρ c])
theorem f6_main_v43 : (Gen.W6 m ρ c) (Proc.devRef .tc main_v43) = (Cert.Gnn.vec0 (a13 m c)) :=
  (Gen.W6_of_ne m ρ c _ (by decide)).trans (f5_main_v43 m ρ c)
theorem f7_main_v70 : (Gen.W7 m ρ c) (Proc.devRef .tc main_v70) = shapeCast S1x128 (Cert.Gnn.vec0 (a13 m c)) shapeCasts_S128_S1x128 :=
  (host3_beta _).trans (by rw [f6_main_v43 m ρ c])
theorem f7_main_v56_0 : (Gen.W7 m ρ c) (Proc.devRef .tc main_v56_0) = p1 m c :=
  (host3_keep _ _ (by decide)).trans (f6_main_v56_0 m ρ c)
theorem f8_main_v71 : (Gen.W8 m ρ c) (Proc.devRef .tc main_v71) = h1 m c :=
  (Gen.W8_arr m ρ c 5).trans (region3_out (Gen.V7 m ρ) c _ _ _ _ _ (f7_main_v56_0 m ρ c) (f7_main_v67 m ρ c) (f7_main_v68 m ρ c) (f7_main_v69 m ρ c) (f7_main_v70 m ρ c))
theorem f9_main_v73 : (Gen.W9 m ρ c) (Proc.devRef .tc main_v73) = (Cert.Gnn.mat1 (a8 m c)) :=
  (host4_w1 _).trans (congrArg Cert.Gnn.mat1 (k8 (f1_main_arg8 m ρ c)))
theorem f9_main_v94 : (Gen.W9 m ρ c) (Proc.devRef .tc main_v94) = shapeCast S1x128 (Cert.Gnn.vec1 (a9 m c)) shapeCasts_S128_S1x128 :=
  (host4_b1row _).trans (by rw [k8 (f1_main_arg9 m ρ c)])
theorem f9_main_v77 : (Gen.W9 m ρ c) (Proc.devRef .tc main_v77) = (Cert.Gnn.mat1 (a10 m c)) :=
  (host4_w2 _).trans (congrArg Cert.Gnn.mat1 (k8 (f1_main_arg10 m ρ c)))
theorem f9_main_v95 : (Gen.W9 m ρ c) (Proc.devRef .tc main_v95) = shapeCast S1x128 (Cert.Gnn.vec1 (a11 m c)) shapeCasts_S128_S1x128 :=
  (host4_b2row _).trans (by rw [k8 (f1_main_arg11 m ρ c)])
theorem f9_main_v81 : (Gen.W9 m ρ c) (Proc.devRef .tc main_v81) = (Cert.Gnn.vec1 (a12 m c)) :=
  (host4_g _).trans (congrArg Cert.Gnn.vec1 (k8 (f1_main_arg12 m ρ c)))
theorem f9_main_v83 : (Gen.W9 m ρ c) (Proc.devRef .tc main_v83) = (Cert.Gnn.vec1 (a13 m c)) :=
  (host4_beta _).trans (congrArg Cert.Gnn.vec1 (k8 (f1_main_arg13 m ρ c)))
theorem f9_main_v93 : (Gen.W9 m ρ c) (Proc.devRef .tc main_v93) = Cert.Gnn.aggregate (h1 m c) (src m c) (dst m c) :=
  (host4_agg _).trans (by rw [f8_main_v71 m ρ c, k8 (f1_main_v1 m ρ c), k8 (f1_main_v3 m ρ c)])
theorem f9_main_v71 : (Gen.W9 m ρ c) (Proc.devRef .tc main_v71) = h1 m c :=
  (host4_keep _ _ (by decide)).trans (f8_main_v71 m ρ c)
theorem f10_main_v96_0 : (Gen.W10 m ρ c) (Proc.devRef .tc main_v96_0) = p2 m c :=
  (Gen.W10_arr m ρ c 6).trans (region4_pre (Gen.V9 m ρ) c _ _ _ _ _ _ (f9_main_v71 m ρ c) (f9_main_v93 m ρ c) (f9_main_v73 m ρ c) (f9_main_v94 m ρ c) (f9_main_v77 m ρ c) (f9_main_v95 m ρ c))
theorem f10_main_v96_1 : (Gen.W10 m ρ c) (Proc.devRef .tc main_v96_1) = Cert.Gnn.tileSums (p2 m c) :=
  (Gen.W10_arr m ρ c 7).trans (region4_sum (Gen.V9 m ρ) c _ _ _ _ _ _ (f9_main_v71 m ρ c) (f9_main_v93 m ρ c) (f9_main_v73 m ρ c) (f9_main_v94 m ρ c) (f9_main_v77 m ρ c) (f9_main_v95 m ρ c))
theorem f10_main_v96_2 : (Gen.W10 m ρ c) (Proc.devRef .tc main_v96_2) = Cert.Gnn.tileSums (mulf (p2 m c) (p2 m c)) :=
  (Gen.W10_arr m ρ c 8).trans (region4_sumsq (Gen.V9 m ρ) c _ _ _ _ _ _ (f9_main_v71 m ρ c) (f9_main_v93 m ρ c) (f9_main_v73 m ρ c) (f9_main_v94 m ρ c) (f9_main_v77 m ρ c) (f9_main_v95 m ρ c))
theorem f11_main_v107 : (Gen.W11 m ρ c) (Proc.devRef .tc main_v107) = shapeCast S1x128 (Cert.Gnn.meanTiled (Cert.Gnn.tileSums (p2 m c))) shapeCasts_S128_S1x128 :=
  (host5_mean _).trans (by rw [f10_main_v96_1 m ρ c])
theorem f11_main_v108 : (Gen.W11 m ρ c) (Proc.devRef .tc main_v108) = shapeCast S1x128 (Cert.Gnn.varOnePass (Cert.Gnn.tileSums (p2 m c)) (Cert.Gnn.tileSums (mulf (p2 m c) (p2 m c)))) shapeCasts_S128_S1x128 :=
  (host5_var _).trans (by rw [f10_main_v96_1 m ρ c, f10_main_v96_2 m ρ c])
theorem f10_main_v81 : (Gen.W10 m ρ c) (Proc.devRef .tc main_v81) = (Cert.Gnn.vec1 (a12 m c)) :=
  (Gen.W10_of_ne m ρ c _ (by decide)).trans (f9_main_v81 m ρ c)
theorem f11_main_v109 : (Gen.W11 m ρ c) (Proc.devRef .tc main_v109) = shapeCast S1x128 (Cert.Gnn.vec1 (a12 m c)) shapeCasts_S128_S1x128 :=
  (host5_g _).trans (by rw [f10_main_v81 m ρ c])
theorem f10_main_v83 : (Gen.W10 m ρ c) (Proc.devRef .tc main_v83) = (Cert.Gnn.vec1 (a13 m c)) :=
  (Gen.W10_of_ne m ρ c _ (by decide)).trans (f9_main_v83 m ρ c)
theorem f11_main_v110 : (Gen.W11 m ρ c) (Proc.devRef .tc main_v110) = shapeCast S1x128 (Cert.Gnn.vec1 (a13 m c)) shapeCasts_S128_S1x128 :=
  (host5_beta _).trans (by rw [f10_main_v83 m ρ c])
theorem f11_main_v96_0 : (Gen.W11 m ρ c) (Proc.devRef .tc main_v96_0) = p2 m c :=
  (host5_keep _ _ (by decide)).trans (f10_main_v96_0 m ρ c)
theorem f6_main_v31 : (Gen.W6 m ρ c) (Proc.devRef .tc main_v31) = h0 m c :=
  ((Gen.W6_arr m ρ c 0).trans (((Gen.dat2 (Gen.V5 m ρ) c).arrAt_in 0 rfl _).trans (Gen.A_eq2 (Gen.V5 m ρ) c 0))).trans (f5_main_v31 m ρ c)
theorem f11_main_v31 : (Gen.W11 m ρ c) (Proc.devRef .tc main_v31) = h0 m c :=
  (host5_keep _ _ (by decide)).trans <| (Gen.W10_of_ne m ρ c _ (by decide)).trans <| (host4_keep _ _ (by decide)).trans <| (Gen.W8_of_ne m ρ c _ (by decide)).trans <| (host3_keep _ _ (by decide)).trans (f6_main_v31 m ρ c)
theorem f12_main_v111 : (Gen.W12 m ρ c) (Proc.devRef .tc main_v111) = h2 m c :=
  (Gen.W12_arr m ρ c 6).trans (region5_out (Gen.V11 m ρ) c _ _ _ _ _ _ (f11_main_v96_0 m ρ c) (f11_main_v107 m ρ c) (f11_main_v108 m ρ c) (f11_main_v109 m ρ c) (f11_main_v110 m ρ c) (f11_main_v31 m ρ c))
theorem f13_main_v113 : (Gen.W13 m ρ c) (Proc.devRef .tc main_v113) = (Cert.Gnn.mat2 (a8 m c)) :=
  (host6_w1 _).trans (congrArg Cert.Gnn.mat2 (k12 (f1_main_arg8 m ρ c)))
theorem f13_main_v134 : (Gen.W13 m ρ c) (Proc.devRef .tc main_v134) = shapeCast S1x128 (Cert.Gnn.vec2 (a9 m c)) shapeCasts_S128_S1x128 :=
  (host6_b1row _).trans (by rw [k12 (f1_main_arg9 m ρ c)])
theorem f13_main_v117 : (Gen.W13 m ρ c) (Proc.devRef .tc main_v117) = (Cert.Gnn.mat2 (a10 m c)) :=
  (host6_w2 _).trans (congrArg Cert.Gnn.mat2 (k12 (f1_main_arg10 m ρ c)))
theorem f13_main_v135 : (Gen.W13 m ρ c) (Proc.devRef .tc main_v135) = shapeCast S1x128 (Cert.Gnn.vec2 (a11 m c)) shapeCasts_S128_S1x128 :=
  (host6_b2row _).trans (by rw [k12 (f1_main_arg11 m ρ c)])
theorem f13_main_v121 : (Gen.W13 m ρ c) (Proc.devRef .tc main_v121) = (Cert.Gnn.vec2 (a12 m c)) :=
  (host6_g _).trans (congrArg Cert.Gnn.vec2 (k12 (f1_main_arg12 m ρ c)))
theorem f13_main_v123 : (Gen.W13 m ρ c) (Proc.devRef .tc main_v123) = (Cert.Gnn.vec2 (a13 m c)) :=
  (host6_beta _).trans (congrArg Cert.Gnn.vec2 (k12 (f1_main_arg13 m ρ c)))
theorem f13_main_v133 : (Gen.W13 m ρ c) (Proc.devRef .tc main_v133) = Cert.Gnn.aggregate (h2 m c) (src m c) (dst m c) :=
  (host6_agg _).trans (by rw [f12_main_v111 m ρ c, k12 (f1_main_v1 m ρ c), k12 (f1_main_v3 m ρ c)])
theorem f13_main_v111 : (Gen.W13 m ρ c) (Proc.devRef .tc main_v111) = h2 m c :=
  (host6_keep _ _ (by decide)).trans (f12_main_v111 m ρ c)
theorem f14_main_v136_0 : (Gen.W14 m ρ c) (Proc.devRef .tc main_v136_0) = p3 m c :=
  (Gen.W14_arr m ρ c 6).trans (region6_pre (Gen.V13 m ρ) c _ _ _ _ _ _ (f13_main_v111 m ρ c) (f13_main_v133 m ρ c) (f13_main_v113 m ρ c) (f13_main_v134 m ρ c) (f13_main_v117 m ρ c) (f13_main_v135 m ρ c))
theorem f14_main_v136_1 : (Gen.W14 m ρ c) (Proc.devRef .tc main_v136_1) = Cert.Gnn.tileSums (p3 m c) :=
  (Gen.W14_arr m ρ c 7).trans (region6_sum (Gen.V13 m ρ) c _ _ _ _ _ _ (f13_main_v111 m ρ c) (f13_main_v133 m ρ c) (f13_main_v113 m ρ c) (f13_main_v134 m ρ c) (f13_main_v117 m ρ c) (f13_main_v135 m ρ c))
theorem f14_main_v136_2 : (Gen.W14 m ρ c) (Proc.devRef .tc main_v136_2) = Cert.Gnn.tileSums (mulf (p3 m c) (p3 m c)) :=
  (Gen.W14_arr m ρ c 8).trans (region6_sumsq (Gen.V13 m ρ) c _ _ _ _ _ _ (f13_main_v111 m ρ c) (f13_main_v133 m ρ c) (f13_main_v113 m ρ c) (f13_main_v134 m ρ c) (f13_main_v117 m ρ c) (f13_main_v135 m ρ c))
theorem f15_main_v147 : (Gen.W15 m ρ c) (Proc.devRef .tc main_v147) = shapeCast S1x128 (Cert.Gnn.meanTiled (Cert.Gnn.tileSums (p3 m c))) shapeCasts_S128_S1x128 :=
  (host7_mean _).trans (by rw [f14_main_v136_1 m ρ c])
theorem f15_main_v148 : (Gen.W15 m ρ c) (Proc.devRef .tc main_v148) = shapeCast S1x128 (Cert.Gnn.varOnePass (Cert.Gnn.tileSums (p3 m c)) (Cert.Gnn.tileSums (mulf (p3 m c) (p3 m c)))) shapeCasts_S128_S1x128 :=
  (host7_var _).trans (by rw [f14_main_v136_1 m ρ c, f14_main_v136_2 m ρ c])
theorem f14_main_v121 : (Gen.W14 m ρ c) (Proc.devRef .tc main_v121) = (Cert.Gnn.vec2 (a12 m c)) :=
  (Gen.W14_of_ne m ρ c _ (by decide)).trans (f13_main_v121 m ρ c)
theorem f15_main_v149 : (Gen.W15 m ρ c) (Proc.devRef .tc main_v149) = shapeCast S1x128 (Cert.Gnn.vec2 (a12 m c)) shapeCasts_S128_S1x128 :=
  (host7_g _).trans (by rw [f14_main_v121 m ρ c])
theorem f14_main_v123 : (Gen.W14 m ρ c) (Proc.devRef .tc main_v123) = (Cert.Gnn.vec2 (a13 m c)) :=
  (Gen.W14_of_ne m ρ c _ (by decide)).trans (f13_main_v123 m ρ c)
theorem f15_main_v150 : (Gen.W15 m ρ c) (Proc.devRef .tc main_v150) = shapeCast S1x128 (Cert.Gnn.vec2 (a13 m c)) shapeCasts_S128_S1x128 :=
  (host7_beta _).trans (by rw [f14_main_v123 m ρ c])
theorem f15_main_v136_0 : (Gen.W15 m ρ c) (Proc.devRef .tc main_v136_0) = p3 m c :=
  (host7_keep _ _ (by decide)).trans (f14_main_v136_0 m ρ c)
theorem f16_main_v151 : (Gen.W16 m ρ c) (Proc.devRef .tc main_v151) = h3 m c :=
  (Gen.W16_arr m ρ c 5).trans (region7_out (Gen.V15 m ρ) c _ _ _ _ _ (f15_main_v136_0 m ρ c) (f15_main_v147 m ρ c) (f15_main_v148 m ρ c) (f15_main_v149 m ρ c) (f15_main_v150 m ρ c))
theorem f17_main_v153 : (Gen.W17 m ρ c) (Proc.devRef .tc main_v153) = (Cert.Gnn.mat3 (a8 m c)) :=
  (host8_w1 _).trans (congrArg Cert.Gnn.mat3 (k16 (f1_main_arg8 m ρ c)))
theorem f17_main_v174 : (Gen.W17 m ρ c) (Proc.devRef .tc main_v174) = shapeCast S1x128 (Cert.Gnn.vec3 (a9 m c)) shapeCasts_S128_S1x128 :=
  (host8_b1row _).trans (by rw [k16 (f1_main_arg9 m ρ c)])
theorem f17_main_v157 : (Gen.W17 m ρ c) (Proc.devRef .tc main_v157) = (Cert.Gnn.mat3 (a10 m c)) :=
  (host8_w2 _).trans (congrArg Cert.Gnn.mat3 (k16 (f1_main_arg10 m ρ c)))
theorem f17_main_v175 : (Gen.W17 m ρ c) (Proc.devRef .tc main_v175) = shapeCast S1x128 (Cert.Gnn.vec3 (a11 m c)) shapeCasts_S128_S1x128 :=
  (host8_b2row _).trans (by rw [k16 (f1_main_arg11 m ρ c)])
theorem f17_main_v161 : (Gen.W17 m ρ c) (Proc.devRef .tc main_v161) = (Cert.Gnn.vec3 (a12 m c)) :=
  (host8_g _).trans (congrArg Cert.Gnn.vec3 (k16 (f1_main_arg12 m ρ c)))
theorem f17_main_v163 : (Gen.W17 m ρ c) (Proc.devRef .tc main_v163) = (Cert.Gnn.vec3 (a13 m c)) :=
  (host8_beta _).trans (congrArg Cert.Gnn.vec3 (k16 (f1_main_arg13 m ρ c)))
theorem f17_main_v173 : (Gen.W17 m ρ c) (Proc.devRef .tc main_v173) = Cert.Gnn.aggregate (h3 m c) (src m c) (dst m c) :=
  (host8_agg _).trans (by rw [f16_main_v151 m ρ c, k16 (f1_main_v1 m ρ c), k16 (f1_main_v3 m ρ c)])
theorem f17_main_v151 : (Gen.W17 m ρ c) (Proc.devRef .tc main_v151) = h3 m c :=
  (host8_keep _ _ (by decide)).trans (f16_main_v151 m ρ c)
theorem f18_main_v176_0 : (Gen.W18 m ρ c) (Proc.devRef .tc main_v176_0) = p4 m c :=
  (Gen.W18_arr m ρ c 6).trans (region8_pre (Gen.V17 m ρ) c _ _ _ _ _ _ (f17_main_v151 m ρ c) (f17_main_v173 m ρ c) (f17_main_v153 m ρ c) (f17_main_v174 m ρ c) (f17_main_v157 m ρ c) (f17_main_v175 m ρ c))
theorem f18_main_v176_1 : (Gen.W18 m ρ c) (Proc.devRef .tc main_v176_1) = Cert.Gnn.tileSums (p4 m c) :=
  (Gen.W18_arr m ρ c 7).trans (region8_sum (Gen.V17 m ρ) c _ _ _ _ _ _ (f17_main_v151 m ρ c) (f17_main_v173 m ρ c) (f17_main_v153 m ρ c) (f17_main_v174 m ρ c) (f17_main_v157 m ρ c) (f17_main_v175 m ρ c))
theorem f18_main_v176_2 : (Gen.W18 m ρ c) (Proc.devRef .tc main_v176_2) = Cert.Gnn.tileSums (mulf (p4 m c) (p4 m c)) :=
  (Gen.W18_arr m ρ c 8).trans (region8_sumsq (Gen.V17 m ρ) c _ _ _ _ _ _ (f17_main_v151 m ρ c) (f17_main_v173 m ρ c) (f17_main_v153 m ρ c) (f17_main_v174 m ρ c) (f17_main_v157 m ρ c) (f17_main_v175 m ρ c))
theorem f19_main_v187 : (Gen.W19 m ρ c) (Proc.devRef .tc main_v187) = shapeCast S1x128 (Cert.Gnn.meanTiled (Cert.Gnn.tileSums (p4 m c))) shapeCasts_S128_S1x128 :=
  (host9_mean _).trans (by rw [f18_main_v176_1 m ρ c])
theorem f19_main_v188 : (Gen.W19 m ρ c) (Proc.devRef .tc main_v188) = shapeCast S1x128 (Cert.Gnn.varOnePass (Cert.Gnn.tileSums (p4 m c)) (Cert.Gnn.tileSums (mulf (p4 m c) (p4 m c)))) shapeCasts_S128_S1x128 :=
  (host9_var _).trans (by rw [f18_main_v176_1 m ρ c, f18_main_v176_2 m ρ c])
theorem f18_main_v161 : (Gen.W18 m ρ c) (Proc.devRef .tc main_v161) = (Cert.Gnn.vec3 (a12 m c)) :=
  (Gen.W18_of_ne m ρ c _ (by decide)).trans (f17_main_v161 m ρ c)
theorem f19_main_v189 : (Gen.W19 m ρ c) (Proc.devRef .tc main_v189) = shapeCast S1x128 (Cert.Gnn.vec3 (a12 m c)) shapeCasts_S128_S1x128 :=
  (host9_g _).trans (by rw [f18_main_v161 m ρ c])
theorem f18_main_v163 : (Gen.W18 m ρ c) (Proc.devRef .tc main_v163) = (Cert.Gnn.vec3 (a13 m c)) :=
  (Gen.W18_of_ne m ρ c _ (by decide)).trans (f17_main_v163 m ρ c)
theorem f19_main_v190 : (Gen.W19 m ρ c) (Proc.devRef .tc main_v190) = shapeCast S1x128 (Cert.Gnn.vec3 (a13 m c)) shapeCasts_S128_S1x128 :=
  (host9_beta _).trans (by rw [f18_main_v163 m ρ c])
theorem f19_main_v176_0 : (Gen.W19 m ρ c) (Proc.devRef .tc main_v176_0) = p4 m c :=
  (host9_keep _ _ (by decide)).trans (f18_main_v176_0 m ρ c)
theorem f14_main_v111 : (Gen.W14 m ρ c) (Proc.devRef .tc main_v111) = h2 m c :=
  ((Gen.W14_arr m ρ c 0).trans (((Gen.dat6 (Gen.V13 m ρ) c).arrAt_in 0 rfl _).trans (Gen.A_eq6 (Gen.V13 m ρ) c 0))).trans (f13_main_v111 m ρ c)
theorem f19_main_v111 : (Gen.W19 m ρ c) (Proc.devRef .tc main_v111) = h2 m c :=
  (host9_keep _ _ (by decide)).trans <| (Gen.W18_of_ne m ρ c _ (by decide)).trans <| (host8_keep _ _ (by decide)).trans <| (Gen.W16_of_ne m ρ c _ (by decide)).trans <| (host7_keep _ _ (by decide)).trans (f14_main_v111 m ρ c)
theorem f20_main_v191 : (Gen.W20 m ρ c) (Proc.devRef .tc main_v191) = h4 m c :=
  (Gen.W20_arr m ρ c 6).trans (region9_out (Gen.V19 m ρ) c _ _ _ _ _ _ (f19_main_v176_0 m ρ c) (f19_main_v187 m ρ c) (f19_main_v188 m ρ c) (f19_main_v189 m ρ c) (f19_main_v190 m ρ c) (f19_main_v111 m ρ c))
theorem f21_main_v193 : (Gen.W21 m ρ c) (Proc.devRef .tc main_v193) = (Cert.Gnn.mat4 (a8 m c)) :=
  (host10_w1 _).trans (congrArg Cert.Gnn.mat4 (k20 (f1_main_arg8 m ρ c)))
theorem f21_main_v214 : (Gen.W21 m ρ c) (Proc.devRef .tc main_v214) = shapeCast S1x128 (Cert.Gnn.vec4 (a9 m c)) shapeCasts_S128_S1x128 :=
  (host10_b1row _).trans (by rw [k20 (f1_main_arg9 m ρ c)])
theorem f21_main_v197 : (Gen.W21 m ρ c) (Proc.devRef .tc main_v197) = (Cert.Gnn.mat4 (a10 m c)) :=
  (host10_w2 _).trans (congrArg Cert.Gnn.mat4 (k20 (f1_main_arg10 m ρ c)))
theorem f21_main_v215 : (Gen.W21 m ρ c) (Proc.devRef .tc main_v215) = shapeCast S1x128 (Cert.Gnn.vec4 (a11 m c)) shapeCasts_S128_S1x128 :=
  (host10_b2row _).trans (by rw [k20 (f1_main_arg11 m ρ c)])
theorem f21_main_v201 : (Gen.W21 m ρ c) (Proc.devRef .tc main_v201) = (Cert.Gnn.vec4 (a12 m c)) :=
  (host10_g _).trans (congrArg Cert.Gnn.vec4 (k20 (f1_main_arg12 m ρ c)))
theorem f21_main_v203 : (Gen.W21 m ρ c) (Proc.devRef .tc main_v203) = (Cert.Gnn.vec4 (a13 m c)) :=
  (host10_beta _).trans (congrArg Cert.Gnn.vec4 (k20 (f1_main_arg13 m ρ c)))
theorem f21_main_v213 : (Gen.W21 m ρ c) (Proc.devRef .tc main_v213) = Cert.Gnn.aggregate (h4 m c) (src m c) (dst m c) :=
  (host10_agg _).trans (by rw [f20_main_v191 m ρ c, k20 (f1_main_v1 m ρ c), k20 (f1_main_v3 m ρ c)])
theorem f21_main_v191 : (Gen.W21 m ρ c) (Proc.devRef .tc main_v191) = h4 m c :=
  (host10_keep _ _ (by decide)).trans (f20_main_v191 m ρ c)
theorem f22_main_v216_0 : (Gen.W22 m ρ c) (Proc.devRef .tc main_v216_0) = p5 m c :=
  (Gen.W22_arr m ρ c 6).trans (region10_pre (Gen.V21 m ρ) c _ _ _ _ _ _ (f21_main_v191 m ρ c) (f21_main_v213 m ρ c) (f21_main_v193 m ρ c) (f21_main_v214 m ρ c) (f21_main_v197 m ρ c) (f21_main_v215 m ρ c))
theorem f22_main_v216_1 : (Gen.W22 m ρ c) (Proc.devRef .tc main_v216_1) = Cert.Gnn.tileSums (p5 m c) :=
  (Gen.W22_arr m ρ c 7).trans (region10_sum (Gen.V21 m ρ) c _ _ _ _ _ _ (f21_main_v191 m ρ c) (f21_main_v213 m ρ c) (f21_main_v193 m ρ c) (f21_main_v214 m ρ c) (f21_main_v197 m ρ c) (f21_main_v215 m ρ c))
theorem f22_main_v216_2 : (Gen.W22 m ρ c) (Proc.devRef .tc main_v216_2) = Cert.Gnn.tileSums (mulf (p5 m c) (p5 m c)) :=
  (Gen.W22_arr m ρ c 8).trans (region10_sumsq (Gen.V21 m ρ) c _ _ _ _ _ _ (f21_main_v191 m ρ c) (f21_main_v213 m ρ c) (f21_main_v193 m ρ c) (f21_main_v214 m ρ c) (f21_main_v197 m ρ c) (f21_main_v215 m ρ c))
theorem f23_main_v227 : (Gen.W23 m ρ c) (Proc.devRef .tc main_v227) = shapeCast S1x128 (Cert.Gnn.meanTiled (Cert.Gnn.tileSums (p5 m c))) shapeCasts_S128_S1x128 :=
  (host11_mean _).trans (by rw [f22_main_v216_1 m ρ c])
theorem f23_main_v228 : (Gen.W23 m ρ c) (Proc.devRef .tc main_v228) = shapeCast S1x128 (Cert.Gnn.varOnePass (Cert.Gnn.tileSums (p5 m c)) (Cert.Gnn.tileSums (mulf (p5 m c) (p5 m c)))) shapeCasts_S128_S1x128 :=
  (host11_var _).trans (by rw [f22_main_v216_1 m ρ c, f22_main_v216_2 m ρ c])
theorem f22_main_v201 : (Gen.W22 m ρ c) (Proc.devRef .tc main_v201) = (Cert.Gnn.vec4 (a12 m c)) :=
  (Gen.W22_of_ne m ρ c _ (by decide)).trans (f21_main_v201 m ρ c)
theorem f23_main_v229 : (Gen.W23 m ρ c) (Proc.devRef .tc main_v229) = shapeCast S1x128 (Cert.Gnn.vec4 (a12 m c)) shapeCasts_S128_S1x128 :=
  (host11_g _).trans (by rw [f22_main_v201 m ρ c])
theorem f22_main_v203 : (Gen.W22 m ρ c) (Proc.devRef .tc main_v203) = (Cert.Gnn.vec4 (a13 m c)) :=
  (Gen.W22_of_ne m ρ c _ (by decide)).trans (f21_main_v203 m ρ c)
theorem f23_main_v230 : (Gen.W23 m ρ c) (Proc.devRef .tc main_v230) = shapeCast S1x128 (Cert.Gnn.vec4 (a13 m c)) shapeCasts_S128_S1x128 :=
  (host11_beta _).trans (by rw [f22_main_v203 m ρ c])
theorem f23_main_v216_0 : (Gen.W23 m ρ c) (Proc.devRef .tc main_v216_0) = p5 m c :=
  (host11_keep _ _ (by decide)).trans (f22_main_v216_0 m ρ c)
theorem f24_main_v231 : (Gen.W24 m ρ c) (Proc.devRef .tc main_v231) = h5 m c :=
  (Gen.W24_arr m ρ c 5).trans (region11_out (Gen.V23 m ρ) c _ _ _ _ _ (f23_main_v216_0 m ρ c) (f23_main_v227 m ρ c) (f23_main_v228 m ρ c) (f23_main_v229 m ρ c) (f23_main_v230 m ρ c))
theorem f25_main_v233 : (Gen.W25 m ρ c) (Proc.devRef .tc main_v233) = (Cert.Gnn.mat5 (a8 m c)) :=
  (host12_w1 _).trans (congrArg Cert.Gnn.mat5 (k24 (f1_main_arg8 m ρ c)))
theorem f25_main_v254 : (Gen.W25 m ρ c) (Proc.devRef .tc main_v254) = shapeCast S1x128 (Cert.Gnn.vec5 (a9 m c)) shapeCasts_S128_S1x128 :=
  (host12_b1row _).trans (by rw [k24 (f1_main_arg9 m ρ c)])
theorem f25_main_v237 : (Gen.W25 m ρ c) (Proc.devRef .tc main_v237) = (Cert.Gnn.mat5 (a10 m c)) :=
  (host12_w2 _).trans (congrArg Cert.Gnn.mat5 (k24 (f1_main_arg10 m ρ c)))
theorem f25_main_v255 : (Gen.W25 m ρ c) (Proc.devRef .tc main_v255) = shapeCast S1x128 (Cert.Gnn.vec5 (a11 m c)) shapeCasts_S128_S1x128 :=
  (host12_b2row _).trans (by rw [k24 (f1_main_arg11 m ρ c)])
theorem f25_main_v241 : (Gen.W25 m ρ c) (Proc.devRef .tc main_v241) = (Cert.Gnn.vec5 (a12 m c)) :=
  (host12_g _).trans (congrArg Cert.Gnn.vec5 (k24 (f1_main_arg12 m ρ c)))
theorem f25_main_v243 : (Gen.W25 m ρ c) (Proc.devRef .tc main_v243) = (Cert.Gnn.vec5 (a13 m c)) :=
  (host12_beta _).trans (congrArg Cert.Gnn.vec5 (k24 (f1_main_arg13 m ρ c)))
theorem f25_main_v253 : (Gen.W25 m ρ c) (Proc.devRef .tc main_v253) = Cert.Gnn.aggregate (h5 m c) (src m c) (dst m c) :=
  (host12_agg _).trans (by rw [f24_main_v231 m ρ c, k24 (f1_main_v1 m ρ c), k24 (f1_main_v3 m ρ c)])
theorem f25_main_v231 : (Gen.W25 m ρ c) (Proc.devRef .tc main_v231) = h5 m c :=
  (host12_keep _ _ (by decide)).trans (f24_main_v231 m ρ c)
theorem f26_main_v256_0 : (Gen.W26 m ρ c) (Proc.devRef .tc main_v256_0) = p6 m c :=
  (Gen.W26_arr m ρ c 6).trans (region12_pre (Gen.V25 m ρ) c _ _ _ _ _ _ (f25_main_v231 m ρ c) (f25_main_v253 m ρ c) (f25_main_v233 m ρ c) (f25_main_v254 m ρ c) (f25_main_v237 m ρ c) (f25_main_v255 m ρ c))
theorem f26_main_v256_1 : (Gen.W26 m ρ c) (Proc.devRef .tc main_v256_1) = Cert.Gnn.tileSums (p6 m c) :=
  (Gen.W26_arr m ρ c 7).trans (region12_sum (Gen.V25 m ρ) c _ _ _ _ _ _ (f25_main_v231 m ρ c) (f25_main_v253 m ρ c) (f25_main_v233 m ρ c) (f25_main_v254 m ρ c) (f25_main_v237 m ρ c) (f25_main_v255 m ρ c))
theorem f26_main_v256_2 : (Gen.W26 m ρ c) (Proc.devRef .tc main_v256_2) = Cert.Gnn.tileSums (mulf (p6 m c) (p6 m c)) :=
  (Gen.W26_arr m ρ c 8).trans (region12_sumsq (Gen.V25 m ρ) c _ _ _ _ _ _ (f25_main_v231 m ρ c) (f25_main_v253 m ρ c) (f25_main_v233 m ρ c) (f25_main_v254 m ρ c) (f25_main_v237 m ρ c) (f25_main_v255 m ρ c))
theorem f27_main_v267 : (Gen.W27 m ρ c) (Proc.devRef .tc main_v267) = shapeCast S1x128 (Cert.Gnn.meanTiled (Cert.Gnn.tileSums (p6 m c))) shapeCasts_S128_S1x128 :=
  (host13_mean _).trans (by rw [f26_main_v256_1 m ρ c])
theorem f27_main_v268 : (Gen.W27 m ρ c) (Proc.devRef .tc main_v268) = shapeCast S1x128 (Cert.Gnn.varOnePass (Cert.Gnn.tileSums (p6 m c)) (Cert.Gnn.tileSums (mulf (p6 m c) (p6 m c)))) shapeCasts_S128_S1x128 :=
  (host13_var _).trans (by rw [f26_main_v256_1 m ρ c, f26_main_v256_2 m ρ c])
theorem f26_main_v241 : (Gen.W26 m ρ c) (Proc.devRef .tc main_v241) = (Cert.Gnn.vec5 (a12 m c)) :=
  (Gen.W26_of_ne m ρ c _ (by decide)).trans (f25_main_v241 m ρ c)
theorem f27_main_v269 : (Gen.W27 m ρ c) (Proc.devRef .tc main_v269) = shapeCast S1x128 (Cert.Gnn.vec5 (a12 m c)) shapeCasts_S128_S1x128 :=
  (host13_g _).trans (by rw [f26_main_v241 m ρ c])
theorem f26_main_v243 : (Gen.W26 m ρ c) (Proc.devRef .tc main_v243) = (Cert.Gnn.vec5 (a13 m c)) :=
  (Gen.W26_of_ne m ρ c _ (by decide)).trans (f25_main_v243 m ρ c)
theorem f27_main_v270 : (Gen.W27 m ρ c) (Proc.devRef .tc main_v270) = shapeCast S1x128 (Cert.Gnn.vec5 (a13 m c)) shapeCasts_S128_S1x128 :=
  (host13_beta _).trans (by rw [f26_main_v243 m ρ c])
theorem f27_main_v256_0 : (Gen.W27 m ρ c) (Proc.devRef .tc main_v256_0) = p6 m c :=
  (host13_keep _ _ (by decide)).trans (f26_main_v256_0 m ρ c)
theorem f22_main_v191 : (Gen.W22 m ρ c) (Proc.devRef .tc main_v191) = h4 m c :=
  ((Gen.W22_arr m ρ c 0).trans (((Gen.dat10 (Gen.V21 m ρ) c).arrAt_in 0 rfl _).trans (Gen.A_eq10 (Gen.V21 m ρ) c 0))).trans (f21_main_v191 m ρ c)
theorem f27_main_v191 : (Gen.W27 m ρ c) (Proc.devRef .tc main_v191) = h4 m c :=
  (host13_keep _ _ (by decide)).trans <| (Gen.W26_of_ne m ρ c _ (by decide)).trans <| (host12_keep _ _ (by decide)).trans <| (Gen.W24_of_ne m ρ c _ (by decide)).trans <| (host11_keep _ _ (by decide)).trans (f22_main_v191 m ρ c)
theorem f28_main_v271 : (Gen.W28 m ρ c) (Proc.devRef .tc main_v271) = h6 m c :=
  (Gen.W28_arr m ρ c 6).trans (region13_out (Gen.V27 m ρ) c _ _ _ _ _ _ (f27_main_v256_0 m ρ c) (f27_main_v267 m ρ c) (f27_main_v268 m ρ c) (f27_main_v269 m ρ c) (f27_main_v270 m ρ c) (f27_main_v191 m ρ c))
theorem f29_main_v281 : (Gen.W29 m ρ c) (Proc.devRef .tc main_v281) = Cert.Gnn.aggregate (h6 m c) (src m c) (dst m c) :=
  (host14_agg _).trans (by rw [f28_main_v271 m ρ c, k28 (f1_main_v1 m ρ c), k28 (f1_main_v3 m ρ c)])
theorem f29_main_v282 : (Gen.W29 m ρ c) (Proc.devRef .tc main_v282) = shapeCast S1x32 (a15 m c) shapeCasts_S32_S1x32 :=
  (host14_b1row _).trans (by rw [k28 (f1_main_arg15 m ρ c)])
theorem f29_main_v283 : (Gen.W29 m ρ c) (Proc.devRef .tc main_v283) = shapeCast S1x3 (a17 m c) shapeCasts_S3_S1x3 :=
  (host14_b2row _).trans (by rw [k28 (f1_main_arg17 m ρ c)])
theorem f29_main_v271 : (Gen.W29 m ρ c) (Proc.devRef .tc main_v271) = h6 m c :=
  (host14_keep _ _ (by decide)).trans (f28_main_v271 m ρ c)
theorem f30_main_v284 : (Gen.W30 m ρ c) (Proc.devRef .tc main_v284) = out m c :=
  (Gen.W30_arr m ρ c 6).trans (region14_out (Gen.V29 m ρ) c _ _ _ _ _ _ (f29_main_v271 m ρ c) (f29_main_v281 m ρ c) (k29 (f1_main_arg14 m ρ c)) (f29_main_v282 m ρ c) (k29 (f1_main_arg16 m ρ c)) (f29_main_v283 m ρ c))

theorem result : (Gen.W30 (F := Ideal) m ρ c) (Proc.devRef .tc main_v284) = Cert.Gnn.networkTiled (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) :=
  (f30_main_v284 m ρ c).trans (out_eq m c)

end Cert.KernelIdeal.Chain

end
-- ==== Proof.RefOps0.lean ====
import proofs.«108604_j12824772346523_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
abbrev seg0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_arg0 main_v13 main_v14 (addf : (⟨S100000x128, .f32⟩ : BufTy).Contents (Elt F) → (⟨S100000x128, .f32⟩ : BufTy).Contents (Elt F) → (⟨S100000x128, .f32⟩ : BufTy).Contents (Elt F)),
    StableHlo.binary main_v14 main_arg2 main_v15 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.unary main_arg3 main_v16 (broadcastInDim S1x256 ![1] bcast_S256_S1x256_1 : (⟨S256, .f32⟩ : BufTy).Contents (Elt F) → (⟨S1x256, .f32⟩ : BufTy).Contents (Elt F)),
    StableHlo.unary main_v16 main_v17 (broadcastInDim S100000x256 ![0, 1] bcast_S1x256_S100000x256_0_1 : (⟨S1x256, .f32⟩ : BufTy).Contents (Elt F) → (⟨S100000x256, .f32⟩ : BufTy).Contents (Elt F)),
    StableHlo.binary main_v15 main_v17 main_v18 (addf : (⟨S100000x256, .f32⟩ : BufTy).Contents (Elt F) → (⟨S100000x256, .f32⟩ : BufTy).Contents (Elt F) → (⟨S100000x256, .f32⟩ : BufTy).Contents (Elt F)),
    StableHlo.nullary main_cst_1 (constant S_ .f32 0x00000000#32),
    StableHlo.unary main_cst_1 main_v19 (broadcastInDim S100000x256 ![] bcast_S_S100000x256 : (⟨S_, .f32⟩ : BufTy).Contents (Elt F) → (⟨S100000x256, .f32⟩ : BufTy).Contents (Elt F)),
    StableHlo.binary main_v18 main_v19 main_v20 (maximumf : (⟨S100000x256, .f32⟩ : BufTy).Contents (Elt F) → (⟨S100000x256, .f32⟩ : BufTy).Contents (Elt F) → (⟨S100000x256, .f32⟩ : BufTy).Contents (Elt F)),
    StableHlo.binary main_v20 main_arg4 main_v21 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg5 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S100000x128 ![0, 1] bcast_S1x128_S100000x128_0_1 : (⟨S1x128, .f32⟩ : BufTy).Contents (Elt F) → (⟨S100000x128, .f32⟩ : BufTy).Contents (Elt F)),
    StableHlo.binary main_v21 main_v23 main_v24 (addf : (⟨S100000x128, .f32⟩ : BufTy).Contents (Elt F) → (⟨S100000x128, .f32⟩ : BufTy).Contents (Elt F) → (⟨S100000x128, .f32⟩ : BufTy).Contents (Elt F)),
    StableHlo.nullary main_cst_2 (constant S_ .f32 0x00000000#32),
    StableHlo.binary main_v24 main_cst_2 main_v25 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_3 (constant S_ .f32 0x47C35000#32),
    StableHlo.unary main_cst_3 main_v26 (broadcastInDim S128 ![] bcast_S_S128 : (⟨S_, .f32⟩ : BufTy).Contents (Elt F) → (⟨S128, .f32⟩ : BufTy).Contents (Elt F)),
    StableHlo.binary main_v25 main_v26 main_v27 (Host.divf : (⟨S128, .f32⟩ : BufTy).Contents (Elt F) → (⟨S128, .f32⟩ : BufTy).Contents (Elt F) → (⟨S128, .f32⟩ : BufTy).Contents (Elt F)),
    StableHlo.nullary main_c_4 (constantI S_ 32 0#32),
    StableHlo.TRef.nullary main_call0.cst (constant S_ .f32 0x00000000#32),
    StableHlo.TRef.binary (StableHlo.TRef.of (T := ⟨S100000x128, .f32⟩) main_v24) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (StableHlo.TRef.of (T := ⟨S100000x128, .f32⟩) main_v24) main_call0.v4 main_call0.v5 subf,
    StableHlo.TRef.binary main_call0.v5 main_call0.v5 main_call0.v6 mulf,
    StableHlo.TRef.unary (StableHlo.TRef.of (T := ⟨S_, .i32⟩) main_c_4) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v27 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S100000x128 ![0, 1] bcast_S1x128_S100000x128_0_1 : (⟨S1x128, .f32⟩ : BufTy).Contents (Elt F) → (⟨S100000x128, .f32⟩ : BufTy).Contents (Elt F)),
    StableHlo.binary main_v24 main_v30 main_v31 (subf : (⟨S100000x128, .f32⟩ : BufTy).Contents (Elt F) → (⟨S100000x128, .f32⟩ : BufTy).Contents (Elt F) → (⟨S100000x128, .f32⟩ : BufTy).Contents (Elt F)),
    StableHlo.nullary main_cst_5 (constant S_ .f32 0x3727C5AC#32),
    StableHlo.unary main_cst_5 main_v32 (broadcastInDim S128 ![] bcast_S_S128 : (⟨S_, .f32⟩ : BufTy).Contents (Elt F) → (⟨S128, .f32⟩ : BufTy).Contents (Elt F)),
    StableHlo.binary main_v28 main_v32 main_v33 (addf : (⟨S128, .f32⟩ : BufTy).Contents (Elt F) → (⟨S128, .f32⟩ : BufTy).Contents (Elt F) → (⟨S128, .f32⟩ : BufTy).Contents (Elt F)),
    StableHlo.unary main_v33 main_v34 (Host.rsqrt : (⟨S128, .f32⟩ : BufTy).Contents (Elt F) → (⟨S128, .f32⟩ : BufTy).Contents (Elt F)),
    StableHlo.unary main_v34 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S100000x128 ![0, 1] bcast_S1x128_S100000x128_0_1 : (⟨S1x128, .f32⟩ : BufTy).Contents (Elt F) → (⟨S100000x128, .f32⟩ : BufTy).Contents (Elt F)),
    StableHlo.binary main_v31 main_v36 main_v37 (mulf : (⟨S100000x128, .f32⟩ : BufTy).Contents (Elt F) → (⟨S100000x128, .f32⟩ : BufTy).Contents (Elt F) → (⟨S100000x128, .f32⟩ : BufTy).Contents (Elt F)),
    StableHlo.unary main_arg6 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v37 main_v39 main_v40 (mulf : (⟨S100000x128, .f32⟩ : BufTy).Contents (Elt F) → (⟨S100000x128, .f32⟩ : BufTy).Contents (Elt F) → (⟨S100000x128, .f32⟩ : BufTy).Contents (Elt F)),
    StableHlo.unary main_arg7 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v42 main_v43 (addf : (⟨S100000x128, .f32⟩ : BufTy).Contents (Elt F) → (⟨S100000x128, .f32⟩ : BufTy).Contents (Elt F) → (⟨S100000x128, .f32⟩ : BufTy).Contents (Elt F)),
    StableHlo.nullary main_cst_6 (constant S_ .f32 0x00000000#32),
    StableHlo.unary main_cst_6 main_v44 (broadcastInDim S100000x128 ![] bcast_S_S100000x128 : (⟨S_, .f32⟩ : BufTy).Contents (Elt F) → (⟨S100000x128, .f32⟩ : BufTy).Contents (Elt F)),
    StableHlo.binary main_v43 main_v44 main_v45 (maximumf : (⟨S100000x128, .f32⟩ : BufTy).Contents (Elt F) → (⟨S100000x128, .f32⟩ : BufTy).Contents (Elt F) → (⟨S100000x128, .f32⟩ : BufTy).Contents (Elt F)) ]

set_option maxRecDepth 8192 in
abbrev seg1 : List (HloOp τ sig (Elt F)) :=
  [ StableHlo.unary main_arg8 main_v46 ((extractStridedSlice S1x128x128 ![0, 0, 0] · slices_S6x128x128_S1x128x128_0_0_0) : (⟨S6x128x128, .f32⟩ : BufTy).Contents (Elt F) → (⟨S1x128x128, .f32⟩ : BufTy).Contents (Elt F)),
    StableHlo.reshape main_v46 main_v47 rfl shapeCasts_S1x128x128_S128x128,
    StableHlo.unary main_arg9 main_v48 ((extractStridedSlice S1x128 ![0, 0] · slices_S6x128_S1x128_0_0) : (⟨S6x128, .f32⟩ : BufTy).Contents (Elt F) → (⟨S1x128, .f32⟩ : BufTy).Contents (Elt F)),
    StableHlo.reshape main_v48 main_v49 rfl shapeCasts_S1x128_S128,
    StableHlo.unary main_arg10 main_v50 ((extractStridedSlice S1x128x128 ![0, 0, 0] · slices_S6x128x128_S1x128x128_0_0_0) : (⟨S6x128x128, .f32⟩ : BufTy).Contents (Elt F) → (⟨S1x128x128, .f32⟩ : BufTy).Contents (Elt F)) ]

end Cert.ReferenceIdeal.Hand

end
-- ==== Proof.RefOps1.lean ====
import proofs.«108604_j12824772346523_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
abbrev seg2 : List (HloOp τ sig (Elt F)) :=
  [ StableHlo.reshape main_v50 main_v51 rfl shapeCasts_S1x128x128_S128x128,
    StableHlo.unary main_arg11 main_v52 ((extractStridedSlice S1x128 ![0, 0] · slices_S6x128_S1x128_0_0) : (⟨S6x128, .f32⟩ : BufTy).Contents (Elt F) → (⟨S1x128, .f32⟩ : BufTy).Contents (Elt F)),
    StableHlo.reshape main_v52 main_v53 rfl shapeCasts_S1x128_S128,
    StableHlo.nullary main_c_7 (constantI S_ 32 0#32),
    StableHlo.unary main_c_7 main_v54 (broadcastInDim S1600000 ![] bcast_S_S1600000 : (⟨S_, .i32⟩ : BufTy).Contents (Elt F) → (⟨S1600000, .i32⟩ : BufTy).Contents (Elt F)),
    StableHlo.binary main_v1 main_v54 main_v55 (cmpi .slt : (⟨S1600000, .i32⟩ : BufTy).Contents (Elt F) → (⟨S1600000, .i32⟩ : BufTy).Contents (Elt F) → (⟨S1600000, .i1⟩ : BufTy).Contents (Elt F)),
    StableHlo.nullary main_c_8 (constantI S_ 32 100000#32),
    StableHlo.unary main_c_8 main_v56 (broadcastInDim S1600000 ![] bcast_S_S1600000 : (⟨S_, .i32⟩ : BufTy).Contents (Elt F) → (⟨S1600000, .i32⟩ : BufTy).Contents (Elt F)),
    StableHlo.binary main_v1 main_v56 main_v57 (addi : (⟨S1600000, .i32⟩ : BufTy).Contents (Elt F) → (⟨S1600000, .i32⟩ : BufTy).Contents (Elt F) → (⟨S1600000, .i32⟩ : BufTy).Contents (Elt F)),
    StableHlo.ternary main_v55 main_v57 main_v1 main_v58 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v58 main_v59 (broadcastInDim S1600000x1 ![0] bcast_S1600000_S1600000x1_0 : (⟨S1600000, .i32⟩ : BufTy).Contents (Elt F) → (⟨S1600000x1, .i32⟩ : BufTy).Contents (Elt F)),
    StableHlo.binary main_v45 main_v59 main_v60 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_9 (constant S_ .f32 0x00000000#32),
    StableHlo.unary main_cst_9 main_v61 (broadcastInDim S100000x128 ![] bcast_S_S100000x128 : (⟨S_, .f32⟩ : BufTy).Contents (Elt F) → (⟨S100000x128, .f32⟩ : BufTy).Contents (Elt F)),
    StableHlo.unary main_v3 main_v62 (broadcastInDim S1600000x1 ![0] bcast_S1600000_S1600000x1_0 : (⟨S1600000, .i32⟩ : BufTy).Contents (Elt F) → (⟨S1600000x1, .i32⟩ : BufTy).Contents (Elt F)),
    StableHlo.ternary main_v61 main_v62 main_v60 main_v63 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v45 main_v63 main_v64 (addf : (⟨S100000x128, .f32⟩ : BufTy).Contents (Elt F) → (⟨S100000x128, .f32⟩ : BufTy).Contents (Elt F) → (⟨S100000x128, .f32⟩ : BufTy).Contents (Elt F)),
    StableHlo.binary main_v64 main_v47 main_v65 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v49 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S100000x128 ![0, 1] bcast_S1x128_S100000x128_0_1 : (⟨S1x128, .f32⟩ : BufTy).Contents (Elt F) → (⟨S100000x128, .f32⟩ : BufTy).Contents (Elt F)),
    StableHlo.binary main_v65 main_v67 main_v68 (addf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x00000000#32),
    StableHlo.unary main_cst_10 main_v69 (broadcastInDim S100000x128 ![] bcast_S_S100000x128 : (⟨S_, .f32⟩ : BufTy).Contents (Elt F) → (⟨S100000x128, .f32⟩ : BufTy).Contents (Elt F)),
    StableHlo.binary main_v68 main_v69 main_v70 (maximumf : (⟨S100000x128, .f32⟩ : BufTy).Contents (Elt F) → (⟨S100000x128, .f32⟩ : BufTy).Contents (Elt F) → (⟨S100000x128, .f32⟩ : BufTy).Contents (Elt F)),
    StableHlo.binary main_v70 main_v51 main_v71 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v53 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S100000x128 ![0, 1] bcast_S1x128_S100000x128_0_1 : (⟨S1x128, .f32⟩ : BufTy).Contents (Elt F) → (⟨S100000x128, .f32⟩ : BufTy).Contents (Elt F)),
    StableHlo.binary main_v71 main_v73 main_v74 (addf : (⟨S100000x128, .f32⟩ : BufTy).Contents (Elt F) → (⟨S100000x128, .f32⟩ : BufTy).Contents (Elt F) → (⟨S100000x128, .f32⟩ : BufTy).Contents (Elt F)),
    StableHlo.unary main_arg12 main_v75 ((extractStridedSlice S1x128 ![0, 0] · slices_S6x128_S1x128_0_0) : (⟨S6x128, .f32⟩ : BufTy).Contents (Elt F) → (⟨S1x128, .f32⟩ : BufTy).Contents (Elt F)),
    StableHlo.reshape main_v75 main_v76 rfl shapeCasts_S1x128_S128,
    StableHlo.unary main_arg13 main_v77 ((extractStridedSlice S1x128 ![0, 0] · slices_S6x128_S1x128_0_0) : (⟨S6x128, .f32⟩ : BufTy).Contents (Elt F) → (⟨S1x128, .f32⟩ : BufTy).Contents (Elt F)),
    StableHlo.reshape main_v77 main_v78 rfl shapeCasts_S1x128_S128,
    StableHlo.nullary main_cst_11 (constant S_ .f32 0x00000000#32),
    StableHlo.binary main_v74 main_cst_11 main_v79 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_12 (constant S_ .f32 0x47C35000#32),
    StableHlo.unary main_cst_12 main_v80 (broadcastInDim S128 ![] bcast_S_S128 : (⟨S_, .f32⟩ : BufTy).Contents (Elt F) → (⟨S128, .f32⟩ : BufTy).Contents (Elt F)),
    StableHlo.binary main_v79 main_v80 main_v81 (Host.divf : (⟨S128, .f32⟩ : BufTy).Contents (Elt F) → (⟨S128, .f32⟩ : BufTy).Contents (Elt F) → (⟨S128, .f32⟩ : BufTy).Contents (Elt F)),
    StableHlo.nullary main_c_13 (constantI S_ 32 0#32),
    StableHlo.TRef.nullary main_call1.cst (constant S_ .f32 0x00000000#32),
    StableHlo.TRef.binary (StableHlo.TRef.of (T := ⟨S100000x128, .f32⟩) main_v74) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (StableHlo.TRef.of (T := ⟨S100000x128, .f32⟩) main_v74) main_call1.v4 main_call1.v5 subf,
    StableHlo.TRef.binary main_call1.v5 main_call1.v5 main_call1.v6 mulf,
    StableHlo.TRef.unary (StableHlo.TRef.of (T := ⟨S_, .i32⟩) main_c_13) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v81 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S100000x128 ![0, 1] bcast_S1x128_S100000x128_0_1 : (⟨S1x128, .f32⟩ : BufTy).Contents (Elt F) → (⟨S100000x128, .f32⟩ : BufTy).Contents (Elt F)),
    StableHlo.binary main_v74 main_v84 main_v85 (subf : (⟨S100000x128, .f32⟩ : BufTy).Contents (Elt F) → (⟨S100000x128, .f32⟩ : BufTy).Contents (Elt F) → (⟨S100000x128, .f32⟩ : BufTy).Contents (Elt F)),
    StableHlo.nullary main_cst_14 (constant S_ .f32 0x3727C5AC#32),
    StableHlo.unary main_cst_14 main_v86 (broadcastInDim S128 ![] bcast_S_S128 : (⟨S_, .f32⟩ : BufTy).Contents (Elt F) → (⟨S128, .f32⟩ : BufTy).Contents (Elt F)),
    StableHlo.binary main_v82 main_v86 main_v87 (addf : (⟨S128, .f32⟩ : BufTy).Contents (Elt F) → (⟨S128, .f32⟩ : BufTy).Contents (Elt F) → (⟨S128, .f32⟩ : BufTy).Contents (Elt F)),
    StableHlo.unary main_v87 main_v88 (Host.rsqrt : (⟨S128, .f32⟩ : BufTy).Contents (Elt F) → (⟨S128, .f32⟩ : BufTy).Contents (Elt F)),
    StableHlo.unary main_v88 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S100000x128 ![0, 1] bcast_S1x128_S100000x128_0_1 : (⟨S1x128, .f32⟩ : BufTy).Contents (Elt F) → (⟨S100000x128, .f32⟩ : BufTy).Contents (Elt F)),
    StableHlo.binary main_v85 main_v90 main_v91 (mulf : (⟨S100000x128, .f32⟩ : BufTy).Contents (Elt F) → (⟨S100000x128, .f32⟩ : BufTy).Contents (Elt F) → (⟨S100000x128, .f32⟩ : BufTy).Contents (Elt F)),
    StableHlo.unary main_v76 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S100000x128 ![0, 1] bcast_S1x128_S100000x128_0_1 : (⟨S1x128, .f32⟩ : BufTy).Contents (Elt F) → (⟨S100000x128, .f32⟩ : BufTy).Contents (Elt F)),
    StableHlo.binary main_v91 main_v93 main_v94 (mulf : (⟨S100000x128, .f32⟩ : BufTy).Contents (Elt F) → (⟨S100000x128, .f32⟩ : BufTy).Contents (Elt F) → (⟨S100000x128, .f32⟩ : BufTy).Contents (Elt F)),
    StableHlo.unary main_v78 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S100000x128 ![0, 1] bcast_S1x128_S100000x128_0_1 : (⟨S1x128, .f32⟩ : BufTy).Contents (Elt F) → (⟨S100000x128, .f32⟩ : BufTy).Contents (Elt F)),
    StableHlo.binary main_v94 main_v96 main_v97 (addf : (⟨S100000x128, .f32⟩ : BufTy).Contents (Elt F) → (⟨S100000x128, .f32⟩ : BufTy).Contents (Elt F) → (⟨S100000x128, .f32⟩ : BufTy).Contents (Elt F)),
    StableHlo.nullary main_cst_15 (constant S_ .f32 0x00000000#32),
    StableHlo.unary main_cst_15 main_v98 (broadcastInDim S100000x128 ![] bcast_S_S100000x128 : (⟨S_, .f32⟩ : BufTy).Contents (Elt F) → (⟨S100000x128, .f32⟩ : BufTy).Contents (Elt F)),
    StableHlo.binary main_v97 main_v98 main_v99 (maximumf : (⟨S100000x128, .f32⟩ : BufTy).Contents (Elt F) → (⟨S100000x128, .f32⟩ : BufTy).Contents (Elt F) → (⟨S100000x128, .f32⟩ : BufTy).Contents (Elt F)) ]

set_option maxRecDepth 8192 in
abbrev seg3 : List (HloOp τ sig (Elt F)) :=
  [ StableHlo.unary main_arg8 main_v100 ((extractStridedSlice S1x128x128 ![1, 0, 0] · slices_S6x128x128_S1x128x128_1_0_0) : (⟨S6x128x128, .f32⟩ : BufTy).Contents (Elt F) → (⟨S1x128x128, .f32⟩ : BufTy).Contents (Elt F)),
    StableHlo.reshape main_v100 main_v101 rfl shapeCasts_S1x128x128_S128x128 ]

end Cert.ReferenceIdeal.Hand

end
-- ==== Proof.RefOps2.lean ====
import proofs.«108604_j12824772346523_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
abbrev seg4 : List (HloOp τ sig (Elt F)) :=
  [ StableHlo.unary main_arg9 main_v102 ((extractStridedSlice S1x128 ![1, 0] · slices_S6x128_S1x128_1_0) : (⟨S6x128, .f32⟩ : BufTy).Contents (Elt F) → (⟨S1x128, .f32⟩ : BufTy).Contents (Elt F)),
    StableHlo.reshape main_v102 main_v103 rfl shapeCasts_S1x128_S128,
    StableHlo.unary main_arg10 main_v104 ((extractStridedSlice S1x128x128 ![1, 0, 0] · slices_S6x128x128_S1x128x128_1_0_0) : (⟨S6x128x128, .f32⟩ : BufTy).Contents (Elt F) → (⟨S1x128x128, .f32⟩ : BufTy).Contents (Elt F)),
    StableHlo.reshape main_v104 main_v105 rfl shapeCasts_S1x128x128_S128x128,
    StableHlo.unary main_arg11 main_v106 ((extractStridedSlice S1x128 ![1, 0] · slices_S6x128_S1x128_1_0) : (⟨S6x128, .f32⟩ : BufTy).Contents (Elt F) → (⟨S1x128, .f32⟩ : BufTy).Contents (Elt F)),
    StableHlo.reshape main_v106 main_v107 rfl shapeCasts_S1x128_S128,
    StableHlo.nullary main_c_16 (constantI S_ 32 0#32),
    StableHlo.unary main_c_16 main_v108 (broadcastInDim S1600000 ![] bcast_S_S1600000 : (⟨S_, .i32⟩ : BufTy).Contents (Elt F) → (⟨S1600000, .i32⟩ : BufTy).Contents (Elt F)),
    StableHlo.binary main_v1 main_v108 main_v109 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 100000#32),
    StableHlo.unary main_c_17 main_v110 (broadcastInDim S1600000 ![] bcast_S_S1600000 : (⟨S_, .i32⟩ : BufTy).Contents (Elt F) → (⟨S1600000, .i32⟩ : BufTy).Contents (Elt F)),
    StableHlo.binary main_v1 main_v110 main_v111 (addi : (⟨S1600000, .i32⟩ : BufTy).Contents (Elt F) → (⟨S1600000, .i32⟩ : BufTy).Contents (Elt F) → (⟨S1600000, .i32⟩ : BufTy).Contents (Elt F)),
    StableHlo.ternary main_v109 main_v111 main_v1 main_v112 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v112 main_v113 (broadcastInDim S1600000x1 ![0] bcast_S1600000_S1600000x1_0 : (⟨S1600000, .i32⟩ : BufTy).Contents (Elt F) → (⟨S1600000x1, .i32⟩ : BufTy).Contents (Elt F)),
    StableHlo.binary main_v99 main_v113 main_v114 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_18 (constant S_ .f32 0x00000000#32),
    StableHlo.unary main_cst_18 main_v115 (broadcastInDim S100000x128 ![] bcast_S_S100000x128 : (⟨S_, .f32⟩ : BufTy).Contents (Elt F) → (⟨S100000x128, .f32⟩ : BufTy).Contents (Elt F)),
    StableHlo.unary main_v3 main_v116 (broadcastInDim S1600000x1 ![0] bcast_S1600000_S1600000x1_0 : (⟨S1600000, .i32⟩ : BufTy).Contents (Elt F) → (⟨S1600000x1, .i32⟩ : BufTy).Contents (Elt F)),
    StableHlo.ternary main_v115 main_v116 main_v114 main_v117 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v99 main_v117 main_v118 (addf : (⟨S100000x128, .f32⟩ : BufTy).Contents (Elt F) → (⟨S100000x128, .f32⟩ : BufTy).Contents (Elt F) → (⟨S100000x128, .f32⟩ : BufTy).Contents (Elt F)),
    StableHlo.binary main_v118 main_v101 main_v119 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v103 main_v120 (broadcastInDim S1x128 ![1] bcast_S128_S1x128_1 : (⟨S128, .f32⟩ : BufTy).Contents (Elt F) → (⟨S1x128, .f32⟩ : BufTy).Contents (Elt F)),
    StableHlo.unary main_v120 main_v121 (broadcastInDim S100000x128 ![0, 1] bcast_S1x128_S100000x128_0_1 : (⟨S1x128, .f32⟩ : BufTy).Contents (Elt F) → (⟨S100000x128, .f32⟩ : BufTy).Contents (Elt F)),
    StableHlo.binary main_v119 main_v121 main_v122 (addf : (⟨S100000x128, .f32⟩ : BufTy).Contents (Elt F) → (⟨S100000x128, .f32⟩ : BufTy).Contents (Elt F) → (⟨S100000x128, .f32⟩ : BufTy).Contents (Elt F)),
    StableHlo.nullary main_cst_19 (constant S_ .f32 0x00000000#32),
    StableHlo.unary main_cst_19 main_v123 (broadcastInDim S100000x128 ![] bcast_S_S100000x128 : (⟨S_, .f32⟩ : BufTy).Contents (Elt F) → (⟨S100000x128, .f32⟩ : BufTy).Contents (Elt F)),
    StableHlo.binary main_v122 main_v123 main_v124 (maximumf : (⟨S100000x128, .f32⟩ : BufTy).Contents (Elt F) → (⟨S100000x128, .f32⟩ : BufTy).Contents (Elt F) → (⟨S100000x128, .f32⟩ : BufTy).Contents (Elt F)),
    StableHlo.binary main_v124 main_v105 main_v125 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v107 main_v126 (broadcastInDim S1x128 ![1] bcast_S128_S1x128_1 : (⟨S128, .f32⟩ : BufTy).Contents (Elt F) → (⟨S1x128, .f32⟩ : BufTy).Contents (Elt F)),
    StableHlo.unary main_v126 main_v127 (broadcastInDim S100000x128 ![0, 1] bcast_S1x128_S100000x128_0_1 : (⟨S1x128, .f32⟩ : BufTy).Contents (Elt F) → (⟨S100000x128, .f32⟩ : BufTy).Contents (Elt F)),
    StableHlo.binary main_v125 main_v127 main_v128 (addf : (⟨S100000x128, .f32⟩ : BufTy).Contents (Elt F) → (⟨S100000x128, .f32⟩ : BufTy).Contents (Elt F) → (⟨S100000x128, .f32⟩ : BufTy).Contents (Elt F)),
    StableHlo.unary main_arg12 main_v129 ((extractStridedSlice S1x128 ![1, 0] · slices_S6x128_S1x128_1_0) : (⟨S6x128, .f32⟩ : BufTy).Contents (Elt F) → (⟨S1x128, .f32⟩ : BufTy).Contents (Elt F)),
    StableHlo.reshape main_v129 main_v130 rfl shapeCasts_S1x128_S128,
    StableHlo.unary main_arg13 main_v131 ((extractStridedSlice S1x128 ![1, 0] · slices_S6x128_S1x128_1_0) : (⟨S6x128, .f32⟩ : BufTy).Contents (Elt F) → (⟨S1x128, .f32⟩ : BufTy).Contents (Elt F)),
    StableHlo.reshape main_v131 main_v132 rfl shapeCasts_S1x128_S128,
    StableHlo.nullary main_cst_20 (constant S_ .f32 0x00000000#32),
    StableHlo.binary main_v128 main_cst_20 main_v133 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_21 (constant S_ .f32 0x47C35000#32),
    StableHlo.unary main_cst_21 main_v134 (broadcastInDim S128 ![] bcast_S_S128 : (⟨S_, .f32⟩ : BufTy).Contents (Elt F) → (⟨S128, .f32⟩ : BufTy).Contents (Elt F)),
    StableHlo.binary main_v133 main_v134 main_v135 (Host.divf : (⟨S128, .f32⟩ : BufTy).Contents (Elt F) → (⟨S128, .f32⟩ : BufTy).Contents (Elt F) → (⟨S128, .f32⟩ : BufTy).Contents (Elt F)),
    StableHlo.nullary main_c_22 (constantI S_ 32 0#32),
    StableHlo.TRef.nullary main_call2.cst (constant S_ .f32 0x00000000#32),
    StableHlo.TRef.binary (StableHlo.TRef.of (T := ⟨S100000x128, .f32⟩) main_v128) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (StableHlo.TRef.of (T := ⟨S100000x128, .f32⟩) main_v128) main_call2.v4 main_call2.v5 subf,
    StableHlo.TRef.binary main_call2.v5 main_call2.v5 main_call2.v6 mulf,
    StableHlo.TRef.unary (StableHlo.TRef.of (T := ⟨S_, .i32⟩) main_c_22) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v135 main_v137 (broadcastInDim S1x128 ![1] bcast_S128_S1x128_1 : (⟨S128, .f32⟩ : BufTy).Contents (Elt F) → (⟨S1x128, .f32⟩ : BufTy).Contents (Elt F)),
    StableHlo.unary main_v137 main_v138 (broadcastInDim S100000x128 ![0, 1] bcast_S1x128_S100000x128_0_1 : (⟨S1x128, .f32⟩ : BufTy).Contents (Elt F) → (⟨S100000x128, .f32⟩ : BufTy).Contents (Elt F)),
    StableHlo.binary main_v128 main_v138 main_v139 (subf : (⟨S100000x128, .f32⟩ : BufTy).Contents (Elt F) → (⟨S100000x128, .f32⟩ : BufTy).Contents (Elt F) → (⟨S100000x128, .f32⟩ : BufTy).Contents (Elt F)),
    StableHlo.nullary main_cst_23 (constant S_ .f32 0x3727C5AC#32),
    StableHlo.unary main_cst_23 main_v140 (broadcastInDim S128 ![] bcast_S_S128 : (⟨S_, .f32⟩ : BufTy).Contents (Elt F) → (⟨S128, .f32⟩ : BufTy).Contents (Elt F)),
    StableHlo.binary main_v136 main_v140 main_v141 (addf : (⟨S128, .f32⟩ : BufTy).Contents (Elt F) → (⟨S128, .f32⟩ : BufTy).Contents (Elt F) → (⟨S128, .f32⟩ : BufTy).Contents (Elt F)),
    StableHlo.unary main_v141 main_v142 (Host.rsqrt : (⟨S128, .f32⟩ : BufTy).Contents (Elt F) → (⟨S128, .f32⟩ : BufTy).Contents (Elt F)),
    StableHlo.unary main_v142 main_v143 (broadcastInDim S1x128 ![1] bcast_S128_S1x128_1 : (⟨S128, .f32⟩ : BufTy).Contents (Elt F) → (⟨S1x128, .f32⟩ : BufTy).Contents (Elt F)),
    StableHlo.unary main_v143 main_v144 (broadcastInDim S100000x128 ![0, 1] bcast_S1x128_S100000x128_0_1 : (⟨S1x128, .f32⟩ : BufTy).Contents (Elt F) → (⟨S100000x128, .f32⟩ : BufTy).Contents (Elt F)),
    StableHlo.binary main_v139 main_v144 main_v145 (mulf : (⟨S100000x128, .f32⟩ : BufTy).Contents (Elt F) → (⟨S100000x128, .f32⟩ : BufTy).Contents (Elt F) → (⟨S100000x128, .f32⟩ : BufTy).Contents (Elt F)),
    StableHlo.unary main_v130 main_v146 (broadcastInDim S1x128 ![1] bcast_S128_S1x128_1 : (⟨S128, .f32⟩ : BufTy).Contents (Elt F) → (⟨S1x128, .f32⟩ : BufTy).Contents (Elt F)),
    StableHlo.unary main_v146 main_v147 (broadcastInDim S100000x128 ![0, 1] bcast_S1x128_S100000x128_0_1 : (⟨S1x128, .f32⟩ : BufTy).Contents (Elt F) → (⟨S100000x128, .f32⟩ : BufTy).Contents (Elt F)),
    StableHlo.binary main_v145 main_v147 main_v148 (mulf : (⟨S100000x128, .f32⟩ : BufTy).Contents (Elt F) → (⟨S100000x128, .f32⟩ : BufTy).Contents (Elt F) → (⟨S100000x128, .f32⟩ : BufTy).Contents (Elt F)),
    StableHlo.unary main_v132 main_v149 (broadcastInDim S1x128 ![1] bcast_S128_S1x128_1 : (⟨S128, .f32⟩ : BufTy).Contents (Elt F) → (⟨S1x128, .f32⟩ : BufTy).Contents (Elt F)),
    StableHlo.unary main_v149 main_v150 (broadcastInDim S100000x128 ![0, 1] bcast_S1x128_S100000x128_0_1 : (⟨S1x128, .f32⟩ : BufTy).Contents (Elt F) → (⟨S100000x128, .f32⟩ : BufTy).Contents (Elt F)),
    StableHlo.binary main_v148 main_v150 main_v151 (addf : (⟨S100000x128, .f32⟩ : BufTy).Contents (Elt F) → (⟨S100000x128, .f32⟩ : BufTy).Contents (Elt F) → (⟨S100000x128, .f32⟩ : BufTy).Contents (Elt F)),
    StableHlo.nullary main_cst_24 (constant S_ .f32 0x00000000#32),
    StableHlo.unary main_cst_24 main_v152 (broadcastInDim S100000x128 ![] bcast_S_S100000x128 : (⟨S_, .f32⟩ : BufTy).Contents (Elt F) → (⟨S100000x128, .f32⟩ : BufTy).Contents (Elt F)) ]

end Cert.ReferenceIdeal.Hand

end
-- ==== Proof.RefOps3.lean ====
import proofs.«108604_j12824772346523_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
abbrev seg5 : List (HloOp τ sig (Elt F)) :=
  [ StableHlo.binary main_v151 main_v152 main_v153 (maximumf : (⟨S100000x128, .f32⟩ : BufTy).Contents (Elt F) → (⟨S100000x128, .f32⟩ : BufTy).Contents (Elt F) → (⟨S100000x128, .f32⟩ : BufTy).Contents (Elt F)),
    StableHlo.binary main_v153 main_v45 main_v154 (addf : (⟨S100000x128, .f32⟩ : BufTy).Contents (Elt F) → (⟨S100000x128, .f32⟩ : BufTy).Contents (Elt F) → (⟨S100000x128, .f32⟩ : BufTy).Contents (Elt F)) ]

set_option maxRecDepth 8192 in
abbrev seg6 : List (HloOp τ sig (Elt F)) :=
  [ StableHlo.unary main_arg8 main_v155 ((extractStridedSlice S1x128x128 ![2, 0, 0] · slices_S6x128x128_S1x128x128_2_0_0) : (⟨S6x128x128, .f32⟩ : BufTy).Contents (Elt F) → (⟨S1x128x128, .f32⟩ : BufTy).Contents (Elt F)),
    StableHlo.reshape main_v155 main_v156 rfl shapeCasts_S1x128x128_S128x128,
    StableHlo.unary main_arg9 main_v157 ((extractStridedSlice S1x128 ![2, 0] · slices_S6x128_S1x128_2_0) : (⟨S6x128, .f32⟩ : BufTy).Contents (Elt F) → (⟨S1x128, .f32⟩ : BufTy).Contents (Elt F)),
    StableHlo.reshape main_v157 main_v158 rfl shapeCasts_S1x128_S128,
    StableHlo.unary main_arg10 main_v159 ((extractStridedSlice S1x128x128 ![2, 0, 0] · slices_S6x128x128_S1x128x128_2_0_0) : (⟨S6x128x128, .f32⟩ : BufTy).Contents (Elt F) → (⟨S1x128x128, .f32⟩ : BufTy).Contents (Elt F)),
    StableHlo.reshape main_v159 main_v160 rfl shapeCasts_S1x128x128_S128x128,
    StableHlo.unary main_arg11 main_v161 ((extractStridedSlice S1x128 ![2, 0] · slices_S6x128_S1x128_2_0) : (⟨S6x128, .f32⟩ : BufTy).Contents (Elt F) → (⟨S1x128, .f32⟩ : BufTy).Contents (Elt F)),
    StableHlo.reshape main_v161 main_v162 rfl shapeCasts_S1x128_S128,
    StableHlo.nullary main_c_25 (constantI S_ 32 0#32),
    StableHlo.unary main_c_25 main_v163 (broadcastInDim S1600000 ![] bcast_S_S1600000 : (⟨S_, .i32⟩ : BufTy).Contents (Elt F) → (⟨S1600000, .i32⟩ : BufTy).Contents (Elt F)),
    StableHlo.binary main_v1 main_v163 main_v164 (cmpi .slt : (⟨S1600000, .i32⟩ : BufTy).Contents (Elt F) → (⟨S1600000, .i32⟩ : BufTy).Contents (Elt F) → (⟨S1600000, .i1⟩ : BufTy).Contents (Elt F)),
    StableHlo.nullary main_c_26 (constantI S_ 32 100000#32),
    StableHlo.unary main_c_26 main_v165 (broadcastInDim S1600000 ![] bcast_S_S1600000 : (⟨S_, .i32⟩ : BufTy).Contents (Elt F) → (⟨S1600000, .i32⟩ : BufTy).Contents (Elt F)),
    StableHlo.binary main_v1 main_v165 main_v166 (addi : (⟨S1600000, .i32⟩ : BufTy).Contents (Elt F) → (⟨S1600000, .i32⟩ : BufTy).Contents (Elt F) → (⟨S1600000, .i32⟩ : BufTy).Contents (Elt F)),
    StableHlo.ternary main_v164 main_v166 main_v1 main_v167 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v167 main_v168 (broadcastInDim S1600000x1 ![0] bcast_S1600000_S1600000x1_0 : (⟨S1600000, .i32⟩ : BufTy).Contents (Elt F) → (⟨S1600000x1, .i32⟩ : BufTy).Contents (Elt F)),
    StableHlo.binary main_v154 main_v168 main_v169 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_27 (constant S_ .f32 0x00000000#32),
    StableHlo.unary main_cst_27 main_v170 (broadcastInDim S100000x128 ![] bcast_S_S100000x128 : (⟨S_, .f32⟩ : BufTy).Contents (Elt F) → (⟨S100000x128, .f32⟩ : BufTy).Contents (Elt F)),
    StableHlo.unary main_v3 main_v171 (broadcastInDim S1600000x1 ![0] bcast_S1600000_S1600000x1_0 : (⟨S1600000, .i32⟩ : BufTy).Contents (Elt F) → (⟨S1600000x1, .i32⟩ : BufTy).Contents (Elt F)),
    StableHlo.ternary main_v170 main_v171 main_v169 main_v172 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v154 main_v172 main_v173 (addf : (⟨S100000x128, .f32⟩ : BufTy).Contents (Elt F) → (⟨S100000x128, .f32⟩ : BufTy).Contents (Elt F) → (⟨S100000x128, .f32⟩ : BufTy).Contents (Elt F)),
    StableHlo.binary main_v173 main_v156 main_v174 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v158 main_v175 (broadcastInDim S1x128 ![1] bcast_S128_S1x128_1 : (⟨S128, .f32⟩ : BufTy).Contents (Elt F) → (⟨S1x128, .f32⟩ : BufTy).Contents (Elt F)),
    StableHlo.unary main_v175 main_v176 (broadcastInDim S100000x128 ![0, 1] bcast_S1x128_S100000x128_0_1 : (⟨S1x128, .f32⟩ : BufTy).Contents (Elt F) → (⟨S100000x128, .f32⟩ : BufTy).Contents (Elt F)),
    StableHlo.binary main_v174 main_v176 main_v177 (addf : (⟨S100000x128, .f32⟩ : BufTy).Contents (Elt F) → (⟨S100000x128, .f32⟩ : BufTy).Contents (Elt F) → (⟨S100000x128, .f32⟩ : BufTy).Contents (Elt F)),
    StableHlo.nullary main_cst_28 (constant S_ .f32 0x00000000#32),
    StableHlo.unary main_cst_28 main_v178 (broadcastInDim S100000x128 ![] bcast_S_S100000x128 : (⟨S_, .f32⟩ : BufTy).Contents (Elt F) → (⟨S100000x128, .f32⟩ : BufTy).Contents (Elt F)),
    StableHlo.binary main_v177 main_v178 main_v179 (maximumf : (⟨S100000x128, .f32⟩ : BufTy).Contents (Elt F) → (⟨S100000x128, .f32⟩ : BufTy).Contents (Elt F) → (⟨S100000x128, .f32⟩ : BufTy).Contents (Elt F)),
    StableHlo.binary main_v179 main_v160 main_v180 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v162 main_v181 (broadcastInDim S1x128 ![1] bcast_S128_S1x128_1 : (⟨S128, .f32⟩ : BufTy).Contents (Elt F) → (⟨S1x128, .f32⟩ : BufTy).Contents (Elt F)),
    StableHlo.unary main_v181 main_v182 (broadcastInDim S100000x128 ![0, 1] bcast_S1x128_S100000x128_0_1 : (⟨S1x128, .f32⟩ : BufTy).Contents (Elt F) → (⟨S100000x128, .f32⟩ : BufTy).Contents (Elt F)),
    StableHlo.binary main_v180 main_v182 main_v183 (addf : (⟨S100000x128, .f32⟩ : BufTy).Contents (Elt F) → (⟨S100000x128, .f32⟩ : BufTy).Contents (Elt F) → (⟨S100000x128, .f32⟩ : BufTy).Contents (Elt F)),
    StableHlo.unary main_arg12 main_v184 ((extractStridedSlice S1x128 ![2, 0] · slices_S6x128_S1x128_2_0) : (⟨S6x128, .f32⟩ : BufTy).Contents (Elt F) → (⟨S1x128, .f32⟩ : BufTy).Contents (Elt F)),
    StableHlo.reshape main_v184 main_v185 rfl shapeCasts_S1x128_S128,
    StableHlo.unary main_arg13 main_v186 ((extractStridedSlice S1x128 ![2, 0] · slices_S6x128_S1x128_2_0) : (⟨S6x128, .f32⟩ : BufTy).Contents (Elt F) → (⟨S1x128, .f32⟩ : BufTy).Contents (Elt F)),
    StableHlo.reshape main_v186 main_v187 rfl shapeCasts_S1x128_S128,
    StableHlo.nullary main_cst_29 (constant S_ .f32 0x00000000#32),
    StableHlo.binary main_v183 main_cst_29 main_v188 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_30 (constant S_ .f32 0x47C35000#32),
    StableHlo.unary main_cst_30 main_v189 (broadcastInDim S128 ![] bcast_S_S128 : (⟨S_, .f32⟩ : BufTy).Contents (Elt F) → (⟨S128, .f32⟩ : BufTy).Contents (Elt F)),
    StableHlo.binary main_v188 main_v189 main_v190 (Host.divf : (⟨S128, .f32⟩ : BufTy).Contents (Elt F) → (⟨S128, .f32⟩ : BufTy).Contents (Elt F) → (⟨S128, .f32⟩ : BufTy).Contents (Elt F)),
    StableHlo.nullary main_c_31 (constantI S_ 32 0#32),
    StableHlo.TRef.nullary main_call3.cst (constant S_ .f32 0x00000000#32),
    StableHlo.TRef.binary (StableHlo.TRef.of (T := ⟨S100000x128, .f32⟩) main_v183) main_call3.cst main_call3.v0 (fun x v => Host.reduceAdd x v reducesTo_S100000x128_S128_d0 h_S_),
    StableHlo.TRef.unary main_call3.v0 main_call3.v1 (broadcastInDim S1x128 ![1] bcast_S128_S1x128_1),
    StableHlo.TRef.nullary main_call3.cst_0 (constant S_ .f32 0x47C35000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S100000x128 ![0, 1] bcast_S1x128_S100000x128_0_1),
    StableHlo.TRef.binary (StableHlo.TRef.of (T := ⟨S100000x128, .f32⟩) main_v183) main_call3.v4 main_call3.v5 subf,
    StableHlo.TRef.binary main_call3.v5 main_call3.v5 main_call3.v6 mulf,
    StableHlo.TRef.unary (StableHlo.TRef.of (T := ⟨S_, .i32⟩) main_c_31) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_v190 main_v192 (broadcastInDim S1x128 ![1] bcast_S128_S1x128_1 : (⟨S128, .f32⟩ : BufTy).Contents (Elt F) → (⟨S1x128, .f32⟩ : BufTy).Contents (Elt F)),
    StableHlo.unary main_v192 main_v193 (broadcastInDim S100000x128 ![0, 1] bcast_S1x128_S100000x128_0_1 : (⟨S1x128, .f32⟩ : BufTy).Contents (Elt F) → (⟨S100000x128, .f32⟩ : BufTy).Contents (Elt F)),
    StableHlo.binary main_v183 main_v193 main_v194 (subf : (⟨S100000x128, .f32⟩ : BufTy).Contents (Elt F) → (⟨S100000x128, .f32⟩ : BufTy).Contents (Elt F) → (⟨S100000x128, .f32⟩ : BufTy).Contents (Elt F)),
    StableHlo.nullary main_cst_32 (constant S_ .f32 0x3727C5AC#32),
    StableHlo.unary main_cst_32 main_v195 (broadcastInDim S128 ![] bcast_S_S128 : (⟨S_, .f32⟩ : BufTy).Contents (Elt F) → (⟨S128, .f32⟩ : BufTy).Contents (Elt F)),
    StableHlo.binary main_v191 main_v195 main_v196 (addf : (⟨S128, .f32⟩ : BufTy).Contents (Elt F) → (⟨S128, .f32⟩ : BufTy).Contents (Elt F) → (⟨S128, .f32⟩ : BufTy).Contents (Elt F)),
    StableHlo.unary main_v196 main_v197 (Host.rsqrt : (⟨S128, .f32⟩ : BufTy).Contents (Elt F) → (⟨S128, .f32⟩ : BufTy).Contents (Elt F)),
    StableHlo.unary main_v197 main_v198 (broadcastInDim S1x128 ![1] bcast_S128_S1x128_1 : (⟨S128, .f32⟩ : BufTy).Contents (Elt F) → (⟨S1x128, .f32⟩ : BufTy).Contents (Elt F)),
    StableHlo.unary main_v198 main_v199 (broadcastInDim S100000x128 ![0, 1] bcast_S1x128_S100000x128_0_1 : (⟨S1x128, .f32⟩ : BufTy).Contents (Elt F) → (⟨S100000x128, .f32⟩ : BufTy).Contents (Elt F)),
    StableHlo.binary main_v194 main_v199 main_v200 (mulf : (⟨S100000x128, .f32⟩ : BufTy).Contents (Elt F) → (⟨S100000x128, .f32⟩ : BufTy).Contents (Elt F) → (⟨S100000x128, .f32⟩ : BufTy).Contents (Elt F)),
    StableHlo.unary main_v185 main_v201 (broadcastInDim S1x128 ![1] bcast_S128_S1x128_1 : (⟨S128, .f32⟩ : BufTy).Contents (Elt F) → (⟨S1x128, .f32⟩ : BufTy).Contents (Elt F)),
    StableHlo.unary main_v201 main_v202 (broadcastInDim S100000x128 ![0, 1] bcast_S1x128_S100000x128_0_1 : (⟨S1x128, .f32⟩ : BufTy).Contents (Elt F) → (⟨S100000x128, .f32⟩ : BufTy).Contents (Elt F)),
    StableHlo.binary main_v200 main_v202 main_v203 (mulf : (⟨S100000x128, .f32⟩ : BufTy).Contents (Elt F) → (⟨S100000x128, .f32⟩ : BufTy).Contents (Elt F) → (⟨S100000x128, .f32⟩ : BufTy).Contents (Elt F)),
    StableHlo.unary main_v187 main_v204 (broadcastInDim S1x128 ![1] bcast_S128_S1x128_1 : (⟨S128, .f32⟩ : BufTy).Contents (Elt F) → (⟨S1x128, .f32⟩ : BufTy).Contents (Elt F)) ]

end Cert.ReferenceIdeal.Hand

end
-- ==== Proof.RefOps4.lean ====
import proofs.«108604_j12824772346523_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
abbrev seg7 : List (HloOp τ sig (Elt F)) :=
  [ StableHlo.unary main_v204 main_v205 (broadcastInDim S100000x128 ![0, 1] bcast_S1x128_S100000x128_0_1 : (⟨S1x128, .f32⟩ : BufTy).Contents (Elt F) → (⟨S100000x128, .f32⟩ : BufTy).Contents (Elt F)),
    StableHlo.binary main_v203 main_v205 main_v206 (addf : (⟨S100000x128, .f32⟩ : BufTy).Contents (Elt F) → (⟨S100000x128, .f32⟩ : BufTy).Contents (Elt F) → (⟨S100000x128, .f32⟩ : BufTy).Contents (Elt F)),
    StableHlo.nullary main_cst_33 (constant S_ .f32 0x00000000#32),
    StableHlo.unary main_cst_33 main_v207 (broadcastInDim S100000x128 ![] bcast_S_S100000x128 : (⟨S_, .f32⟩ : BufTy).Contents (Elt F) → (⟨S100000x128, .f32⟩ : BufTy).Contents (Elt F)),
    StableHlo.binary main_v206 main_v207 main_v208 (maximumf : (⟨S100000x128, .f32⟩ : BufTy).Contents (Elt F) → (⟨S100000x128, .f32⟩ : BufTy).Contents (Elt F) → (⟨S100000x128, .f32⟩ : BufTy).Contents (Elt F)) ]

set_option maxRecDepth 8192 in
abbrev seg8 : List (HloOp τ sig (Elt F)) :=
  [ StableHlo.unary main_arg8 main_v209 ((extractStridedSlice S1x128x128 ![3, 0, 0] · slices_S6x128x128_S1x128x128_3_0_0) : (⟨S6x128x128, .f32⟩ : BufTy).Contents (Elt F) → (⟨S1x128x128, .f32⟩ : BufTy).Contents (Elt F)),
    StableHlo.reshape main_v209 main_v210 rfl shapeCasts_S1x128x128_S128x128,
    StableHlo.unary main_arg9 main_v211 ((extractStridedSlice S1x128 ![3, 0] · slices_S6x128_S1x128_3_0) : (⟨S6x128, .f32⟩ : BufTy).Contents (Elt F) → (⟨S1x128, .f32⟩ : BufTy).Contents (Elt F)),
    StableHlo.reshape main_v211 main_v212 rfl shapeCasts_S1x128_S128,
    StableHlo.unary main_arg10 main_v213 ((extractStridedSlice S1x128x128 ![3, 0, 0] · slices_S6x128x128_S1x128x128_3_0_0) : (⟨S6x128x128, .f32⟩ : BufTy).Contents (Elt F) → (⟨S1x128x128, .f32⟩ : BufTy).Contents (Elt F)),
    StableHlo.reshape main_v213 main_v214 rfl shapeCasts_S1x128x128_S128x128,
    StableHlo.unary main_arg11 main_v215 ((extractStridedSlice S1x128 ![3, 0] · slices_S6x128_S1x128_3_0) : (⟨S6x128, .f32⟩ : BufTy).Contents (Elt F) → (⟨S1x128, .f32⟩ : BufTy).Contents (Elt F)),
    StableHlo.reshape main_v215 main_v216 rfl shapeCasts_S1x128_S128,
    StableHlo.nullary main_c_34 (constantI S_ 32 0#32),
    StableHlo.unary main_c_34 main_v217 (broadcastInDim S1600000 ![] bcast_S_S1600000 : (⟨S_, .i32⟩ : BufTy).Contents (Elt F) → (⟨S1600000, .i32⟩ : BufTy).Contents (Elt F)),
    StableHlo.binary main_v1 main_v217 main_v218 (cmpi .slt : (⟨S1600000, .i32⟩ : BufTy).Contents (Elt F) → (⟨S1600000, .i32⟩ : BufTy).Contents (Elt F) → (⟨S1600000, .i1⟩ : BufTy).Contents (Elt F)),
    StableHlo.nullary main_c_35 (constantI S_ 32 100000#32),
    StableHlo.unary main_c_35 main_v219 (broadcastInDim S1600000 ![] bcast_S_S1600000 : (⟨S_, .i32⟩ : BufTy).Contents (Elt F) → (⟨S1600000, .i32⟩ : BufTy).Contents (Elt F)),
    StableHlo.binary main_v1 main_v219 main_v220 (addi : (⟨S1600000, .i32⟩ : BufTy).Contents (Elt F) → (⟨S1600000, .i32⟩ : BufTy).Contents (Elt F) → (⟨S1600000, .i32⟩ : BufTy).Contents (Elt F)),
    StableHlo.ternary main_v218 main_v220 main_v1 main_v221 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v221 main_v222 (broadcastInDim S1600000x1 ![0] bcast_S1600000_S1600000x1_0 : (⟨S1600000, .i32⟩ : BufTy).Contents (Elt F) → (⟨S1600000x1, .i32⟩ : BufTy).Contents (Elt F)),
    StableHlo.binary main_v208 main_v222 main_v223 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_36 (constant S_ .f32 0x00000000#32),
    StableHlo.unary main_cst_36 main_v224 (broadcastInDim S100000x128 ![] bcast_S_S100000x128 : (⟨S_, .f32⟩ : BufTy).Contents (Elt F) → (⟨S100000x128, .f32⟩ : BufTy).Contents (Elt F)),
    StableHlo.unary main_v3 main_v225 (broadcastInDim S1600000x1 ![0] bcast_S1600000_S1600000x1_0 : (⟨S1600000, .i32⟩ : BufTy).Contents (Elt F) → (⟨S1600000x1, .i32⟩ : BufTy).Contents (Elt F)),
    StableHlo.ternary main_v224 main_v225 main_v223 main_v226 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v208 main_v226 main_v227 (addf : (⟨S100000x128, .f32⟩ : BufTy).Contents (Elt F) → (⟨S100000x128, .f32⟩ : BufTy).Contents (Elt F) → (⟨S100000x128, .f32⟩ : BufTy).Contents (Elt F)),
    StableHlo.binary main_v227 main_v210 main_v228 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v212 main_v229 (broadcastInDim S1x128 ![1] bcast_S128_S1x128_1 : (⟨S128, .f32⟩ : BufTy).Contents (Elt F) → (⟨S1x128, .f32⟩ : BufTy).Contents (Elt F)),
    StableHlo.unary main_v229 main_v230 (broadcastInDim S100000x128 ![0, 1] bcast_S1x128_S100000x128_0_1 : (⟨S1x128, .f32⟩ : BufTy).Contents (Elt F) → (⟨S100000x128, .f32⟩ : BufTy).Contents (Elt F)),
    StableHlo.binary main_v228 main_v230 main_v231 (addf : (⟨S100000x128, .f32⟩ : BufTy).Contents (Elt F) → (⟨S100000x128, .f32⟩ : BufTy).Contents (Elt F) → (⟨S100000x128, .f32⟩ : BufTy).Contents (Elt F)),
    StableHlo.nullary main_cst_37 (constant S_ .f32 0x00000000#32),
    StableHlo.unary main_cst_37 main_v232 (broadcastInDim S100000x128 ![] bcast_S_S100000x128 : (⟨S_, .f32⟩ : BufTy).Contents (Elt F) → (⟨S100000x128, .f32⟩ : BufTy).Contents (Elt F)),
    StableHlo.binary main_v231 main_v232 main_v233 (maximumf : (⟨S100000x128, .f32⟩ : BufTy).Contents (Elt F) → (⟨S100000x128, .f32⟩ : BufTy).Contents (Elt F) → (⟨S100000x128, .f32⟩ : BufTy).Contents (Elt F)),
    StableHlo.binary main_v233 main_v214 main_v234 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v216 main_v235 (broadcastInDim S1x128 ![1] bcast_S128_S1x128_1 : (⟨S128, .f32⟩ : BufTy).Contents (Elt F) → (⟨S1x128, .f32⟩ : BufTy).Contents (Elt F)),
    StableHlo.unary main_v235 main_v236 (broadcastInDim S100000x128 ![0, 1] bcast_S1x128_S100000x128_0_1 : (⟨S1x128, .f32⟩ : BufTy).Contents (Elt F) → (⟨S100000x128, .f32⟩ : BufTy).Contents (Elt F)),
    StableHlo.binary main_v234 main_v236 main_v237 (addf : (⟨S100000x128, .f32⟩ : BufTy).Contents (Elt F) → (⟨S100000x128, .f32⟩ : BufTy).Contents (Elt F) → (⟨S100000x128, .f32⟩ : BufTy).Contents (Elt F)),
    StableHlo.unary main_arg12 main_v238 ((extractStridedSlice S1x128 ![3, 0] · slices_S6x128_S1x128_3_0) : (⟨S6x128, .f32⟩ : BufTy).Contents (Elt F) → (⟨S1x128, .f32⟩ : BufTy).Contents (Elt F)),
    StableHlo.reshape main_v238 main_v239 rfl shapeCasts_S1x128_S128,
    StableHlo.unary main_arg13 main_v240 ((extractStridedSlice S1x128 ![3, 0] · slices_S6x128_S1x128_3_0) : (⟨S6x128, .f32⟩ : BufTy).Contents (Elt F) → (⟨S1x128, .f32⟩ : BufTy).Contents (Elt F)),
    StableHlo.reshape main_v240 main_v241 rfl shapeCasts_S1x128_S128,
    StableHlo.nullary main_cst_38 (constant S_ .f32 0x00000000#32),
    StableHlo.binary main_v237 main_cst_38 main_v242 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_39 (constant S_ .f32 0x47C35000#32),
    StableHlo.unary main_cst_39 main_v243 (broadcastInDim S128 ![] bcast_S_S128 : (⟨S_, .f32⟩ : BufTy).Contents (Elt F) → (⟨S128, .f32⟩ : BufTy).Contents (Elt F)),
    StableHlo.binary main_v242 main_v243 main_v244 (Host.divf : (⟨S128, .f32⟩ : BufTy).Contents (Elt F) → (⟨S128, .f32⟩ : BufTy).Contents (Elt F) → (⟨S128, .f32⟩ : BufTy).Contents (Elt F)),
    StableHlo.nullary main_c_40 (constantI S_ 32 0#32),
    StableHlo.TRef.nullary main_call4.cst (constant S_ .f32 0x00000000#32),
    StableHlo.TRef.binary (StableHlo.TRef.of (T := ⟨S100000x128, .f32⟩) main_v237) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (StableHlo.TRef.of (T := ⟨S100000x128, .f32⟩) main_v237) main_call4.v4 main_call4.v5 subf,
    StableHlo.TRef.binary main_call4.v5 main_call4.v5 main_call4.v6 mulf,
    StableHlo.TRef.unary (StableHlo.TRef.of (T := ⟨S_, .i32⟩) main_c_40) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v244 main_v246 (broadcastInDim S1x128 ![1] bcast_S128_S1x128_1 : (⟨S128, .f32⟩ : BufTy).Contents (Elt F) → (⟨S1x128, .f32⟩ : BufTy).Contents (Elt F)),
    StableHlo.unary main_v246 main_v247 (broadcastInDim S100000x128 ![0, 1] bcast_S1x128_S100000x128_0_1 : (⟨S1x128, .f32⟩ : BufTy).Contents (Elt F) → (⟨S100000x128, .f32⟩ : BufTy).Contents (Elt F)),
    StableHlo.binary main_v237 main_v247 main_v248 (subf : (⟨S100000x128, .f32⟩ : BufTy).Contents (Elt F) → (⟨S100000x128, .f32⟩ : BufTy).Contents (Elt F) → (⟨S100000x128, .f32⟩ : BufTy).Contents (Elt F)),
    StableHlo.nullary main_cst_41 (constant S_ .f32 0x3727C5AC#32),
    StableHlo.unary main_cst_41 main_v249 (broadcastInDim S128 ![] bcast_S_S128 : (⟨S_, .f32⟩ : BufTy).Contents (Elt F) → (⟨S128, .f32⟩ : BufTy).Contents (Elt F)),
    StableHlo.binary main_v245 main_v249 main_v250 (addf : (⟨S128, .f32⟩ : BufTy).Contents (Elt F) → (⟨S128, .f32⟩ : BufTy).Contents (Elt F) → (⟨S128, .f32⟩ : BufTy).Contents (Elt F)),
    StableHlo.unary main_v250 main_v251 (Host.rsqrt : (⟨S128, .f32⟩ : BufTy).Contents (Elt F) → (⟨S128, .f32⟩ : BufTy).Contents (Elt F)),
    StableHlo.unary main_v251 main_v252 (broadcastInDim S1x128 ![1] bcast_S128_S1x128_1 : (⟨S128, .f32⟩ : BufTy).Contents (Elt F) → (⟨S1x128, .f32⟩ : BufTy).Contents (Elt F)),
    StableHlo.unary main_v252 main_v253 (broadcastInDim S100000x128 ![0, 1] bcast_S1x128_S100000x128_0_1 : (⟨S1x128, .f32⟩ : BufTy).Contents (Elt F) → (⟨S100000x128, .f32⟩ : BufTy).Contents (Elt F)),
    StableHlo.binary main_v248 main_v253 main_v254 (mulf : (⟨S100000x128, .f32⟩ : BufTy).Contents (Elt F) → (⟨S100000x128, .f32⟩ : BufTy).Contents (Elt F) → (⟨S100000x128, .f32⟩ : BufTy).Contents (Elt F)),
    StableHlo.unary main_v239 main_v255 (broadcastInDim S1x128 ![1] bcast_S128_S1x128_1 : (⟨S128, .f32⟩ : BufTy).Contents (Elt F) → (⟨S1x128, .f32⟩ : BufTy).Contents (Elt F)) ]

end Cert.ReferenceIdeal.Hand

end
-- ==== Proof.RefOps5.lean ====
import proofs.«108604_j12824772346523_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
abbrev seg9 : List (HloOp τ sig (Elt F)) :=
  [ StableHlo.unary main_v255 main_v256 (broadcastInDim S100000x128 ![0, 1] bcast_S1x128_S100000x128_0_1 : (⟨S1x128, .f32⟩ : BufTy).Contents (Elt F) → (⟨S100000x128, .f32⟩ : BufTy).Contents (Elt F)),
    StableHlo.binary main_v254 main_v256 main_v257 (mulf : (⟨S100000x128, .f32⟩ : BufTy).Contents (Elt F) → (⟨S100000x128, .f32⟩ : BufTy).Contents (Elt F) → (⟨S100000x128, .f32⟩ : BufTy).Contents (Elt F)),
    StableHlo.unary main_v241 main_v258 (broadcastInDim S1x128 ![1] bcast_S128_S1x128_1 : (⟨S128, .f32⟩ : BufTy).Contents (Elt F) → (⟨S1x128, .f32⟩ : BufTy).Contents (Elt F)),
    StableHlo.unary main_v258 main_v259 (broadcastInDim S100000x128 ![0, 1] bcast_S1x128_S100000x128_0_1 : (⟨S1x128, .f32⟩ : BufTy).Contents (Elt F) → (⟨S100000x128, .f32⟩ : BufTy).Contents (Elt F)),
    StableHlo.binary main_v257 main_v259 main_v260 (addf : (⟨S100000x128, .f32⟩ : BufTy).Contents (Elt F) → (⟨S100000x128, .f32⟩ : BufTy).Contents (Elt F) → (⟨S100000x128, .f32⟩ : BufTy).Contents (Elt F)),
    StableHlo.nullary main_cst_42 (constant S_ .f32 0x00000000#32),
    StableHlo.unary main_cst_42 main_v261 (broadcastInDim S100000x128 ![] bcast_S_S100000x128 : (⟨S_, .f32⟩ : BufTy).Contents (Elt F) → (⟨S100000x128, .f32⟩ : BufTy).Contents (Elt F)),
    StableHlo.binary main_v260 main_v261 main_v262 (maximumf : (⟨S100000x128, .f32⟩ : BufTy).Contents (Elt F) → (⟨S100000x128, .f32⟩ : BufTy).Contents (Elt F) → (⟨S100000x128, .f32⟩ : BufTy).Contents (Elt F)),
    StableHlo.binary main_v262 main_v154 main_v263 (addf : (⟨S100000x128, .f32⟩ : BufTy).Contents (Elt F) → (⟨S100000x128, .f32⟩ : BufTy).Contents (Elt F) → (⟨S100000x128, .f32⟩ : BufTy).Contents (Elt F)) ]

set_option maxRecDepth 8192 in
abbrev seg10 : List (HloOp τ sig (Elt F)) :=
  [ StableHlo.unary main_arg8 main_v264 ((extractStridedSlice S1x128x128 ![4, 0, 0] · slices_S6x128x128_S1x128x128_4_0_0) : (⟨S6x128x128, .f32⟩ : BufTy).Contents (Elt F) → (⟨S1x128x128, .f32⟩ : BufTy).Contents (Elt F)),
    StableHlo.reshape main_v264 main_v265 rfl shapeCasts_S1x128x128_S128x128,
    StableHlo.unary main_arg9 main_v266 ((extractStridedSlice S1x128 ![4, 0] · slices_S6x128_S1x128_4_0) : (⟨S6x128, .f32⟩ : BufTy).Contents (Elt F) → (⟨S1x128, .f32⟩ : BufTy).Contents (Elt F)),
    StableHlo.reshape main_v266 main_v267 rfl shapeCasts_S1x128_S128,
    StableHlo.unary main_arg10 main_v268 ((extractStridedSlice S1x128x128 ![4, 0, 0] · slices_S6x128x128_S1x128x128_4_0_0) : (⟨S6x128x128, .f32⟩ : BufTy).Contents (Elt F) → (⟨S1x128x128, .f32⟩ : BufTy).Contents (Elt F)),
    StableHlo.reshape main_v268 main_v269 rfl shapeCasts_S1x128x128_S128x128,
    StableHlo.unary main_arg11 main_v270 ((extractStridedSlice S1x128 ![4, 0] · slices_S6x128_S1x128_4_0) : (⟨S6x128, .f32⟩ : BufTy).Contents (Elt F) → (⟨S1x128, .f32⟩ : BufTy).Contents (Elt F)),
    StableHlo.reshape main_v270 main_v271 rfl shapeCasts_S1x128_S128,
    StableHlo.nullary main_c_43 (constantI S_ 32 0#32),
    StableHlo.unary main_c_43 main_v272 (broadcastInDim S1600000 ![] bcast_S_S1600000 : (⟨S_, .i32⟩ : BufTy).Contents (Elt F) → (⟨S1600000, .i32⟩ : BufTy).Contents (Elt F)),
    StableHlo.binary main_v1 main_v272 main_v273 (cmpi .slt : (⟨S1600000, .i32⟩ : BufTy).Contents (Elt F) → (⟨S1600000, .i32⟩ : BufTy).Contents (Elt F) → (⟨S1600000, .i1⟩ : BufTy).Contents (Elt F)),
    StableHlo.nullary main_c_44 (constantI S_ 32 100000#32),
    StableHlo.unary main_c_44 main_v274 (broadcastInDim S1600000 ![] bcast_S_S1600000 : (⟨S_, .i32⟩ : BufTy).Contents (Elt F) → (⟨S1600000, .i32⟩ : BufTy).Contents (Elt F)),
    StableHlo.binary main_v1 main_v274 main_v275 (addi : (⟨S1600000, .i32⟩ : BufTy).Contents (Elt F) → (⟨S1600000, .i32⟩ : BufTy).Contents (Elt F) → (⟨S1600000, .i32⟩ : BufTy).Contents (Elt F)),
    StableHlo.ternary main_v273 main_v275 main_v1 main_v276 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v276 main_v277 (broadcastInDim S1600000x1 ![0] bcast_S1600000_S1600000x1_0 : (⟨S1600000, .i32⟩ : BufTy).Contents (Elt F) → (⟨S1600000x1, .i32⟩ : BufTy).Contents (Elt F)),
    StableHlo.binary main_v263 main_v277 main_v278 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_45 (constant S_ .f32 0x00000000#32),
    StableHlo.unary main_cst_45 main_v279 (broadcastInDim S100000x128 ![] bcast_S_S100000x128 : (⟨S_, .f32⟩ : BufTy).Contents (Elt F) → (⟨S100000x128, .f32⟩ : BufTy).Contents (Elt F)),
    StableHlo.unary main_v3 main_v280 (broadcastInDim S1600000x1 ![0] bcast_S1600000_S1600000x1_0 : (⟨S1600000, .i32⟩ : BufTy).Contents (Elt F) → (⟨S1600000x1, .i32⟩ : BufTy).Contents (Elt F)),
    StableHlo.ternary main_v279 main_v280 main_v278 main_v281 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v263 main_v281 main_v282 (addf : (⟨S100000x128, .f32⟩ : BufTy).Contents (Elt F) → (⟨S100000x128, .f32⟩ : BufTy).Contents (Elt F) → (⟨S100000x128, .f32⟩ : BufTy).Contents (Elt F)),
    StableHlo.binary main_v282 main_v265 main_v283 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v267 main_v284 (broadcastInDim S1x128 ![1] bcast_S128_S1x128_1 : (⟨S128, .f32⟩ : BufTy).Contents (Elt F) → (⟨S1x128, .f32⟩ : BufTy).Contents (Elt F)),
    StableHlo.unary main_v284 main_v285 (broadcastInDim S100000x128 ![0, 1] bcast_S1x128_S100000x128_0_1 : (⟨S1x128, .f32⟩ : BufTy).Contents (Elt F) → (⟨S100000x128, .f32⟩ : BufTy).Contents (Elt F)),
    StableHlo.binary main_v283 main_v285 main_v286 (addf : (⟨S100000x128, .f32⟩ : BufTy).Contents (Elt F) → (⟨S100000x128, .f32⟩ : BufTy).Contents (Elt F) → (⟨S100000x128, .f32⟩ : BufTy).Contents (Elt F)),
    StableHlo.nullary main_cst_46 (constant S_ .f32 0x00000000#32),
    StableHlo.unary main_cst_46 main_v287 (broadcastInDim S100000x128 ![] bcast_S_S100000x128 : (⟨S_, .f32⟩ : BufTy).Contents (Elt F) → (⟨S100000x128, .f32⟩ : BufTy).Contents (Elt F)),
    StableHlo.binary main_v286 main_v287 main_v288 (maximumf : (⟨S100000x128, .f32⟩ : BufTy).Contents (Elt F) → (⟨S100000x128, .f32⟩ : BufTy).Contents (Elt F) → (⟨S100000x128, .f32⟩ : BufTy).Contents (Elt F)),
    StableHlo.binary main_v288 main_v269 main_v289 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v271 main_v290 (broadcastInDim S1x128 ![1] bcast_S128_S1x128_1 : (⟨S128, .f32⟩ : BufTy).Contents (Elt F) → (⟨S1x128, .f32⟩ : BufTy).Contents (Elt F)),
    StableHlo.unary main_v290 main_v291 (broadcastInDim S100000x128 ![0, 1] bcast_S1x128_S100000x128_0_1 : (⟨S1x128, .f32⟩ : BufTy).Contents (Elt F) → (⟨S100000x128, .f32⟩ : BufTy).Contents (Elt F)),
    StableHlo.binary main_v289 main_v291 main_v292 (addf : (⟨S100000x128, .f32⟩ : BufTy).Contents (Elt F) → (⟨S100000x128, .f32⟩ : BufTy).Contents (Elt F) → (⟨S100000x128, .f32⟩ : BufTy).Contents (Elt F)),
    StableHlo.unary main_arg12 main_v293 ((extractStridedSlice S1x128 ![4, 0] · slices_S6x128_S1x128_4_0) : (⟨S6x128, .f32⟩ : BufTy).Contents (Elt F) → (⟨S1x128, .f32⟩ : BufTy).Contents (Elt F)),
    StableHlo.reshape main_v293 main_v294 rfl shapeCasts_S1x128_S128,
    StableHlo.unary main_arg13 main_v295 ((extractStridedSlice S1x128 ![4, 0] · slices_S6x128_S1x128_4_0) : (⟨S6x128, .f32⟩ : BufTy).Contents (Elt F) → (⟨S1x128, .f32⟩ : BufTy).Contents (Elt F)),
    StableHlo.reshape main_v295 main_v296 rfl shapeCasts_S1x128_S128,
    StableHlo.nullary main_cst_47 (constant S_ .f32 0x00000000#32),
    StableHlo.binary main_v292 main_cst_47 main_v297 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_48 (constant S_ .f32 0x47C35000#32),
    StableHlo.unary main_cst_48 main_v298 (broadcastInDim S128 ![] bcast_S_S128 : (⟨S_, .f32⟩ : BufTy).Contents (Elt F) → (⟨S128, .f32⟩ : BufTy).Contents (Elt F)),
    StableHlo.binary main_v297 main_v298 main_v299 (Host.divf : (⟨S128, .f32⟩ : BufTy).Contents (Elt F) → (⟨S128, .f32⟩ : BufTy).Contents (Elt F) → (⟨S128, .f32⟩ : BufTy).Contents (Elt F)),
    StableHlo.nullary main_c_49 (constantI S_ 32 0#32),
    StableHlo.TRef.nullary main_call5.cst (constant S_ .f32 0x00000000#32),
    StableHlo.TRef.binary (StableHlo.TRef.of (T := ⟨S100000x128, .f32⟩) main_v292) main_call5.cst main_call5.v0 (fun x v => Host.reduceAdd x v reducesTo_S100000x128_S128_d0 h_S_),
    StableHlo.TRef.unary main_call5.v0 main_call5.v1 (broadcastInDim S1x128 ![1] bcast_S128_S1x128_1),
    StableHlo.TRef.nullary main_call5.cst_0 (constant S_ .f32 0x47C35000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S100000x128 ![0, 1] bcast_S1x128_S100000x128_0_1),
    StableHlo.TRef.binary (StableHlo.TRef.of (T := ⟨S100000x128, .f32⟩) main_v292) main_call5.v4 main_call5.v5 subf,
    StableHlo.TRef.binary main_call5.v5 main_call5.v5 main_call5.v6 mulf,
    StableHlo.TRef.unary (StableHlo.TRef.of (T := ⟨S_, .i32⟩) main_c_49) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b),
    StableHlo.unary main_v299 main_v301 (broadcastInDim S1x128 ![1] bcast_S128_S1x128_1 : (⟨S128, .f32⟩ : BufTy).Contents (Elt F) → (⟨S1x128, .f32⟩ : BufTy).Contents (Elt F)),
    StableHlo.unary main_v301 main_v302 (broadcastInDim S100000x128 ![0, 1] bcast_S1x128_S100000x128_0_1 : (⟨S1x128, .f32⟩ : BufTy).Contents (Elt F) → (⟨S100000x128, .f32⟩ : BufTy).Contents (Elt F)),
    StableHlo.binary main_v292 main_v302 main_v303 (subf : (⟨S100000x128, .f32⟩ : BufTy).Contents (Elt F) → (⟨S100000x128, .f32⟩ : BufTy).Contents (Elt F) → (⟨S100000x128, .f32⟩ : BufTy).Contents (Elt F)),
    StableHlo.nullary main_cst_50 (constant S_ .f32 0x3727C5AC#32),
    StableHlo.unary main_cst_50 main_v304 (broadcastInDim S128 ![] bcast_S_S128 : (⟨S_, .f32⟩ : BufTy).Contents (Elt F) → (⟨S128, .f32⟩ : BufTy).Contents (Elt F)),
    StableHlo.binary main_v300 main_v304 main_v305 (addf : (⟨S128, .f32⟩ : BufTy).Contents (Elt F) → (⟨S128, .f32⟩ : BufTy).Contents (Elt F) → (⟨S128, .f32⟩ : BufTy).Contents (Elt F)),
    StableHlo.unary main_v305 main_v306 (Host.rsqrt : (⟨S128, .f32⟩ : BufTy).Contents (Elt F) → (⟨S128, .f32⟩ : BufTy).Contents (Elt F)) ]

end Cert.ReferenceIdeal.Hand

end
-- ==== Proof.RefOps6.lean ====
import proofs.«108604_j12824772346523_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
abbrev seg11 : List (HloOp τ sig (Elt F)) :=
  [ StableHlo.unary main_v306 main_v307 (broadcastInDim S1x128 ![1] bcast_S128_S1x128_1 : (⟨S128, .f32⟩ : BufTy).Contents (Elt F) → (⟨S1x128, .f32⟩ : BufTy).Contents (Elt F)),
    StableHlo.unary main_v307 main_v308 (broadcastInDim S100000x128 ![0, 1] bcast_S1x128_S100000x128_0_1 : (⟨S1x128, .f32⟩ : BufTy).Contents (Elt F) → (⟨S100000x128, .f32⟩ : BufTy).Contents (Elt F)),
    StableHlo.binary main_v303 main_v308 main_v309 (mulf : (⟨S100000x128, .f32⟩ : BufTy).Contents (Elt F) → (⟨S100000x128, .f32⟩ : BufTy).Contents (Elt F) → (⟨S100000x128, .f32⟩ : BufTy).Contents (Elt F)),
    StableHlo.unary main_v294 main_v310 (broadcastInDim S1x128 ![1] bcast_S128_S1x128_1 : (⟨S128, .f32⟩ : BufTy).Contents (Elt F) → (⟨S1x128, .f32⟩ : BufTy).Contents (Elt F)),
    StableHlo.unary main_v310 main_v311 (broadcastInDim S100000x128 ![0, 1] bcast_S1x128_S100000x128_0_1 : (⟨S1x128, .f32⟩ : BufTy).Contents (Elt F) → (⟨S100000x128, .f32⟩ : BufTy).Contents (Elt F)),
    StableHlo.binary main_v309 main_v311 main_v312 (mulf : (⟨S100000x128, .f32⟩ : BufTy).Contents (Elt F) → (⟨S100000x128, .f32⟩ : BufTy).Contents (Elt F) → (⟨S100000x128, .f32⟩ : BufTy).Contents (Elt F)),
    StableHlo.unary main_v296 main_v313 (broadcastInDim S1x128 ![1] bcast_S128_S1x128_1 : (⟨S128, .f32⟩ : BufTy).Contents (Elt F) → (⟨S1x128, .f32⟩ : BufTy).Contents (Elt F)),
    StableHlo.unary main_v313 main_v314 (broadcastInDim S100000x128 ![0, 1] bcast_S1x128_S100000x128_0_1 : (⟨S1x128, .f32⟩ : BufTy).Contents (Elt F) → (⟨S100000x128, .f32⟩ : BufTy).Contents (Elt F)),
    StableHlo.binary main_v312 main_v314 main_v315 (addf : (⟨S100000x128, .f32⟩ : BufTy).Contents (Elt F) → (⟨S100000x128, .f32⟩ : BufTy).Contents (Elt F) → (⟨S100000x128, .f32⟩ : BufTy).Contents (Elt F)),
    StableHlo.nullary main_cst_51 (constant S_ .f32 0x00000000#32),
    StableHlo.unary main_cst_51 main_v316 (broadcastInDim S100000x128 ![] bcast_S_S100000x128 : (⟨S_, .f32⟩ : BufTy).Contents (Elt F) → (⟨S100000x128, .f32⟩ : BufTy).Contents (Elt F)),
    StableHlo.binary main_v315 main_v316 main_v317 (maximumf : (⟨S100000x128, .f32⟩ : BufTy).Contents (Elt F) → (⟨S100000x128, .f32⟩ : BufTy).Contents (Elt F) → (⟨S100000x128, .f32⟩ : BufTy).Contents (Elt F)) ]

set_option maxRecDepth 8192 in
abbrev seg12 : List (HloOp τ sig (Elt F)) :=
  [ StableHlo.unary main_arg8 main_v318 ((extractStridedSlice S1x128x128 ![5, 0, 0] · slices_S6x128x128_S1x128x128_5_0_0) : (⟨S6x128x128, .f32⟩ : BufTy).Contents (Elt F) → (⟨S1x128x128, .f32⟩ : BufTy).Contents (Elt F)),
    StableHlo.reshape main_v318 main_v319 rfl shapeCasts_S1x128x128_S128x128,
    StableHlo.unary main_arg9 main_v320 ((extractStridedSlice S1x128 ![5, 0] · slices_S6x128_S1x128_5_0) : (⟨S6x128, .f32⟩ : BufTy).Contents (Elt F) → (⟨S1x128, .f32⟩ : BufTy).Contents (Elt F)),
    StableHlo.reshape main_v320 main_v321 rfl shapeCasts_S1x128_S128,
    StableHlo.unary main_arg10 main_v322 ((extractStridedSlice S1x128x128 ![5, 0, 0] · slices_S6x128x128_S1x128x128_5_0_0) : (⟨S6x128x128, .f32⟩ : BufTy).Contents (Elt F) → (⟨S1x128x128, .f32⟩ : BufTy).Contents (Elt F)),
    StableHlo.reshape main_v322 main_v323 rfl shapeCasts_S1x128x128_S128x128,
    StableHlo.unary main_arg11 main_v324 ((extractStridedSlice S1x128 ![5, 0] · slices_S6x128_S1x128_5_0) : (⟨S6x128, .f32⟩ : BufTy).Contents (Elt F) → (⟨S1x128, .f32⟩ : BufTy).Contents (Elt F)),
    StableHlo.reshape main_v324 main_v325 rfl shapeCasts_S1x128_S128,
    StableHlo.nullary main_c_52 (constantI S_ 32 0#32),
    StableHlo.unary main_c_52 main_v326 (broadcastInDim S1600000 ![] bcast_S_S1600000 : (⟨S_, .i32⟩ : BufTy).Contents (Elt F) → (⟨S1600000, .i32⟩ : BufTy).Contents (Elt F)),
    StableHlo.binary main_v1 main_v326 main_v327 (cmpi .slt : (⟨S1600000, .i32⟩ : BufTy).Contents (Elt F) → (⟨S1600000, .i32⟩ : BufTy).Contents (Elt F) → (⟨S1600000, .i1⟩ : BufTy).Contents (Elt F)),
    StableHlo.nullary main_c_53 (constantI S_ 32 100000#32),
    StableHlo.unary main_c_53 main_v328 (broadcastInDim S1600000 ![] bcast_S_S1600000 : (⟨S_, .i32⟩ : BufTy).Contents (Elt F) → (⟨S1600000, .i32⟩ : BufTy).Contents (Elt F)),
    StableHlo.binary main_v1 main_v328 main_v329 (addi : (⟨S1600000, .i32⟩ : BufTy).Contents (Elt F) → (⟨S1600000, .i32⟩ : BufTy).Contents (Elt F) → (⟨S1600000, .i32⟩ : BufTy).Contents (Elt F)),
    StableHlo.ternary main_v327 main_v329 main_v1 main_v330 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v330 main_v331 (broadcastInDim S1600000x1 ![0] bcast_S1600000_S1600000x1_0 : (⟨S1600000, .i32⟩ : BufTy).Contents (Elt F) → (⟨S1600000x1, .i32⟩ : BufTy).Contents (Elt F)),
    StableHlo.binary main_v317 main_v331 main_v332 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_54 (constant S_ .f32 0x00000000#32),
    StableHlo.unary main_cst_54 main_v333 (broadcastInDim S100000x128 ![] bcast_S_S100000x128 : (⟨S_, .f32⟩ : BufTy).Contents (Elt F) → (⟨S100000x128, .f32⟩ : BufTy).Contents (Elt F)),
    StableHlo.unary main_v3 main_v334 (broadcastInDim S1600000x1 ![0] bcast_S1600000_S1600000x1_0 : (⟨S1600000, .i32⟩ : BufTy).Contents (Elt F) → (⟨S1600000x1, .i32⟩ : BufTy).Contents (Elt F)),
    StableHlo.ternary main_v333 main_v334 main_v332 main_v335 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v317 main_v335 main_v336 (addf : (⟨S100000x128, .f32⟩ : BufTy).Contents (Elt F) → (⟨S100000x128, .f32⟩ : BufTy).Contents (Elt F) → (⟨S100000x128, .f32⟩ : BufTy).Contents (Elt F)),
    StableHlo.binary main_v336 main_v319 main_v337 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v321 main_v338 (broadcastInDim S1x128 ![1] bcast_S128_S1x128_1 : (⟨S128, .f32⟩ : BufTy).Contents (Elt F) → (⟨S1x128, .f32⟩ : BufTy).Contents (Elt F)),
    StableHlo.unary main_v338 main_v339 (broadcastInDim S100000x128 ![0, 1] bcast_S1x128_S100000x128_0_1 : (⟨S1x128, .f32⟩ : BufTy).Contents (Elt F) → (⟨S100000x128, .f32⟩ : BufTy).Contents (Elt F)),
    StableHlo.binary main_v337 main_v339 main_v340 (addf : (⟨S100000x128, .f32⟩ : BufTy).Contents (Elt F) → (⟨S100000x128, .f32⟩ : BufTy).Contents (Elt F) → (⟨S100000x128, .f32⟩ : BufTy).Contents (Elt F)),
    StableHlo.nullary main_cst_55 (constant S_ .f32 0x00000000#32),
    StableHlo.unary main_cst_55 main_v341 (broadcastInDim S100000x128 ![] bcast_S_S100000x128 : (⟨S_, .f32⟩ : BufTy).Contents (Elt F) → (⟨S100000x128, .f32⟩ : BufTy).Contents (Elt F)),
    StableHlo.binary main_v340 main_v341 main_v342 (maximumf : (⟨S100000x128, .f32⟩ : BufTy).Contents (Elt F) → (⟨S100000x128, .f32⟩ : BufTy).Contents (Elt F) → (⟨S100000x128, .f32⟩ : BufTy).Contents (Elt F)),
    StableHlo.binary main_v342 main_v323 main_v343 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v325 main_v344 (broadcastInDim S1x128 ![1] bcast_S128_S1x128_1 : (⟨S128, .f32⟩ : BufTy).Contents (Elt F) → (⟨S1x128, .f32⟩ : BufTy).Contents (Elt F)),
    StableHlo.unary main_v344 main_v345 (broadcastInDim S100000x128 ![0, 1] bcast_S1x128_S100000x128_0_1 : (⟨S1x128, .f32⟩ : BufTy).Contents (Elt F) → (⟨S100000x128, .f32⟩ : BufTy).Contents (Elt F)),
    StableHlo.binary main_v343 main_v345 main_v346 (addf : (⟨S100000x128, .f32⟩ : BufTy).Contents (Elt F) → (⟨S100000x128, .f32⟩ : BufTy).Contents (Elt F) → (⟨S100000x128, .f32⟩ : BufTy).Contents (Elt F)),
    StableHlo.unary main_arg12 main_v347 ((extractStridedSlice S1x128 ![5, 0] · slices_S6x128_S1x128_5_0) : (⟨S6x128, .f32⟩ : BufTy).Contents (Elt F) → (⟨S1x128, .f32⟩ : BufTy).Contents (Elt F)),
    StableHlo.reshape main_v347 main_v348 rfl shapeCasts_S1x128_S128,
    StableHlo.unary main_arg13 main_v349 ((extractStridedSlice S1x128 ![5, 0] · slices_S6x128_S1x128_5_0) : (⟨S6x128, .f32⟩ : BufTy).Contents (Elt F) → (⟨S1x128, .f32⟩ : BufTy).Contents (Elt F)),
    StableHlo.reshape main_v349 main_v350 rfl shapeCasts_S1x128_S128,
    StableHlo.nullary main_cst_56 (constant S_ .f32 0x00000000#32),
    StableHlo.binary main_v346 main_cst_56 main_v351 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_57 (constant S_ .f32 0x47C35000#32),
    StableHlo.unary main_cst_57 main_v352 (broadcastInDim S128 ![] bcast_S_S128 : (⟨S_, .f32⟩ : BufTy).Contents (Elt F) → (⟨S128, .f32⟩ : BufTy).Contents (Elt F)),
    StableHlo.binary main_v351 main_v352 main_v353 (Host.divf : (⟨S128, .f32⟩ : BufTy).Contents (Elt F) → (⟨S128, .f32⟩ : BufTy).Contents (Elt F) → (⟨S128, .f32⟩ : BufTy).Contents (Elt F)),
    StableHlo.nullary main_c_58 (constantI S_ 32 0#32),
    StableHlo.TRef.nullary main_call6.cst (constant S_ .f32 0x00000000#32),
    StableHlo.TRef.binary (StableHlo.TRef.of (T := ⟨S100000x128, .f32⟩) main_v346) main_call6.cst main_call6.v0 (fun x v => Host.reduceAdd x v reducesTo_S100000x128_S128_d0 h_S_),
    StableHlo.TRef.unary main_call6.v0 main_call6.v1 (broadcastInDim S1x128 ![1] bcast_S128_S1x128_1),
    StableHlo.TRef.nullary main_call6.cst_0 (constant S_ .f32 0x47C35000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S100000x128 ![0, 1] bcast_S1x128_S100000x128_0_1),
    StableHlo.TRef.binary (StableHlo.TRef.of (T := ⟨S100000x128, .f32⟩) main_v346) main_call6.v4 main_call6.v5 subf,
    StableHlo.TRef.binary main_call6.v5 main_call6.v5 main_call6.v6 mulf,
    StableHlo.TRef.unary (StableHlo.TRef.of (T := ⟨S_, .i32⟩) main_c_58) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v353 main_v355 (broadcastInDim S1x128 ![1] bcast_S128_S1x128_1 : (⟨S128, .f32⟩ : BufTy).Contents (Elt F) → (⟨S1x128, .f32⟩ : BufTy).Contents (Elt F)),
    StableHlo.unary main_v355 main_v356 (broadcastInDim S100000x128 ![0, 1] bcast_S1x128_S100000x128_0_1 : (⟨S1x128, .f32⟩ : BufTy).Contents (Elt F) → (⟨S100000x128, .f32⟩ : BufTy).Contents (Elt F)),
    StableHlo.binary main_v346 main_v356 main_v357 (subf : (⟨S100000x128, .f32⟩ : BufTy).Contents (Elt F) → (⟨S100000x128, .f32⟩ : BufTy).Contents (Elt F) → (⟨S100000x128, .f32⟩ : BufTy).Contents (Elt F)),
    StableHlo.nullary main_cst_59 (constant S_ .f32 0x3727C5AC#32) ]

end Cert.ReferenceIdeal.Hand

end
-- ==== Proof.RefOps7.lean ====
import proofs.«108604_j12824772346523_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
abbrev seg13 : List (HloOp τ sig (Elt F)) :=
  [ StableHlo.unary main_cst_59 main_v358 (broadcastInDim S128 ![] bcast_S_S128 : (⟨S_, .f32⟩ : BufTy).Contents (Elt F) → (⟨S128, .f32⟩ : BufTy).Contents (Elt F)),
    StableHlo.binary main_v354 main_v358 main_v359 (addf : (⟨S128, .f32⟩ : BufTy).Contents (Elt F) → (⟨S128, .f32⟩ : BufTy).Contents (Elt F) → (⟨S128, .f32⟩ : BufTy).Contents (Elt F)),
    StableHlo.unary main_v359 main_v360 (Host.rsqrt : (⟨S128, .f32⟩ : BufTy).Contents (Elt F) → (⟨S128, .f32⟩ : BufTy).Contents (Elt F)),
    StableHlo.unary main_v360 main_v361 (broadcastInDim S1x128 ![1] bcast_S128_S1x128_1 : (⟨S128, .f32⟩ : BufTy).Contents (Elt F) → (⟨S1x128, .f32⟩ : BufTy).Contents (Elt F)),
    StableHlo.unary main_v361 main_v362 (broadcastInDim S100000x128 ![0, 1] bcast_S1x128_S100000x128_0_1 : (⟨S1x128, .f32⟩ : BufTy).Contents (Elt F) → (⟨S100000x128, .f32⟩ : BufTy).Contents (Elt F)),
    StableHlo.binary main_v357 main_v362 main_v363 (mulf : (⟨S100000x128, .f32⟩ : BufTy).Contents (Elt F) → (⟨S100000x128, .f32⟩ : BufTy).Contents (Elt F) → (⟨S100000x128, .f32⟩ : BufTy).Contents (Elt F)),
    StableHlo.unary main_v348 main_v364 (broadcastInDim S1x128 ![1] bcast_S128_S1x128_1 : (⟨S128, .f32⟩ : BufTy).Contents (Elt F) → (⟨S1x128, .f32⟩ : BufTy).Contents (Elt F)),
    StableHlo.unary main_v364 main_v365 (broadcastInDim S100000x128 ![0, 1] bcast_S1x128_S100000x128_0_1 : (⟨S1x128, .f32⟩ : BufTy).Contents (Elt F) → (⟨S100000x128, .f32⟩ : BufTy).Contents (Elt F)),
    StableHlo.binary main_v363 main_v365 main_v366 (mulf : (⟨S100000x128, .f32⟩ : BufTy).Contents (Elt F) → (⟨S100000x128, .f32⟩ : BufTy).Contents (Elt F) → (⟨S100000x128, .f32⟩ : BufTy).Contents (Elt F)),
    StableHlo.unary main_v350 main_v367 (broadcastInDim S1x128 ![1] bcast_S128_S1x128_1 : (⟨S128, .f32⟩ : BufTy).Contents (Elt F) → (⟨S1x128, .f32⟩ : BufTy).Contents (Elt F)),
    StableHlo.unary main_v367 main_v368 (broadcastInDim S100000x128 ![0, 1] bcast_S1x128_S100000x128_0_1 : (⟨S1x128, .f32⟩ : BufTy).Contents (Elt F) → (⟨S100000x128, .f32⟩ : BufTy).Contents (Elt F)),
    StableHlo.binary main_v366 main_v368 main_v369 (addf : (⟨S100000x128, .f32⟩ : BufTy).Contents (Elt F) → (⟨S100000x128, .f32⟩ : BufTy).Contents (Elt F) → (⟨S100000x128, .f32⟩ : BufTy).Contents (Elt F)),
    StableHlo.nullary main_cst_60 (constant S_ .f32 0x00000000#32),
    StableHlo.unary main_cst_60 main_v370 (broadcastInDim S100000x128 ![] bcast_S_S100000x128 : (⟨S_, .f32⟩ : BufTy).Contents (Elt F) → (⟨S100000x128, .f32⟩ : BufTy).Contents (Elt F)),
    StableHlo.binary main_v369 main_v370 main_v371 (maximumf : (⟨S100000x128, .f32⟩ : BufTy).Contents (Elt F) → (⟨S100000x128, .f32⟩ : BufTy).Contents (Elt F) → (⟨S100000x128, .f32⟩ : BufTy).Contents (Elt F)),
    StableHlo.binary main_v371 main_v263 main_v372 (addf : (⟨S100000x128, .f32⟩ : BufTy).Contents (Elt F) → (⟨S100000x128, .f32⟩ : BufTy).Contents (Elt F) → (⟨S100000x128, .f32⟩ : BufTy).Contents (Elt F)) ]

set_option maxRecDepth 8192 in
abbrev seg14 : List (HloOp τ sig (Elt F)) :=
  [ StableHlo.nullary main_c_61 (constantI S_ 32 0#32),
    StableHlo.unary main_c_61 main_v373 (broadcastInDim S1600000 ![] bcast_S_S1600000 : (⟨S_, .i32⟩ : BufTy).Contents (Elt F) → (⟨S1600000, .i32⟩ : BufTy).Contents (Elt F)),
    StableHlo.binary main_v1 main_v373 main_v374 (cmpi .slt : (⟨S1600000, .i32⟩ : BufTy).Contents (Elt F) → (⟨S1600000, .i32⟩ : BufTy).Contents (Elt F) → (⟨S1600000, .i1⟩ : BufTy).Contents (Elt F)),
    StableHlo.nullary main_c_62 (constantI S_ 32 100000#32),
    StableHlo.unary main_c_62 main_v375 (broadcastInDim S1600000 ![] bcast_S_S1600000 : (⟨S_, .i32⟩ : BufTy).Contents (Elt F) → (⟨S1600000, .i32⟩ : BufTy).Contents (Elt F)),
    StableHlo.binary main_v1 main_v375 main_v376 (addi : (⟨S1600000, .i32⟩ : BufTy).Contents (Elt F) → (⟨S1600000, .i32⟩ : BufTy).Contents (Elt F) → (⟨S1600000, .i32⟩ : BufTy).Contents (Elt F)),
    StableHlo.ternary main_v374 main_v376 main_v1 main_v377 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v377 main_v378 (broadcastInDim S1600000x1 ![0] bcast_S1600000_S1600000x1_0 : (⟨S1600000, .i32⟩ : BufTy).Contents (Elt F) → (⟨S1600000x1, .i32⟩ : BufTy).Contents (Elt F)),
    StableHlo.binary main_v372 main_v378 main_v379 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_63 (constant S_ .f32 0x00000000#32),
    StableHlo.unary main_cst_63 main_v380 (broadcastInDim S100000x128 ![] bcast_S_S100000x128 : (⟨S_, .f32⟩ : BufTy).Contents (Elt F) → (⟨S100000x128, .f32⟩ : BufTy).Contents (Elt F)),
    StableHlo.unary main_v3 main_v381 (broadcastInDim S1600000x1 ![0] bcast_S1600000_S1600000x1_0 : (⟨S1600000, .i32⟩ : BufTy).Contents (Elt F) → (⟨S1600000x1, .i32⟩ : BufTy).Contents (Elt F)),
    StableHlo.ternary main_v380 main_v381 main_v379 main_v382 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v372 main_v382 main_v383 (addf : (⟨S100000x128, .f32⟩ : BufTy).Contents (Elt F) → (⟨S100000x128, .f32⟩ : BufTy).Contents (Elt F) → (⟨S100000x128, .f32⟩ : BufTy).Contents (Elt F)),
    StableHlo.binary main_v383 main_arg14 main_v384 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    StableHlo.unary main_arg15 main_v385 (broadcastInDim S1x32 ![1] bcast_S32_S1x32_1 : (⟨S32, .f32⟩ : BufTy).Contents (Elt F) → (⟨S1x32, .f32⟩ : BufTy).Contents (Elt F)),
    StableHlo.unary main_v385 main_v386 (broadcastInDim S100000x32 ![0, 1] bcast_S1x32_S100000x32_0_1 : (⟨S1x32, .f32⟩ : BufTy).Contents (Elt F) → (⟨S100000x32, .f32⟩ : BufTy).Contents (Elt F)),
    StableHlo.binary main_v384 main_v386 main_v387 (addf : (⟨S100000x32, .f32⟩ : BufTy).Contents (Elt F) → (⟨S100000x32, .f32⟩ : BufTy).Contents (Elt F) → (⟨S100000x32, .f32⟩ : BufTy).Contents (Elt F)),
    StableHlo.nullary main_cst_64 (constant S_ .f32 0x00000000#32),
    StableHlo.unary main_cst_64 main_v388 (broadcastInDim S100000x32 ![] bcast_S_S100000x32 : (⟨S_, .f32⟩ : BufTy).Contents (Elt F) → (⟨S100000x32, .f32⟩ : BufTy).Contents (Elt F)),
    StableHlo.binary main_v387 main_v388 main_v389 (maximumf : (⟨S100000x32, .f32⟩ : BufTy).Contents (Elt F) → (⟨S100000x32, .f32⟩ : BufTy).Contents (Elt F) → (⟨S100000x32, .f32⟩ : BufTy).Contents (Elt F)),
    StableHlo.binary main_v389 main_arg16 main_v390 ((fun l r => Host.dotGeneral dot_S100000x32_S32x3_S100000x3_1_0_0_1_n_n none l r) : (⟨S100000x32, .f32⟩ : BufTy).Contents (Elt F) → (⟨S32x3, .f32⟩ : BufTy).Contents (Elt F) → (⟨S100000x3, .f32⟩ : BufTy).Contents (Elt F)),
    StableHlo.unary main_arg17 main_v391 (broadcastInDim S1x3 ![1] bcast_S3_S1x3_1 : (⟨S3, .f32⟩ : BufTy).Contents (Elt F) → (⟨S1x3, .f32⟩ : BufTy).Contents (Elt F)),
    StableHlo.unary main_v391 main_v392 (broadcastInDim S100000x3 ![0, 1] bcast_S1x3_S100000x3_0_1 : (⟨S1x3, .f32⟩ : BufTy).Contents (Elt F) → (⟨S100000x3, .f32⟩ : BufTy).Contents (Elt F)),
    StableHlo.binary main_v390 main_v392 main_v393 (addf : (⟨S100000x3, .f32⟩ : BufTy).Contents (Elt F) → (⟨S100000x3, .f32⟩ : BufTy).Contents (Elt F) → (⟨S100000x3, .f32⟩ : BufTy).Contents (Elt F)) ]

end Cert.ReferenceIdeal.Hand

end
-- ==== Proof.RefLayers.lean ====
import proofs.«108604_j12824772346523_2_alg».proof.Proof.RefOps0
import proofs.«108604_j12824772346523_2_alg».proof.Proof.RefOps1
import proofs.«108604_j12824772346523_2_alg».proof.Proof.RefOps2
import proofs.«108604_j12824772346523_2_alg».proof.Proof.RefOps3
import proofs.«108604_j12824772346523_2_alg».proof.Proof.RefOps4
import proofs.«108604_j12824772346523_2_alg».proof.Proof.RefOps5
import proofs.«108604_j12824772346523_2_alg».proof.Proof.RefOps6
import proofs.«108604_j12824772346523_2_alg».proof.Proof.RefOps7
import proofs.«108604_j12824772346523_2_alg».proof.Proof.Spec
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- The network's eight layers as pieces of @main's operations, and @main's operations layer after layer.
noncomputable abbrev layer0 : List (HloOp τ sig (Elt F)) := seg0
noncomputable abbrev layer1 : List (HloOp τ sig (Elt F)) := seg1 ++ seg2
noncomputable abbrev layer2 : List (HloOp τ sig (Elt F)) := seg3 ++ (seg4 ++ seg5)
noncomputable abbrev layer3 : List (HloOp τ sig (Elt F)) := seg6 ++ seg7
noncomputable abbrev layer4 : List (HloOp τ sig (Elt F)) := seg8 ++ seg9
noncomputable abbrev layer5 : List (HloOp τ sig (Elt F)) := seg10 ++ seg11
noncomputable abbrev layer6 : List (HloOp τ sig (Elt F)) := seg12 ++ seg13
noncomputable abbrev layer7 : List (HloOp τ sig (Elt F)) := seg14
noncomputable abbrev ops : List (HloOp τ sig (Elt F)) :=
  layer0 ++ (layer1 ++ (layer2 ++ (layer3 ++ (layer4 ++ (layer5 ++ (layer6 ++ layer7))))))

/-- The operations of `l` write the buffers of `W`, one each, in order. -/
def Writes (l : List (HloOp τ sig (Elt F))) (W : List (Ref sig .tc)) : Prop :=
  l.map (·.writes) = W.map fun b => ({Proc.devRef (τ := τ) .tc b} : Finset (DevRef τ sig))

/-- A buffer outside `W` is written by no operation of `l`: distinct references are distinct buffers. -/
theorem after_keep {l : List (HloOp τ sig (Elt F))} {W : List (Ref sig .tc)} (hW : Writes l W) (V : Valuation τ sig (Elt F))
    {r : Ref sig .tc} (hr : r ∉ W) : after l V (Proc.devRef .tc r) = V (Proc.devRef .tc r) :=
  after_of_forall_not_mem l V fun op hop hb => by
    have h : op.writes ∈ l.map (·.writes) := List.mem_map_of_mem hop
    rw [show l.map (·.writes) = _ from hW] at h
    obtain ⟨y, hy, he⟩ := List.mem_map.mp h
    rw [← he] at hb
    exact hr (Proc.devRef_injective _ (Finset.mem_singleton.mp hb) ▸ hy)

abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17]

/-- Contents `U` met later in a run begun at `V`: the launch arrays are as they were, and the edge array's two rows sit in their buffers. -/
structure Kept (V U : Valuation τ sig (Elt Ideal)) : Prop where
  arg : ∀ b ∈ argRefs, U (Proc.devRef .tc b) = V (Proc.devRef .tc b)
  src : U (Proc.devRef .tc main_v1) = Cert.Gnn.edgeSrc (V (Proc.devRef .tc main_arg1))
  dst : U (Proc.devRef .tc main_v3) = Cert.Gnn.edgeDst (V (Proc.devRef .tc main_arg1))

/-- A line that writes none of those buffers hands the same on. -/
theorem Kept.step {V U : Valuation τ sig (Elt Ideal)} {l : List (HloOp τ sig (Elt Ideal))} {W : List (Ref sig .tc)} (h : Kept V U)
    (hW : Writes l W) (hk : ∀ b ∈ main_v1 :: main_v3 :: argRefs, b ∉ W) : Kept V (after l U) :=
  ⟨fun b hb => (after_keep hW U (hk b (List.mem_cons_of_mem _ (List.mem_cons_of_mem _ hb)))).trans (h.arg b hb),
    (after_keep hW U (hk _ List.mem_cons_self)).trans h.src,
    (after_keep hW U (hk _ (List.mem_cons_of_mem _ List.mem_cons_self))).trans h.dst⟩

/-- The spec's residual layer on features `x` and edges `s`, `d`, its parameters the rows that `mat` and `vec` pick from the six stacked arrays held in `U`. -/
def resAt (mat : Cert.Gnn.T S6x128x128 → Cert.Gnn.T S128x128) (vec : Cert.Gnn.T S6x128 → Cert.Gnn.T S128) (U : Valuation τ sig (Elt Ideal))
    (x : Cert.Gnn.T S100000x128) (s d : Cert.Gnn.I32 S1600000) : Cert.Gnn.T S100000x128 :=
  Cert.Gnn.layerRes x s d (mat (U (Proc.devRef .tc main_arg8))) (vec (U (Proc.devRef .tc main_arg9))) (mat (U (Proc.devRef .tc main_arg10)))
    (vec (U (Proc.devRef .tc main_arg11))) (vec (U (Proc.devRef .tc main_arg12))) (vec (U (Proc.devRef .tc main_arg13)))

theorem Kept.res {V U : Valuation τ sig (Elt Ideal)} (h : Kept V U) (mat vec x s d) :
    resAt mat vec U x s d = resAt mat vec V x s d := by
  unfold resAt
  rw [h.arg main_arg8 (by decide), h.arg main_arg9 (by decide), h.arg main_arg10 (by decide), h.arg main_arg11 (by decide), h.arg main_arg12 (by decide), h.arg main_arg13 (by decide)]

end Cert.ReferenceIdeal.Hand

end
-- ==== Proof.RefRun.lean ====
import proofs.«108604_j12824772346523_2_alg».proof.Proof.RefLayers
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

section
set_option maxRecDepth 8192
set_option maxHeartbeats 4000000

-- Each part of @main is the line of its pieces: a call's body is the callee's operations at the call's record.
theorem main_part0_eq (c : Dev nD) : main_part0 (F := F) c = seq (seg0 ++ seg1) := rfl
theorem main_part1_eq (c : Dev nD) : main_part1 (F := F) c = seq (seg2 ++ seg3) := rfl
theorem main_part2_eq (c : Dev nD) : main_part2 (F := F) c = seq (seg4) := rfl
theorem main_part3_eq (c : Dev nD) : main_part3 (F := F) c = seq (seg5 ++ seg6) := rfl
theorem main_part4_eq (c : Dev nD) : main_part4 (F := F) c = seq (seg7 ++ seg8) := rfl
theorem main_part5_eq (c : Dev nD) : main_part5 (F := F) c = seq (seg9 ++ seg10) := rfl
theorem main_part6_eq (c : Dev nD) : main_part6 (F := F) c = seq (seg11 ++ seg12) := rfl
theorem main_part7_eq (c : Dev nD) : main_part7 (F := F) c = seq (seg13 ++ seg14) := rfl

end

/-- Parts and layers cut the same fifteen pieces differently: appending is sequencing, and sequencing is associative. -/
theorem main_eq (c : Dev nD) : main (F := F) c = seq ops := by
  simp only [main, main_part0_eq c, main_part1_eq c, main_part2_eq c, main_part3_eq c, main_part4_eq c, main_part5_eq c,
    main_part6_eq c, main_part7_eq c, ops, layer0, layer1, layer2, layer3, layer4, layer5, layer6, layer7, seq_append, bind_assoc]

/-- What the straight-line run asks of a line: every operation's buffers are among `tcRefs`, and it determines what it writes. -/
def Ok (l : List (HloOp τ sig (Elt F))) : Prop :=
  (l.Forall fun op => op.bufs ⊆ tcRefs τ sig) ∧ ∀ op ∈ l, op.fresh = ∅

theorem Ok.append {l₁ l₂ : List (HloOp τ sig (Elt F))} (h₁ : Ok l₁) (h₂ : Ok l₂) : Ok (l₁ ++ l₂) :=
  ⟨List.forall_append.mpr ⟨h₁.1, h₂.1⟩, List.forall_mem_append.mpr ⟨h₁.2, h₂.2⟩⟩

set_option maxRecDepth 8192 in
/-- Each piece is a literal list of the builders' operations: one fact per element, the first a lemma of its builder, the second by computation. -/
theorem segs_ok : Ok (F := F) seg0 ∧ Ok (F := F) seg1 ∧ Ok (F := F) seg2 ∧ Ok (F := F) seg3 ∧ Ok (F := F) seg4 ∧ Ok (F := F) seg5 ∧ Ok (F := F) seg6 ∧ Ok (F := F) seg7 ∧ Ok (F := F) seg8 ∧ Ok (F := F) seg9 ∧ Ok (F := F) seg10 ∧ Ok (F := F) seg11 ∧ Ok (F := F) seg12 ∧ Ok (F := F) seg13 ∧ Ok (F := F) seg14 := by
  refine ⟨?_, ?_, ?_, ?_, ?_, ?_, ?_, ?_, ?_, ?_, ?_, ?_, ?_, ?_, ?_⟩ <;> exact
    ⟨by simp only [List.Forall, nullary_bufs_sub, unary_bufs_sub, binary_bufs_sub, ternary_bufs_sub, reshape_bufs_sub, and_self],
      List.forall_iff_forall_mem.mp (by repeat' (first | exact rfl | refine And.intro ?_ ?_))⟩

theorem ops_ok : Ok (F := F) ops := by
  obtain ⟨h0, h1, h2, h3, h4, h5, h6, h7, h8, h9, h10, h11, h12, h13, h14⟩ := segs_ok (F := F)
  exact h0.append ((h1.append h2).append ((h3.append (h4.append h5)).append ((h6.append h7).append ((h8.append h9).append
    ((h10.append h11).append ((h12.append h13).append h14))))))

/-- @main is a line of operations that all meet `Ok`, so the straight-line run theorem applies to it. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = StableHlo.after ops (StableHlo.launchContents m d) (Proc.devRef .tc b) :=
  run_seq (by decide) (by decide) defs main (fun _ => ops) main_eq (fun _ => ops_ok.1) m ρ (fun _ => ops_ok.2)

end Cert.ReferenceIdeal.Hand

end
-- ==== Proof.RefLayer0.lean ====
import proofs.«108604_j12824772346523_2_alg».proof.Proof.RefLayers
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxRecDepth 8192 in
theorem layer0_writes : Writes (layer0 (F := Ideal)) [
    main_v0, main_v1, main_v2, main_v3, main_c, main_v4, main_v5, main_c_0, main_v6, main_v7, main_v8, main_v9,
    main_v10, main_cst, main_v11, main_v12, main_v13, main_v14, main_v15, main_v16, main_v17, main_v18, main_cst_1,
    main_v19, main_v20, main_v21, main_v22, main_v23, main_v24, main_cst_2, main_v25, main_cst_3, main_v26, main_v27,
    main_c_4, main_call0_cst, main_call0_v0, main_call0_v1, main_call0_cst_0, main_call0_v2, main_call0_v3,
    main_call0_v4, main_call0_v5, main_call0_v6, main_call0_v7, main_call0_cst_1, main_call0_v8, main_call0_cst_2,
    main_call0_v9, main_call0_v10, main_call0_v11, main_call0_cst_3, main_call0_v12, main_call0_cst_4,
    main_call0_call0_v0, main_call0_call0_v1, main_v28, main_v29, main_v30, main_v31, main_cst_5, main_v32, main_v33,
    main_v34, main_v35, main_v36, main_v37, main_v38, main_v39, main_v40, main_v41, main_v42, main_v43, main_cst_6,
    main_v44, main_v45] := rfl

set_option maxRecDepth 8192 in
/-- Read at the layer's last buffer, operation by operation, the fold is the spec's first layer of the launch arrays. -/
theorem layer0_out (U : Valuation τ sig (Elt Ideal)) :
    after (layer0 (F := Ideal)) U (Proc.devRef .tc main_v45)
      = Cert.Gnn.layerHead (U (Proc.devRef .tc main_arg0)) (Cert.Gnn.edgeSrc (U (Proc.devRef .tc main_arg1))) (Cert.Gnn.edgeDst (U (Proc.devRef .tc main_arg1)))
          (U (Proc.devRef .tc main_arg2)) (U (Proc.devRef .tc main_arg3)) (U (Proc.devRef .tc main_arg4)) (U (Proc.devRef .tc main_arg5)) (U (Proc.devRef .tc main_arg6)) (U (Proc.devRef .tc main_arg7)) := by
  simp only [layer0, after_append]
  after_results_simp
  rfl

set_option maxRecDepth 8192 in
/-- The layer writes no launch array, and the edge array's two rows are what it leaves in `main_v1` and `main_v3`. -/
theorem layer0_kept (V : Valuation τ sig (Elt Ideal)) : Kept V (after (layer0 (F := Ideal)) V) := by
  refine ⟨fun b hb => after_keep layer0_writes V ((by decide : ∀ b ∈ argRefs, b ∉ _) b hb), ?_, ?_⟩ <;>
    (simp only [layer0, after_append]; after_results_simp; rfl)

end Cert.ReferenceIdeal.Hand

end
-- ==== Proof.RefLayer1.lean ====
import proofs.«108604_j12824772346523_2_alg».proof.Proof.RefLayers
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxRecDepth 8192 in
theorem layer1_writes : Writes (layer1 (F := Ideal)) [
    main_v46, main_v47, main_v48, main_v49, main_v50, main_v51, main_v52, main_v53, main_c_7, main_v54, main_v55,
    main_c_8, main_v56, main_v57, main_v58, main_v59, main_v60, main_cst_9, main_v61, main_v62, main_v63, main_v64,
    main_v65, main_v66, main_v67, main_v68, main_cst_10, main_v69, main_v70, main_v71, main_v72, main_v73, main_v74,
    main_v75, main_v76, main_v77, main_v78, main_cst_11, main_v79, main_cst_12, main_v80, main_v81, main_c_13,
    main_call1_cst, main_call1_v0, main_call1_v1, main_call1_cst_0, main_call1_v2, main_call1_v3, main_call1_v4,
    main_call1_v5, main_call1_v6, main_call1_v7, main_call1_cst_1, main_call1_v8, main_call1_cst_2, main_call1_v9,
    main_call1_v10, main_call1_v11, main_call1_cst_3, main_call1_v12, main_call1_cst_4, main_call1_call0_v0,
    main_call1_call0_v1, main_v82, main_v83, main_v84, main_v85, main_cst_14, main_v86, main_v87, main_v88, main_v89,
    main_v90, main_v91, main_v92, main_v93, main_v94, main_v95, main_v96, main_v97, main_cst_15, main_v98, main_v99] := rfl

set_option maxRecDepth 8192 in
/-- Read at the layer's last buffer, the fold is the spec's residual layer of what the layer finds in its input buffers. -/
theorem layer1_out (U : Valuation τ sig (Elt Ideal)) :
    after (layer1 (F := Ideal)) U (Proc.devRef .tc main_v99)
      = resAt Cert.Gnn.mat0 Cert.Gnn.vec0 U (U (Proc.devRef .tc main_v45)) (U (Proc.devRef .tc main_v1)) (U (Proc.devRef .tc main_v3)) := by
  simp only [layer1, after_append]
  after_results_simp
  rfl

end Cert.ReferenceIdeal.Hand

end
-- ==== Proof.RefLayer2.lean ====
import proofs.«108604_j12824772346523_2_alg».proof.Proof.RefLayers
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxRecDepth 8192 in
theorem layer2_writes : Writes (layer2 (F := Ideal)) [
    main_v100, main_v101, main_v102, main_v103, main_v104, main_v105, main_v106, main_v107, main_c_16, main_v108,
    main_v109, main_c_17, main_v110, main_v111, main_v112, main_v113, main_v114, main_cst_18, main_v115, main_v116,
    main_v117, main_v118, main_v119, main_v120, main_v121, main_v122, main_cst_19, main_v123, main_v124, main_v125,
    main_v126, main_v127, main_v128, main_v129, main_v130, main_v131, main_v132, main_cst_20, main_v133, main_cst_21,
    main_v134, main_v135, main_c_22, main_call2_cst, main_call2_v0, main_call2_v1, main_call2_cst_0, main_call2_v2,
    main_call2_v3, main_call2_v4, main_call2_v5, main_call2_v6, main_call2_v7, main_call2_cst_1, main_call2_v8,
    main_call2_cst_2, main_call2_v9, main_call2_v10, main_call2_v11, main_call2_cst_3, main_call2_v12,
    main_call2_cst_4, main_call2_call0_v0, main_call2_call0_v1, main_v136, main_v137, main_v138, main_v139,
    main_cst_23, main_v140, main_v141, main_v142, main_v143, main_v144, main_v145, main_v146, main_v147, main_v148,
    main_v149, main_v150, main_v151, main_cst_24, main_v152, main_v153, main_v154] := rfl

set_option maxRecDepth 8192 in
/-- Read at the layer's last buffer, the fold is the spec's residual layer of what the layer finds, plus the block's input. -/
theorem layer2_out (U : Valuation τ sig (Elt Ideal)) :
    after (layer2 (F := Ideal)) U (Proc.devRef .tc main_v154)
      = addf (resAt Cert.Gnn.mat1 Cert.Gnn.vec1 U (U (Proc.devRef .tc main_v99)) (U (Proc.devRef .tc main_v1)) (U (Proc.devRef .tc main_v3))) (U (Proc.devRef .tc main_v45)) := by
  simp only [layer2, after_append]
  after_results_simp
  rfl

end Cert.ReferenceIdeal.Hand

end
-- ==== Proof.RefLayer3.lean ====
import proofs.«108604_j12824772346523_2_alg».proof.Proof.RefLayers
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxRecDepth 8192 in
theorem layer3_writes : Writes (layer3 (F := Ideal)) [
    main_v155, main_v156, main_v157, main_v158, main_v159, main_v160, main_v161, main_v162, main_c_25, main_v163,
    main_v164, main_c_26, main_v165, main_v166, main_v167, main_v168, main_v169, main_cst_27, main_v170, main_v171,
    main_v172, main_v173, main_v174, main_v175, main_v176, main_v177, main_cst_28, main_v178, main_v179, main_v180,
    main_v181, main_v182, main_v183, main_v184, main_v185, main_v186, main_v187, main_cst_29, main_v188, main_cst_30,
    main_v189, main_v190, main_c_31, main_call3_cst, main_call3_v0, main_call3_v1, main_call3_cst_0, main_call3_v2,
    main_call3_v3, main_call3_v4, main_call3_v5, main_call3_v6, main_call3_v7, main_call3_cst_1, main_call3_v8,
    main_call3_cst_2, main_call3_v9, main_call3_v10, main_call3_v11, main_call3_cst_3, main_call3_v12,
    main_call3_cst_4, main_call3_call0_v0, main_call3_call0_v1, main_v191, main_v192, main_v193, main_v194,
    main_cst_32, main_v195, main_v196, main_v197, main_v198, main_v199, main_v200, main_v201, main_v202, main_v203,
    main_v204, main_v205, main_v206, main_cst_33, main_v207, main_v208] := rfl

set_option maxRecDepth 8192 in
/-- Read at the layer's last buffer, the fold is the spec's residual layer of what the layer finds in its input buffers. -/
theorem layer3_out (U : Valuation τ sig (Elt Ideal)) :
    after (layer3 (F := Ideal)) U (Proc.devRef .tc main_v208)
      = resAt Cert.Gnn.mat2 Cert.Gnn.vec2 U (U (Proc.devRef .tc main_v154)) (U (Proc.devRef .tc main_v1)) (U (Proc.devRef .tc main_v3)) := by
  simp only [layer3, after_append]
  after_results_simp
  rfl

end Cert.ReferenceIdeal.Hand

end
-- ==== Proof.RefLayer4.lean ====
import proofs.«108604_j12824772346523_2_alg».proof.Proof.RefLayers
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxRecDepth 8192 in
theorem layer4_writes : Writes (layer4 (F := Ideal)) [
    main_v209, main_v210, main_v211, main_v212, main_v213, main_v214, main_v215, main_v216, main_c_34, main_v217,
    main_v218, main_c_35, main_v219, main_v220, main_v221, main_v222, main_v223, main_cst_36, main_v224, main_v225,
    main_v226, main_v227, main_v228, main_v229, main_v230, main_v231, main_cst_37, main_v232, main_v233, main_v234,
    main_v235, main_v236, main_v237, main_v238, main_v239, main_v240, main_v241, main_cst_38, main_v242, main_cst_39,
    main_v243, main_v244, main_c_40, main_call4_cst, main_call4_v0, main_call4_v1, main_call4_cst_0, main_call4_v2,
    main_call4_v3, main_call4_v4, main_call4_v5, main_call4_v6, main_call4_v7, main_call4_cst_1, main_call4_v8,
    main_call4_cst_2, main_call4_v9, main_call4_v10, main_call4_v11, main_call4_cst_3, main_call4_v12,
    main_call4_cst_4, main_call4_call0_v0, main_call4_call0_v1, main_v245, main_v246, main_v247, main_v248,
    main_cst_41, main_v249, main_v250, main_v251, main_v252, main_v253, main_v254, main_v255, main_v256, main_v257,
    main_v258, main_v259, main_v260, main_cst_42, main_v261, main_v262, main_v263] := rfl

set_option maxRecDepth 8192 in
/-- Read at the layer's last buffer, the fold is the spec's residual layer of what the layer finds, plus the block's input. -/
theorem layer4_out (U : Valuation τ sig (Elt Ideal)) :
    after (layer4 (F := Ideal)) U (Proc.devRef .tc main_v263)
      = addf (resAt Cert.Gnn.mat3 Cert.Gnn.vec3 U (U (Proc.devRef .tc main_v208)) (U (Proc.devRef .tc main_v1)) (U (Proc.devRef .tc main_v3))) (U (Proc.devRef .tc main_v154)) := by
  simp only [layer4, after_append]
  after_results_simp
  rfl

end Cert.ReferenceIdeal.Hand

end
-- ==== Proof.RefLayer5.lean ====
import proofs.«108604_j12824772346523_2_alg».proof.Proof.RefLayers
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxRecDepth 8192 in
theorem layer5_writes : Writes (layer5 (F := Ideal)) [
    main_v264, main_v265, main_v266, main_v267, main_v268, main_v269, main_v270, main_v271, main_c_43, main_v272,
    main_v273, main_c_44, main_v274, main_v275, main_v276, main_v277, main_v278, main_cst_45, main_v279, main_v280,
    main_v281, main_v282, main_v283, main_v284, main_v285, main_v286, main_cst_46, main_v287, main_v288, main_v289,
    main_v290, main_v291, main_v292, main_v293, main_v294, main_v295, main_v296, main_cst_47, main_v297, main_cst_48,
    main_v298, main_v299, main_c_49, main_call5_cst, main_call5_v0, main_call5_v1, main_call5_cst_0, main_call5_v2,
    main_call5_v3, main_call5_v4, main_call5_v5, main_call5_v6, main_call5_v7, main_call5_cst_1, main_call5_v8,
    main_call5_cst_2, main_call5_v9, main_call5_v10, main_call5_v11, main_call5_cst_3, main_call5_v12,
    main_call5_cst_4, main_call5_call0_v0, main_call5_call0_v1, main_v300, main_v301, main_v302, main_v303,
    main_cst_50, main_v304, main_v305, main_v306, main_v307, main_v308, main_v309, main_v310, main_v311, main_v312,
    main_v313, main_v314, main_v315, main_cst_51, main_v316, main_v317] := rfl

set_option maxRecDepth 8192 in
/-- Read at the layer's last buffer, the fold is the spec's residual layer of what the layer finds in its input buffers. -/
theorem layer5_out (U : Valuation τ sig (Elt Ideal)) :
    after (layer5 (F := Ideal)) U (Proc.devRef .tc main_v317)
      = resAt Cert.Gnn.mat4 Cert.Gnn.vec4 U (U (Proc.devRef .tc main_v263)) (U (Proc.devRef .tc main_v1)) (U (Proc.devRef .tc main_v3)) := by
  simp only [layer5, after_append]
  after_results_simp
  rfl

end Cert.ReferenceIdeal.Hand

end
-- ==== Proof.RefLayer6.lean ====
import proofs.«108604_j12824772346523_2_alg».proof.Proof.RefLayers
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxRecDepth 8192 in
theorem layer6_writes : Writes (layer6 (F := Ideal)) [
    main_v318, main_v319, main_v320, main_v321, main_v322, main_v323, main_v324, main_v325, main_c_52, main_v326,
    main_v327, main_c_53, main_v328, main_v329, main_v330, main_v331, main_v332, main_cst_54, main_v333, main_v334,
    main_v335, main_v336, main_v337, main_v338, main_v339, main_v340, main_cst_55, main_v341, main_v342, main_v343,
    main_v344, main_v345, main_v346, main_v347, main_v348, main_v349, main_v350, main_cst_56, main_v351, main_cst_57,
    main_v352, main_v353, main_c_58, main_call6_cst, main_call6_v0, main_call6_v1, main_call6_cst_0, main_call6_v2,
    main_call6_v3, main_call6_v4, main_call6_v5, main_call6_v6, main_call6_v7, main_call6_cst_1, main_call6_v8,
    main_call6_cst_2, main_call6_v9, main_call6_v10, main_call6_v11, main_call6_cst_3, main_call6_v12,
    main_call6_cst_4, main_call6_call0_v0, main_call6_call0_v1, main_v354, main_v355, main_v356, main_v357,
    main_cst_59, main_v358, main_v359, main_v360, main_v361, main_v362, main_v363, main_v364, main_v365, main_v366,
    main_v367, main_v368, main_v369, main_cst_60, main_v370, main_v371, main_v372] := rfl

set_option maxRecDepth 8192 in
/-- Read at the layer's last buffer, the fold is the spec's residual layer of what the layer finds, plus the block's input. -/
theorem layer6_out (U : Valuation τ sig (Elt Ideal)) :
    after (layer6 (F := Ideal)) U (Proc.devRef .tc main_v372)
      = addf (resAt Cert.Gnn.mat5 Cert.Gnn.vec5 U (U (Proc.devRef .tc main_v317)) (U (Proc.devRef .tc main_v1)) (U (Proc.devRef .tc main_v3))) (U (Proc.devRef .tc main_v263)) := by
  simp only [layer6, after_append]
  after_results_simp
  rfl

end Cert.ReferenceIdeal.Hand

end
-- ==== Proof.RefLayer7.lean ====
import proofs.«108604_j12824772346523_2_alg».proof.Proof.RefLayers
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxRecDepth 8192 in
theorem layer7_writes : Writes (layer7 (F := Ideal)) [
    main_c_61, main_v373, main_v374, main_c_62, main_v375, main_v376, main_v377, main_v378, main_v379, main_cst_63,
    main_v380, main_v381, main_v382, main_v383, main_v384, main_v385, main_v386, main_v387, main_cst_64, main_v388,
    main_v389, main_v390, main_v391, main_v392, main_v393] := rfl

set_option maxRecDepth 8192 in
/-- Read at the result buffer, the fold is the spec's last layer of what the layer finds in its input buffers. -/
theorem layer7_out (U : Valuation τ sig (Elt Ideal)) :
    after (layer7 (F := Ideal)) U (Proc.devRef .tc main_v393)
      = Cert.Gnn.layerTail (U (Proc.devRef .tc main_v372)) (U (Proc.devRef .tc main_v1)) (U (Proc.devRef .tc main_v3))
          (U (Proc.devRef .tc main_arg14)) (U (Proc.devRef .tc main_arg15)) (U (Proc.devRef .tc main_arg16)) (U (Proc.devRef .tc main_arg17)) := by
  simp only [layer7, after_append]
  after_results_simp
  rfl

end Cert.ReferenceIdeal.Hand

end
-- ==== Proof.RefValue.lean ====
import proofs.«108604_j12824772346523_2_alg».proof.Proof.RefRun
import proofs.«108604_j12824772346523_2_alg».proof.Proof.RefLayer0
import proofs.«108604_j12824772346523_2_alg».proof.Proof.RefLayer1
import proofs.«108604_j12824772346523_2_alg».proof.Proof.RefLayer2
import proofs.«108604_j12824772346523_2_alg».proof.Proof.RefLayer3
import proofs.«108604_j12824772346523_2_alg».proof.Proof.RefLayer4
import proofs.«108604_j12824772346523_2_alg».proof.Proof.RefLayer5
import proofs.«108604_j12824772346523_2_alg».proof.Proof.RefLayer6
import proofs.«108604_j12824772346523_2_alg».proof.Proof.RefLayer7
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

theorem after_ops (V : Valuation τ sig (Elt Ideal)) :
    after (ops (F := Ideal)) V
      = after layer7 (after layer6 (after layer5 (after layer4 (after layer3 (after layer2 (after layer1 (after layer0 V))))))) :=
  (after_append layer0 _ V).trans <| (after_append layer1 _ _).trans <| (after_append layer2 _ _).trans <|
    (after_append layer3 _ _).trans <| (after_append layer4 _ _).trans <| (after_append layer5 _ _).trans <|
      after_append layer6 _ _

/-- Each layer's reading, what it finds rewritten to what the run began with; the spec's network is these layers composed, by definition. -/
theorem ops_value (V : Valuation τ sig (Elt Ideal)) :
    Kept V (after (ops (F := Ideal)) V) ∧ after (ops (F := Ideal)) V (Proc.devRef .tc main_v393)
      = Cert.Gnn.network (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))
          (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  have k0 := layer0_kept V
  have k1 := k0.step layer1_writes (by decide)
  have k2 := k1.step layer2_writes (by decide)
  have k3 := k2.step layer3_writes (by decide)
  have k4 := k3.step layer4_writes (by decide)
  have k5 := k4.step layer5_writes (by decide)
  have k6 := k5.step layer6_writes (by decide)
  rw [after_ops]
  refine ⟨k6.step layer7_writes (by decide), ?_⟩
  rw [layer7_out, k6.src, k6.dst, k6.arg main_arg14 (by decide), k6.arg main_arg15 (by decide), k6.arg main_arg16 (by decide), k6.arg main_arg17 (by decide),
    layer6_out, k5.res, k5.src, k5.dst, after_keep layer5_writes _ (by decide : main_v263 ∉ _),
    layer5_out, k4.res, k4.src, k4.dst,
    layer4_out, k3.res, k3.src, k3.dst, after_keep layer3_writes _ (by decide : main_v154 ∉ _),
    layer3_out, k2.res, k2.src, k2.dst,
    layer2_out, k1.res, k1.src, k1.dst, after_keep layer1_writes _ (by decide : main_v45 ∉ _),
    layer1_out, k0.res, k0.src, k0.dst, layer0_out]
  rfl

theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v393)
          = Cert.Gnn.network (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
              (m ((c.tc : Thread nD τ).loc main_arg11))
              (m ((c.tc : Thread nD τ).loc main_arg12))
              (m ((c.tc : Thread nD τ).loc main_arg13))
              (m ((c.tc : Thread nD τ).loc main_arg14))
              (m ((c.tc : Thread nD τ).loc main_arg15))
              (m ((c.tc : Thread nD τ).loc main_arg16))
              (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun r h c => by
    obtain ⟨k, e⟩ := ops_value (launchContents m c)
    refine ⟨(h c _).trans e, ?_⟩
    repeat' apply And.intro
    all_goals exact (h c _).trans (k.arg _ (by decide))) (run_after m ρ)

end Cert.ReferenceIdeal.Hand

end
-- ==== Proof.LibFinite.lean ====
import Mathlib.Data.EReal.Inv
import Mathlib.Algebra.BigOperators.Group.Finset.Basic
import Idealize.ShloMosaic.PureOps.Ideal

namespace Cert.Lib

open Idealize.ShloMosaic

/-- x is the image of a real number. -/
def IsReal (x : EReal) : Prop := ∃ r : ℝ, x = (r : EReal)

/-- x is the image of a real r ≥ 0. -/
def IsNonnegReal (x : EReal) : Prop := ∃ r : ℝ, 0 ≤ r ∧ x = (r : EReal)

theorem IsReal.add {a b : EReal} (ha : IsReal a) (hb : IsReal b) : IsReal (a + b) := by
  obtain ⟨r, rfl⟩ := ha; obtain ⟨s, rfl⟩ := hb
  exact ⟨r + s, (EReal.coe_add r s).symm⟩

theorem IsReal.sub {a b : EReal} (ha : IsReal a) (hb : IsReal b) : IsReal (a - b) := by
  obtain ⟨r, rfl⟩ := ha; obtain ⟨s, rfl⟩ := hb
  exact ⟨r - s, (EReal.coe_sub r s).symm⟩

theorem IsReal.mul {a b : EReal} (ha : IsReal a) (hb : IsReal b) : IsReal (a * b) := by
  obtain ⟨r, rfl⟩ := ha; obtain ⟨s, rfl⟩ := hb
  exact ⟨r * s, (EReal.coe_mul r s).symm⟩

/-- ℝ → EReal is monotone, hence preserves max. -/
theorem IsReal.max {a b : EReal} (ha : IsReal a) (hb : IsReal b) : IsReal (max a b) := by
  obtain ⟨r, rfl⟩ := ha; obtain ⟨s, rfl⟩ := hb
  exact ⟨Max.max r s, EReal.coe_strictMono.monotone.map_max⟩

theorem IsReal.sum {ι : Type*} (s : Finset ι) (f : ι → EReal) (h : ∀ i ∈ s, IsReal (f i)) : IsReal (∑ i ∈ s, f i) :=
  Finset.sum_induction f IsReal (fun _ _ ha hb => ha.add hb) ⟨0, rfl⟩ h

/-- a / c = a · (1 / c) for real c ≠ 0. -/
theorem IsReal.div_coe {a : EReal} (ha : IsReal a) {c : ℝ} (hc : c ≠ 0) : IsReal (Ideal.div a (c : EReal)) := by
  rw [Ideal.div_coe hc]; exact ha.mul ⟨_, rfl⟩

/-- r + c > 0 for r ≥ 0 < c, and the reciprocal square root of a positive real is real. -/
theorem isReal_rsqrt_add {a : EReal} (ha : IsNonnegReal a) {c : ℝ} (hc : 0 < c) :
    IsReal (Ideal.rsqrt (a + (c : EReal))) := by
  obtain ⟨r, hr, rfl⟩ := ha
  have h := add_pos_of_nonneg_of_pos hr hc
  rw [← EReal.coe_add, Ideal.rsqrt_coe, if_neg (not_lt.mpr h.le), if_neg h.ne']
  exact ⟨_, rfl⟩

end Cert.Lib
-- ==== Proof.LibEReal.lean ====
import Mathlib.Algebra.BigOperators.Fin
import Mathlib.Logic.Equiv.Fin.Basic
import Mathlib.Data.EReal.Basic
import Mathlib.Tactic.Ring
import Mathlib.Tactic.LinearCombination
import Mathlib.Algebra.Order.BigOperators.Ring.Finset

namespace Cert.Lib

/-- Offset r of block t, among m blocks of n terms, is a position below m · n. -/
theorem block_lt {m n N t r : ℕ} (hN : m * n = N) (ht : t < m) (hr : r < n) : n * t + r < N :=
  calc n * t + r < n * t + n := by omega
    _ = n * (t + 1) := by ring
    _ ≤ n * m := Nat.mul_le_mul_left _ ht
    _ = N := by rw [Nat.mul_comm]; exact hN

/-- Fin (m · n) is Fin m × Fin n, and a sum over a product is an iterated sum. -/
theorem sum_fin_blocks {M : Type*} [AddCommMonoid M] {N : ℕ} (m n : ℕ) (hN : m * n = N) (f : Fin N → M) :
    ∑ i : Fin N, f i = ∑ t : Fin m, ∑ r : Fin n, f ⟨n * t.val + r.val, block_lt hN t.isLt r.isLt⟩ := by
  subst hN
  rw [← finProdFinEquiv.sum_comp, Fintype.sum_prod_type]
  refine Finset.sum_congr rfl fun t _ => Finset.sum_congr rfl fun r _ => ?_
  congr 1
  ext
  simp only [finProdFinEquiv_apply_val]
  ring

/-- Within a block only offset 0 is a multiple of n. -/
theorem sum_fin_stride {M : Type*} [AddCommMonoid M] {N : ℕ} (m n : ℕ) (hn : 0 < n) (hN : m * n = N) (g : Fin N → M) :
    ∑ k : Fin N, (if k.val % n = 0 then g k else 0) = ∑ t : Fin m, g ⟨n * t.val, block_lt hN t.isLt hn⟩ := by
  rw [sum_fin_blocks m n hN]
  refine Finset.sum_congr rfl fun t _ => ?_
  rw [Finset.sum_eq_single (⟨0, hn⟩ : Fin n)]
  · rw [if_pos (by simp)]
    congr 1
  · intro r _ hr
    rw [if_neg]
    show ¬ (n * t.val + r.val) % n = 0
    rw [Nat.mul_add_mod, Nat.mod_eq_of_lt r.isLt]
    intro h; exact hr (Fin.ext h)
  · intro h; exact absurd (Finset.mem_univ _) h

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_sq_dev {ι : Type*} (s : Finset ι) (f : ι → ℝ) (m : ℝ) :
    ∑ i ∈ s, (f i - m) * (f i - m)
      = (∑ i ∈ s, f i * f i) - 2 * m * (∑ i ∈ s, f i) + (s.card : ℝ) * (m * m) := by
  have h : ∀ i, (f i - m) * (f i - m) = f i * f i - 2 * m * f i + m * m := fun i => by ring
  simp only [h, Finset.sum_add_distrib, Finset.sum_sub_distrib, ← Finset.mul_sum, Finset.sum_const, nsmul_eq_mul]
  ring

/-- Expand the squares and use card · c = 1. -/
theorem mean_sq_dev {ι : Type*} (s : Finset ι) (f : ι → ℝ) (c : ℝ) (hc : (s.card : ℝ) * c = 1) :
    (∑ i ∈ s, (f i - (∑ i ∈ s, f i) * c) * (f i - (∑ i ∈ s, f i) * c)) * c
      = (∑ i ∈ s, f i * f i) * c - ((∑ i ∈ s, f i) * c) * ((∑ i ∈ s, f i) * c) := by
  rw [sum_sq_dev]
  linear_combination ((∑ i ∈ s, f i) * c) * ((∑ i ∈ s, f i) * c) * hc

/-- So the mean of the squares minus the squared mean is a mean of squares, and not negative. -/
theorem mean_sq_sub_nonneg {ι : Type*} (s : Finset ι) (f : ι → ℝ) (c : ℝ) (hc : (s.card : ℝ) * c = 1) (hc0 : 0 ≤ c) :
    0 ≤ (∑ i ∈ s, f i * f i) * c - ((∑ i ∈ s, f i) * c) * ((∑ i ∈ s, f i) * c) := by
  rw [← mean_sq_dev s f c hc]
  exact mul_nonneg (Finset.sum_nonneg fun i _ => mul_self_nonneg _) hc0

end Cert.Lib
-- ==== Proof.Algebra.lean ====
import proofs.«108604_j12824772346523_2_alg».proof.Proof.Spec
import proofs.«108604_j12824772346523_2_alg».proof.Proof.LibEReal
import Idealize.ShloMosaic.PureOps.Ideal.Laws
import Idealize.ShloMosaic.Lib.ValueIdx
import Idealize.ShloMosaic.Lib.IdealHost
import Idealize.ShloMosaic.Lib.Pipeline.Value

noncomputable section

namespace Cert.Gnn

open Idealize.ShloMosaic Idealize.ShloMosaic.ValueIdx Cert.ReferenceIdeal Cert.ReferenceIdeal.Gen

theorem zero_apply (i : S_.Idx) : zero i = 0 := Ideal.ofBits_zero_f32

/-- 0x47C35000 reads as 100000. -/
theorem nodes_apply (i : S_.Idx) : nodes i = ((100000 : ℝ) : EReal) := by
  show Ideal.ofBits .f32 0x47C35000#32 = _
  simp [Ideal.ofBits, Ideal.ieee, -EReal.coe_mul]; norm_num

theorem reduces_rows : S100000x128.Reduces [0] S128 := by decide
theorem reduces_tiles : S160x128.Reduces [0] S128 := by decide

theorem lift_rows (c : Fin 128) (k : Fin 100000) : reduces_rows.lift (ix1 c) k = ix2 k c := by
  funext a; fin_cases a <;> rfl
theorem lift_tiles (c : Fin 128) (k : Fin 160) : reduces_tiles.lift (ix1 c) k = ix2 k c := by
  funext a; fin_cases a <;> rfl

/-- With a zero start, the column sum at c is the plain sum down column c. -/
theorem colSum_apply (p : T S100000x128) (c : Fin 128) : colSum p (ix1 c) = ∑ i : Fin 100000, p (ix2 i c) := by
  unfold colSum
  rw [hostReduceAdd_apply, Ideal.hostReduceAdd_single _ reduces_rows, zero_apply, zero_add]
  exact Finset.sum_congr rfl fun k _ => congrArg p (lift_rows c k)

theorem tileSums_apply (p : T S100000x128) (k : Fin 160) (c : Fin 128) :
    tileSums p (ix2 k c) = if k.val % 8 = 0 then ∑ r : Fin 5000, p (ix2 (⟨5000 * (k.val / 8) + r.val, by
      have := k.isLt; have := r.isLt; omega⟩ : Fin 100000) c) else 0 := rfl

/-- Only rows 8t of the 160 are nonzero, row 8t is the sum of block t, and 20 blocks of 5000 rows cover 100000. -/
theorem sum_tileSums (p : T S100000x128) : Host.reduceAdd (F := Ideal) (tileSums p) zero reduces160 h_S_ = colSum p := by
  funext j
  obtain ⟨c, rfl⟩ : ∃ c : Fin 128, j = ix1 c := ⟨j 0, eq_ix1 j⟩
  rw [colSum_apply, hostReduceAdd_apply, Ideal.hostReduceAdd_single _ reduces_tiles, zero_apply, zero_add]
  have h1 : ∀ k : Fin 160, tileSums p (reduces_tiles.lift (ix1 c) k) = tileSums p (ix2 k c) :=
    fun k => congrArg (tileSums p) (lift_tiles c k)
  show ∑ k : Fin 160, tileSums p (reduces_tiles.lift (ix1 c) k) = _
  simp only [h1, tileSums_apply]
  rw [Lib.sum_fin_stride (N := 160) 20 8 (by norm_num) (by norm_num), Lib.sum_fin_blocks (N := 100000) 20 5000 (by norm_num)]
  refine Finset.sum_congr rfl fun t _ => Finset.sum_congr rfl fun r _ => congrArg p ?_
  congr 1
  apply Fin.ext
  show 5000 * (8 * t.val / 8) + r.val = 5000 * t.val + r.val
  omega

theorem meanTiled_eq (p : T S100000x128) : meanTiled (tileSums p) = colMean p := by
  unfold meanTiled colMean
  rw [sum_tileSums]

theorem colSum_coe (p : T S100000x128) (f : S100000x128.Idx → ℝ) (hf : ∀ i, p i = (f i : EReal)) (c : Fin 128) :
    colSum p (ix1 c) = ((∑ i : Fin 100000, f (ix2 i c) : ℝ) : EReal) := by
  rw [colSum_apply, Lib.coe_sum]
  exact Finset.sum_congr rfl fun i _ => hf _

/-- Dividing by 100000 is multiplying by 1 / 100000, and ℝ → EReal preserves sums and products. -/
theorem colMean_coe (p : T S100000x128) (f : S100000x128.Idx → ℝ) (hf : ∀ i, p i = (f i : EReal)) (c : Fin 128) :
    colMean p (ix1 c) = (((∑ i : Fin 100000, f (ix2 i c)) * (1 / 100000) : ℝ) : EReal) := by
  unfold colMean
  rw [hostDivf_apply, broadcastInDim_scalar_apply, nodes_apply, Ideal.div_coe (y := 100000) (by norm_num),
    colSum_coe p f hf, ← EReal.coe_mul]

theorem card_rows_mul : ((Finset.univ : Finset (Fin 100000)).card : ℝ) * (1 / 100000) = 1 := by
  rw [Finset.card_univ, Fintype.card_fin]; norm_num

/-- Over reals the mean of squares minus the squared mean is not negative, so max with 0 changes nothing. -/
theorem varOnePass_coe (p : T S100000x128) (f : S100000x128.Idx → ℝ) (hf : ∀ i, p i = (f i : EReal)) (c : Fin 128) :
    varOnePass (tileSums p) (tileSums (mulf p p)) (ix1 c)
      = (((∑ i : Fin 100000, f (ix2 i c) * f (ix2 i c)) * (1 / 100000)
          - ((∑ i : Fin 100000, f (ix2 i c)) * (1 / 100000)) * ((∑ i : Fin 100000, f (ix2 i c)) * (1 / 100000)) : ℝ) : EReal) := by
  have hsq : ∀ i, mulf p p i = ((f i * f i : ℝ) : EReal) := fun i => by rw [mulf_apply, hf, ← EReal.coe_mul]
  unfold varOnePass
  rw [meanTiled_eq, sum_tileSums, maximumf_apply, subf_apply, mulf_apply, hostDivf_apply, broadcastInDim_scalar_apply,
    broadcastInDim_scalar_apply, zero_apply, nodes_apply, Ideal.div_coe (y := 100000) (by norm_num),
    colSum_coe _ _ hsq, colMean_coe p f hf, ← EReal.coe_mul, ← EReal.coe_mul, ← EReal.coe_sub]
  exact max_eq_left (EReal.coe_nonneg.mpr
    (Lib.mean_sq_sub_nonneg Finset.univ (fun i : Fin 100000 => f (ix2 i c)) (1 / 100000) card_rows_mul (by norm_num)))

def dof : T S_ := subf nodes (sitofp .f32 (constantI S_ 32 0#32))

def meanRows (p : T S100000x128) : T S100000x128 :=
  broadcastInDim S100000x128 ![0, 1] bcast_S1x128_S100000x128_0_1
    (Host.divf (broadcastInDim S1x128 ![1] bcast_S128_S1x128_1 (colSum p)) (broadcastInDim S1x128 ![] bcast_S_S1x128 nodes))

theorem colVar_unfold (p : T S100000x128) :
    colVar p = select (broadcastInDim S128 ![] bcast_S_S128 (cmpf .ogt dof zero))
      (Host.divf (colSum (mulf (subf p (meanRows p)) (subf p (meanRows p)))) (broadcastInDim S128 ![] bcast_S_S128 dof))
      (broadcastInDim S128 ![] bcast_S_S128 (constant (F := Ideal) S_ .f32 0x7FC00000#32)) := rfl

theorem dof_apply (i : S_.Idx) : dof i = ((100000 : ℝ) : EReal) := by
  unfold dof
  rw [subf_apply, nodes_apply]
  show ((100000 : ℝ) : EReal) - (((0#32 : BitVec 32).toInt : ℝ) : EReal) = _
  simp

/-- 100000 − 0 > 0. -/
theorem dof_gt : cmpf .ogt dof zero ix0 = 1#1 := by
  rw [cmpf_apply, dof_apply, zero_apply]
  show Ideal.cmp .ogt _ _ = 1#1
  unfold Ideal.cmp
  rw [decide_eq_true (EReal.coe_pos.mpr (by norm_num))]
  rfl

theorem meanRows_apply (p : T S100000x128) (i : Fin 100000) (c : Fin 128) :
    meanRows p (ix2 i c) = Ideal.div (colSum p (ix1 c)) (nodes ix0) := by
  unfold meanRows
  rw [broadcastInDim_apply _ _ _ _ (ix2 (0 : Fin 1) c) (by intro a; fin_cases a <;> rfl), hostDivf_apply,
    broadcastInDim_apply _ _ _ _ (ix1 c) (by intro a; fin_cases a <;> rfl), broadcastInDim_scalar_apply]

/-- The guard holds and the divisor is 100000, so the variance is 1/100000 of the sum of squared deviations. -/
theorem colVar_coe (p : T S100000x128) (f : S100000x128.Idx → ℝ) (hf : ∀ i, p i = (f i : EReal)) (c : Fin 128) :
    colVar p (ix1 c)
      = (((∑ i : Fin 100000, (f (ix2 i c) - (∑ i : Fin 100000, f (ix2 i c)) * (1 / 100000))
            * (f (ix2 i c) - (∑ i : Fin 100000, f (ix2 i c)) * (1 / 100000))) * (1 / 100000) : ℝ) : EReal) := by
  have hdev : ∀ q : S100000x128.Idx, mulf (subf p (meanRows p)) (subf p (meanRows p)) q
      = (((f q - (∑ i : Fin 100000, f (ix2 i (q 1))) * (1 / 100000))
          * (f q - (∑ i : Fin 100000, f (ix2 i (q 1))) * (1 / 100000)) : ℝ) : EReal) := by
    intro q
    obtain ⟨i, c', rfl⟩ : ∃ (i : Fin 100000) (c' : Fin 128), q = ix2 i c' := ⟨q 0, q 1, eq_ix2 q⟩
    show mulf (subf p (meanRows p)) (subf p (meanRows p)) (ix2 i c')
      = (((f (ix2 i c') - (∑ i' : Fin 100000, f (ix2 i' c')) * (1 / 100000))
          * (f (ix2 i c') - (∑ i' : Fin 100000, f (ix2 i' c')) * (1 / 100000)) : ℝ) : EReal)
    have hq : meanRows p (ix2 i c') = (((∑ i' : Fin 100000, f (ix2 i' c')) * (1 / 100000) : ℝ) : EReal) := by
      rw [meanRows_apply, nodes_apply, Ideal.div_coe (y := 100000) (by norm_num), colSum_coe p f hf, ← EReal.coe_mul]
    rw [mulf_apply, subf_apply, hq, hf, ← EReal.coe_sub, ← EReal.coe_mul]
  rw [colVar_unfold, select_apply, broadcastInDim_scalar_apply, dof_gt, select_one, hostDivf_apply,
    broadcastInDim_scalar_apply, dof_apply, Ideal.div_coe (y := 100000) (by norm_num), colSum_coe _ _ hdev, ← EReal.coe_mul]

/-- Over reals, mean((f − μ)²) = mean(f²) − μ². -/
theorem varOnePass_eq (p : T S100000x128) (hp : Finite p) : varOnePass (tileSums p) (tileSums (mulf p p)) = colVar p := by
  choose f hf using hp
  funext j
  obtain ⟨c, rfl⟩ : ∃ c : Fin 128, j = ix1 c := ⟨j 0, eq_ix1 j⟩
  rw [varOnePass_coe p f hf c, colVar_coe p f hf c]
  exact congrArg _ (Lib.mean_sq_dev Finset.univ (fun i : Fin 100000 => f (ix2 i c)) (1 / 100000) card_rows_mul).symm

theorem normTiled_eq (p : T S100000x128) (g beta : T S128) (hp : Finite p) : normTiled p g beta = batchNormRelu p g beta := by
  unfold normTiled batchNormRelu
  rw [meanTiled_eq, varOnePass_eq p hp]

end Cert.Gnn

end
-- ==== Proof.FiniteNet.lean ====
import proofs.«108604_j12824772346523_2_alg».proof.Proof.LibFinite
import proofs.«108604_j12824772346523_2_alg».proof.Proof.Algebra

namespace Cert.Gnn

open Idealize.ShloMosaic Idealize.ShloMosaic.ValueIdx Cert.ReferenceIdeal Cert.ReferenceIdeal.Gen Cert.Lib

/-- 0x3727C5AC reads as 10995116 / 2^40. -/
theorem eps_apply (i : S_.Idx) : eps i = ((10995116 / 1099511627776 : ℝ) : EReal) := by
  show Ideal.ofBits .f32 0x3727C5AC#32 = _
  simp [Ideal.ofBits, Ideal.ieee, -EReal.coe_mul]; norm_num

theorem finite_zero : Finite zero := fun i => ⟨0, zero_apply i⟩

section
variable {S : Shape} {a b : T S}

theorem finite_addf (ha : Finite a) (hb : Finite b) : Finite (addf a b) := fun i => IsReal.add (ha i) (hb i)
theorem finite_subf (ha : Finite a) (hb : Finite b) : Finite (subf a b) := fun i => IsReal.sub (ha i) (hb i)
theorem finite_mulf (ha : Finite a) (hb : Finite b) : Finite (mulf a b) := fun i => IsReal.mul (ha i) (hb i)
theorem finite_maximumf (ha : Finite a) (hb : Finite b) : Finite (maximumf a b) := fun i => IsReal.max (ha i) (hb i)

/-- Dividing by a constant nonzero real multiplies by its reciprocal. -/
theorem finite_divf_const (c : ℝ) (hc : c ≠ 0) (ha : Finite a) (hb : ∀ i, b i = (c : EReal)) : Finite (Host.divf a b) :=
  fun i => by
    show IsReal (Ideal.div (a i) (b i))
    rw [hb i]; exact IsReal.div_coe (ha i) hc

end

/-- Each output entry is a finite sum of products of two real entries. -/
theorem finite_dotGeneral {Sl Sr So : Shape} {d : DotDims Sl Sr So} {prec : Option ContractPrecision} {l : T Sl} {r : T Sr}
    (hl : Finite l) (hr : Finite r) : Finite (Host.dotGeneral d prec l r) := fun j => by
  show IsReal (FloatOps.dotGeneral d prec .single l r j)
  rw [Ideal.dotGeneral_apply]
  exact IsReal.sum _ _ fun k _ => IsReal.mul (hl _) (hr _)

/-- Each output entry is a real initial entry plus finitely many real entries. -/
theorem finite_reduceAdd {S S' Su : Shape} {axes : List (Fin S.rank)} {v : T S} {init : T Su} {h : S.ReducesTo axes S'}
    {hu : 0 < Su.numel} (hv : Finite v) (hi : Finite init) : Finite (Host.reduceAdd v init h hu) :=
  fun _ => IsReal.add (hi _) (IsReal.sum _ _ fun i _ => hv i)

/-- Each output entry is a real entry plus finitely many real updates. -/
theorem finite_scatterAdd {S Si Su : Shape} {w : Nat} {d : ScatterDims S Si Su} {v : T S} {idx : IVec Si w} {upd : T Su}
    (hv : Finite v) (hu : Finite upd) : Finite (Host.scatterAdd d v idx upd) :=
  fun i => IsReal.add (hv i) (IsReal.sum _ _ fun j _ => hu j)

/-- Zero plus a finite sum of gathered rows; a broadcast or a gather only re-indexes, so its entries are entries of a real array. -/
theorem finite_aggregate {h : T S100000x128} {src dst : I32 S1600000} (hh : Finite h) : Finite (aggregate h src dst) :=
  finite_scatterAdd (fun _ => finite_zero _) fun _ => hh _

theorem finite_mlpHead {h a : T S100000x128} {w1 : T S128x256} {b1 : T S256} {w2 : T S256x128} {b2 : T S128}
    (hh : Finite h) (ha : Finite a) (hw1 : Finite w1) (hb1 : Finite b1) (hw2 : Finite w2) (hb2 : Finite b2) :
    Finite (mlpHead h a w1 b1 w2 b2) :=
  finite_addf (finite_dotGeneral (finite_maximumf (finite_addf (finite_dotGeneral (finite_addf hh ha) hw1) fun _ => hb1 _)
    fun _ => finite_zero _) hw2) fun _ => hb2 _

theorem finite_mlpRes {h a : T S100000x128} {w1 : T S128x128} {b1 : T S128} {w2 : T S128x128} {b2 : T S128}
    (hh : Finite h) (ha : Finite a) (hw1 : Finite w1) (hb1 : Finite b1) (hw2 : Finite w2) (hb2 : Finite b2) :
    Finite (mlpRes h a w1 b1 w2 b2) :=
  finite_addf (finite_dotGeneral (finite_maximumf (finite_addf (finite_dotGeneral (finite_addf hh ha) hw1) fun _ => hb1 _)
    fun _ => finite_zero _) hw2) fun _ => hb2 _

theorem finite_colMean {p : T S100000x128} (hp : Finite p) : Finite (colMean p) :=
  finite_divf_const 100000 (by norm_num) (finite_reduceAdd hp finite_zero) fun _ => nodes_apply _

/-- Over real entries the variance is 1/100000 of a sum of squares of reals. -/
theorem colVar_nonneg {p : T S100000x128} (hp : Finite p) (j : S128.Idx) : IsNonnegReal (colVar p j) := by
  choose f hf using hp
  obtain ⟨c, rfl⟩ : ∃ c : Fin 128, j = ix1 c := ⟨j 0, eq_ix1 j⟩
  refine ⟨_, ?_, colVar_coe p f hf c⟩
  exact mul_nonneg (Finset.sum_nonneg fun _ _ => mul_self_nonneg _) (by norm_num)

/-- A nonnegative real plus 10995116 / 2^40 is positive, so its reciprocal square root is real; the rest is sums and products. -/
theorem finite_normRelu {p : T S100000x128} {mean var g beta : T S128} (hp : Finite p) (hm : Finite mean)
    (hv : ∀ j, IsNonnegReal (var j)) (hg : Finite g) (hb : Finite beta) : Finite (normRelu p mean var g beta) := by
  have hr : Finite (Host.rsqrt (addf var (broadcastInDim S128 ![] bcast_S_S128 eps))) := fun j => by
    show IsReal (Ideal.rsqrt (var j + eps _))
    rw [eps_apply]
    exact isReal_rsqrt_add (hv j) (by norm_num)
  exact finite_maximumf (finite_addf (finite_mulf (finite_mulf (finite_subf hp fun _ => hm _) fun _ => hr _)
    fun _ => hg _) fun _ => hb _) fun _ => finite_zero _

theorem norm_step {p : T S100000x128} {g beta : T S128} (hp : Finite p) (hg : Finite g) (hb : Finite beta) :
    normTiled p g beta = batchNormRelu p g beta ∧ Finite (batchNormRelu p g beta) :=
  ⟨normTiled_eq p g beta hp, finite_normRelu hp (finite_colMean hp) (colVar_nonneg hp) hg hb⟩

/-- The aggregation and the perceptron keep entries real, so the normalised layers agree on their output. -/
theorem res_step (src dst : I32 S1600000) {rw1 rw2 : T S6x128x128} {rb1 rb2 rg rbeta : T S6x128} (h8 : Finite rw1)
    (h9 : Finite rb1) (h10 : Finite rw2) (h11 : Finite rb2) (h12 : Finite rg) (h13 : Finite rbeta)
    (m : T S6x128x128 → T S128x128) (v : T S6x128 → T S128) (hm : ∀ a, Finite a → Finite (m a))
    (hv : ∀ a, Finite a → Finite (v a)) {k k' : T S100000x128} (hk : k = k' ∧ Finite k') :
    normTiled (mlpRes k (aggregate k src dst) (m rw1) (v rb1) (m rw2) (v rb2)) (v rg) (v rbeta)
        = batchNormRelu (mlpRes k' (aggregate k' src dst) (m rw1) (v rb1) (m rw2) (v rb2)) (v rg) (v rbeta)
      ∧ Finite (batchNormRelu (mlpRes k' (aggregate k' src dst) (m rw1) (v rb1) (m rw2) (v rb2)) (v rg) (v rbeta)) := by
  obtain ⟨rfl, hk⟩ := hk
  exact norm_step (finite_mlpRes hk (finite_aggregate hk) (hm _ h8) (hv _ h9) (hm _ h10) (hv _ h11)) (hv _ h12) (hv _ h13)

/-- Adding back a block's input. -/
theorem add_step {a a' b b' : T S100000x128} (ha : a = a' ∧ Finite a') (hb : b = b' ∧ Finite b') :
    addf a b = addf a' b' ∧ Finite (addf a' b') :=
  ⟨by rw [ha.1, hb.1], finite_addf ha.2 hb.2⟩

/-- Layer by layer the two networks agree on real inputs and the layer's output is real again. -/
theorem networkTiled_eq (x : T S100000x128) (e : I32 S2x1600000) (hw1 : T S128x256) (hb1 : T S256) (hw2 : T S256x128)
    (hb2 hg hbeta : T S128) (rw1 : T S6x128x128) (rb1 : T S6x128) (rw2 : T S6x128x128) (rb2 rg rbeta : T S6x128)
    (tw1 : T S128x32) (tb1 : T S32) (tw2 : T S32x3) (tb2 : T S3)
    (hx : Finite x) (h2 : Finite hw1) (h3 : Finite hb1) (h4 : Finite hw2) (h5 : Finite hb2) (h6 : Finite hg)
    (h7 : Finite hbeta) (h8 : Finite rw1) (h9 : Finite rb1) (h10 : Finite rw2) (h11 : Finite rb2) (h12 : Finite rg)
    (h13 : Finite rbeta) (h14 : Finite tw1) (h15 : Finite tb1) (h16 : Finite tw2) (h17 : Finite tb2) :
    networkTiled x e hw1 hb1 hw2 hb2 hg hbeta rw1 rb1 rw2 rb2 rg rbeta tw1 tb1 tw2 tb2
      = network x e hw1 hb1 hw2 hb2 hg hbeta rw1 rb1 rw2 rb2 rg rbeta tw1 tb1 tw2 tb2 := by
  have R := res_step (edgeSrc e) (edgeDst e) h8 h9 h10 h11 h12 h13
  have s0 := norm_step (finite_mlpHead hx (finite_aggregate (src := edgeSrc e) (dst := edgeDst e) hx) h2 h3 h4 h5) h6 h7
  have s1 := R mat0 vec0 (fun _ h _ => h _) (fun _ h _ => h _) s0
  have s2 := add_step (R mat1 vec1 (fun _ h _ => h _) (fun _ h _ => h _) s1) s0
  have s3 := R mat2 vec2 (fun _ h _ => h _) (fun _ h _ => h _) s2
  have s4 := add_step (R mat3 vec3 (fun _ h _ => h _) (fun _ h _ => h _) s3) s2
  have s5 := R mat4 vec4 (fun _ h _ => h _) (fun _ h _ => h _) s4
  have s6 := add_step (R mat5 vec5 (fun _ h _ => h _) (fun _ h _ => h _) s5) s4
  exact congrArg (fun h => mlpTail h (aggregate h (edgeSrc e) (edgeDst e)) tw1 tb1 tw2 tb2) s6.1

end Cert.Gnn
-- ==== Proof.PreFinite.lean ====
import proofs.«108604_j12824772346523_2_alg».proof.Proof.Spec
import proofs.«108604_j12824772346523_2_alg».proof.Defs
import proofs.«108604_j12824772346523_2_alg».proof.Proof.Gen.Pre_finite_inputs
import Idealize.ShloMosaic.Lib.ReduceAll
import Idealize.ShloMosaic.Lib.ValueIdx

namespace Cert.Gnn

open Idealize.ShloMosaic Idealize.SL.Sem

/-- 0x7F800000 is +∞, and of the three kinds of extended real only a real x has max x (-x) < +∞. -/
theorem PreFinite.real_of_abs_lt_inf (x : EReal)
    (h : Ideal.cmp .olt (max x (-x)) (Ideal.ofBits .f32 0x7F800000#32) = 1#1) : ∃ r : ℝ, x = (r : EReal) := by
  rw [show Ideal.ofBits .f32 0x7F800000#32 = ⊤ by simp [Ideal.ofBits, Ideal.ieee]] at h
  unfold Ideal.cmp at h
  induction x using EReal.rec with
  | bot => simp at h
  | coe r => exact ⟨r, rfl⟩
  | top => simp at h

/-- An "and" over all entries is 1 only if every entry is 1; the result shape has a single index. -/
theorem PreFinite.finite_of_all {s : Shape} {axes : List (Fin s.rank)} {x : FVec Ideal s .f32}
    {bc : Cert.Pre_finite_inputs.S_.BroadcastsInDim s (![] : Fin 0 → Fin s.rank)}
    {hr : s.ReducesTo axes Cert.Pre_finite_inputs.S_} {hu : 0 < Cert.Pre_finite_inputs.S_.numel}
    (e : Host.reduce IntOp.andi
          (cmpf .olt (Host.absf x) (broadcastInDim s ![] bc (constant (F := Ideal) Cert.Pre_finite_inputs.S_ .f32 0x7F800000#32)))
          (constantI Cert.Pre_finite_inputs.S_ 1 1#1) hr hu ValueIdx.ix0 = 1#1) : Finite x := fun i =>
  haveI : Subsingleton Cert.Pre_finite_inputs.S_.Idx := ⟨fun a b => funext fun d => d.elim0⟩
  PreFinite.real_of_abs_lt_inf (x i) (Host.reduce_andi_all _ _ hr hu ValueIdx.ix0 e i)

/-- The precondition is the conjunction, over the seventeen float inputs, of the statement above. -/
theorem finite_of_pre_kernel (m : (ℓ : Loc Cert.KernelIdeal.nD Cert.KernelIdeal.τ Cert.KernelIdeal.sig) → Buf (Elt Ideal) ℓ)
    (h : Cert.Pre_KernelIdeal m) (c : Dev Cert.KernelIdeal.nD) :
    Finite (S := Cert.Pre_finite_inputs.S100000x128) (m ((c.tc : Thread Cert.KernelIdeal.nD Cert.KernelIdeal.τ).loc Cert.KernelIdeal.main_arg0))
      ∧ Finite (S := Cert.Pre_finite_inputs.S128x256) (m ((c.tc : Thread Cert.KernelIdeal.nD Cert.KernelIdeal.τ).loc Cert.KernelIdeal.main_arg2))
      ∧ Finite (S := Cert.Pre_finite_inputs.S256) (m ((c.tc : Thread Cert.KernelIdeal.nD Cert.KernelIdeal.τ).loc Cert.KernelIdeal.main_arg3))
      ∧ Finite (S := Cert.Pre_finite_inputs.S256x128) (m ((c.tc : Thread Cert.KernelIdeal.nD Cert.KernelIdeal.τ).loc Cert.KernelIdeal.main_arg4))
      ∧ Finite (S := Cert.Pre_finite_inputs.S128) (m ((c.tc : Thread Cert.KernelIdeal.nD Cert.KernelIdeal.τ).loc Cert.KernelIdeal.main_arg5))
      ∧ Finite (S := Cert.Pre_finite_inputs.S128) (m ((c.tc : Thread Cert.KernelIdeal.nD Cert.KernelIdeal.τ).loc Cert.KernelIdeal.main_arg6))
      ∧ Finite (S := Cert.Pre_finite_inputs.S128) (m ((c.tc : Thread Cert.KernelIdeal.nD Cert.KernelIdeal.τ).loc Cert.KernelIdeal.main_arg7))
      ∧ Finite (S := Cert.Pre_finite_inputs.S6x128x128) (m ((c.tc : Thread Cert.KernelIdeal.nD Cert.KernelIdeal.τ).loc Cert.KernelIdeal.main_arg8))
      ∧ Finite (S := Cert.Pre_finite_inputs.S6x128) (m ((c.tc : Thread Cert.KernelIdeal.nD Cert.KernelIdeal.τ).loc Cert.KernelIdeal.main_arg9))
      ∧ Finite (S := Cert.Pre_finite_inputs.S6x128x128) (m ((c.tc : Thread Cert.KernelIdeal.nD Cert.KernelIdeal.τ).loc Cert.KernelIdeal.main_arg10))
      ∧ Finite (S := Cert.Pre_finite_inputs.S6x128) (m ((c.tc : Thread Cert.KernelIdeal.nD Cert.KernelIdeal.τ).loc Cert.KernelIdeal.main_arg11))
      ∧ Finite (S := Cert.Pre_finite_inputs.S6x128) (m ((c.tc : Thread Cert.KernelIdeal.nD Cert.KernelIdeal.τ).loc Cert.KernelIdeal.main_arg12))
      ∧ Finite (S := Cert.Pre_finite_inputs.S6x128) (m ((c.tc : Thread Cert.KernelIdeal.nD Cert.KernelIdeal.τ).loc Cert.KernelIdeal.main_arg13))
      ∧ Finite (S := Cert.Pre_finite_inputs.S128x32) (m ((c.tc : Thread Cert.KernelIdeal.nD Cert.KernelIdeal.τ).loc Cert.KernelIdeal.main_arg14))
      ∧ Finite (S := Cert.Pre_finite_inputs.S32) (m ((c.tc : Thread Cert.KernelIdeal.nD Cert.KernelIdeal.τ).loc Cert.KernelIdeal.main_arg15))
      ∧ Finite (S := Cert.Pre_finite_inputs.S32x3) (m ((c.tc : Thread Cert.KernelIdeal.nD Cert.KernelIdeal.τ).loc Cert.KernelIdeal.main_arg16))
      ∧ Finite (S := Cert.Pre_finite_inputs.S3) (m ((c.tc : Thread Cert.KernelIdeal.nD Cert.KernelIdeal.τ).loc Cert.KernelIdeal.main_arg17)) := by
  have e := congrFun (h c) ValueIdx.ix0
  dsimp only [Cert.Pre_finite_inputs.fn, Cert.Pre_finite_inputs.fn_part1, Cert.Pre_finite_inputs.fn_part2, Cert.Pre_finite_inputs.fn_part3, Cert.Pre_finite_inputs.fn_part4, andi] at e
  simp only [IntOp.andi_eq_one, and_assoc] at e
  obtain ⟨e0, e2, e3, e4, e5, e6, e7, e8, e9, e10, e11, e12, e13, e14, e15, e16, e17⟩ := e
  exact ⟨PreFinite.finite_of_all e0, PreFinite.finite_of_all e2, PreFinite.finite_of_all e3, PreFinite.finite_of_all e4, PreFinite.finite_of_all e5, PreFinite.finite_of_all e6,
    PreFinite.finite_of_all e7, PreFinite.finite_of_all e8, PreFinite.finite_of_all e9, PreFinite.finite_of_all e10, PreFinite.finite_of_all e11, PreFinite.finite_of_all e12,
    PreFinite.finite_of_all e13, PreFinite.finite_of_all e14, PreFinite.finite_of_all e15, PreFinite.finite_of_all e16, PreFinite.finite_of_all e17⟩

end Cert.Gnn
-- ==== Proof.lean ====
import proofs.«108604_j12824772346523_2_alg».proof.Defs
import proofs.«108604_j12824772346523_2_alg».proof.Proof.Gen.Kernel
import proofs.«108604_j12824772346523_2_alg».proof.Proof.Gen.Kernel.Frame
import proofs.«108604_j12824772346523_2_alg».proof.Proof.Gen.KernelIdeal
import proofs.«108604_j12824772346523_2_alg».proof.Proof.Gen.KernelIdeal.Frame
import proofs.«108604_j12824772346523_2_alg».proof.Proof.Gen.ReferenceIdeal
import proofs.«108604_j12824772346523_2_alg».proof.Proof.Gen.Pre_finite_inputs
import proofs.«108604_j12824772346523_2_alg».proof.Proof.Spec
import proofs.«108604_j12824772346523_2_alg».proof.Proof.KerRun
import proofs.«108604_j12824772346523_2_alg».proof.Proof.KChain
import proofs.«108604_j12824772346523_2_alg».proof.Proof.RefValue
import proofs.«108604_j12824772346523_2_alg».proof.Proof.FiniteNet
import proofs.«108604_j12824772346523_2_alg».proof.Proof.PreFinite
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, with its value dropped. -/
theorem frame_reference : Cert.frame_ReferenceIdeal := fun m ρ _ =>
  (θ_run Cert.ReferenceIdeal.defs _ _).mono (fun _ h c => (h c).2) (Cert.ReferenceIdeal.Hand.run_value m ρ)

theorem preserves : Cert.preserves_Kernel_KernelIdeal := trivial

/-- Both runs end at the network of the launch arrays; on finite inputs the one-pass and two-pass variances agree. -/
theorem algebraic : Cert.algebraic_KernelIdeal_ReferenceIdeal := by
  intro m ρ m' ρ' hpre hagree
  refine ⟨fun c => Cert.Gnn.networkTiled (Cert.KernelIdeal.Chain.a0 m c) (Cert.KernelIdeal.Chain.a1 m c) (Cert.KernelIdeal.Chain.a2 m c) (Cert.KernelIdeal.Chain.a3 m c) (Cert.KernelIdeal.Chain.a4 m c) (Cert.KernelIdeal.Chain.a5 m c) (Cert.KernelIdeal.Chain.a6 m c) (Cert.KernelIdeal.Chain.a7 m c) (Cert.KernelIdeal.Chain.a8 m c) (Cert.KernelIdeal.Chain.a9 m c) (Cert.KernelIdeal.Chain.a10 m c) (Cert.KernelIdeal.Chain.a11 m c) (Cert.KernelIdeal.Chain.a12 m c) (Cert.KernelIdeal.Chain.a13 m c) (Cert.KernelIdeal.Chain.a14 m c) (Cert.KernelIdeal.Chain.a15 m c) (Cert.KernelIdeal.Chain.a16 m c) (Cert.KernelIdeal.Chain.a17 m c), ?_, ?_⟩
  · exact (θ_run Cert.KernelIdeal.defs _ _).mono
      (fun r h c => ⟨(h c).1.trans (Cert.KernelIdeal.Chain.result m ρ c), (h c).2⟩)
      (Cert.KernelIdeal.GenRun.run_named (F := Ideal) m ρ)
  · refine (θ_run Cert.ReferenceIdeal.defs _ _).mono (fun r h c => ⟨(h c).1.trans ?_, (h c).2⟩)
      (Cert.ReferenceIdeal.Hand.run_value m' ρ')
    obtain ⟨e0, e1, e2, e3, e4, e5, e6, e7, e8, e9, e10, e11, e12, e13, e14, e15, e16, e17⟩ := hagree c
    rw [e0, e1, e2, e3, e4, e5, e6, e7, e8, e9, e10, e11, e12, e13, e14, e15, e16, e17]
    obtain ⟨f0, f2, f3, f4, f5, f6, f7, f8, f9, f10, f11, f12, f13, f14, f15, f16, f17⟩ := Cert.Gnn.finite_of_pre_kernel m hpre c
    exact (Cert.Gnn.networkTiled_eq _ _ _ _ _ _ _ _ _ _ _ _ _ _ _ _ _ _ f0 f2 f3 f4 f5 f6 f7 f8 f9 f10 f11 f12 f13 f14 f15 f16 f17).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
